-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_12544" .f32 0x38A72F05#32 ((1 / 12544 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v434) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x150x160x160 : Shape := ⟨4, ![8, 150, 160, 160]⟩
abbrev S8x150x134 : Shape := ⟨3, ![8, 150, 134]⟩
abbrev S8x32x160x160 : Shape := ⟨4, ![8, 32, 160, 160]⟩
abbrev S8x32 : Shape := ⟨2, ![8, 32]⟩
abbrev S8x12544x2 : Shape := ⟨3, ![8, 12544, 2]⟩
abbrev S_ : Shape := ⟨0, ![]⟩

class Facts : Prop where
  bcast_S_S8x150x160x160 : S_.BroadcastsInDim S8x150x160x160 (![] : Fin 0 → Fin S8x150x160x160.rank)
  reducesTo_S8x150x160x160_S_d0_1_2_3 : S8x150x160x160.ReducesTo [0, 1, 2, 3] S_
  h_S_ : 0 < S_.numel
  bcast_S_S8x150x134 : S_.BroadcastsInDim S8x150x134 (![] : Fin 0 → Fin S8x150x134.rank)
  reducesTo_S8x150x134_S_d0_1_2 : S8x150x134.ReducesTo [0, 1, 2] S_
  bcast_S_S8x32x160x160 : S_.BroadcastsInDim S8x32x160x160 (![] : Fin 0 → Fin S8x32x160x160.rank)
  reducesTo_S8x32x160x160_S_d0_1_2_3 : S8x32x160x160.ReducesTo [0, 1, 2, 3] S_
  bcast_S_S8x12544x2 : S_.BroadcastsInDim S8x12544x2 (![] : Fin 0 → Fin S8x12544x2.rank)
  reducesTo_S8x12544x2_S_d0_1_2 : S8x12544x2.ReducesTo [0, 1, 2] S_
  bcast_S_S8x32 : S_.BroadcastsInDim S8x32 (![] : Fin 0 → Fin S8x32.rank)
  reducesTo_S8x32_S_d0_1 : S8x32.ReducesTo [0, 1] S_

variable [Facts]

def fn_part1 {F : FTy → Type} [FloatOps F] (main_arg3 : IVec S8x32 32) (main_v13 : IVec S_ 1) (main_v16 : IVec S8x12544x2 1) : IVec S_ 1 :=
  let main_c_5 : IVec S_ 1 := constantI S_ 1 1#1
  let main_v17 : IVec S_ 1 := (fun x v => Host.reduce IntOp.andi x v reducesTo_S8x12544x2_S_d0_1_2 h_S_) main_v16 main_c_5
  let main_v18 : IVec S_ 1 := andi main_v13 main_v17
  let main_c_6 : IVec S_ 32 := constantI S_ 32 0#32
  let main_v19 : IVec S8x32 32 := broadcastInDim S8x32 ![] bcast_S_S8x32 main_c_6
  let main_v20 : IVec S8x32 1 := cmpi .sge main_arg3 main_v19
  let main_c_7 : IVec S_ 32 := constantI S_ 32 134#32
  let main_v21 : IVec S8x32 32 := broadcastInDim S8x32 ![] bcast_S_S8x32 main_c_7
  let main_v22 : IVec S8x32 1 := cmpi .slt main_arg3 main_v21
  let main_v23 : IVec S8x32 1 := andi main_v20 main_v22
  let main_c_8 : IVec S_ 1 := constantI S_ 1 1#1
  let main_v24 : IVec S_ 1 := (fun x v => Host.reduce IntOp.andi x v reducesTo_S8x32_S_d0_1 h_S_) main_v23 main_c_8
  let main_v25 : IVec S_ 1 := andi main_v18 main_v24
  main_v25

def fn {F : FTy → Type} [FloatOps F] (main_arg0 : FVec F S8x150x160x160 .f32) (main_arg1 : FVec F S8x150x134 .f32) (main_arg2 : FVec F S8x32x160x160 .f32) (main_arg3 : IVec S8x32 32) (main_arg4 : FVec F S8x12544x2 .f32) : IVec S_ 1 :=
  let main_v0 : FVec F S8x150x160x160 .f32 := Host.absf main_arg0
  let main_cst : FVec F S_ .f32 := constant S_ .f32 0x7F800000#32
  let main_v1 : FVec F S8x150x160x160 .f32 := broadcastInDim S8x150x160x160 ![] bcast_S_S8x150x160x160 main_cst
  let main_v2 : IVec S8x150x160x160 1 := cmpf .olt main_v0 main_v1
  let main_c : IVec S_ 1 := constantI S_ 1 1#1
  let main_v3 : IVec S_ 1 := (fun x v => Host.reduce IntOp.andi x v reducesTo_S8x150x160x160_S_d0_1_2_3 h_S_) main_v2 main_c
  let main_v4 : FVec F S8x150x134 .f32 := Host.absf main_arg1
  let main_cst_0 : FVec F S_ .f32 := constant S_ .f32 0x7F800000#32
  let main_v5 : FVec F S8x150x134 .f32 := broadcastInDim S8x150x134 ![] bcast_S_S8x150x134 main_cst_0
  let main_v6 : IVec S8x150x134 1 := cmpf .olt main_v4 main_v5
  let main_c_1 : IVec S_ 1 := constantI S_ 1 1#1
  let main_v7 : IVec S_ 1 := (fun x v => Host.reduce IntOp.andi x v reducesTo_S8x150x134_S_d0_1_2 h_S_) main_v6 main_c_1
  let main_v8 : IVec S_ 1 := andi main_v3 main_v7
  let main_v9 : FVec F S8x32x160x160 .f32 := Host.absf main_arg2
  let main_cst_2 : FVec F S_ .f32 := constant S_ .f32 0x7F800000#32
  let main_v10 : FVec F S8x32x160x160 .f32 := broadcastInDim S8x32x160x160 ![] bcast_S_S8x32x160x160 main_cst_2
  let main_v11 : IVec S8x32x160x160 1 := cmpf .olt main_v9 main_v10
  let main_c_3 : IVec S_ 1 := constantI S_ 1 1#1
  let main_v12 : IVec S_ 1 := (fun x v => Host.reduce IntOp.andi x v reducesTo_S8x32x160x160_S_d0_1_2_3 h_S_) main_v11 main_c_3
  let main_v13 : IVec S_ 1 := andi main_v8 main_v12
  let main_v14 : FVec F S8x12544x2 .f32 := Host.absf main_arg4
  let main_cst_4 : FVec F S_ .f32 := constant S_ .f32 0x7F800000#32
  let main_v15 : FVec F S8x12544x2 .f32 := broadcastInDim S8x12544x2 ![] bcast_S_S8x12544x2 main_cst_4
  let main_v16 : IVec S8x12544x2 1 := cmpf .olt main_v14 main_v15
  fn_part1 (F := F) main_arg3 main_v13 main_v16
-- ==== Kernel.lean ====
abbrev S8x150x160x160 : Shape := ⟨4, ![8, 150, 160, 160]⟩
abbrev S8x150x134 : Shape := ⟨3, ![8, 150, 134]⟩
abbrev S8x32x160x160 : Shape := ⟨4, ![8, 32, 160, 160]⟩
abbrev S8x32 : Shape := ⟨2, ![8, 32]⟩
abbrev S8x12544x2 : Shape := ⟨3, ![8, 12544, 2]⟩
abbrev S8x182x160x160 : Shape := ⟨4, ![8, 182, 160, 160]⟩
abbrev S8x182x25600 : Shape := ⟨3, ![8, 182, 25600]⟩
abbrev S8x25600x182 : Shape := ⟨3, ![8, 25600, 182]⟩
abbrev S8x12544x1 : Shape := ⟨3, ![8, 12544, 1]⟩
abbrev S8x12544 : Shape := ⟨2, ![8, 12544]⟩
abbrev S_ : Shape := ⟨0, ![]⟩
abbrev S1 : Shape := ⟨1, ![1]⟩
abbrev S1x1x1 : Shape := ⟨3, ![1, 1, 1]⟩
abbrev S8x12544x182 : Shape := ⟨3, ![8, 12544, 182]⟩
abbrev S8x12544x150 : Shape := ⟨3, ![8, 12544, 150]⟩
abbrev S8x12544x32 : Shape := ⟨3, ![8, 12544, 32]⟩
abbrev S8x150 : Shape := ⟨2, ![8, 150]⟩
abbrev S8x150x1 : Shape := ⟨3, ![8, 150, 1]⟩
abbrev S8x32x1 : Shape := ⟨3, ![8, 32, 1]⟩
abbrev S8x150x32 : Shape := ⟨3, ![8, 150, 32]⟩
abbrev S1x1792x150 : Shape := ⟨3, ![1, 1792, 150]⟩
abbrev S1x1792x32 : Shape := ⟨3, ![1, 1792, 32]⟩
abbrev S1x150x32 : Shape := ⟨3, ![1, 150, 32]⟩
abbrev S150x32 : Shape := ⟨2, ![150, 32]⟩
abbrev S1x150 : Shape := ⟨2, ![1, 150]⟩
abbrev S1x32 : Shape := ⟨2, ![1, 32]⟩
abbrev S1792x150 : Shape := ⟨2, ![1792, 150]⟩
abbrev S1792x32 : Shape := ⟨2, ![1792, 32]⟩
abbrev S150 : Shape := ⟨1, ![150]⟩
abbrev S32 : Shape := ⟨1, ![32]⟩
abbrev S150x1 : Shape := ⟨2, ![150, 1]⟩

abbrev nBuf : Space → Nat
  | .hbm => 368
  | .vmem => 11
  | .smem => 0
  | _ => 0

abbrev hbmTy0_0 (i : Nat) : BufTy := match i % 128 with
  | 0 => ⟨S8x150x160x160, .f32⟩
  | 1 => ⟨S8x150x134, .f32⟩
  | 2 => ⟨S8x32x160x160, .f32⟩
  | 3 => ⟨S8x32, .i32⟩
  | 4 => ⟨S8x12544x2, .f32⟩
  | 5 => ⟨S8x182x160x160, .f32⟩
  | 6 => ⟨S8x182x25600, .f32⟩
  | 7 => ⟨S8x25600x182, .f32⟩
  | 8 => ⟨S8x12544x1, .f32⟩
  | 9 => ⟨S8x12544, .f32⟩
  | 10 => ⟨S_, .f32⟩
  | 11 => ⟨S8x12544, .f32⟩
  | 12 => ⟨S8x12544, .f32⟩
  | 13 => ⟨S_, .f32⟩
  | 14 => ⟨S8x12544, .f32⟩
  | 15 => ⟨S8x12544, .f32⟩
  | 16 => ⟨S8x12544x1, .f32⟩
  | 17 => ⟨S8x12544, .f32⟩
  | 18 => ⟨S_, .f32⟩
  | 19 => ⟨S8x12544, .f32⟩
  | 20 => ⟨S8x12544, .f32⟩
  | 21 => ⟨S_, .f32⟩
  | 22 => ⟨S8x12544, .f32⟩
  | 23 => ⟨S8x12544, .f32⟩
  | 24 => ⟨S8x12544, .f32⟩
  | 25 => ⟨S8x12544, .f32⟩
  | 26 => ⟨S8x12544, .f32⟩
  | 27 => ⟨S8x12544x1, .f32⟩
  | 28 => ⟨S8x12544, .f32⟩
  | 29 => ⟨S8x12544x1, .f32⟩
  | 30 => ⟨S8x12544, .i32⟩
  | 31 => ⟨S8x12544, .i32⟩
  | 32 => ⟨S_, .i32⟩
  | 33 => ⟨S8x12544, .i32⟩
  | 34 => ⟨S8x12544, .i1⟩
  | 35 => ⟨S_, .i32⟩
  | 36 => ⟨S8x12544, .i32⟩
  | 37 => ⟨S8x12544, .i1⟩
  | 38 => ⟨S8x12544, .i1⟩
  | 39 => ⟨S_, .i32⟩
  | 40 => ⟨S8x12544, .i32⟩
  | 41 => ⟨S8x12544, .i1⟩
  | 42 => ⟨S8x12544, .i1⟩
  | 43 => ⟨S_, .i32⟩
  | 44 => ⟨S8x12544, .i32⟩
  | 45 => ⟨S8x12544, .i1⟩
  | 46 => ⟨S8x12544, .i1⟩
  | 47 => ⟨S_, .i32⟩
  | 48 => ⟨S_, .i32⟩
  | 49 => ⟨S_, .i32⟩
  | 50 => ⟨S8x12544, .i32⟩
  | 51 => ⟨S8x12544, .i32⟩
  | 52 => ⟨S_, .i32⟩
  | 53 => ⟨S8x12544, .i32⟩
  | 54 => ⟨S8x12544, .i32⟩
  | 55 => ⟨S_, .i32⟩
  | 56 => ⟨S_, .i32⟩
  | 57 => ⟨S_, .i32⟩
  | 58 => ⟨S8x12544, .i32⟩
  | 59 => ⟨S8x12544, .i32⟩
  | 60 => ⟨S_, .i32⟩
  | 61 => ⟨S8x12544, .i32⟩
  | 62 => ⟨S8x12544, .i32⟩
  | 63 => ⟨S_, .i32⟩
  | 64 => ⟨S8x12544, .i32⟩
  | 65 => ⟨S8x12544, .i32⟩
  | 66 => ⟨S8x12544, .i32⟩
  | 67 => ⟨S_, .i32⟩
  | 68 => ⟨S8x12544, .i32⟩
  | 69 => ⟨S8x12544, .i1⟩
  | 70 => ⟨S_, .i32⟩
  | 71 => ⟨S8x12544, .i32⟩
  | 72 => ⟨S8x12544, .i32⟩
  | 73 => ⟨S8x12544, .i32⟩
  | 74 => ⟨S8x12544x1, .i32⟩
  | 75 => ⟨S1, .i32⟩
  | 76 => ⟨S_, .i32⟩
  | 77 => ⟨S8x12544x1, .i32⟩
  | 78 => ⟨S8x12544x1, .i1⟩
  | 79 => ⟨S1x1x1, .i32⟩
  | 80 => ⟨S8x12544x1, .i32⟩
  | 81 => ⟨S8x12544x1, .i1⟩
  | 82 => ⟨S8x12544x1, .i1⟩
  | 83 => ⟨S_, .i1⟩
  | 84 => ⟨S8x12544, .i1⟩
  | 85 => ⟨S8x12544x182, .f32⟩
  | 86 => ⟨S8x12544x182, .i1⟩
  | 87 => ⟨S_, .f32⟩
  | 88 => ⟨S8x12544x182, .f32⟩
  | 89 => ⟨S8x12544x182, .f32⟩
  | 90 => ⟨S8x12544x1, .i1⟩
  | 91 => ⟨S8x12544x1, .f32⟩
  | 92 => ⟨S8x12544x182, .f32⟩
  | 93 => ⟨S8x12544x182, .f32⟩
  | 94 => ⟨S_, .i32⟩
  | 95 => ⟨S8x12544, .i32⟩
  | 96 => ⟨S8x12544, .i32⟩
  | 97 => ⟨S_, .i32⟩
  | 98 => ⟨S8x12544, .i32⟩
  | 99 => ⟨S8x12544, .i1⟩
  | 100 => ⟨S_, .i32⟩
  | 101 => ⟨S8x12544, .i32⟩
  | 102 => ⟨S8x12544, .i1⟩
  | 103 => ⟨S8x12544, .i1⟩
  | 104 => ⟨S_, .i32⟩
  | 105 => ⟨S8x12544, .i32⟩
  | 106 => ⟨S8x12544, .i1⟩
  | 107 => ⟨S8x12544, .i1⟩
  | 108 => ⟨S_, .i32⟩
  | 109 => ⟨S8x12544, .i32⟩
  | 110 => ⟨S8x12544, .i1⟩
  | 111 => ⟨S8x12544, .i1⟩
  | 112 => ⟨S_, .i32⟩
  | 113 => ⟨S_, .i32⟩
  | 114 => ⟨S_, .i32⟩
  | 115 => ⟨S8x12544, .i32⟩
  | 116 => ⟨S8x12544, .i32⟩
  | 117 => ⟨S_, .i32⟩
  | 118 => ⟨S8x12544, .i32⟩
  | 119 => ⟨S8x12544, .i32⟩
  | 120 => ⟨S_, .i32⟩
  | 121 => ⟨S_, .i32⟩
  | 122 => ⟨S_, .i32⟩
  | 123 => ⟨S8x12544, .i32⟩
  | 124 => ⟨S8x12544, .i32⟩
  | 125 => ⟨S_, .i32⟩
  | 126 => ⟨S8x12544, .i32⟩
  | 127 => ⟨S8x12544, .i32⟩
  | _ => ⟨S8x150x160x160, .f32⟩

abbrev hbmTy0_1 (i : Nat) : BufTy := match i % 128 with
  | 0 => ⟨S_, .i32⟩
  | 1 => ⟨S8x12544, .i32⟩
  | 2 => ⟨S8x12544, .i32⟩
  | 3 => ⟨S8x12544, .i32⟩
  | 4 => ⟨S_, .i32⟩
  | 5 => ⟨S8x12544, .i32⟩
  | 6 => ⟨S8x12544, .i1⟩
  | 7 => ⟨S_, .i32⟩
  | 8 => ⟨S8x12544, .i32⟩
  | 9 => ⟨S8x12544, .i32⟩
  | 10 => ⟨S8x12544, .i32⟩
  | 11 => ⟨S8x12544x1, .i32⟩
  | 12 => ⟨S1, .i32⟩
  | 13 => ⟨S_, .i32⟩
  | 14 => ⟨S8x12544x1, .i32⟩
  | 15 => ⟨S8x12544x1, .i1⟩
  | 16 => ⟨S1x1x1, .i32⟩
  | 17 => ⟨S8x12544x1, .i32⟩
  | 18 => ⟨S8x12544x1, .i1⟩
  | 19 => ⟨S8x12544x1, .i1⟩
  | 20 => ⟨S_, .i1⟩
  | 21 => ⟨S8x12544, .i1⟩
  | 22 => ⟨S8x12544x182, .f32⟩
  | 23 => ⟨S8x12544x182, .i1⟩
  | 24 => ⟨S_, .f32⟩
  | 25 => ⟨S8x12544x182, .f32⟩
  | 26 => ⟨S8x12544x182, .f32⟩
  | 27 => ⟨S8x12544x1, .i1⟩
  | 28 => ⟨S8x12544x1, .f32⟩
  | 29 => ⟨S8x12544x182, .f32⟩
  | 30 => ⟨S8x12544x182, .f32⟩
  | 31 => ⟨S_, .i32⟩
  | 32 => ⟨S8x12544, .i32⟩
  | 33 => ⟨S8x12544, .i32⟩
  | 34 => ⟨S_, .i32⟩
  | 35 => ⟨S8x12544, .i32⟩
  | 36 => ⟨S8x12544, .i1⟩
  | 37 => ⟨S_, .i32⟩
  | 38 => ⟨S8x12544, .i32⟩
  | 39 => ⟨S8x12544, .i1⟩
  | 40 => ⟨S8x12544, .i1⟩
  | 41 => ⟨S_, .i32⟩
  | 42 => ⟨S8x12544, .i32⟩
  | 43 => ⟨S8x12544, .i1⟩
  | 44 => ⟨S8x12544, .i1⟩
  | 45 => ⟨S_, .i32⟩
  | 46 => ⟨S8x12544, .i32⟩
  | 47 => ⟨S8x12544, .i1⟩
  | 48 => ⟨S8x12544, .i1⟩
  | 49 => ⟨S_, .i32⟩
  | 50 => ⟨S_, .i32⟩
  | 51 => ⟨S_, .i32⟩
  | 52 => ⟨S8x12544, .i32⟩
  | 53 => ⟨S8x12544, .i32⟩
  | 54 => ⟨S_, .i32⟩
  | 55 => ⟨S8x12544, .i32⟩
  | 56 => ⟨S8x12544, .i32⟩
  | 57 => ⟨S_, .i32⟩
  | 58 => ⟨S_, .i32⟩
  | 59 => ⟨S_, .i32⟩
  | 60 => ⟨S8x12544, .i32⟩
  | 61 => ⟨S8x12544, .i32⟩
  | 62 => ⟨S_, .i32⟩
  | 63 => ⟨S8x12544, .i32⟩
  | 64 => ⟨S8x12544, .i32⟩
  | 65 => ⟨S_, .i32⟩
  | 66 => ⟨S8x12544, .i32⟩
  | 67 => ⟨S8x12544, .i32⟩
  | 68 => ⟨S8x12544, .i32⟩
  | 69 => ⟨S_, .i32⟩
  | 70 => ⟨S8x12544, .i32⟩
  | 71 => ⟨S8x12544, .i1⟩
  | 72 => ⟨S_, .i32⟩
  | 73 => ⟨S8x12544, .i32⟩
  | 74 => ⟨S8x12544, .i32⟩
  | 75 => ⟨S8x12544, .i32⟩
  | 76 => ⟨S8x12544x1, .i32⟩
  | 77 => ⟨S1, .i32⟩
  | 78 => ⟨S_, .i32⟩
  | 79 => ⟨S8x12544x1, .i32⟩
  | 80 => ⟨S8x12544x1, .i1⟩
  | 81 => ⟨S1x1x1, .i32⟩
  | 82 => ⟨S8x12544x1, .i32⟩
  | 83 => ⟨S8x12544x1, .i1⟩
  | 84 => ⟨S8x12544x1, .i1⟩
  | 85 => ⟨S_, .i1⟩
  | 86 => ⟨S8x12544, .i1⟩
  | 87 => ⟨S8x12544x182, .f32⟩
  | 88 => ⟨S8x12544x182, .i1⟩
  | 89 => ⟨S_, .f32⟩
  | 90 => ⟨S8x12544x182, .f32⟩
  | 91 => ⟨S8x12544x182, .f32⟩
  | 92 => ⟨S8x12544x1, .i1⟩
  | 93 => ⟨S8x12544x1, .f32⟩
  | 94 => ⟨S8x12544x182, .f32⟩
  | 95 => ⟨S8x12544x182, .f32⟩
  | 96 => ⟨S_, .i32⟩
  | 97 => ⟨S8x12544, .i32⟩
  | 98 => ⟨S8x12544, .i32⟩
  | 99 => ⟨S_, .i32⟩
  | 100 => ⟨S8x12544, .i32⟩
  | 101 => ⟨S8x12544, .i32⟩
  | 102 => ⟨S_, .i32⟩
  | 103 => ⟨S8x12544, .i32⟩
  | 104 => ⟨S8x12544, .i1⟩
  | 105 => ⟨S_, .i32⟩
  | 106 => ⟨S8x12544, .i32⟩
  | 107 => ⟨S8x12544, .i1⟩
  | 108 => ⟨S8x12544, .i1⟩
  | 109 => ⟨S_, .i32⟩
  | 110 => ⟨S8x12544, .i32⟩
  | 111 => ⟨S8x12544, .i1⟩
  | 112 => ⟨S8x12544, .i1⟩
  | 113 => ⟨S_, .i32⟩
  | 114 => ⟨S8x12544, .i32⟩
  | 115 => ⟨S8x12544, .i1⟩
  | 116 => ⟨S8x12544, .i1⟩
  | 117 => ⟨S_, .i32⟩
  | 118 => ⟨S_, .i32⟩
  | 119 => ⟨S_, .i32⟩
  | 120 => ⟨S8x12544, .i32⟩
  | 121 => ⟨S8x12544, .i32⟩
  | 122 => ⟨S_, .i32⟩
  | 123 => ⟨S8x12544, .i32⟩
  | 124 => ⟨S8x12544, .i32⟩
  | 125 => ⟨S_, .i32⟩
  | 126 => ⟨S_, .i32⟩
  | 127 => ⟨S_, .i32⟩
  | _ => ⟨S8x150x160x160, .f32⟩

abbrev hbmTy0_2 (i : Nat) : BufTy := match i % 128 with
  | 0 => ⟨S8x12544, .i32⟩
  | 1 => ⟨S8x12544, .i32⟩
  | 2 => ⟨S_, .i32⟩
  | 3 => ⟨S8x12544, .i32⟩
  | 4 => ⟨S8x12544, .i32⟩
  | 5 => ⟨S_, .i32⟩
  | 6 => ⟨S8x12544, .i32⟩
  | 7 => ⟨S8x12544, .i32⟩
  | 8 => ⟨S8x12544, .i32⟩
  | 9 => ⟨S_, .i32⟩
  | 10 => ⟨S8x12544, .i32⟩
  | 11 => ⟨S8x12544, .i1⟩
  | 12 => ⟨S_, .i32⟩
  | 13 => ⟨S8x12544, .i32⟩
  | 14 => ⟨S8x12544, .i32⟩
  | 15 => ⟨S8x12544, .i32⟩
  | 16 => ⟨S8x12544x1, .i32⟩
  | 17 => ⟨S1, .i32⟩
  | 18 => ⟨S_, .i32⟩
  | 19 => ⟨S8x12544x1, .i32⟩
  | 20 => ⟨S8x12544x1, .i1⟩
  | 21 => ⟨S1x1x1, .i32⟩
  | 22 => ⟨S8x12544x1, .i32⟩
  | 23 => ⟨S8x12544x1, .i1⟩
  | 24 => ⟨S8x12544x1, .i1⟩
  | 25 => ⟨S_, .i1⟩
  | 26 => ⟨S8x12544, .i1⟩
  | 27 => ⟨S8x12544x182, .f32⟩
  | 28 => ⟨S8x12544x182, .i1⟩
  | 29 => ⟨S_, .f32⟩
  | 30 => ⟨S8x12544x182, .f32⟩
  | 31 => ⟨S8x12544x182, .f32⟩
  | 32 => ⟨S8x12544x1, .i1⟩
  | 33 => ⟨S8x12544x1, .f32⟩
  | 34 => ⟨S8x12544x182, .f32⟩
  | 35 => ⟨S8x12544x182, .f32⟩
  | 36 => ⟨S_, .f32⟩
  | 37 => ⟨S8x12544x1, .f32⟩
  | 38 => ⟨S8x12544x1, .f32⟩
  | 39 => ⟨S8x12544x182, .f32⟩
  | 40 => ⟨S8x12544x182, .f32⟩
  | 41 => ⟨S_, .f32⟩
  | 42 => ⟨S8x12544x1, .f32⟩
  | 43 => ⟨S8x12544x1, .f32⟩
  | 44 => ⟨S8x12544x182, .f32⟩
  | 45 => ⟨S8x12544x182, .f32⟩
  | 46 => ⟨S8x12544x182, .f32⟩
  | 47 => ⟨S8x12544x182, .f32⟩
  | 48 => ⟨S_, .f32⟩
  | 49 => ⟨S8x12544x1, .f32⟩
  | 50 => ⟨S8x12544x1, .f32⟩
  | 51 => ⟨S8x12544x182, .f32⟩
  | 52 => ⟨S8x12544x182, .f32⟩
  | 53 => ⟨S8x12544x182, .f32⟩
  | 54 => ⟨S_, .f32⟩
  | 55 => ⟨S8x12544x1, .f32⟩
  | 56 => ⟨S8x12544x1, .f32⟩
  | 57 => ⟨S8x12544x182, .f32⟩
  | 58 => ⟨S8x12544x182, .f32⟩
  | 59 => ⟨S8x12544x182, .f32⟩
  | 60 => ⟨S8x12544x182, .f32⟩
  | 61 => ⟨S8x12544x182, .f32⟩
  | 62 => ⟨S8x12544x182, .f32⟩
  | 63 => ⟨S8x12544x182, .f32⟩
  | 64 => ⟨S8x12544x182, .f32⟩
  | 65 => ⟨S8x12544x182, .f32⟩
  | 66 => ⟨S8x12544x182, .f32⟩
  | 67 => ⟨S8x12544x150, .f32⟩
  | 68 => ⟨S8x12544x32, .f32⟩
  | 69 => ⟨S_, .f32⟩
  | 70 => ⟨S8x150, .f32⟩
  | 71 => ⟨S_, .f32⟩
  | 72 => ⟨S8x150, .f32⟩
  | 73 => ⟨S8x150, .f32⟩
  | 74 => ⟨S8x150x1, .f32⟩
  | 75 => ⟨S8x150x134, .f32⟩
  | 76 => ⟨S8x150x134, .f32⟩
  | 77 => ⟨S8x150x134, .f32⟩
  | 78 => ⟨S_, .f32⟩
  | 79 => ⟨S8x150, .f32⟩
  | 80 => ⟨S8x150x1, .f32⟩
  | 81 => ⟨S8x150x134, .f32⟩
  | 82 => ⟨S8x150x134, .f32⟩
  | 83 => ⟨S_, .i32⟩
  | 84 => ⟨S8x32, .i32⟩
  | 85 => ⟨S8x32, .i1⟩
  | 86 => ⟨S_, .i32⟩
  | 87 => ⟨S8x32, .i32⟩
  | 88 => ⟨S8x32, .i32⟩
  | 89 => ⟨S8x32, .i32⟩
  | 90 => ⟨S8x32x1, .i32⟩
  | 91 => ⟨S1, .i32⟩
  | 92 => ⟨S_, .i32⟩
  | 93 => ⟨S8x32x1, .i32⟩
  | 94 => ⟨S8x32x1, .i1⟩
  | 95 => ⟨S1x1x1, .i32⟩
  | 96 => ⟨S8x32x1, .i32⟩
  | 97 => ⟨S8x32x1, .i1⟩
  | 98 => ⟨S8x32x1, .i1⟩
  | 99 => ⟨S_, .i1⟩
  | 100 => ⟨S8x32, .i1⟩
  | 101 => ⟨S8x150x32, .f32⟩
  | 102 => ⟨S8x150x32, .i1⟩
  | 103 => ⟨S_, .f32⟩
  | 104 => ⟨S8x150x32, .f32⟩
  | 105 => ⟨S8x150x32, .f32⟩
  | 106 => ⟨S8x150x32, .f32⟩
  | 107 => ⟨S8x150x32, .f32⟩
  | 108 => ⟨S_, .f32⟩
  | 109 => ⟨S8x150x32, .f32⟩
  | 110 => ⟨S8x150x32, .f32⟩
  | 111 => ⟨S8x150x32, .f32⟩
  | _ => ⟨S8x150x160x160, .f32⟩

abbrev hbmTy (i : Nat) : BufTy := match i / 128 with
  | 0 => hbmTy0_0 i
  | 1 => hbmTy0_1 i
  | 2 => hbmTy0_2 i
  | _ => ⟨S8x150x160x160, .f32⟩

abbrev bufTy : (tb : Table) → Fin (tcTables nBuf tb) → BufTy
  | .hbm, ⟨i, _⟩ => hbmTy i
  | .local _ .vmem, ⟨0, _⟩ => ⟨S1x1792x150, .f32⟩
  | .local _ .vmem, ⟨1, _⟩ => ⟨S1x1792x150, .f32⟩
  | .local _ .vmem, ⟨2, _⟩ => ⟨S1x1792x32, .f32⟩
  | .local _ .vmem, ⟨3, _⟩ => ⟨S1x1792x32, .f32⟩
  | .local _ .vmem, ⟨4, _⟩ => ⟨S1x150x32, .f32⟩
  | .local _ .vmem, ⟨5, _⟩ => ⟨S1x150x32, .f32⟩
  | .local _ .vmem, ⟨6, _⟩ => ⟨S150x32, .f32⟩
  | .local _ .vmem, ⟨7, _⟩ => ⟨S150x32, .f32⟩
  | .local _ .vmem, ⟨8, _⟩ => ⟨S1x150, .f32⟩
  | .local _ .vmem, ⟨9, _⟩ => ⟨S1x150, .f32⟩
  | .local _ .vmem, ⟨10, _⟩ => ⟨S1x32, .f32⟩
  | _, _ => ⟨S8x150x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_c_7 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v34 : Ref sig .tc := ⟨.hbm, 54, rfl⟩
abbrev main_c_8 : Ref sig .tc := ⟨.hbm, 55, rfl⟩
abbrev main_c_9 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v35 : Ref sig .tc := ⟨.hbm, 62, rfl⟩
abbrev main_c_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_11 : Ref sig .tc := ⟨.hbm, 94, rfl⟩
abbrev main_v44 : Ref sig .tc := ⟨.hbm, 95, rfl⟩
abbrev main_v45 : Ref sig .tc := ⟨.hbm, 96, rfl⟩
abbrev main_c_12 : Ref sig .tc := ⟨.hbm, 97, rfl⟩
abbrev main_v46 : Ref sig .tc := ⟨.hbm, 98, rfl⟩
abbrev main_v47 : Ref sig .tc := ⟨.hbm, 99, rfl⟩
abbrev main_c_13 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_c_14 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_15 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_c_16 : Ref sig .tc := ⟨.hbm, 112, rfl⟩
abbrev main_c_17 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v57 : Ref sig .tc := ⟨.hbm, 119, rfl⟩
abbrev main_c_18 : Ref sig .tc := ⟨.hbm, 120, rfl⟩
abbrev main_c_19 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v58 : Ref sig .tc := ⟨.hbm, 127, rfl⟩
abbrev main_c_20 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_call5_cst : Ref sig .tc := ⟨.hbm, 152, rfl⟩
abbrev main_call5_v15 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_c_21 : Ref sig .tc := ⟨.hbm, 159, rfl⟩
abbrev main_v67 : Ref sig .tc := ⟨.hbm, 160, rfl⟩
abbrev main_v68 : Ref sig .tc := ⟨.hbm, 161, rfl⟩
abbrev main_c_22 : Ref sig .tc := ⟨.hbm, 162, rfl⟩
abbrev main_v69 : Ref sig .tc := ⟨.hbm, 163, rfl⟩
abbrev main_v70 : Ref sig .tc := ⟨.hbm, 164, rfl⟩
abbrev main_c_23 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_c_24 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_c_25 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_c_26 : Ref sig .tc := ⟨.hbm, 177, rfl⟩
abbrev main_c_27 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v80 : Ref sig .tc := ⟨.hbm, 184, rfl⟩
abbrev main_c_28 : Ref sig .tc := ⟨.hbm, 185, rfl⟩
abbrev main_c_29 : Ref sig .tc := ⟨.hbm, 186, rfl⟩
abbrev main_call7_v0 : Ref sig .tc := ⟨.hbm, 187, rfl⟩
abbrev main_call7_v1 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_v81 : Ref sig .tc := ⟨.hbm, 192, rfl⟩
abbrev main_c_30 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_call8_c : Ref sig .tc := ⟨.hbm, 197, rfl⟩
abbrev main_call8_v0 : Ref sig .tc := ⟨.hbm, 198, rfl⟩
abbrev main_call8_v1 : Ref sig .tc := ⟨.hbm, 199, rfl⟩
abbrev main_call8_c_0 : Ref sig .tc := ⟨.hbm, 200, rfl⟩
abbrev main_call8_v2 : Ref sig .tc := ⟨.hbm, 201, rfl⟩
abbrev main_call8_v3 : Ref sig .tc := ⟨.hbm, 202, rfl⟩
abbrev main_call8_v4 : Ref sig .tc := ⟨.hbm, 203, rfl⟩
abbrev main_call8_v5 : Ref sig .tc := ⟨.hbm, 204, rfl⟩
abbrev main_call8_c_1 : Ref sig .tc := ⟨.hbm, 205, rfl⟩
abbrev main_call8_c_2 : Ref sig .tc := ⟨.hbm, 206, rfl⟩
abbrev main_call8_v6 : Ref sig .tc := ⟨.hbm, 207, rfl⟩
abbrev main_call8_v7 : Ref sig .tc := ⟨.hbm, 208, rfl⟩
abbrev main_call8_v8 : Ref sig .tc := ⟨.hbm, 209, rfl⟩
abbrev main_call8_v9 : Ref sig .tc := ⟨.hbm, 210, rfl⟩
abbrev main_call8_v10 : Ref sig .tc := ⟨.hbm, 211, rfl⟩
abbrev main_call8_v11 : Ref sig .tc := ⟨.hbm, 212, rfl⟩
abbrev main_call8_c_3 : Ref sig .tc := ⟨.hbm, 213, rfl⟩
abbrev main_call8_v12 : Ref sig .tc := ⟨.hbm, 214, rfl⟩
abbrev main_call8_v13 : Ref sig .tc := ⟨.hbm, 215, rfl⟩
abbrev main_call8_v14 : Ref sig .tc := ⟨.hbm, 216, rfl⟩
abbrev main_call8_cst : Ref sig .tc := ⟨.hbm, 217, rfl⟩
abbrev main_call8_v15 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_c_31 : Ref sig .tc := ⟨.hbm, 224, rfl⟩
abbrev main_v90 : Ref sig .tc := ⟨.hbm, 225, rfl⟩
abbrev main_v91 : Ref sig .tc := ⟨.hbm, 226, rfl⟩
abbrev main_c_32 : Ref sig .tc := ⟨.hbm, 227, rfl⟩
abbrev main_v92 : Ref sig .tc := ⟨.hbm, 228, rfl⟩
abbrev main_v93 : Ref sig .tc := ⟨.hbm, 229, rfl⟩
abbrev main_c_33 : Ref sig .tc := ⟨.hbm, 230, rfl⟩
abbrev main_v94 : Ref sig .tc := ⟨.hbm, 231, rfl⟩
abbrev main_v95 : Ref sig .tc := ⟨.hbm, 232, rfl⟩
abbrev main_c_34 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_c_35 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_c_36 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_c_37 : Ref sig .tc := ⟨.hbm, 245, rfl⟩
abbrev main_c_38 : Ref sig .tc := ⟨.hbm, 246, rfl⟩
abbrev main_call9_v0 : Ref sig .tc := ⟨.hbm, 247, rfl⟩
abbrev main_call9_v1 : Ref sig .tc := ⟨.hbm, 248, rfl⟩
abbrev main_call9_v2 : Ref sig .tc := ⟨.hbm, 249, rfl⟩
abbrev main_call9_v3 : Ref sig .tc := ⟨.hbm, 250, rfl⟩
abbrev main_call9_v4 : Ref sig .tc := ⟨.hbm, 251, rfl⟩
abbrev main_v105 : Ref sig .tc := ⟨.hbm, 252, rfl⟩
abbrev main_c_39 : Ref sig .tc := ⟨.hbm, 253, rfl⟩
abbrev main_c_40 : Ref sig .tc := ⟨.hbm, 254, rfl⟩
abbrev main_call10_v0 : Ref sig .tc := ⟨.hbm, 255, rfl⟩
abbrev main_call10_v1 : Ref sig .tc := ⟨.hbm, 256, rfl⟩
abbrev main_call10_v2 : Ref sig .tc := ⟨.hbm, 257, rfl⟩
abbrev main_call10_v3 : Ref sig .tc := ⟨.hbm, 258, rfl⟩
abbrev main_call10_v4 : Ref sig .tc := ⟨.hbm, 259, rfl⟩
abbrev main_v106 : Ref sig .tc := ⟨.hbm, 260, rfl⟩
abbrev main_c_41 : Ref sig .tc := ⟨.hbm, 261, rfl⟩
abbrev main_v107 : Ref sig .tc := ⟨.hbm, 262, rfl⟩
abbrev main_v108 : Ref sig .tc := ⟨.hbm, 263, rfl⟩
abbrev main_v109 : Ref sig .tc := ⟨.hbm, 264, rfl⟩
abbrev main_call11_c : Ref sig .tc := ⟨.hbm, 265, rfl⟩
abbrev main_call11_v0 : Ref sig .tc := ⟨.hbm, 266, rfl⟩
abbrev main_call11_v1 : Ref sig .tc := ⟨.hbm, 267, rfl⟩
abbrev main_call11_c_0 : Ref sig .tc := ⟨.hbm, 268, rfl⟩
abbrev main_call11_v2 : Ref sig .tc := ⟨.hbm, 269, rfl⟩
abbrev main_call11_v3 : Ref sig .tc := ⟨.hbm, 270, rfl⟩
abbrev main_call11_v4 : Ref sig .tc := ⟨.hbm, 271, rfl⟩
abbrev main_call11_v5 : Ref sig .tc := ⟨.hbm, 272, rfl⟩
abbrev main_call11_c_1 : Ref sig .tc := ⟨.hbm, 273, rfl⟩
abbrev main_call11_c_2 : Ref sig .tc := ⟨.hbm, 274, rfl⟩
abbrev main_call11_v6 : Ref sig .tc := ⟨.hbm, 275, rfl⟩
abbrev main_call11_v7 : Ref sig .tc := ⟨.hbm, 276, rfl⟩
abbrev main_call11_v8 : Ref sig .tc := ⟨.hbm, 277, rfl⟩
abbrev main_call11_v9 : Ref sig .tc := ⟨.hbm, 278, rfl⟩
abbrev main_call11_v10 : Ref sig .tc := ⟨.hbm, 279, rfl⟩
abbrev main_call11_v11 : Ref sig .tc := ⟨.hbm, 280, rfl⟩
abbrev main_call11_c_3 : Ref sig .tc := ⟨.hbm, 281, rfl⟩
abbrev main_call11_v12 : Ref sig .tc := ⟨.hbm, 282, rfl⟩
abbrev main_call11_v13 : Ref sig .tc := ⟨.hbm, 283, rfl⟩
abbrev main_call11_v14 : Ref sig .tc := ⟨.hbm, 284, rfl⟩
abbrev main_call11_cst : Ref sig .tc := ⟨.hbm, 285, rfl⟩
abbrev main_call11_v15 : Ref sig .tc := ⟨.hbm, 286, rfl⟩
abbrev main_v110 : Ref sig .tc := ⟨.hbm, 287, rfl⟩
abbrev main_v111 : Ref sig .tc := ⟨.hbm, 288, rfl⟩
abbrev main_v112 : Ref sig .tc := ⟨.hbm, 289, rfl⟩
abbrev main_v113 : Ref sig .tc := ⟨.hbm, 290, rfl⟩
abbrev main_v114 : Ref sig .tc := ⟨.hbm, 291, rfl⟩
abbrev main_cst_42 : Ref sig .tc := ⟨.hbm, 292, rfl⟩
abbrev main_v115 : Ref sig .tc := ⟨.hbm, 293, rfl⟩
abbrev main_v116 : Ref sig .tc := ⟨.hbm, 294, rfl⟩
abbrev main_v117 : Ref sig .tc := ⟨.hbm, 295, rfl⟩
abbrev main_v118 : Ref sig .tc := ⟨.hbm, 296, rfl⟩
abbrev main_cst_43 : Ref sig .tc := ⟨.hbm, 297, rfl⟩
abbrev main_v119 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_v123 : Ref sig .tc := ⟨.hbm, 302, rfl⟩
abbrev main_v124 : Ref sig .tc := ⟨.hbm, 303, rfl⟩
abbrev main_cst_44 : Ref sig .tc := ⟨.hbm, 304, rfl⟩
abbrev main_v125 : Ref sig .tc := ⟨.hbm, 305, rfl⟩
abbrev main_v126 : Ref sig .tc := ⟨.hbm, 306, rfl⟩
abbrev main_v127 : Ref sig .tc := ⟨.hbm, 307, rfl⟩
abbrev main_v128 : Ref sig .tc := ⟨.hbm, 308, rfl⟩
abbrev main_v129 : Ref sig .tc := ⟨.hbm, 309, rfl⟩
abbrev main_cst_45 : Ref sig .tc := ⟨.hbm, 310, rfl⟩
abbrev main_v130 : Ref sig .tc := ⟨.hbm, 311, rfl⟩
abbrev main_v131 : Ref sig .tc := ⟨.hbm, 312, rfl⟩
abbrev main_v132 : Ref sig .tc := ⟨.hbm, 313, rfl⟩
abbrev main_v133 : Ref sig .tc := ⟨.hbm, 314, rfl⟩
abbrev main_v134 : Ref sig .tc := ⟨.hbm, 315, rfl⟩
abbrev main_v135 : Ref sig .tc := ⟨.hbm, 316, rfl⟩
abbrev main_v136 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev main_cst_46 : Ref sig .tc := ⟨.hbm, 325, rfl⟩
abbrev main_v144 : Ref sig .tc := ⟨.hbm, 326, rfl⟩
abbrev main_cst_47 : Ref sig .tc := ⟨.hbm, 327, rfl⟩
abbrev main_v145 : Ref sig .tc := ⟨.hbm, 328, rfl⟩
abbrev main_v146 : Ref sig .tc := ⟨.hbm, 329, rfl⟩
abbrev main_v147 : Ref sig .tc := ⟨.hbm, 330, rfl⟩
abbrev main_v148 : Ref sig .tc := ⟨.hbm, 331, rfl⟩
abbrev main_v149 : Ref sig .tc := ⟨.hbm, 332, rfl⟩
abbrev main_v150 : Ref sig .tc := ⟨.hbm, 333, rfl⟩
abbrev main_cst_48 : Ref sig .tc := ⟨.hbm, 334, rfl⟩
abbrev main_v151 : Ref sig .tc := ⟨.hbm, 335, rfl⟩
abbrev main_v152 : Ref sig .tc := ⟨.hbm, 336, rfl⟩
abbrev main_v153 : Ref sig .tc := ⟨.hbm, 337, rfl⟩
abbrev main_v154 : Ref sig .tc := ⟨.hbm, 338, rfl⟩
abbrev main_call12_c : Ref sig .tc := ⟨.hbm, 339, rfl⟩
abbrev main_call12_v0 : Ref sig .tc := ⟨.hbm, 340, rfl⟩
abbrev main_call12_v1 : Ref sig .tc := ⟨.hbm, 341, rfl⟩
abbrev main_call12_c_0 : Ref sig .tc := ⟨.hbm, 342, rfl⟩
abbrev main_call12_v2 : Ref sig .tc := ⟨.hbm, 343, rfl⟩
abbrev main_call12_v3 : Ref sig .tc := ⟨.hbm, 344, rfl⟩
abbrev main_call12_v4 : Ref sig .tc := ⟨.hbm, 345, rfl⟩
abbrev main_call12_v5 : Ref sig .tc := ⟨.hbm, 346, rfl⟩
abbrev main_call12_c_1 : Ref sig .tc := ⟨.hbm, 347, rfl⟩
abbrev main_call12_c_2 : Ref sig .tc := ⟨.hbm, 348, rfl⟩
abbrev main_call12_v6 : Ref sig .tc := ⟨.hbm, 349, rfl⟩
abbrev main_call12_v7 : Ref sig .tc := ⟨.hbm, 350, rfl⟩
abbrev main_call12_v8 : Ref sig .tc := ⟨.hbm, 351, rfl⟩
abbrev main_call12_v9 : Ref sig .tc := ⟨.hbm, 352, rfl⟩
abbrev main_call12_v10 : Ref sig .tc := ⟨.hbm, 353, rfl⟩
abbrev main_call12_v11 : Ref sig .tc := ⟨.hbm, 354, rfl⟩
abbrev main_call12_c_3 : Ref sig .tc := ⟨.hbm, 355, rfl⟩
abbrev main_call12_v12 : Ref sig .tc := ⟨.hbm, 356, rfl⟩
abbrev main_call12_v13 : Ref sig .tc := ⟨.hbm, 357, rfl⟩
abbrev main_call12_v14 : Ref sig .tc := ⟨.hbm, 358, rfl⟩
abbrev main_call12_cst : Ref sig .tc := ⟨.hbm, 359, rfl⟩
abbrev main_call12_v15 : Ref sig .tc := ⟨.hbm, 360, rfl⟩
abbrev main_v155 : Ref sig .tc := ⟨.hbm, 361, rfl⟩
abbrev main_v156 : Ref sig .tc := ⟨.hbm, 362, rfl⟩
abbrev main_v157 : Ref sig .tc := ⟨.hbm, 363, rfl⟩
abbrev main_cst_49 : Ref sig .tc := ⟨.hbm, 364, rfl⟩
abbrev main_v158 : Ref sig .tc := ⟨.hbm, 365, rfl⟩
abbrev main_v159 : Ref sig .tc := ⟨.hbm, 366, rfl⟩
abbrev main_v160 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def k0_cond2 (i : grid0.Coords) : BitVec 1 :=
  let arg1 : BitVec 32 := BitVec.ofNat 32 (i 1).val
  let c6_i32 : BitVec 32 := 6#32
  let v55 : BitVec 1 := Scalar.cmpi .eq arg1 c6_i32
  let v56 : BitVec 32 := Scalar.extui v55
  let c0_i32_32 : BitVec 32 := 0#32
  let v57 : BitVec 1 := Scalar.cmpi .ne v56 c0_i32_32
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1792x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1792x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S8x150x160x160_S8x32x160x160_S8x182x160x160_d1 : Shape.Concatenates [S8x150x160x160, S8x32x160x160] S8x182x160x160 1
  shapeCasts_S8x182x160x160_S8x182x25600 : S8x182x160x160.ShapeCasts S8x182x25600
  transposes_S8x182x25600_S8x25600x182_0_2_1 : S8x182x25600.Transposes [0, 2, 1] S8x25600x182
  slices_S8x12544x2_S8x12544x1_0_0_0 : S8x12544x2.Slices ![0, 0, 0] S8x12544x1
  shapeCasts_S8x12544x1_S8x12544 : S8x12544x1.ShapeCasts S8x12544
  bcast_S_S8x12544 : S_.BroadcastsInDim S8x12544 (![] : Fin 0 → Fin S8x12544.rank)
  slices_S8x12544x2_S8x12544x1_0_0_1 : S8x12544x2.Slices ![0, 0, 1] S8x12544x1
  bcast_S8x12544_S8x12544x1_0_1 : S8x12544.BroadcastsInDim S8x12544x1 (![0, 1] : Fin 2 → Fin S8x12544x1.rank)
  bcast_S_S8x12544x1 : S_.BroadcastsInDim S8x12544x1 (![] : Fin 0 → Fin S8x12544x1.rank)
  bcast_S1_S1x1x1_2 : S1.BroadcastsInDim S1x1x1 (![2] : Fin 1 → Fin S1x1x1.rank)
  bcast_S1x1x1_S8x12544x1_0_1_2 : S1x1x1.BroadcastsInDim S8x12544x1 (![0, 1, 2] : Fin 3 → Fin S8x12544x1.rank)
  reducesTo_S8x12544x1_S8x12544_d2 : S8x12544x1.ReducesTo [2] S8x12544
  h_S_ : 0 < S_.numel
  bcast_S8x12544_S8x12544x182_0_1 : S8x12544.BroadcastsInDim S8x12544x182 (![0, 1] : Fin 2 → Fin S8x12544x182.rank)
  bcast_S_S8x12544x182 : S_.BroadcastsInDim S8x12544x182 (![] : Fin 0 → Fin S8x12544x182.rank)
  bcast_S8x12544x1_S8x12544x182_0_1_2 : S8x12544x1.BroadcastsInDim S8x12544x182 (![0, 1, 2] : Fin 3 → Fin S8x12544x182.rank)
  slices_S8x12544x182_S8x12544x150_0_0_0 : S8x12544x182.Slices ![0, 0, 0] S8x12544x150
  slices_S8x12544x182_S8x12544x32_0_0_150 : S8x12544x182.Slices ![0, 0, 150] S8x12544x32
  reducesTo_S8x150x134_S8x150_d2 : S8x150x134.ReducesTo [2] S8x150
  bcast_S_S8x150 : S_.BroadcastsInDim S8x150 (![] : Fin 0 → Fin S8x150.rank)
  bcast_S8x150_S8x150x1_0_1 : S8x150.BroadcastsInDim S8x150x1 (![0, 1] : Fin 2 → Fin S8x150x1.rank)
  bcast_S8x150x1_S8x150x134_0_1_2 : S8x150x1.BroadcastsInDim S8x150x134 (![0, 1, 2] : Fin 3 → Fin S8x150x134.rank)
  bcast_S_S8x32 : S_.BroadcastsInDim S8x32 (![] : Fin 0 → Fin S8x32.rank)
  bcast_S8x32_S8x32x1_0_1 : S8x32.BroadcastsInDim S8x32x1 (![0, 1] : Fin 2 → Fin S8x32x1.rank)
  bcast_S_S8x32x1 : S_.BroadcastsInDim S8x32x1 (![] : Fin 0 → Fin S8x32x1.rank)
  bcast_S1x1x1_S8x32x1_0_1_2 : S1x1x1.BroadcastsInDim S8x32x1 (![0, 1, 2] : Fin 3 → Fin S8x32x1.rank)
  reducesTo_S8x32x1_S8x32_d2 : S8x32x1.ReducesTo [2] S8x32
  bcast_S8x32_S8x150x32_0_2 : S8x32.BroadcastsInDim S8x150x32 (![0, 2] : Fin 2 → Fin S8x150x32.rank)
  bcast_S_S8x150x32 : S_.BroadcastsInDim S8x150x32 (![] : Fin 0 → Fin S8x150x32.rank)
  inb_S150x32_S150x32_0_0 : ∀ a, (![0, 0] : Fin 2 → Nat) a + S150x32.size a ≤ S150x32.size a
  h_S150x32 : 0 < S150x32.numel
  shapeCasts_S150x32_S150x32 : S150x32.ShapeCasts S150x32
  inb_S1x150_S1x150_0_0 : ∀ a, (![0, 0] : Fin 2 → Nat) a + S1x150.size a ≤ S1x150.size a
  h_S1x150 : 0 < S1x150.numel
  shapeCasts_S1x150_S1x150 : S1x150.ShapeCasts S1x150
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1792x150_S1x1792x150_0_0_0 : ∀ a, (![0, 0, 0] : Fin 3 → Nat) a + S1x1792x150.size a ≤ S1x1792x150.size a
  h_S1x1792x150 : 0 < S1x1792x150.numel
  shapeCasts_S1x1792x150_S1792x150 : S1x1792x150.ShapeCasts S1792x150
  inb_S1x1792x32_S1x1792x32_0_0_0 : ∀ a, (![0, 0, 0] : Fin 3 → Nat) a + S1x1792x32.size a ≤ S1x1792x32.size a
  h_S1x1792x32 : 0 < S1x1792x32.numel
  shapeCasts_S1x1792x32_S1792x32 : S1x1792x32.ShapeCasts S1792x32
  reduces_S1792x150_S150 : S1792x150.Reduces [0] S150
  shapeCasts_S150_S1x150 : S150.ShapeCasts S1x150
  reduces_S1792x32_S32 : S1792x32.Reduces [0] S32
  shapeCasts_S32_S1x32 : S32.ShapeCasts S1x32
  transposes_S1x150_p1_0_S150x1 : S1x150.Transposes [1, 0] S150x1
  broadcasts_S150x1_S150x32 : S150x1.Broadcasts S150x32
  broadcasts_S1x32_S150x32 : S1x32.Broadcasts S150x32
  inb_S1x150x32_S1x150x32_0_0_0 : ∀ a, (![0, 0, 0] : Fin 3 → Nat) a + S1x150x32.size a ≤ S1x150x32.size a
  h_S1x150x32 : 0 < S1x150x32.numel
  shapeCasts_S1x150x32_S150x32 : S1x150x32.ShapeCasts S150x32
  shapeCasts_S150x32_S1x150x32 : S150x32.ShapeCasts S1x150x32
  gather_S8x25600x182_S8x12544x1_S8x12544x182_2_1_0_0_1_2_11182_wf : GatherDims.WF S8x25600x182 S8x12544x1 S8x12544x182 [2] [1] [0] [1] [0] 2 ![1, 1, 182]
  gather_S8x150x134_S8x32x1_S8x150x32_1_2_0_0_2_2_11501_wf : GatherDims.WF S8x150x134 S8x32x1 S8x150x32 [1] [2] [0] [2] [0] 2 ![1, 150, 1]
  dot_S1792x150_S1792x32_S150x32_0_0_1_1_n_n_wf : DotDims.WF S1792x150 S1792x32 S150x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1792x150.size a ≤ S8x12544x150.size a
  hwx0_0 : ∀ i : grid0.Coords, EltTy.bits .f32 = 32 ∨ (Rect.block (s := S8x12544x150) S1x1792x150.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1792x32.size a ≤ S8x12544x32.size a
  hwx0_1 : ∀ i : grid0.Coords, EltTy.bits .f32 = 32 ∨ (Rect.block (s := S8x12544x32) S1x1792x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x32.size a ≤ S8x150x32.size a
  hwx0_2 : ∀ i : grid0.Coords, EltTy.bits .f32 = 32 ∨ (Rect.block (s := S8x150x32) S1x150x32.size (cc0_transform_2 i) (hinb0_2 i)).WholeWords (EltTy.packing .f32)

variable [Facts₀]

def gather_S8x25600x182_S8x12544x1_S8x12544x182_2_1_0_0_1_2_11182 : GatherDims S8x25600x182 S8x12544x1 S8x12544x182 where
  offsetDims := [2]
  collapsedSliceDims := [1]
  operandBatchingDims := [0]
  startIndicesBatchingDims := [0]
  startIndexMap := [1]
  indexVectorDim := 2
  sliceSizes := ![1, 1, 182]
  wf := gather_S8x25600x182_S8x12544x1_S8x12544x182_2_1_0_0_1_2_11182_wf
def gather_S8x150x134_S8x32x1_S8x150x32_1_2_0_0_2_2_11501 : GatherDims S8x150x134 S8x32x1 S8x150x32 where
  offsetDims := [1]
  collapsedSliceDims := [2]
  operandBatchingDims := [0]
  startIndicesBatchingDims := [0]
  startIndexMap := [2]
  indexVectorDim := 2
  sliceSizes := ![1, 150, 1]
  wf := gather_S8x150x134_S8x32x1_S8x150x32_1_2_0_0_2_2_11501_wf
def dot_S1792x150_S1792x32_S150x32_0_0_1_1_n_n : DotDims S1792x150 S1792x32 S150x32 where
  lhsContracting := [0]
  rhsContracting := [0]
  lhsNonContracting := [1]
  rhsNonContracting := [1]
  lhsBatch := []
  rhsBatch := []
  wf := dot_S1792x150_S1792x32_S150x32_0_0_1_1_n_n_wf

abbrev win0_0 : Pipeline.Window sig grid0 :=
  Pipeline.Window.ofSpec (Memref.whole main_v142) S1x1792x150.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v143) S1x1792x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v157) S1x150x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x150x160x160 : Shape := ⟨4, ![8, 150, 160, 160]⟩
abbrev S8x150x134 : Shape := ⟨3, ![8, 150, 134]⟩
abbrev S8x32x160x160 : Shape := ⟨4, ![8, 32, 160, 160]⟩
abbrev S8x32 : Shape := ⟨2, ![8, 32]⟩
abbrev S8x12544x2 : Shape := ⟨3, ![8, 12544, 2]⟩
abbrev S_ : Shape := ⟨0, ![]⟩
abbrev S8x150 : Shape := ⟨2, ![8, 150]⟩
abbrev S8x150x1 : Shape := ⟨3, ![8, 150, 1]⟩
abbrev S8x32x1 : Shape := ⟨3, ![8, 32, 1]⟩
abbrev S8x150x32 : Shape := ⟨3, ![8, 150, 32]⟩
abbrev S8x12544x1 : Shape := ⟨3, ![8, 12544, 1]⟩
abbrev S8x12544 : Shape := ⟨2, ![8, 12544]⟩
abbrev S8x150x12544 : Shape := ⟨3, ![8, 150, 12544]⟩
abbrev S8x1x12544 : Shape := ⟨3, ![8, 1, 12544]⟩
abbrev S8x32x12544 : Shape := ⟨3, ![8, 32, 12544]⟩
abbrev S8x12544x32 : Shape := ⟨3, ![8, 12544, 32]⟩
abbrev S8x1x32 : Shape := ⟨3, ![8, 1, 32]⟩

abbrev nBuf : Space → Nat
  | .hbm => 685
  | .vmem => 0
  | .smem => 0
  | _ => 0

abbrev hbmTy0_0 (i : Nat) : BufTy := match i % 128 with
  | 0 => ⟨S8x150x160x160, .f32⟩
  | 1 => ⟨S8x150x134, .f32⟩
  | 2 => ⟨S8x32x160x160, .f32⟩
  | 3 => ⟨S8x32, .i32⟩
  | 4 => ⟨S8x12544x2, .f32⟩
  | 5 => ⟨S_, .f32⟩
  | 6 => ⟨S8x150, .f32⟩
  | 7 => ⟨S_, .f32⟩
  | 8 => ⟨S8x150, .f32⟩
  | 9 => ⟨S8x150, .f32⟩
  | 10 => ⟨S8x150x1, .f32⟩
  | 11 => ⟨S8x150x134, .f32⟩
  | 12 => ⟨S8x150x134, .f32⟩
  | 13 => ⟨S8x150x134, .f32⟩
  | 14 => ⟨S_, .f32⟩
  | 15 => ⟨S8x150, .f32⟩
  | 16 => ⟨S8x150x1, .f32⟩
  | 17 => ⟨S8x150x134, .f32⟩
  | 18 => ⟨S8x150x134, .f32⟩
  | 19 => ⟨S_, .i32⟩
  | 20 => ⟨S8x32, .i32⟩
  | 21 => ⟨S8x32, .i1⟩
  | 22 => ⟨S_, .i32⟩
  | 23 => ⟨S8x32, .i32⟩
  | 24 => ⟨S8x32, .i32⟩
  | 25 => ⟨S8x32, .i32⟩
  | 26 => ⟨S8x32x1, .i32⟩
  | 27 => ⟨S8x150x32, .f32⟩
  | 28 => ⟨S8x150x32, .f32⟩
  | 29 => ⟨S8x12544x1, .f32⟩
  | 30 => ⟨S8x12544, .f32⟩
  | 31 => ⟨S_, .f32⟩
  | 32 => ⟨S8x12544, .f32⟩
  | 33 => ⟨S8x12544, .f32⟩
  | 34 => ⟨S_, .f32⟩
  | 35 => ⟨S8x12544, .f32⟩
  | 36 => ⟨S8x12544, .f32⟩
  | 37 => ⟨S8x12544x1, .f32⟩
  | 38 => ⟨S8x12544, .f32⟩
  | 39 => ⟨S_, .f32⟩
  | 40 => ⟨S8x12544, .f32⟩
  | 41 => ⟨S8x12544, .f32⟩
  | 42 => ⟨S_, .f32⟩
  | 43 => ⟨S8x12544, .f32⟩
  | 44 => ⟨S8x12544, .f32⟩
  | 45 => ⟨S8x12544, .f32⟩
  | 46 => ⟨S8x12544, .f32⟩
  | 47 => ⟨S8x12544, .f32⟩
  | 48 => ⟨S8x12544, .f32⟩
  | 49 => ⟨S8x12544, .i32⟩
  | 50 => ⟨S8x12544, .i32⟩
  | 51 => ⟨S_, .i32⟩
  | 52 => ⟨S8x12544, .i32⟩
  | 53 => ⟨S8x12544, .i1⟩
  | 54 => ⟨S_, .i32⟩
  | 55 => ⟨S8x12544, .i32⟩
  | 56 => ⟨S8x12544, .i1⟩
  | 57 => ⟨S8x12544, .i1⟩
  | 58 => ⟨S_, .i32⟩
  | 59 => ⟨S8x12544, .i32⟩
  | 60 => ⟨S8x12544, .i1⟩
  | 61 => ⟨S8x12544, .i1⟩
  | 62 => ⟨S_, .i32⟩
  | 63 => ⟨S8x12544, .i32⟩
  | 64 => ⟨S8x12544, .i1⟩
  | 65 => ⟨S8x12544, .i1⟩
  | 66 => ⟨S8x12544, .f32⟩
  | 67 => ⟨S_, .i32⟩
  | 68 => ⟨S_, .i32⟩
  | 69 => ⟨S_, .i32⟩
  | 70 => ⟨S8x12544, .i32⟩
  | 71 => ⟨S8x12544, .i32⟩
  | 72 => ⟨S_, .i32⟩
  | 73 => ⟨S8x12544, .i32⟩
  | 74 => ⟨S8x12544, .i32⟩
  | 75 => ⟨S_, .i32⟩
  | 76 => ⟨S_, .i32⟩
  | 77 => ⟨S_, .i32⟩
  | 78 => ⟨S8x12544, .i32⟩
  | 79 => ⟨S8x12544, .i32⟩
  | 80 => ⟨S_, .i32⟩
  | 81 => ⟨S8x12544, .i32⟩
  | 82 => ⟨S8x12544, .i32⟩
  | 83 => ⟨S_, .i32⟩
  | 84 => ⟨S8x12544, .i32⟩
  | 85 => ⟨S8x12544, .i1⟩
  | 86 => ⟨S_, .i32⟩
  | 87 => ⟨S8x12544, .i32⟩
  | 88 => ⟨S8x12544, .i32⟩
  | 89 => ⟨S8x12544, .i32⟩
  | 90 => ⟨S_, .i32⟩
  | 91 => ⟨S8x12544, .i32⟩
  | 92 => ⟨S8x12544, .i1⟩
  | 93 => ⟨S_, .i32⟩
  | 94 => ⟨S8x12544, .i32⟩
  | 95 => ⟨S8x12544, .i32⟩
  | 96 => ⟨S8x12544, .i32⟩
  | 97 => ⟨S8x12544x1, .i32⟩
  | 98 => ⟨S8x12544x1, .i32⟩
  | 99 => ⟨S8x12544x2, .i32⟩
  | 100 => ⟨S8x150x12544, .f32⟩
  | 101 => ⟨S8x1x12544, .f32⟩
  | 102 => ⟨S8x150x12544, .f32⟩
  | 103 => ⟨S8x150x12544, .f32⟩
  | 104 => ⟨S_, .i32⟩
  | 105 => ⟨S8x12544, .i32⟩
  | 106 => ⟨S8x12544, .i32⟩
  | 107 => ⟨S_, .i32⟩
  | 108 => ⟨S8x12544, .i32⟩
  | 109 => ⟨S8x12544, .i1⟩
  | 110 => ⟨S_, .i32⟩
  | 111 => ⟨S8x12544, .i32⟩
  | 112 => ⟨S8x12544, .i1⟩
  | 113 => ⟨S8x12544, .i1⟩
  | 114 => ⟨S_, .i32⟩
  | 115 => ⟨S8x12544, .i32⟩
  | 116 => ⟨S8x12544, .i1⟩
  | 117 => ⟨S8x12544, .i1⟩
  | 118 => ⟨S_, .i32⟩
  | 119 => ⟨S8x12544, .i32⟩
  | 120 => ⟨S8x12544, .i1⟩
  | 121 => ⟨S8x12544, .i1⟩
  | 122 => ⟨S8x12544, .f32⟩
  | 123 => ⟨S_, .i32⟩
  | 124 => ⟨S_, .i32⟩
  | 125 => ⟨S_, .i32⟩
  | 126 => ⟨S8x12544, .i32⟩
  | 127 => ⟨S8x12544, .i32⟩
  | _ => ⟨S8x150x160x160, .f32⟩

abbrev hbmTy0_1 (i : Nat) : BufTy := match i % 128 with
  | 0 => ⟨S_, .i32⟩
  | 1 => ⟨S8x12544, .i32⟩
  | 2 => ⟨S8x12544, .i32⟩
  | 3 => ⟨S_, .i32⟩
  | 4 => ⟨S_, .i32⟩
  | 5 => ⟨S_, .i32⟩
  | 6 => ⟨S8x12544, .i32⟩
  | 7 => ⟨S8x12544, .i32⟩
  | 8 => ⟨S_, .i32⟩
  | 9 => ⟨S8x12544, .i32⟩
  | 10 => ⟨S8x12544, .i32⟩
  | 11 => ⟨S_, .i32⟩
  | 12 => ⟨S8x12544, .i32⟩
  | 13 => ⟨S8x12544, .i1⟩
  | 14 => ⟨S_, .i32⟩
  | 15 => ⟨S8x12544, .i32⟩
  | 16 => ⟨S8x12544, .i32⟩
  | 17 => ⟨S8x12544, .i32⟩
  | 18 => ⟨S_, .i32⟩
  | 19 => ⟨S8x12544, .i32⟩
  | 20 => ⟨S8x12544, .i1⟩
  | 21 => ⟨S_, .i32⟩
  | 22 => ⟨S8x12544, .i32⟩
  | 23 => ⟨S8x12544, .i32⟩
  | 24 => ⟨S8x12544, .i32⟩
  | 25 => ⟨S8x12544x1, .i32⟩
  | 26 => ⟨S8x12544x1, .i32⟩
  | 27 => ⟨S8x12544x2, .i32⟩
  | 28 => ⟨S8x150x12544, .f32⟩
  | 29 => ⟨S8x1x12544, .f32⟩
  | 30 => ⟨S8x150x12544, .f32⟩
  | 31 => ⟨S8x150x12544, .f32⟩
  | 32 => ⟨S_, .i32⟩
  | 33 => ⟨S8x12544, .i32⟩
  | 34 => ⟨S8x12544, .i32⟩
  | 35 => ⟨S_, .i32⟩
  | 36 => ⟨S8x12544, .i32⟩
  | 37 => ⟨S8x12544, .i1⟩
  | 38 => ⟨S_, .i32⟩
  | 39 => ⟨S8x12544, .i32⟩
  | 40 => ⟨S8x12544, .i1⟩
  | 41 => ⟨S8x12544, .i1⟩
  | 42 => ⟨S_, .i32⟩
  | 43 => ⟨S8x12544, .i32⟩
  | 44 => ⟨S8x12544, .i1⟩
  | 45 => ⟨S8x12544, .i1⟩
  | 46 => ⟨S_, .i32⟩
  | 47 => ⟨S8x12544, .i32⟩
  | 48 => ⟨S8x12544, .i1⟩
  | 49 => ⟨S8x12544, .i1⟩
  | 50 => ⟨S8x12544, .f32⟩
  | 51 => ⟨S_, .i32⟩
  | 52 => ⟨S_, .i32⟩
  | 53 => ⟨S_, .i32⟩
  | 54 => ⟨S8x12544, .i32⟩
  | 55 => ⟨S8x12544, .i32⟩
  | 56 => ⟨S_, .i32⟩
  | 57 => ⟨S8x12544, .i32⟩
  | 58 => ⟨S8x12544, .i32⟩
  | 59 => ⟨S_, .i32⟩
  | 60 => ⟨S_, .i32⟩
  | 61 => ⟨S_, .i32⟩
  | 62 => ⟨S8x12544, .i32⟩
  | 63 => ⟨S8x12544, .i32⟩
  | 64 => ⟨S_, .i32⟩
  | 65 => ⟨S8x12544, .i32⟩
  | 66 => ⟨S8x12544, .i32⟩
  | 67 => ⟨S_, .i32⟩
  | 68 => ⟨S8x12544, .i32⟩
  | 69 => ⟨S8x12544, .i1⟩
  | 70 => ⟨S_, .i32⟩
  | 71 => ⟨S8x12544, .i32⟩
  | 72 => ⟨S8x12544, .i32⟩
  | 73 => ⟨S8x12544, .i32⟩
  | 74 => ⟨S_, .i32⟩
  | 75 => ⟨S8x12544, .i32⟩
  | 76 => ⟨S8x12544, .i1⟩
  | 77 => ⟨S_, .i32⟩
  | 78 => ⟨S8x12544, .i32⟩
  | 79 => ⟨S8x12544, .i32⟩
  | 80 => ⟨S8x12544, .i32⟩
  | 81 => ⟨S8x12544x1, .i32⟩
  | 82 => ⟨S8x12544x1, .i32⟩
  | 83 => ⟨S8x12544x2, .i32⟩
  | 84 => ⟨S8x150x12544, .f32⟩
  | 85 => ⟨S8x1x12544, .f32⟩
  | 86 => ⟨S8x150x12544, .f32⟩
  | 87 => ⟨S8x150x12544, .f32⟩
  | 88 => ⟨S_, .i32⟩
  | 89 => ⟨S8x12544, .i32⟩
  | 90 => ⟨S8x12544, .i32⟩
  | 91 => ⟨S_, .i32⟩
  | 92 => ⟨S8x12544, .i32⟩
  | 93 => ⟨S8x12544, .i32⟩
  | 94 => ⟨S_, .i32⟩
  | 95 => ⟨S8x12544, .i32⟩
  | 96 => ⟨S8x12544, .i1⟩
  | 97 => ⟨S_, .i32⟩
  | 98 => ⟨S8x12544, .i32⟩
  | 99 => ⟨S8x12544, .i1⟩
  | 100 => ⟨S8x12544, .i1⟩
  | 101 => ⟨S_, .i32⟩
  | 102 => ⟨S8x12544, .i32⟩
  | 103 => ⟨S8x12544, .i1⟩
  | 104 => ⟨S8x12544, .i1⟩
  | 105 => ⟨S_, .i32⟩
  | 106 => ⟨S8x12544, .i32⟩
  | 107 => ⟨S8x12544, .i1⟩
  | 108 => ⟨S8x12544, .i1⟩
  | 109 => ⟨S8x12544, .f32⟩
  | 110 => ⟨S_, .i32⟩
  | 111 => ⟨S_, .i32⟩
  | 112 => ⟨S_, .i32⟩
  | 113 => ⟨S8x12544, .i32⟩
  | 114 => ⟨S8x12544, .i32⟩
  | 115 => ⟨S_, .i32⟩
  | 116 => ⟨S8x12544, .i32⟩
  | 117 => ⟨S8x12544, .i32⟩
  | 118 => ⟨S_, .i32⟩
  | 119 => ⟨S_, .i32⟩
  | 120 => ⟨S_, .i32⟩
  | 121 => ⟨S8x12544, .i32⟩
  | 122 => ⟨S8x12544, .i32⟩
  | 123 => ⟨S_, .i32⟩
  | 124 => ⟨S8x12544, .i32⟩
  | 125 => ⟨S8x12544, .i32⟩
  | 126 => ⟨S_, .i32⟩
  | 127 => ⟨S8x12544, .i32⟩
  | _ => ⟨S8x150x160x160, .f32⟩

abbrev hbmTy0_2 (i : Nat) : BufTy := match i % 128 with
  | 0 => ⟨S8x12544, .i1⟩
  | 1 => ⟨S_, .i32⟩
  | 2 => ⟨S8x12544, .i32⟩
  | 3 => ⟨S8x12544, .i32⟩
  | 4 => ⟨S8x12544, .i32⟩
  | 5 => ⟨S_, .i32⟩
  | 6 => ⟨S8x12544, .i32⟩
  | 7 => ⟨S8x12544, .i1⟩
  | 8 => ⟨S_, .i32⟩
  | 9 => ⟨S8x12544, .i32⟩
  | 10 => ⟨S8x12544, .i32⟩
  | 11 => ⟨S8x12544, .i32⟩
  | 12 => ⟨S8x12544x1, .i32⟩
  | 13 => ⟨S8x12544x1, .i32⟩
  | 14 => ⟨S8x12544x2, .i32⟩
  | 15 => ⟨S8x150x12544, .f32⟩
  | 16 => ⟨S8x1x12544, .f32⟩
  | 17 => ⟨S8x150x12544, .f32⟩
  | 18 => ⟨S8x150x12544, .f32⟩
  | 19 => ⟨S_, .f32⟩
  | 20 => ⟨S8x12544, .f32⟩
  | 21 => ⟨S8x12544, .f32⟩
  | 22 => ⟨S8x1x12544, .f32⟩
  | 23 => ⟨S8x150x12544, .f32⟩
  | 24 => ⟨S8x150x12544, .f32⟩
  | 25 => ⟨S_, .f32⟩
  | 26 => ⟨S8x12544, .f32⟩
  | 27 => ⟨S8x12544, .f32⟩
  | 28 => ⟨S8x1x12544, .f32⟩
  | 29 => ⟨S8x150x12544, .f32⟩
  | 30 => ⟨S8x150x12544, .f32⟩
  | 31 => ⟨S8x1x12544, .f32⟩
  | 32 => ⟨S8x150x12544, .f32⟩
  | 33 => ⟨S8x150x12544, .f32⟩
  | 34 => ⟨S_, .f32⟩
  | 35 => ⟨S8x12544, .f32⟩
  | 36 => ⟨S8x12544, .f32⟩
  | 37 => ⟨S8x1x12544, .f32⟩
  | 38 => ⟨S8x150x12544, .f32⟩
  | 39 => ⟨S8x150x12544, .f32⟩
  | 40 => ⟨S8x150x12544, .f32⟩
  | 41 => ⟨S_, .f32⟩
  | 42 => ⟨S8x12544, .f32⟩
  | 43 => ⟨S8x12544, .f32⟩
  | 44 => ⟨S8x1x12544, .f32⟩
  | 45 => ⟨S8x150x12544, .f32⟩
  | 46 => ⟨S8x150x12544, .f32⟩
  | 47 => ⟨S8x1x12544, .f32⟩
  | 48 => ⟨S8x150x12544, .f32⟩
  | 49 => ⟨S8x150x12544, .f32⟩
  | 50 => ⟨S8x150x12544, .f32⟩
  | 51 => ⟨S8x1x12544, .f32⟩
  | 52 => ⟨S8x150x12544, .f32⟩
  | 53 => ⟨S8x150x12544, .f32⟩
  | 54 => ⟨S8x1x12544, .f32⟩
  | 55 => ⟨S8x150x12544, .f32⟩
  | 56 => ⟨S8x150x12544, .f32⟩
  | 57 => ⟨S8x150x12544, .f32⟩
  | 58 => ⟨S8x12544x1, .f32⟩
  | 59 => ⟨S8x12544, .f32⟩
  | 60 => ⟨S_, .f32⟩
  | 61 => ⟨S8x12544, .f32⟩
  | 62 => ⟨S8x12544, .f32⟩
  | 63 => ⟨S_, .f32⟩
  | 64 => ⟨S8x12544, .f32⟩
  | 65 => ⟨S8x12544, .f32⟩
  | 66 => ⟨S8x12544x1, .f32⟩
  | 67 => ⟨S8x12544, .f32⟩
  | 68 => ⟨S_, .f32⟩
  | 69 => ⟨S8x12544, .f32⟩
  | 70 => ⟨S8x12544, .f32⟩
  | 71 => ⟨S_, .f32⟩
  | 72 => ⟨S8x12544, .f32⟩
  | 73 => ⟨S8x12544, .f32⟩
  | 74 => ⟨S8x12544, .f32⟩
  | 75 => ⟨S8x12544, .f32⟩
  | 76 => ⟨S8x12544, .f32⟩
  | 77 => ⟨S8x12544, .f32⟩
  | 78 => ⟨S8x12544, .i32⟩
  | 79 => ⟨S8x12544, .i32⟩
  | 80 => ⟨S_, .i32⟩
  | 81 => ⟨S8x12544, .i32⟩
  | 82 => ⟨S8x12544, .i1⟩
  | 83 => ⟨S_, .i32⟩
  | 84 => ⟨S8x12544, .i32⟩
  | 85 => ⟨S8x12544, .i1⟩
  | 86 => ⟨S8x12544, .i1⟩
  | 87 => ⟨S_, .i32⟩
  | 88 => ⟨S8x12544, .i32⟩
  | 89 => ⟨S8x12544, .i1⟩
  | 90 => ⟨S8x12544, .i1⟩
  | 91 => ⟨S_, .i32⟩
  | 92 => ⟨S8x12544, .i32⟩
  | 93 => ⟨S8x12544, .i1⟩
  | 94 => ⟨S8x12544, .i1⟩
  | 95 => ⟨S8x12544, .f32⟩
  | 96 => ⟨S_, .i32⟩
  | 97 => ⟨S_, .i32⟩
  | 98 => ⟨S_, .i32⟩
  | 99 => ⟨S8x12544, .i32⟩
  | 100 => ⟨S8x12544, .i32⟩
  | 101 => ⟨S_, .i32⟩
  | 102 => ⟨S8x12544, .i32⟩
  | 103 => ⟨S8x12544, .i32⟩
  | 104 => ⟨S_, .i32⟩
  | 105 => ⟨S_, .i32⟩
  | 106 => ⟨S_, .i32⟩
  | 107 => ⟨S8x12544, .i32⟩
  | 108 => ⟨S8x12544, .i32⟩
  | 109 => ⟨S_, .i32⟩
  | 110 => ⟨S8x12544, .i32⟩
  | 111 => ⟨S8x12544, .i32⟩
  | 112 => ⟨S_, .i32⟩
  | 113 => ⟨S8x12544, .i32⟩
  | 114 => ⟨S8x12544, .i1⟩
  | 115 => ⟨S_, .i32⟩
  | 116 => ⟨S8x12544, .i32⟩
  | 117 => ⟨S8x12544, .i32⟩
  | 118 => ⟨S8x12544, .i32⟩
  | 119 => ⟨S_, .i32⟩
  | 120 => ⟨S8x12544, .i32⟩
  | 121 => ⟨S8x12544, .i1⟩
  | 122 => ⟨S_, .i32⟩
  | 123 => ⟨S8x12544, .i32⟩
  | 124 => ⟨S8x12544, .i32⟩
  | 125 => ⟨S8x12544, .i32⟩
  | 126 => ⟨S8x12544x1, .i32⟩
  | 127 => ⟨S8x12544x1, .i32⟩
  | _ => ⟨S8x150x160x160, .f32⟩

abbrev hbmTy0_3 (i : Nat) : BufTy := match i % 128 with
  | 0 => ⟨S8x12544x2, .i32⟩
  | 1 => ⟨S8x32x12544, .f32⟩
  | 2 => ⟨S8x1x12544, .f32⟩
  | 3 => ⟨S8x32x12544, .f32⟩
  | 4 => ⟨S8x32x12544, .f32⟩
  | 5 => ⟨S_, .i32⟩
  | 6 => ⟨S8x12544, .i32⟩
  | 7 => ⟨S8x12544, .i32⟩
  | 8 => ⟨S_, .i32⟩
  | 9 => ⟨S8x12544, .i32⟩
  | 10 => ⟨S8x12544, .i1⟩
  | 11 => ⟨S_, .i32⟩
  | 12 => ⟨S8x12544, .i32⟩
  | 13 => ⟨S8x12544, .i1⟩
  | 14 => ⟨S8x12544, .i1⟩
  | 15 => ⟨S_, .i32⟩
  | 16 => ⟨S8x12544, .i32⟩
  | 17 => ⟨S8x12544, .i1⟩
  | 18 => ⟨S8x12544, .i1⟩
  | 19 => ⟨S_, .i32⟩
  | 20 => ⟨S8x12544, .i32⟩
  | 21 => ⟨S8x12544, .i1⟩
  | 22 => ⟨S8x12544, .i1⟩
  | 23 => ⟨S8x12544, .f32⟩
  | 24 => ⟨S_, .i32⟩
  | 25 => ⟨S_, .i32⟩
  | 26 => ⟨S_, .i32⟩
  | 27 => ⟨S8x12544, .i32⟩
  | 28 => ⟨S8x12544, .i32⟩
  | 29 => ⟨S_, .i32⟩
  | 30 => ⟨S8x12544, .i32⟩
  | 31 => ⟨S8x12544, .i32⟩
  | 32 => ⟨S_, .i32⟩
  | 33 => ⟨S_, .i32⟩
  | 34 => ⟨S_, .i32⟩
  | 35 => ⟨S8x12544, .i32⟩
  | 36 => ⟨S8x12544, .i32⟩
  | 37 => ⟨S_, .i32⟩
  | 38 => ⟨S8x12544, .i32⟩
  | 39 => ⟨S8x12544, .i32⟩
  | 40 => ⟨S_, .i32⟩
  | 41 => ⟨S8x12544, .i32⟩
  | 42 => ⟨S8x12544, .i1⟩
  | 43 => ⟨S_, .i32⟩
  | 44 => ⟨S8x12544, .i32⟩
  | 45 => ⟨S8x12544, .i32⟩
  | 46 => ⟨S8x12544, .i32⟩
  | 47 => ⟨S_, .i32⟩
  | 48 => ⟨S8x12544, .i32⟩
  | 49 => ⟨S8x12544, .i1⟩
  | 50 => ⟨S_, .i32⟩
  | 51 => ⟨S8x12544, .i32⟩
  | 52 => ⟨S8x12544, .i32⟩
  | 53 => ⟨S8x12544, .i32⟩
  | 54 => ⟨S8x12544x1, .i32⟩
  | 55 => ⟨S8x12544x1, .i32⟩
  | 56 => ⟨S8x12544x2, .i32⟩
  | 57 => ⟨S8x32x12544, .f32⟩
  | 58 => ⟨S8x1x12544, .f32⟩
  | 59 => ⟨S8x32x12544, .f32⟩
  | 60 => ⟨S8x32x12544, .f32⟩
  | 61 => ⟨S_, .i32⟩
  | 62 => ⟨S8x12544, .i32⟩
  | 63 => ⟨S8x12544, .i32⟩
  | 64 => ⟨S_, .i32⟩
  | 65 => ⟨S8x12544, .i32⟩
  | 66 => ⟨S8x12544, .i1⟩
  | 67 => ⟨S_, .i32⟩
  | 68 => ⟨S8x12544, .i32⟩
  | 69 => ⟨S8x12544, .i1⟩
  | 70 => ⟨S8x12544, .i1⟩
  | 71 => ⟨S_, .i32⟩
  | 72 => ⟨S8x12544, .i32⟩
  | 73 => ⟨S8x12544, .i1⟩
  | 74 => ⟨S8x12544, .i1⟩
  | 75 => ⟨S_, .i32⟩
  | 76 => ⟨S8x12544, .i32⟩
  | 77 => ⟨S8x12544, .i1⟩
  | 78 => ⟨S8x12544, .i1⟩
  | 79 => ⟨S8x12544, .f32⟩
  | 80 => ⟨S_, .i32⟩
  | 81 => ⟨S_, .i32⟩
  | 82 => ⟨S_, .i32⟩
  | 83 => ⟨S8x12544, .i32⟩
  | 84 => ⟨S8x12544, .i32⟩
  | 85 => ⟨S_, .i32⟩
  | 86 => ⟨S8x12544, .i32⟩
  | 87 => ⟨S8x12544, .i32⟩
  | 88 => ⟨S_, .i32⟩
  | 89 => ⟨S_, .i32⟩
  | 90 => ⟨S_, .i32⟩
  | 91 => ⟨S8x12544, .i32⟩
  | 92 => ⟨S8x12544, .i32⟩
  | 93 => ⟨S_, .i32⟩
  | 94 => ⟨S8x12544, .i32⟩
  | 95 => ⟨S8x12544, .i32⟩
  | 96 => ⟨S_, .i32⟩
  | 97 => ⟨S8x12544, .i32⟩
  | 98 => ⟨S8x12544, .i1⟩
  | 99 => ⟨S_, .i32⟩
  | 100 => ⟨S8x12544, .i32⟩
  | 101 => ⟨S8x12544, .i32⟩
  | 102 => ⟨S8x12544, .i32⟩
  | 103 => ⟨S_, .i32⟩
  | 104 => ⟨S8x12544, .i32⟩
  | 105 => ⟨S8x12544, .i1⟩
  | 106 => ⟨S_, .i32⟩
  | 107 => ⟨S8x12544, .i32⟩
  | 108 => ⟨S8x12544, .i32⟩
  | 109 => ⟨S8x12544, .i32⟩
  | 110 => ⟨S8x12544x1, .i32⟩
  | 111 => ⟨S8x12544x1, .i32⟩
  | 112 => ⟨S8x12544x2, .i32⟩
  | 113 => ⟨S8x32x12544, .f32⟩
  | 114 => ⟨S8x1x12544, .f32⟩
  | 115 => ⟨S8x32x12544, .f32⟩
  | 116 => ⟨S8x32x12544, .f32⟩
  | 117 => ⟨S_, .i32⟩
  | 118 => ⟨S8x12544, .i32⟩
  | 119 => ⟨S8x12544, .i32⟩
  | 120 => ⟨S_, .i32⟩
  | 121 => ⟨S8x12544, .i32⟩
  | 122 => ⟨S8x12544, .i32⟩
  | 123 => ⟨S_, .i32⟩
  | 124 => ⟨S8x12544, .i32⟩
  | 125 => ⟨S8x12544, .i1⟩
  | 126 => ⟨S_, .i32⟩
  | 127 => ⟨S8x12544, .i32⟩
  | _ => ⟨S8x150x160x160, .f32⟩

abbrev hbmTy0_4 (i : Nat) : BufTy := match i % 128 with
  | 0 => ⟨S8x12544, .i1⟩
  | 1 => ⟨S8x12544, .i1⟩
  | 2 => ⟨S_, .i32⟩
  | 3 => ⟨S8x12544, .i32⟩
  | 4 => ⟨S8x12544, .i1⟩
  | 5 => ⟨S8x12544, .i1⟩
  | 6 => ⟨S_, .i32⟩
  | 7 => ⟨S8x12544, .i32⟩
  | 8 => ⟨S8x12544, .i1⟩
  | 9 => ⟨S8x12544, .i1⟩
  | 10 => ⟨S8x12544, .f32⟩
  | 11 => ⟨S_, .i32⟩
  | 12 => ⟨S_, .i32⟩
  | 13 => ⟨S_, .i32⟩
  | 14 => ⟨S8x12544, .i32⟩
  | 15 => ⟨S8x12544, .i32⟩
  | 16 => ⟨S_, .i32⟩
  | 17 => ⟨S8x12544, .i32⟩
  | 18 => ⟨S8x12544, .i32⟩
  | 19 => ⟨S_, .i32⟩
  | 20 => ⟨S_, .i32⟩
  | 21 => ⟨S_, .i32⟩
  | 22 => ⟨S8x12544, .i32⟩
  | 23 => ⟨S8x12544, .i32⟩
  | 24 => ⟨S_, .i32⟩
  | 25 => ⟨S8x12544, .i32⟩
  | 26 => ⟨S8x12544, .i32⟩
  | 27 => ⟨S_, .i32⟩
  | 28 => ⟨S8x12544, .i32⟩
  | 29 => ⟨S8x12544, .i1⟩
  | 30 => ⟨S_, .i32⟩
  | 31 => ⟨S8x12544, .i32⟩
  | 32 => ⟨S8x12544, .i32⟩
  | 33 => ⟨S8x12544, .i32⟩
  | 34 => ⟨S_, .i32⟩
  | 35 => ⟨S8x12544, .i32⟩
  | 36 => ⟨S8x12544, .i1⟩
  | 37 => ⟨S_, .i32⟩
  | 38 => ⟨S8x12544, .i32⟩
  | 39 => ⟨S8x12544, .i32⟩
  | 40 => ⟨S8x12544, .i32⟩
  | 41 => ⟨S8x12544x1, .i32⟩
  | 42 => ⟨S8x12544x1, .i32⟩
  | 43 => ⟨S8x12544x2, .i32⟩
  | 44 => ⟨S8x32x12544, .f32⟩
  | 45 => ⟨S8x1x12544, .f32⟩
  | 46 => ⟨S8x32x12544, .f32⟩
  | 47 => ⟨S8x32x12544, .f32⟩
  | 48 => ⟨S_, .f32⟩
  | 49 => ⟨S8x12544, .f32⟩
  | 50 => ⟨S8x12544, .f32⟩
  | 51 => ⟨S8x1x12544, .f32⟩
  | 52 => ⟨S8x32x12544, .f32⟩
  | 53 => ⟨S8x32x12544, .f32⟩
  | 54 => ⟨S_, .f32⟩
  | 55 => ⟨S8x12544, .f32⟩
  | 56 => ⟨S8x12544, .f32⟩
  | 57 => ⟨S8x1x12544, .f32⟩
  | 58 => ⟨S8x32x12544, .f32⟩
  | 59 => ⟨S8x32x12544, .f32⟩
  | 60 => ⟨S8x1x12544, .f32⟩
  | 61 => ⟨S8x32x12544, .f32⟩
  | 62 => ⟨S8x32x12544, .f32⟩
  | 63 => ⟨S_, .f32⟩
  | 64 => ⟨S8x12544, .f32⟩
  | 65 => ⟨S8x12544, .f32⟩
  | 66 => ⟨S8x1x12544, .f32⟩
  | 67 => ⟨S8x32x12544, .f32⟩
  | 68 => ⟨S8x32x12544, .f32⟩
  | 69 => ⟨S8x32x12544, .f32⟩
  | 70 => ⟨S_, .f32⟩
  | 71 => ⟨S8x12544, .f32⟩
  | 72 => ⟨S8x12544, .f32⟩
  | 73 => ⟨S8x1x12544, .f32⟩
  | 74 => ⟨S8x32x12544, .f32⟩
  | 75 => ⟨S8x32x12544, .f32⟩
  | 76 => ⟨S8x1x12544, .f32⟩
  | 77 => ⟨S8x32x12544, .f32⟩
  | 78 => ⟨S8x32x12544, .f32⟩
  | 79 => ⟨S8x32x12544, .f32⟩
  | 80 => ⟨S8x1x12544, .f32⟩
  | 81 => ⟨S8x32x12544, .f32⟩
  | 82 => ⟨S8x32x12544, .f32⟩
  | 83 => ⟨S8x1x12544, .f32⟩
  | 84 => ⟨S8x32x12544, .f32⟩
  | 85 => ⟨S8x32x12544, .f32⟩
  | 86 => ⟨S8x32x12544, .f32⟩
  | 87 => ⟨S8x150x12544, .f32⟩
  | 88 => ⟨S_, .f32⟩
  | 89 => ⟨S8x150x12544, .f32⟩
  | 90 => ⟨S8x150x12544, .f32⟩
  | 91 => ⟨S8x150x12544, .f32⟩
  | 92 => ⟨S8x150x12544, .f32⟩
  | 93 => ⟨S8x150x12544, .i1⟩
  | 94 => ⟨S8x150x12544, .f32⟩
  | 95 => ⟨S8x150x12544, .f32⟩
  | 96 => ⟨S8x150x12544, .f32⟩
  | 97 => ⟨S8x150x12544, .f32⟩
  | 98 => ⟨S8x150x12544, .f32⟩
  | 99 => ⟨S8x150x12544, .f32⟩
  | 100 => ⟨S8x150x12544, .f32⟩
  | 101 => ⟨S8x150x12544, .f32⟩
  | 102 => ⟨S_, .f32⟩
  | 103 => ⟨S8x150x12544, .f32⟩
  | 104 => ⟨S8x150x12544, .f32⟩
  | 105 => ⟨S_, .f32⟩
  | 106 => ⟨S8x150x12544, .f32⟩
  | 107 => ⟨S8x150x12544, .f32⟩
  | 108 => ⟨S8x150x12544, .f32⟩
  | 109 => ⟨S8x150x12544, .f32⟩
  | 110 => ⟨S8x150x12544, .i1⟩
  | 111 => ⟨S8x150x12544, .f32⟩
  | 112 => ⟨S8x150x12544, .f32⟩
  | 113 => ⟨S8x150x12544, .f32⟩
  | 114 => ⟨S8x150x12544, .f32⟩
  | 115 => ⟨S8x150x12544, .f32⟩
  | 116 => ⟨S8x150x12544, .f32⟩
  | 117 => ⟨S8x150x12544, .f32⟩
  | 118 => ⟨S8x150x12544, .f32⟩
  | 119 => ⟨S_, .f32⟩
  | 120 => ⟨S8x150x12544, .f32⟩
  | 121 => ⟨S8x150x12544, .f32⟩
  | 122 => ⟨S8x12544x32, .f32⟩
  | 123 => ⟨S8x150x32, .f32⟩
  | 124 => ⟨S_, .f32⟩
  | 125 => ⟨S8x32x12544, .f32⟩
  | 126 => ⟨S8x32x12544, .f32⟩
  | 127 => ⟨S8x12544x32, .f32⟩
  | _ => ⟨S8x150x160x160, .f32⟩

abbrev hbmTy0_5 (i : Nat) : BufTy := match i % 128 with
  | 0 => ⟨S8x150x32, .f32⟩
  | 1 => ⟨S8x150x32, .f32⟩
  | 2 => ⟨S8x150x12544, .f32⟩
  | 3 => ⟨S8x150x12544, .f32⟩
  | 4 => ⟨S_, .f32⟩
  | 5 => ⟨S8x150x12544, .f32⟩
  | 6 => ⟨S8x150x12544, .f32⟩
  | 7 => ⟨S_, .f32⟩
  | 8 => ⟨S8x150x12544, .f32⟩
  | 9 => ⟨S8x150x12544, .f32⟩
  | 10 => ⟨S8x12544x32, .f32⟩
  | 11 => ⟨S8x150x32, .f32⟩
  | 12 => ⟨S_, .f32⟩
  | 13 => ⟨S8x150x32, .f32⟩
  | 14 => ⟨S8x150x32, .f32⟩
  | 15 => ⟨S_, .f32⟩
  | 16 => ⟨S8x150, .f32⟩
  | 17 => ⟨S8x150x1, .f32⟩
  | 18 => ⟨S_, .f32⟩
  | 19 => ⟨S8x32, .f32⟩
  | 20 => ⟨S8x1x32, .f32⟩
  | 21 => ⟨S8x150x32, .f32⟩
  | 22 => ⟨S8x150x32, .f32⟩
  | 23 => ⟨S8x150x32, .f32⟩
  | 24 => ⟨S_, .f32⟩
  | 25 => ⟨S8x150x32, .f32⟩
  | 26 => ⟨S8x150x32, .f32⟩
  | 27 => ⟨S_, .f32⟩
  | 28 => ⟨S8x150x32, .f32⟩
  | 29 => ⟨S8x150x32, .f32⟩
  | 30 => ⟨S8x150x32, .f32⟩
  | 31 => ⟨S_, .f32⟩
  | 32 => ⟨S8x150x32, .f32⟩
  | 33 => ⟨S8x150x32, .f32⟩
  | 34 => ⟨S_, .f32⟩
  | 35 => ⟨S8x150x32, .f32⟩
  | 36 => ⟨S8x150x32, .f32⟩
  | 37 => ⟨S_, .f32⟩
  | 38 => ⟨S8x150x32, .f32⟩
  | 39 => ⟨S8x150x32, .f32⟩
  | 40 => ⟨S8x150x32, .f32⟩
  | 41 => ⟨S_, .f32⟩
  | 42 => ⟨S8x150x32, .f32⟩
  | 43 => ⟨S8x150x32, .f32⟩
  | 44 => ⟨S8x150x32, .f32⟩
  | _ => ⟨S8x150x160x160, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x150x160x160, .f32⟩

abbrev bufTy : (tb : Table) → Fin (tcTables nBuf tb) → BufTy
  | .hbm, ⟨i, _⟩ => hbmTy i
  | _, _ => ⟨S8x150x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_11 : Ref sig .tc := ⟨.hbm, 67, rfl⟩
abbrev main_c_12 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v49 : Ref sig .tc := ⟨.hbm, 74, rfl⟩
abbrev main_c_13 : Ref sig .tc := ⟨.hbm, 75, rfl⟩
abbrev main_c_14 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v50 : Ref sig .tc := ⟨.hbm, 82, rfl⟩
abbrev main_c_15 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_19 : Ref sig .tc := ⟨.hbm, 104, rfl⟩
abbrev main_v68 : Ref sig .tc := ⟨.hbm, 105, rfl⟩
abbrev main_v69 : Ref sig .tc := ⟨.hbm, 106, rfl⟩
abbrev main_c_20 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_22 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_23 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_24 : Ref sig .tc := ⟨.hbm, 123, rfl⟩
abbrev main_c_25 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v82 : Ref sig .tc := ⟨.hbm, 130, rfl⟩
abbrev main_c_26 : Ref sig .tc := ⟨.hbm, 131, rfl⟩
abbrev main_c_27 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v83 : Ref sig .tc := ⟨.hbm, 138, rfl⟩
abbrev main_c_28 : Ref sig .tc := ⟨.hbm, 139, rfl⟩
abbrev main_v84 : Ref sig .tc := ⟨.hbm, 140, rfl⟩
abbrev main_v85 : Ref sig .tc := ⟨.hbm, 141, rfl⟩
abbrev main_c_29 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_30 : Ref sig .tc := ⟨.hbm, 146, rfl⟩
abbrev main_v89 : Ref sig .tc := ⟨.hbm, 147, rfl⟩
abbrev main_v90 : Ref sig .tc := ⟨.hbm, 148, rfl⟩
abbrev main_c_31 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_c_32 : Ref sig .tc := ⟨.hbm, 160, rfl⟩
abbrev main_v101 : Ref sig .tc := ⟨.hbm, 161, rfl⟩
abbrev main_v102 : Ref sig .tc := ⟨.hbm, 162, rfl⟩
abbrev main_c_33 : Ref sig .tc := ⟨.hbm, 163, rfl⟩
abbrev main_v103 : Ref sig .tc := ⟨.hbm, 164, rfl⟩
abbrev main_v104 : Ref sig .tc := ⟨.hbm, 165, rfl⟩
abbrev main_c_34 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_35 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_36 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_37 : Ref sig .tc := ⟨.hbm, 179, rfl⟩
abbrev main_c_38 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v115 : Ref sig .tc := ⟨.hbm, 186, rfl⟩
abbrev main_c_39 : Ref sig .tc := ⟨.hbm, 187, rfl⟩
abbrev main_c_40 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_v116 : Ref sig .tc := ⟨.hbm, 194, rfl⟩
abbrev main_c_41 : Ref sig .tc := ⟨.hbm, 195, rfl⟩
abbrev main_v117 : Ref sig .tc := ⟨.hbm, 196, rfl⟩
abbrev main_v118 : Ref sig .tc := ⟨.hbm, 197, rfl⟩
abbrev main_c_42 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_c_43 : Ref sig .tc := ⟨.hbm, 202, rfl⟩
abbrev main_v122 : Ref sig .tc := ⟨.hbm, 203, rfl⟩
abbrev main_v123 : Ref sig .tc := ⟨.hbm, 204, rfl⟩
abbrev main_c_44 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_c_45 : Ref sig .tc := ⟨.hbm, 216, rfl⟩
abbrev main_v134 : Ref sig .tc := ⟨.hbm, 217, rfl⟩
abbrev main_v135 : Ref sig .tc := ⟨.hbm, 218, rfl⟩
abbrev main_c_46 : Ref sig .tc := ⟨.hbm, 219, rfl⟩
abbrev main_v136 : Ref sig .tc := ⟨.hbm, 220, rfl⟩
abbrev main_v137 : Ref sig .tc := ⟨.hbm, 221, rfl⟩
abbrev main_c_47 : Ref sig .tc := ⟨.hbm, 222, rfl⟩
abbrev main_v138 : Ref sig .tc := ⟨.hbm, 223, rfl⟩
abbrev main_v139 : Ref sig .tc := ⟨.hbm, 224, rfl⟩
abbrev main_c_48 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_c_49 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_c_50 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_c_51 : Ref sig .tc := ⟨.hbm, 238, rfl⟩
abbrev main_c_52 : Ref sig .tc := ⟨.hbm, 239, rfl⟩
abbrev main_call6_v0 : Ref sig .tc := ⟨.hbm, 240, rfl⟩
abbrev main_call6_v1 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_v150 : Ref sig .tc := ⟨.hbm, 245, rfl⟩
abbrev main_c_53 : Ref sig .tc := ⟨.hbm, 246, rfl⟩
abbrev main_c_54 : Ref sig .tc := ⟨.hbm, 247, rfl⟩
abbrev main_call7_v0 : Ref sig .tc := ⟨.hbm, 248, rfl⟩
abbrev main_call7_v1 : Ref sig .tc := ⟨.hbm, 249, rfl⟩
abbrev main_call7_v2 : Ref sig .tc := ⟨.hbm, 250, rfl⟩
abbrev main_call7_v3 : Ref sig .tc := ⟨.hbm, 251, rfl⟩
abbrev main_call7_v4 : Ref sig .tc := ⟨.hbm, 252, rfl⟩
abbrev main_v151 : Ref sig .tc := ⟨.hbm, 253, rfl⟩
abbrev main_c_55 : Ref sig .tc := ⟨.hbm, 254, rfl⟩
abbrev main_v152 : Ref sig .tc := ⟨.hbm, 255, rfl⟩
abbrev main_v153 : Ref sig .tc := ⟨.hbm, 256, rfl⟩
abbrev main_c_56 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_c_57 : Ref sig .tc := ⟨.hbm, 261, rfl⟩
abbrev main_v157 : Ref sig .tc := ⟨.hbm, 262, rfl⟩
abbrev main_v158 : Ref sig .tc := ⟨.hbm, 263, rfl⟩
abbrev main_c_58 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_cst_59 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_cst_60 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_cst_61 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_cst_62 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_cst_63 : Ref sig .tc := ⟨.hbm, 316, rfl⟩
abbrev main_v206 : Ref sig .tc := ⟨.hbm, 317, rfl⟩
abbrev main_v207 : Ref sig .tc := ⟨.hbm, 318, rfl⟩
abbrev main_cst_64 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_cst_65 : Ref sig .tc := ⟨.hbm, 324, rfl⟩
abbrev main_v212 : Ref sig .tc := ⟨.hbm, 325, rfl⟩
abbrev main_v213 : Ref sig .tc := ⟨.hbm, 326, rfl⟩
abbrev main_cst_66 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_c_67 : Ref sig .tc := ⟨.hbm, 336, rfl⟩
abbrev main_v222 : Ref sig .tc := ⟨.hbm, 337, rfl⟩
abbrev main_v223 : Ref sig .tc := ⟨.hbm, 338, rfl⟩
abbrev main_c_68 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_c_69 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_c_70 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_c_71 : Ref sig .tc := ⟨.hbm, 352, rfl⟩
abbrev main_c_72 : Ref sig .tc := ⟨.hbm, 353, rfl⟩
abbrev main_call8_v0 : Ref sig .tc := ⟨.hbm, 354, rfl⟩
abbrev main_call8_v1 : Ref sig .tc := ⟨.hbm, 355, rfl⟩
abbrev main_call8_v2 : Ref sig .tc := ⟨.hbm, 356, rfl⟩
abbrev main_call8_v3 : Ref sig .tc := ⟨.hbm, 357, rfl⟩
abbrev main_call8_v4 : Ref sig .tc := ⟨.hbm, 358, rfl⟩
abbrev main_v234 : Ref sig .tc := ⟨.hbm, 359, rfl⟩
abbrev main_c_73 : Ref sig .tc := ⟨.hbm, 360, rfl⟩
abbrev main_c_74 : Ref sig .tc := ⟨.hbm, 361, rfl⟩
abbrev main_call9_v0 : Ref sig .tc := ⟨.hbm, 362, rfl⟩
abbrev main_call9_v1 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_v235 : Ref sig .tc := ⟨.hbm, 367, rfl⟩
abbrev main_c_75 : Ref sig .tc := ⟨.hbm, 368, rfl⟩
abbrev main_v236 : Ref sig .tc := ⟨.hbm, 369, rfl⟩
abbrev main_v237 : Ref sig .tc := ⟨.hbm, 370, rfl⟩
abbrev main_c_76 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_c_77 : Ref sig .tc := ⟨.hbm, 375, rfl⟩
abbrev main_v241 : Ref sig .tc := ⟨.hbm, 376, rfl⟩
abbrev main_v242 : Ref sig .tc := ⟨.hbm, 377, rfl⟩
abbrev main_c_78 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_c_79 : Ref sig .tc := ⟨.hbm, 389, rfl⟩
abbrev main_v253 : Ref sig .tc := ⟨.hbm, 390, rfl⟩
abbrev main_v254 : Ref sig .tc := ⟨.hbm, 391, rfl⟩
abbrev main_c_80 : Ref sig .tc := ⟨.hbm, 392, rfl⟩
abbrev main_v255 : Ref sig .tc := ⟨.hbm, 393, rfl⟩
abbrev main_v256 : Ref sig .tc := ⟨.hbm, 394, rfl⟩
abbrev main_c_81 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_c_82 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_c_83 : Ref sig .tc := ⟨.hbm, 403, rfl⟩
abbrev main_v263 : Ref sig .tc := ⟨.hbm, 404, rfl⟩
abbrev main_v264 : Ref sig .tc := ⟨.hbm, 405, rfl⟩
abbrev main_v265 : Ref sig .tc := ⟨.hbm, 406, rfl⟩
abbrev main_v266 : Ref sig .tc := ⟨.hbm, 407, rfl⟩
abbrev main_c_84 : Ref sig .tc := ⟨.hbm, 408, rfl⟩
abbrev main_c_85 : Ref sig .tc := ⟨.hbm, 409, rfl⟩
abbrev main_call10_v0 : Ref sig .tc := ⟨.hbm, 410, rfl⟩
abbrev main_call10_v1 : Ref sig .tc := ⟨.hbm, 411, rfl⟩
abbrev main_call10_v2 : Ref sig .tc := ⟨.hbm, 412, rfl⟩
abbrev main_call10_v3 : Ref sig .tc := ⟨.hbm, 413, rfl⟩
abbrev main_call10_v4 : Ref sig .tc := ⟨.hbm, 414, rfl⟩
abbrev main_v267 : Ref sig .tc := ⟨.hbm, 415, rfl⟩
abbrev main_c_86 : Ref sig .tc := ⟨.hbm, 416, rfl⟩
abbrev main_c_87 : Ref sig .tc := ⟨.hbm, 417, rfl⟩
abbrev main_call11_v0 : Ref sig .tc := ⟨.hbm, 418, rfl⟩
abbrev main_call11_v1 : Ref sig .tc := ⟨.hbm, 419, rfl⟩
abbrev main_call11_v2 : Ref sig .tc := ⟨.hbm, 420, rfl⟩
abbrev main_call11_v3 : Ref sig .tc := ⟨.hbm, 421, rfl⟩
abbrev main_call11_v4 : Ref sig .tc := ⟨.hbm, 422, rfl⟩
abbrev main_v268 : Ref sig .tc := ⟨.hbm, 423, rfl⟩
abbrev main_c_88 : Ref sig .tc := ⟨.hbm, 424, rfl⟩
abbrev main_v269 : Ref sig .tc := ⟨.hbm, 425, rfl⟩
abbrev main_v270 : Ref sig .tc := ⟨.hbm, 426, rfl⟩
abbrev main_c_89 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_c_90 : Ref sig .tc := ⟨.hbm, 431, rfl⟩
abbrev main_v274 : Ref sig .tc := ⟨.hbm, 432, rfl⟩
abbrev main_v275 : Ref sig .tc := ⟨.hbm, 433, rfl⟩
abbrev main_c_91 : Ref sig .tc := ⟨.hbm, 434, rfl⟩
abbrev main_v276 : Ref sig .tc := ⟨.hbm, 435, rfl⟩
abbrev main_v277 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_c_92 : Ref sig .tc := ⟨.hbm, 445, rfl⟩
abbrev main_v286 : Ref sig .tc := ⟨.hbm, 446, rfl⟩
abbrev main_v287 : Ref sig .tc := ⟨.hbm, 447, rfl⟩
abbrev main_c_93 : Ref sig .tc := ⟨.hbm, 448, rfl⟩
abbrev main_v288 : Ref sig .tc := ⟨.hbm, 449, rfl⟩
abbrev main_v289 : Ref sig .tc := ⟨.hbm, 450, rfl⟩
abbrev main_c_94 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_c_95 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_c_96 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_v299 : Ref sig .tc := ⟨.hbm, 463, rfl⟩
abbrev main_c_97 : Ref sig .tc := ⟨.hbm, 464, rfl⟩
abbrev main_c_98 : Ref sig .tc := ⟨.hbm, 465, rfl⟩
abbrev main_call12_v0 : Ref sig .tc := ⟨.hbm, 466, rfl⟩
abbrev main_call12_v1 : Ref sig .tc := ⟨.hbm, 467, rfl⟩
abbrev main_call12_v2 : Ref sig .tc := ⟨.hbm, 468, rfl⟩
abbrev main_call12_v3 : Ref sig .tc := ⟨.hbm, 469, rfl⟩
abbrev main_call12_v4 : Ref sig .tc := ⟨.hbm, 470, rfl⟩
abbrev main_v300 : Ref sig .tc := ⟨.hbm, 471, rfl⟩
abbrev main_c_99 : Ref sig .tc := ⟨.hbm, 472, rfl⟩
abbrev main_c_100 : Ref sig .tc := ⟨.hbm, 473, rfl⟩
abbrev main_call13_v0 : Ref sig .tc := ⟨.hbm, 474, rfl⟩
abbrev main_call13_v1 : Ref sig .tc := ⟨.hbm, 475, rfl⟩
abbrev main_call13_v2 : Ref sig .tc := ⟨.hbm, 476, rfl⟩
abbrev main_call13_v3 : Ref sig .tc := ⟨.hbm, 477, rfl⟩
abbrev main_call13_v4 : Ref sig .tc := ⟨.hbm, 478, rfl⟩
abbrev main_v301 : Ref sig .tc := ⟨.hbm, 479, rfl⟩
abbrev main_c_101 : Ref sig .tc := ⟨.hbm, 480, rfl⟩
abbrev main_v302 : Ref sig .tc := ⟨.hbm, 481, rfl⟩
abbrev main_v303 : Ref sig .tc := ⟨.hbm, 482, rfl⟩
abbrev main_c_102 : Ref sig .tc := ⟨.hbm, 483, rfl⟩
abbrev main_v304 : Ref sig .tc := ⟨.hbm, 484, rfl⟩
abbrev main_v305 : Ref sig .tc := ⟨.hbm, 485, rfl⟩
abbrev main_v306 : Ref sig .tc := ⟨.hbm, 486, rfl⟩
abbrev main_c_103 : Ref sig .tc := ⟨.hbm, 487, rfl⟩
abbrev main_v307 : Ref sig .tc := ⟨.hbm, 488, rfl⟩
abbrev main_v308 : Ref sig .tc := ⟨.hbm, 489, rfl⟩
abbrev main_c_104 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_v313 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_v317 : Ref sig .tc := ⟨.hbm, 499, rfl⟩
abbrev main_v318 : Ref sig .tc := ⟨.hbm, 500, rfl⟩
abbrev main_c_105 : Ref sig .tc := ⟨.hbm, 501, rfl⟩
abbrev main_v319 : Ref sig .tc := ⟨.hbm, 502, rfl⟩
abbrev main_v320 : Ref sig .tc := ⟨.hbm, 503, rfl⟩
abbrev main_c_106 : Ref sig .tc := ⟨.hbm, 504, rfl⟩
abbrev main_v321 : Ref sig .tc := ⟨.hbm, 505, rfl⟩
abbrev main_v322 : Ref sig .tc := ⟨.hbm, 506, rfl⟩
abbrev main_c_107 : Ref sig .tc := ⟨.hbm, 507, rfl⟩
abbrev main_v323 : Ref sig .tc := ⟨.hbm, 508, rfl⟩
abbrev main_v324 : Ref sig .tc := ⟨.hbm, 509, rfl⟩
abbrev main_c_108 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_c_109 : Ref sig .tc := ⟨.hbm, 514, rfl⟩
abbrev main_v328 : Ref sig .tc := ⟨.hbm, 515, rfl⟩
abbrev main_v329 : Ref sig .tc := ⟨.hbm, 516, rfl⟩
abbrev main_v330 : Ref sig .tc := ⟨.hbm, 517, rfl⟩
abbrev main_c_110 : Ref sig .tc := ⟨.hbm, 518, rfl⟩
abbrev main_v331 : Ref sig .tc := ⟨.hbm, 519, rfl⟩
abbrev main_v332 : Ref sig .tc := ⟨.hbm, 520, rfl⟩
abbrev main_v333 : Ref sig .tc := ⟨.hbm, 521, rfl⟩
abbrev main_v334 : Ref sig .tc := ⟨.hbm, 522, rfl⟩
abbrev main_c_111 : Ref sig .tc := ⟨.hbm, 523, rfl⟩
abbrev main_c_112 : Ref sig .tc := ⟨.hbm, 524, rfl⟩
abbrev main_call14_v0 : Ref sig .tc := ⟨.hbm, 525, rfl⟩
abbrev main_call14_v1 : Ref sig .tc := ⟨.hbm, 526, rfl⟩
abbrev main_call14_v2 : Ref sig .tc := ⟨.hbm, 527, rfl⟩
abbrev main_call14_v3 : Ref sig .tc := ⟨.hbm, 528, rfl⟩
abbrev main_call14_v4 : Ref sig .tc := ⟨.hbm, 529, rfl⟩
abbrev main_v335 : Ref sig .tc := ⟨.hbm, 530, rfl⟩
abbrev main_c_113 : Ref sig .tc := ⟨.hbm, 531, rfl⟩
abbrev main_c_114 : Ref sig .tc := ⟨.hbm, 532, rfl⟩
abbrev main_call15_v0 : Ref sig .tc := ⟨.hbm, 533, rfl⟩
abbrev main_call15_v1 : Ref sig .tc := ⟨.hbm, 534, rfl⟩
abbrev main_call15_v2 : Ref sig .tc := ⟨.hbm, 535, rfl⟩
abbrev main_call15_v3 : Ref sig .tc := ⟨.hbm, 536, rfl⟩
abbrev main_call15_v4 : Ref sig .tc := ⟨.hbm, 537, rfl⟩
abbrev main_v336 : Ref sig .tc := ⟨.hbm, 538, rfl⟩
abbrev main_c_115 : Ref sig .tc := ⟨.hbm, 539, rfl⟩
abbrev main_v337 : Ref sig .tc := ⟨.hbm, 540, rfl⟩
abbrev main_v338 : Ref sig .tc := ⟨.hbm, 541, rfl⟩
abbrev main_c_116 : Ref sig .tc := ⟨.hbm, 542, rfl⟩
abbrev main_v339 : Ref sig .tc := ⟨.hbm, 543, rfl⟩
abbrev main_v340 : Ref sig .tc := ⟨.hbm, 544, rfl⟩
abbrev main_v341 : Ref sig .tc := ⟨.hbm, 545, rfl⟩
abbrev main_c_117 : Ref sig .tc := ⟨.hbm, 546, rfl⟩
abbrev main_v342 : Ref sig .tc := ⟨.hbm, 547, rfl⟩
abbrev main_v343 : Ref sig .tc := ⟨.hbm, 548, rfl⟩
abbrev main_c_118 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_v347 : Ref sig .tc := ⟨.hbm, 553, rfl⟩
abbrev main_v348 : Ref sig .tc := ⟨.hbm, 554, rfl⟩
abbrev main_v349 : Ref sig .tc := ⟨.hbm, 555, rfl⟩
abbrev main_v350 : Ref sig .tc := ⟨.hbm, 556, rfl⟩
abbrev main_v351 : Ref sig .tc := ⟨.hbm, 557, rfl⟩
abbrev main_v352 : Ref sig .tc := ⟨.hbm, 558, rfl⟩
abbrev main_v353 : Ref sig .tc := ⟨.hbm, 559, rfl⟩
abbrev main_cst_119 : Ref sig .tc := ⟨.hbm, 560, rfl⟩
abbrev main_v354 : Ref sig .tc := ⟨.hbm, 561, rfl⟩
abbrev main_v355 : Ref sig .tc := ⟨.hbm, 562, rfl⟩
abbrev main_v356 : Ref sig .tc := ⟨.hbm, 563, rfl⟩
abbrev main_v357 : Ref sig .tc := ⟨.hbm, 564, rfl⟩
abbrev main_v358 : Ref sig .tc := ⟨.hbm, 565, rfl⟩
abbrev main_cst_120 : Ref sig .tc := ⟨.hbm, 566, rfl⟩
abbrev main_v359 : Ref sig .tc := ⟨.hbm, 567, rfl⟩
abbrev main_v360 : Ref sig .tc := ⟨.hbm, 568, rfl⟩
abbrev main_v361 : Ref sig .tc := ⟨.hbm, 569, rfl⟩
abbrev main_v362 : Ref sig .tc := ⟨.hbm, 570, rfl⟩
abbrev main_v363 : Ref sig .tc := ⟨.hbm, 571, rfl⟩
abbrev main_v364 : Ref sig .tc := ⟨.hbm, 572, rfl⟩
abbrev main_v365 : Ref sig .tc := ⟨.hbm, 573, rfl⟩
abbrev main_v366 : Ref sig .tc := ⟨.hbm, 574, rfl⟩
abbrev main_cst_121 : Ref sig .tc := ⟨.hbm, 575, rfl⟩
abbrev main_v367 : Ref sig .tc := ⟨.hbm, 576, rfl⟩
abbrev main_v368 : Ref sig .tc := ⟨.hbm, 577, rfl⟩
abbrev main_v369 : Ref sig .tc := ⟨.hbm, 578, rfl⟩
abbrev main_v370 : Ref sig .tc := ⟨.hbm, 579, rfl⟩
abbrev main_v371 : Ref sig .tc := ⟨.hbm, 580, rfl⟩
abbrev main_v372 : Ref sig .tc := ⟨.hbm, 581, rfl⟩
abbrev main_cst_122 : Ref sig .tc := ⟨.hbm, 582, rfl⟩
abbrev main_v373 : Ref sig .tc := ⟨.hbm, 583, rfl⟩
abbrev main_v374 : Ref sig .tc := ⟨.hbm, 584, rfl⟩
abbrev main_v375 : Ref sig .tc := ⟨.hbm, 585, rfl⟩
abbrev main_v376 : Ref sig .tc := ⟨.hbm, 586, rfl⟩
abbrev main_v377 : Ref sig .tc := ⟨.hbm, 587, rfl⟩
abbrev main_v378 : Ref sig .tc := ⟨.hbm, 588, rfl⟩
abbrev main_v379 : Ref sig .tc := ⟨.hbm, 589, rfl⟩
abbrev main_v380 : Ref sig .tc := ⟨.hbm, 590, rfl⟩
abbrev main_v381 : Ref sig .tc := ⟨.hbm, 591, rfl⟩
abbrev main_v382 : Ref sig .tc := ⟨.hbm, 592, rfl⟩
abbrev main_v383 : Ref sig .tc := ⟨.hbm, 593, rfl⟩
abbrev main_v384 : Ref sig .tc := ⟨.hbm, 594, rfl⟩
abbrev main_v385 : Ref sig .tc := ⟨.hbm, 595, rfl⟩
abbrev main_v386 : Ref sig .tc := ⟨.hbm, 596, rfl⟩
abbrev main_v387 : Ref sig .tc := ⟨.hbm, 597, rfl⟩
abbrev main_v388 : Ref sig .tc := ⟨.hbm, 598, rfl⟩
abbrev main_v389 : Ref sig .tc := ⟨.hbm, 599, rfl⟩
abbrev main_call16_cst : Ref sig .tc := ⟨.hbm, 600, rfl⟩
abbrev main_call16_v0 : Ref sig .tc := ⟨.hbm, 601, rfl⟩
abbrev main_call16_v1 : Ref sig .tc := ⟨.hbm, 602, rfl⟩
abbrev main_call16_v2 : Ref sig .tc := ⟨.hbm, 603, rfl⟩
abbrev main_call16_v3 : Ref sig .tc := ⟨.hbm, 604, rfl⟩
abbrev main_call16_v4 : Ref sig .tc := ⟨.hbm, 605, rfl⟩
abbrev main_call16_v5 : Ref sig .tc := ⟨.hbm, 606, rfl⟩
abbrev main_call16_v6 : Ref sig .tc := ⟨.hbm, 607, rfl⟩
abbrev main_call16_v7 : Ref sig .tc := ⟨.hbm, 608, rfl⟩
abbrev main_call16_v8 : Ref sig .tc := ⟨.hbm, 609, rfl⟩
abbrev main_call16_v9 : Ref sig .tc := ⟨.hbm, 610, rfl⟩
abbrev main_call16_v10 : Ref sig .tc := ⟨.hbm, 611, rfl⟩
abbrev main_call16_v11 : Ref sig .tc := ⟨.hbm, 612, rfl⟩
abbrev main_v390 : Ref sig .tc := ⟨.hbm, 613, rfl⟩
abbrev main_cst_123 : Ref sig .tc := ⟨.hbm, 614, rfl⟩
abbrev main_v391 : Ref sig .tc := ⟨.hbm, 615, rfl⟩
abbrev main_v392 : Ref sig .tc := ⟨.hbm, 616, rfl⟩
abbrev main_call17_cst : Ref sig .tc := ⟨.hbm, 617, rfl⟩
abbrev main_call17_v0 : Ref sig .tc := ⟨.hbm, 618, rfl⟩
abbrev main_call17_v1 : Ref sig .tc := ⟨.hbm, 619, rfl⟩
abbrev main_call17_v2 : Ref sig .tc := ⟨.hbm, 620, rfl⟩
abbrev main_call17_v3 : Ref sig .tc := ⟨.hbm, 621, rfl⟩
abbrev main_call17_v4 : Ref sig .tc := ⟨.hbm, 622, rfl⟩
abbrev main_call17_v5 : Ref sig .tc := ⟨.hbm, 623, rfl⟩
abbrev main_call17_v6 : Ref sig .tc := ⟨.hbm, 624, rfl⟩
abbrev main_call17_v7 : Ref sig .tc := ⟨.hbm, 625, rfl⟩
abbrev main_call17_v8 : Ref sig .tc := ⟨.hbm, 626, rfl⟩
abbrev main_call17_v9 : Ref sig .tc := ⟨.hbm, 627, rfl⟩
abbrev main_call17_v10 : Ref sig .tc := ⟨.hbm, 628, rfl⟩
abbrev main_call17_v11 : Ref sig .tc := ⟨.hbm, 629, rfl⟩
abbrev main_v393 : Ref sig .tc := ⟨.hbm, 630, rfl⟩
abbrev main_cst_124 : Ref sig .tc := ⟨.hbm, 631, rfl⟩
abbrev main_v394 : Ref sig .tc := ⟨.hbm, 632, rfl⟩
abbrev main_v395 : Ref sig .tc := ⟨.hbm, 633, rfl⟩
abbrev main_v396 : Ref sig .tc := ⟨.hbm, 634, rfl⟩
abbrev main_v397 : Ref sig .tc := ⟨.hbm, 635, rfl⟩
abbrev main_cst_125 : Ref sig .tc := ⟨.hbm, 636, rfl⟩
abbrev main_v398 : Ref sig .tc := ⟨.hbm, 637, rfl⟩
abbrev main_v399 : Ref sig .tc := ⟨.hbm, 638, rfl⟩
abbrev main_v400 : Ref sig .tc := ⟨.hbm, 639, rfl⟩
abbrev main_v401 : Ref sig .tc := ⟨.hbm, 640, rfl⟩
abbrev main_v402 : Ref sig .tc := ⟨.hbm, 641, rfl⟩
abbrev main_v403 : Ref sig .tc := ⟨.hbm, 642, rfl⟩
abbrev main_v404 : Ref sig .tc := ⟨.hbm, 643, rfl⟩
abbrev main_cst_126 : Ref sig .tc := ⟨.hbm, 644, rfl⟩
abbrev main_v405 : Ref sig .tc := ⟨.hbm, 645, rfl⟩
abbrev main_v406 : Ref sig .tc := ⟨.hbm, 646, rfl⟩
abbrev main_cst_127 : Ref sig .tc := ⟨.hbm, 647, rfl⟩
abbrev main_v407 : Ref sig .tc := ⟨.hbm, 648, rfl⟩
abbrev main_v408 : Ref sig .tc := ⟨.hbm, 649, rfl⟩
abbrev main_v409 : Ref sig .tc := ⟨.hbm, 650, rfl⟩
abbrev main_v410 : Ref sig .tc := ⟨.hbm, 651, rfl⟩
abbrev main_cst_128 : Ref sig .tc := ⟨.hbm, 652, rfl⟩
abbrev main_v411 : Ref sig .tc := ⟨.hbm, 653, rfl⟩
abbrev main_v412 : Ref sig .tc := ⟨.hbm, 654, rfl⟩
abbrev main_cst_129 : Ref sig .tc := ⟨.hbm, 655, rfl⟩
abbrev main_v413 : Ref sig .tc := ⟨.hbm, 656, rfl⟩
abbrev main_v414 : Ref sig .tc := ⟨.hbm, 657, rfl⟩
abbrev main_cst_130 : Ref sig .tc := ⟨.hbm, 658, rfl⟩
abbrev main_v415 : Ref sig .tc := ⟨.hbm, 659, rfl⟩
abbrev main_v416 : Ref sig .tc := ⟨.hbm, 660, rfl⟩
abbrev main_v417 : Ref sig .tc := ⟨.hbm, 661, rfl⟩
abbrev main_v418 : Ref sig .tc := ⟨.hbm, 662, rfl⟩
abbrev main_v419 : Ref sig .tc := ⟨.hbm, 663, rfl⟩
abbrev main_cst_131 : Ref sig .tc := ⟨.hbm, 664, rfl⟩
abbrev main_v420 : Ref sig .tc := ⟨.hbm, 665, rfl⟩
abbrev main_v421 : Ref sig .tc := ⟨.hbm, 666, rfl⟩
abbrev main_cst_132 : Ref sig .tc := ⟨.hbm, 667, rfl⟩
abbrev main_v422 : Ref sig .tc := ⟨.hbm, 668, rfl⟩
abbrev main_v423 : Ref sig .tc := ⟨.hbm, 669, rfl⟩
abbrev main_v424 : Ref sig .tc := ⟨.hbm, 670, rfl⟩
abbrev main_cst_133 : Ref sig .tc := ⟨.hbm, 671, rfl⟩
abbrev main_v425 : Ref sig .tc := ⟨.hbm, 672, rfl⟩
abbrev main_v426 : Ref sig .tc := ⟨.hbm, 673, rfl⟩
abbrev main_cst_134 : Ref sig .tc := ⟨.hbm, 674, rfl⟩
abbrev main_v427 : Ref sig .tc := ⟨.hbm, 675, rfl⟩
abbrev main_v428 : Ref sig .tc := ⟨.hbm, 676, rfl⟩
abbrev main_cst_135 : Ref sig .tc := ⟨.hbm, 677, rfl⟩
abbrev main_v429 : Ref sig .tc := ⟨.hbm, 678, rfl⟩
abbrev main_v430 : Ref sig .tc := ⟨.hbm, 679, rfl⟩
abbrev main_v431 : Ref sig .tc := ⟨.hbm, 680, rfl⟩
abbrev main_cst_136 : Ref sig .tc := ⟨.hbm, 681, rfl⟩
abbrev main_v432 : Ref sig .tc := ⟨.hbm, 682, rfl⟩
abbrev main_v433 : Ref sig .tc := ⟨.hbm, 683, rfl⟩
abbrev main_v434 : Ref sig .tc := ⟨.hbm, 684, rfl⟩

abbrev nD : Nat := 1
abbrev τ : Topo := Topo.v7x

variable {F : FTy → Type} [FloatOps F]

class Facts₀ : Prop where
  reducesTo_S8x150x134_S8x150_d2 : S8x150x134.ReducesTo [2] S8x150
  h_S_ : 0 < S_.numel
  bcast_S_S8x150 : S_.BroadcastsInDim S8x150 (![] : Fin 0 → Fin S8x150.rank)
  bcast_S8x150_S8x150x1_0_1 : S8x150.BroadcastsInDim S8x150x1 (![0, 1] : Fin 2 → Fin S8x150x1.rank)
  bcast_S8x150x1_S8x150x134_0_1_2 : S8x150x1.BroadcastsInDim S8x150x134 (![0, 1, 2] : Fin 3 → Fin S8x150x134.rank)
  bcast_S_S8x32 : S_.BroadcastsInDim S8x32 (![] : Fin 0 → Fin S8x32.rank)
  bcast_S8x32_S8x32x1_0_1 : S8x32.BroadcastsInDim S8x32x1 (![0, 1] : Fin 2 → Fin S8x32x1.rank)
  slices_S8x12544x2_S8x12544x1_0_0_0 : S8x12544x2.Slices ![0, 0, 0] S8x12544x1
  shapeCasts_S8x12544x1_S8x12544 : S8x12544x1.ShapeCasts S8x12544
  bcast_S_S8x12544 : S_.BroadcastsInDim S8x12544 (![] : Fin 0 → Fin S8x12544.rank)
  slices_S8x12544x2_S8x12544x1_0_0_1 : S8x12544x2.Slices ![0, 0, 1] S8x12544x1
  bcast_S8x12544_S8x12544x1_0_1 : S8x12544.BroadcastsInDim S8x12544x1 (![0, 1] : Fin 2 → Fin S8x12544x1.rank)
  concatenates_S8x12544x1_S8x12544x1_S8x12544x2_d2 : Shape.Concatenates [S8x12544x1, S8x12544x1] S8x12544x2 2
  bcast_S8x12544_S8x1x12544_0_2 : S8x12544.BroadcastsInDim S8x1x12544 (![0, 2] : Fin 2 → Fin S8x1x12544.rank)
  bcast_S8x1x12544_S8x150x12544_0_1_2 : S8x1x12544.BroadcastsInDim S8x150x12544 (![0, 1, 2] : Fin 3 → Fin S8x150x12544.rank)
  bcast_S8x1x12544_S8x32x12544_0_1_2 : S8x1x12544.BroadcastsInDim S8x32x12544 (![0, 1, 2] : Fin 3 → Fin S8x32x12544.rank)
  bcast_S_S8x150x12544 : S_.BroadcastsInDim S8x150x12544 (![] : Fin 0 → Fin S8x150x12544.rank)
  transposes_S8x32x12544_S8x12544x32_0_2_1 : S8x32x12544.Transposes [0, 2, 1] S8x12544x32
  bcast_S_S8x32x12544 : S_.BroadcastsInDim S8x32x12544 (![] : Fin 0 → Fin S8x32x12544.rank)
  bcast_S_S8x150x32 : S_.BroadcastsInDim S8x150x32 (![] : Fin 0 → Fin S8x150x32.rank)
  reducesTo_S8x150x12544_S8x150_d2 : S8x150x12544.ReducesTo [2] S8x150
  reducesTo_S8x32x12544_S8x32_d2 : S8x32x12544.ReducesTo [2] S8x32
  bcast_S8x32_S8x1x32_0_2 : S8x32.BroadcastsInDim S8x1x32 (![0, 2] : Fin 2 → Fin S8x1x32.rank)
  bcast_S8x150x1_S8x150x32_0_1_2 : S8x150x1.BroadcastsInDim S8x150x32 (![0, 1, 2] : Fin 3 → Fin S8x150x32.rank)
  bcast_S8x1x32_S8x150x32_0_1_2 : S8x1x32.BroadcastsInDim S8x150x32 (![0, 1, 2] : Fin 3 → Fin S8x150x32.rank)
  gather_S8x150x134_S8x32x1_S8x150x32_1_2_0_0_2_2_11501_wf : GatherDims.WF S8x150x134 S8x32x1 S8x150x32 [1] [2] [0] [2] [0] 2 ![1, 150, 1]
  gather_S8x150x160x160_S8x12544x2_S8x150x12544_1_23_0_0_23_2_115011_wf : GatherDims.WF S8x150x160x160 S8x12544x2 S8x150x12544 [1] [2, 3] [0] [2, 3] [0] 2 ![1, 150, 1, 1]
  gather_S8x32x160x160_S8x12544x2_S8x32x12544_1_23_0_0_23_2_13211_wf : GatherDims.WF S8x32x160x160 S8x12544x2 S8x32x12544 [1] [2, 3] [0] [2, 3] [0] 2 ![1, 32, 1, 1]
  dot_S8x150x12544_S8x12544x32_S8x150x32_2_1_1_2_0_0_wf : DotDims.WF S8x150x12544 S8x12544x32 S8x150x32 [2] [1] [1] [2] [0] [0]

variable [Facts₀]

def gather_S8x150x134_S8x32x1_S8x150x32_1_2_0_0_2_2_11501 : GatherDims S8x150x134 S8x32x1 S8x150x32 where
  offsetDims := [1]
  collapsedSliceDims := [2]
  operandBatchingDims := [0]
  startIndicesBatchingDims := [0]
  startIndexMap := [2]
  indexVectorDim := 2
  sliceSizes := ![1, 150, 1]
  wf := gather_S8x150x134_S8x32x1_S8x150x32_1_2_0_0_2_2_11501_wf
def gather_S8x150x160x160_S8x12544x2_S8x150x12544_1_23_0_0_23_2_115011 : GatherDims S8x150x160x160 S8x12544x2 S8x150x12544 where
  offsetDims := [1]
  collapsedSliceDims := [2, 3]
  operandBatchingDims := [0]
  startIndicesBatchingDims := [0]
  startIndexMap := [2, 3]
  indexVectorDim := 2
  sliceSizes := ![1, 150, 1, 1]
  wf := gather_S8x150x160x160_S8x12544x2_S8x150x12544_1_23_0_0_23_2_115011_wf
def gather_S8x32x160x160_S8x12544x2_S8x32x12544_1_23_0_0_23_2_13211 : GatherDims S8x32x160x160 S8x12544x2 S8x32x12544 where
  offsetDims := [1]
  collapsedSliceDims := [2, 3]
  operandBatchingDims := [0]
  startIndicesBatchingDims := [0]
  startIndexMap := [2, 3]
  indexVectorDim := 2
  sliceSizes := ![1, 32, 1, 1]
  wf := gather_S8x32x160x160_S8x12544x2_S8x32x12544_1_23_0_0_23_2_13211_wf
def dot_S8x150x12544_S8x12544x32_S8x150x32_2_1_1_2_0_0 : DotDims S8x150x12544 S8x12544x32 S8x150x32 where
  lhsContracting := [2]
  rhsContracting := [1]
  lhsNonContracting := [1]
  rhsNonContracting := [2]
  lhsBatch := [0]
  rhsBatch := [0]
  wf := dot_S8x150x12544_S8x12544x32_S8x150x32_2_1_1_2_0_0_wf

class Facts : Prop extends Facts₀ where

variable [Facts]
-- ==== Proof.Spec.lean ====
import Idealize.ShloMosaic.PureOps.Ideal
import Idealize.ShloMosaic.PureOps.Ideal.Laws

noncomputable section

namespace Cert.Spec

open Idealize.ShloMosaic

abbrev one32 : EReal := Ideal.ofBits .f32 0x3F800000#32
abbrev two32 : EReal := Ideal.ofBits .f32 0x40000000#32
abbrev five32 : EReal := Ideal.ofBits .f32 0x40A00000#32
abbrev npts32 : EReal := Ideal.ofBits .f32 0x46440000#32

abbrev invPts : EReal := ((1 / 12544 : ℝ) : EReal)

/-- Point `r` of tile `j`: the 12544 points are 7 tiles of 1792. -/
def tileIx (j : Fin 7) (r : Fin 1792) : Fin 12544 :=
  ⟨1792 * j.val + r.val, by have := j.isLt; have := r.isLt; omega⟩

def softplus (x : EReal) : EReal := max x 0 + Ideal.log1p (Ideal.exp (-(max x (-x))))

def sigm (x : EReal) : EReal := Ideal.logistic x

/-- The running total the kernel keeps: zero plus the terms up to `n`, added in order. -/
def accTo (f : ℕ → EReal) : ℕ → EReal
  | 0 => 0 + f 0
  | n + 1 => accTo f n + f (n + 1)

/-- One tile's share of a sum over the points. -/
def tileSum (g : Fin 12544 → EReal) (j : ℕ) : EReal :=
  if h : j < 7 then ∑ r : Fin 1792, g (tileIx ⟨j, h⟩ r) else 0

def acc (g : Fin 12544 → EReal) : EReal := accTo (tileSum g) 6

/-- The region's value at (query, target): mask cost and dice cost from five totals accumulated tile by tile, with
    softplus(-x) written softplus(x) - x and the division by the number of points a multiplication by 1/12544. -/
def regionOut (pm : Fin 150 → Fin 12544 → EReal) (tm : Fin 32 → Fin 12544 → EReal) (q : Fin 150) (t : Fin 32) : EReal :=
  five32 * ((acc (fun p => softplus (pm q p)) - acc (fun p => pm q p * tm t p)) * invPts)
    + five32 * (one32 - Ideal.div (two32 * acc (fun p => sigm (pm q p) * tm t p) + one32)
        ((acc (fun p => sigm (pm q p)) + acc (fun p => tm t p)) + one32))

def kernelOut (pm : Fin 150 → Fin 12544 → EReal) (tm : Fin 32 → Fin 12544 → EReal) (cc : EReal) (q : Fin 150) (t : Fin 32) : EReal :=
  regionOut pm tm q t + one32 * cc

/-- The reference's value at (query, target): the same costs as whole sums over the points. -/
def refOut (pm : Fin 150 → Fin 12544 → EReal) (tm : Fin 32 → Fin 12544 → EReal) (cc : EReal) (q : Fin 150) (t : Fin 32) : EReal :=
  (five32 * ((∑ p : Fin 12544, Ideal.div (softplus (-(pm q p))) npts32 * tm t p)
        + (∑ p : Fin 12544, Ideal.div (softplus (pm q p)) npts32 * (one32 - tm t p)))
      + one32 * cc)
    + five32 * (one32 - Ideal.div (two32 * (∑ p : Fin 12544, sigm (pm q p) * tm t p) + one32)
        (((0 + ∑ p : Fin 12544, sigm (pm q p)) + (0 + ∑ p : Fin 12544, tm t p)) + one32))

end Cert.Spec

end
-- ==== Proof.SpecMath.lean ====
import proofs.«401846_j83760452207136_3_alg».proof.Proof.Spec
import Mathlib.Algebra.BigOperators.Fin
import Mathlib.Logic.Equiv.Fin.Basic

noncomputable section

namespace Cert.Spec

open Idealize.ShloMosaic

theorem accTo_eq_sum (f : ℕ → EReal) (n : ℕ) : accTo f n = ∑ j ∈ Finset.range (n + 1), f j := by
  induction n with
  | zero => simp [accTo]
  | succ n ih => rw [accTo, ih, Finset.sum_range_succ _ (n + 1)]

theorem sum_tiles (g : Fin 12544 → EReal) :
    ∑ j : Fin 7, ∑ r : Fin 1792, g (tileIx j r) = ∑ p : Fin 12544, g p := by
  rw [← Fintype.sum_prod_type']
  refine Fintype.sum_equiv (finProdFinEquiv (m := 7) (n := 1792)) _ _ (fun x => ?_)
  congr 1
  apply Fin.ext
  simp [tileIx, finProdFinEquiv, Nat.add_comm]

theorem acc_eq_sum (g : Fin 12544 → EReal) : acc g = ∑ p : Fin 12544, g p := by
  rw [acc, accTo_eq_sum, ← sum_tiles, ← Fin.sum_univ_eq_sum_range (tileSum g) 7]
  refine Finset.sum_congr rfl (fun j _ => ?_)
  simp [tileSum, j.isLt]

def sp (r : ℝ) : ℝ := max r 0 + Real.log (1 + Real.exp (-(max r (-r))))

theorem coe_max (a b : ℝ) : ((max a b : ℝ) : EReal) = max (a : EReal) (b : EReal) :=
  EReal.coe_strictMono.monotone.map_max

theorem softplus_coe (r : ℝ) : softplus (r : EReal) = (sp r : EReal) := by
  have hpos : ¬ (1 + Real.exp (-(max r (-r))) ≤ 0) := not_le.mpr (add_pos one_pos (Real.exp_pos _))
  rw [softplus, Ideal.log1p, ← EReal.coe_neg, ← EReal.coe_zero, ← coe_max, ← coe_max, ← EReal.coe_neg,
    Ideal.exp_coe, ← EReal.coe_one, ← EReal.coe_add, Ideal.log_coe, if_neg hpos, ← EReal.coe_add, sp]

theorem sp_neg (r : ℝ) : sp (-r) = sp r - r := by
  have h1 : max (-r) 0 = max r 0 - r := by
    rcases le_total r 0 with h | h
    · rw [max_eq_left (by linarith), max_eq_right h]; ring
    · rw [max_eq_right (by linarith), max_eq_left h]; ring
  rw [sp, sp, h1, neg_neg, max_comm (-r) r]; ring

theorem softplus_neg_coe (r : ℝ) : softplus (-(r : EReal)) = ((sp r - r : ℝ) : EReal) := by
  rw [← EReal.coe_neg, softplus_coe, sp_neg]

theorem one32_eq : one32 = 1 := by
  show Ideal.ofBits .f32 0x3F800000#32 = 1
  simp [Ideal.ofBits, Ideal.ieee, -EReal.coe_mul]; norm_num

theorem npts32_eq : npts32 = ((12544 : ℝ) : EReal) := by
  show Ideal.ofBits .f32 0x46440000#32 = ((12544 : ℝ) : EReal)
  simp [Ideal.ofBits, Ideal.ieee, -EReal.coe_mul]; norm_num

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mask_half (x s : Fin 12544 → ℝ) :
    (∑ p : Fin 12544, Ideal.div (softplus (-(x p : EReal))) npts32 * (s p : EReal))
      + (∑ p : Fin 12544, Ideal.div (softplus (x p : EReal)) npts32 * (one32 - (s p : EReal)))
    = ((∑ p : Fin 12544, softplus (x p : EReal)) - (∑ p : Fin 12544, (x p : EReal) * (s p : EReal))) * invPts := by
  have hP : (12544 : ℝ) ≠ 0 := by norm_num
  have hL1 : ∀ p, Ideal.div (softplus (-(x p : EReal))) npts32 * (s p : EReal)
      = (((sp (x p) - x p) * (1 / 12544) * s p : ℝ) : EReal) := fun p => by
    rw [softplus_neg_coe, npts32_eq, Ideal.div_coe hP, ← EReal.coe_mul, ← EReal.coe_mul]
  have hL2 : ∀ p, Ideal.div (softplus (x p : EReal)) npts32 * (one32 - (s p : EReal))
      = ((sp (x p) * (1 / 12544) * (1 - s p) : ℝ) : EReal) := fun p => by
    rw [softplus_coe, npts32_eq, one32_eq, Ideal.div_coe hP, ← EReal.coe_one, ← EReal.coe_sub,
      ← EReal.coe_mul, ← EReal.coe_mul]
  have hR1 : ∀ p, softplus (x p : EReal) = ((sp (x p) : ℝ) : EReal) := fun p => softplus_coe _
  have hR2 : ∀ p, (x p : EReal) * (s p : EReal) = ((x p * s p : ℝ) : EReal) := fun p => (EReal.coe_mul _ _).symm
  simp only [hL1, hL2]
  simp only [hR1, hR2]
  rw [← coe_sum, ← coe_sum, ← coe_sum, ← coe_sum, ← EReal.coe_add, ← EReal.coe_sub, ← EReal.coe_mul]
  congr 1
  rw [← Finset.sum_add_distrib, ← Finset.sum_sub_distrib, Finset.sum_mul]
  refine Finset.sum_congr rfl (fun p _ => ?_)
  ring

theorem kernelOut_eq_refOut (pm : Fin 150 → Fin 12544 → EReal) (tm : Fin 32 → Fin 12544 → EReal) (cc : EReal)
    (hpm : ∀ q p, ∃ r : ℝ, pm q p = (r : EReal)) (htm : ∀ t p, ∃ r : ℝ, tm t p = (r : EReal))
    (q : Fin 150) (t : Fin 32) :
    kernelOut pm tm cc q t = refOut pm tm cc q t := by
  choose pmr hpmr using hpm
  choose tmr htmr using htm
  have hmask := mask_half (fun p => pmr q p) (fun p => tmr t p)
  simp only [← hpmr, ← htmr] at hmask
  rw [kernelOut, regionOut, refOut, hmask]
  simp only [acc_eq_sum, zero_add]
  exact add_right_comm _ _ _

end Cert.Spec

end
-- ==== Proof.PreFacts.lean ====
import proofs.«401846_j83760452207136_3_alg».proof.Proof.Gen.Pre_finite_inputs
import Idealize.ShloMosaic.PureOps.Ideal
import Idealize.ShloMosaic.Lib.ReduceAll
import Idealize.ShloMosaic.Lib.ValueIdx
import Idealize.ShloMosaic.Lib.IdealHost

noncomputable section

namespace Cert.PreFacts

open Idealize.ShloMosaic Idealize.ShloMosaic.ValueIdx

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

theorem real_of_entry {s : Shape} (hb : Cert.Pre_finite_inputs.S_.BroadcastsInDim s ![])
    (x : FVec Ideal s .f32) (i : s.Idx)
    (h : cmpf .olt (Host.absf x)
      (broadcastInDim s ![] hb (constant Cert.Pre_finite_inputs.S_ .f32 0x7F800000#32)) i = 1#1) :
    ∃ r : ℝ, x i = (r : EReal) := by
  apply real_of_abs_lt_top
  rw [cmpf_apply, broadcastInDim_scalar_apply, constant_apply, ofBits_inf] at h
  exact h

theorem of_pre (a0 : FVec Ideal Cert.Pre_finite_inputs.S8x150x160x160 .f32)
    (a1 : FVec Ideal Cert.Pre_finite_inputs.S8x150x134 .f32)
    (a2 : FVec Ideal Cert.Pre_finite_inputs.S8x32x160x160 .f32)
    (l3 : IVec Cert.Pre_finite_inputs.S8x32 32)
    (a4 : FVec Ideal Cert.Pre_finite_inputs.S8x12544x2 .f32)
    (h : Cert.Pre_finite_inputs.fn (F := Ideal) a0 a1 a2 l3 a4 = fun _ => 1#1) :
    (∀ i, ∃ r : ℝ, a0 i = (r : EReal)) ∧ (∀ i, ∃ r : ℝ, a2 i = (r : EReal))
      ∧ (∀ i, ∃ r : ℝ, a4 i = (r : EReal))
      ∧ (∀ i, 0 ≤ (l3 i).toInt ∧ (l3 i).toInt < 134) := by
  have h0 := congrFun h ix0
  dsimp only [Cert.Pre_finite_inputs.fn, Cert.Pre_finite_inputs.fn_part1] at h0

  obtain ⟨h0123, hL⟩ := IntOp.andi_eq_one.1 h0
  obtain ⟨h012, hA4⟩ := IntOp.andi_eq_one.1 h0123
  obtain ⟨h01, hA2⟩ := IntOp.andi_eq_one.1 h012
  obtain ⟨hA0, -⟩ := IntOp.andi_eq_one.1 h01
  refine ⟨fun i => ?_, fun i => ?_, fun i => ?_, fun i => ?_⟩
  · exact real_of_entry _ a0 i (Host.reduce_andi_all _ _ _ _ ix0 hA0 i)
  · exact real_of_entry _ a2 i (Host.reduce_andi_all _ _ _ _ ix0 hA2 i)
  · exact real_of_entry _ a4 i (Host.reduce_andi_all _ _ _ _ ix0 hA4 i)
  · have hi := Host.reduce_andi_all _ _ _ _ ix0 hL i
    obtain ⟨hge, hlt⟩ := IntOp.andi_eq_one.1 hi
    have hge' : IntOp.cmpi .sge (l3 i) 0#32 = 1#1 := by
      have := hge
      rw [show cmpi CmpIPredicate.sge l3 _ i = IntOp.cmpi .sge (l3 i) _ from rfl,
        broadcastInDim_scalar_apply] at this
      exact this
    have hlt' : IntOp.cmpi .slt (l3 i) 134#32 = 1#1 := by
      have := hlt
      rw [show cmpi CmpIPredicate.slt l3 _ i = IntOp.cmpi .slt (l3 i) _ from rfl,
        broadcastInDim_scalar_apply] at this
      exact this
    rw [IntOp.cmpi_sge] at hge'
    rw [IntOp.cmpi_slt] at hlt'
    have z0 : (0#32 : BitVec 32).toInt = 0 := by decide
    have z134 : (134#32 : BitVec 32).toInt = 134 := by decide
    rw [z0] at hge'
    rw [z134] at hlt'
    exact ⟨hge', hlt'⟩

end Cert.PreFacts

end
-- ==== Proof.RefCost.lean ====
import proofs.«401846_j83760452207136_3_alg».proof.Proof.RefStages
import proofs.«401846_j83760452207136_3_alg».proof.Proof.Spec
import Idealize.ShloMosaic.Lib.ValueIdx
import Idealize.ShloMosaic.PureOps.Ideal.Laws

noncomputable section

namespace Cert.ReferenceIdeal.Cost

open Cert.ReferenceIdeal Cert.ReferenceIdeal.Gen Cert.ReferenceIdeal.ReadP Idealize.ShloMosaic Idealize.ShloMosaic.ValueIdx Cert.Spec

variable (x0 : (⟨S8x150x160x160, .f32⟩ : BufTy).Contents (Elt Ideal)) (x1 : (⟨S8x150x134, .f32⟩ : BufTy).Contents (Elt Ideal))
  (x2 : (⟨S8x32x160x160, .f32⟩ : BufTy).Contents (Elt Ideal)) (x3 : (⟨S8x32, .i32⟩ : BufTy).Contents (Elt Ideal))
  (x4 : (⟨S8x12544x2, .f32⟩ : BufTy).Contents (Elt Ideal)) (b : Fin 8) (q : Fin 150) (t : Fin 32)

theorem one32_eq_one : Ideal.ofBits .f32 0x3F800000#32 = (1 : EReal) := by
  simp [Ideal.ofBits, Ideal.ieee, -EReal.coe_mul]; norm_num

-- No extended real differs from itself, so the guard of the printed softplus is never set.
theorem cmp_une_self (a : EReal) : Ideal.cmp .une a a = 0#1 := by
  simp [Ideal.cmp]

theorem softplus_elt (a : EReal) :
    Scalar.select (Ideal.cmp .une (a - Ideal.ofBits .f32 0#32) (a - Ideal.ofBits .f32 0#32)) (a + Ideal.ofBits .f32 0#32)
      (max a (Ideal.ofBits .f32 0#32) + Ideal.log1p (Ideal.exp (-(max (a - Ideal.ofBits .f32 0#32) (-(a - Ideal.ofBits .f32 0#32)))))) = softplus a := by
  rw [Ideal.ofBits_zero_f32, cmp_une_self, select_zero, sub_zero, softplus]

/-- A literal spread over the (batch, query, point) array. -/
abbrev spread (w : BitVec 32) : FVec Ideal S8x150x12544 .f32 :=
  broadcastInDim S8x150x12544 ![] bcast_S_S8x150x12544 (constant S_ .f32 w)

-- Every operation of the printed softplus acts element by element, so at one element it is softplus_elt's left side.
theorem softplus_at (z : FVec Ideal S8x150x12544 .f32) (i : S8x150x12544.Idx) :
    Host.divf (select (cmpf .une (subf z (spread 0#32)) (subf z (spread 0#32))) (addf z (spread 0#32))
      (addf (maximumf z (spread 0#32)) (Host.log1p (Host.exp (Host.negf (Host.absf (subf z (spread 0#32))))))))
      (spread 0x46440000#32) i = Ideal.div (softplus (z i)) npts32 :=
  congrArg (Ideal.div · npts32) (softplus_elt (z i))

theorem v392_at (i : S8x150x12544.Idx) :
    val_main_v392 (F := Ideal) x0 x4 i = Ideal.div (softplus (-(val_main_v203 (F := Ideal) x0 x4 i))) npts32 :=
  softplus_at (Host.negf (val_main_v203 (F := Ideal) x0 x4)) i

theorem v395_at (i : S8x150x12544.Idx) :
    val_main_v395 (F := Ideal) x0 x4 i = Ideal.div (softplus (val_main_v203 (F := Ideal) x0 x4 i)) npts32 :=
  softplus_at (val_main_v203 (F := Ideal) x0 x4) i

theorem sigm_elt (a : EReal) :
    Ideal.div (Ideal.ofBits .f32 0x3F800000#32) (Ideal.ofBits .f32 0x3F800000#32 + Ideal.exp (-a)) = sigm a := by
  rw [one32_eq_one, sigm, Ideal.logistic]

-- The printed logistic function acts element by element.
theorem v408_at (i : S8x150x12544.Idx) :
    val_main_v408 (F := Ideal) x0 x4 i = sigm (val_main_v203 (F := Ideal) x0 x4 i) :=
  sigm_elt _

section Indices
variable (k : Fin 12544)

theorem lidx_v397 : lidx_main_v397 (ix3 b q t) k = (ix3 b q k : S8x150x12544.Idx) :=
  eq_ix3 _
theorem tidx_v397 : idx_main_v396 (ridx_main_v397 (ix3 b q t) k) = (ix3 b t k : S8x32x12544.Idx) :=
  eq_ix3 _
theorem lidx_v401 : lidx_main_v401 (ix3 b q t) k = (ix3 b q k : S8x150x12544.Idx) :=
  eq_ix3 _
theorem tidx_v401 : idx_main_v400 (ridx_main_v401 (ix3 b q t) k) = (ix3 b t k : S8x32x12544.Idx) :=
  eq_ix3 _
theorem lidx_v410 : lidx_main_v410 (ix3 b q t) k = (ix3 b q k : S8x150x12544.Idx) :=
  eq_ix3 _
theorem tidx_v410 : idx_main_v409 (ridx_main_v410 (ix3 b q t) k) = (ix3 b t k : S8x32x12544.Idx) :=
  eq_ix3 _
theorem sidx_v413 : idx_main_v413 (idx_main_v414 (idx_main_v417 (ix3 b q t))) k = (ix3 b q k : S8x150x12544.Idx) :=
  eq_ix3 _
theorem sidx_v415 : idx_main_v415 (idx_main_v416 (idx_main_v418 (ix3 b q t))) k = (ix3 b t k : S8x32x12544.Idx) :=
  eq_ix3 _

end Indices

theorem v397_at :
    val_main_v397 (F := Ideal) x0 x2 x4 (ix3 b q t)
      = ∑ p : Fin 12544, Ideal.div (softplus (-(val_main_v203 (F := Ideal) x0 x4 (ix3 b q p)))) npts32
          * val_main_v388 (F := Ideal) x2 x4 (ix3 b t p) := by
  rw [val_main_v397_apply]
  refine Finset.sum_congr rfl fun k _ => ?_
  rw [v392_at, val_main_v396_apply, lidx_v397, tidx_v397]

theorem v401_at :
    val_main_v401 (F := Ideal) x0 x2 x4 (ix3 b q t)
      = ∑ p : Fin 12544, Ideal.div (softplus (val_main_v203 (F := Ideal) x0 x4 (ix3 b q p))) npts32
          * (one32 - val_main_v388 (F := Ideal) x2 x4 (ix3 b t p)) := by
  rw [val_main_v401_apply]
  refine Finset.sum_congr rfl fun k _ => ?_
  rw [v395_at, val_main_v400_apply, val_main_v399_apply, val_main_v398_apply, val_main_cst_125_apply, lidx_v401,
    tidx_v401]
  simp only [Ideal.ofBits_def, Ideal.subf_def]

theorem v410_at :
    val_main_v410 (F := Ideal) x0 x2 x4 (ix3 b q t)
      = ∑ p : Fin 12544, sigm (val_main_v203 (F := Ideal) x0 x4 (ix3 b q p))
          * val_main_v388 (F := Ideal) x2 x4 (ix3 b t p) := by
  rw [val_main_v410_apply]
  refine Finset.sum_congr rfl fun k _ => ?_
  rw [v408_at, val_main_v409_apply, lidx_v410, tidx_v410]

theorem v417_at :
    val_main_v417 (F := Ideal) x0 x4 (ix3 b q t)
      = 0 + ∑ p : Fin 12544, sigm (val_main_v203 (F := Ideal) x0 x4 (ix3 b q p)) := by
  rw [val_main_v417_apply, val_main_v414_apply, val_main_v413_apply, val_main_cst_129_apply]
  simp only [Ideal.ofBits_def, Ideal.ofBits_zero_f32]
  refine congrArg (0 + ·) (Finset.sum_congr rfl fun k _ => ?_)
  rw [v408_at, sidx_v413]

theorem v418_at :
    val_main_v418 (F := Ideal) x2 x4 (ix3 b q t)
      = 0 + ∑ p : Fin 12544, val_main_v388 (F := Ideal) x2 x4 (ix3 b t p) := by
  rw [val_main_v418_apply, val_main_v416_apply, val_main_v415_apply, val_main_cst_130_apply]
  simp only [Ideal.ofBits_def, Ideal.ofBits_zero_f32]
  refine congrArg (0 + ·) (Finset.sum_congr rfl fun k _ => ?_)
  rw [sidx_v415]

theorem result_apply :
    val_main_v434 (F := Ideal) x0 x1 x2 x3 x4 (ix3 b q t)
      = refOut (fun q p => val_main_v203 (F := Ideal) x0 x4 (ix3 b q p)) (fun t p => val_main_v388 (F := Ideal) x2 x4 (ix3 b t p)) (val_main_v18 (F := Ideal) x1 x3 (ix3 b q t)) q t := by
  rw [val_main_v434_apply, val_main_v431_apply, val_main_v428_apply, val_main_v427_apply, val_main_cst_134_apply,
    val_main_v402_apply, val_main_v430_apply, val_main_v429_apply, val_main_cst_135_apply, val_main_v433_apply,
    val_main_v432_apply, val_main_cst_136_apply, val_main_v426_apply, val_main_v425_apply, val_main_cst_133_apply,
    val_main_v424_apply, val_main_v421_apply, val_main_v412_apply, val_main_v411_apply, val_main_cst_128_apply,
    val_main_v420_apply, val_main_cst_131_apply, val_main_v423_apply, val_main_v419_apply, val_main_v422_apply,
    val_main_cst_132_apply, v397_at, v401_at, v410_at, v417_at, v418_at]
  generalize val_main_v203 (F := Ideal) x0 x4 = PM
  generalize val_main_v388 (F := Ideal) x2 x4 = TM
  generalize val_main_v18 (F := Ideal) x1 x3 (ix3 b q t) = CC
  simp only [Ideal.ofBits_def, Ideal.addf_def, Ideal.subf_def, Ideal.mulf_def, Ideal.hostDivf_def, refOut]

end Cert.ReferenceIdeal.Cost

end
-- ==== Proof.RefFinite.lean ====
import proofs.«401846_j83760452207136_3_alg».proof.Proof.RefStages

noncomputable section

namespace Cert.ReferenceIdeal.Finite

open Cert.ReferenceIdeal Cert.ReferenceIdeal.Gen Cert.ReferenceIdeal.ReadP Idealize.ShloMosaic

/-- No entry of the array is infinite. -/
def AllReal {s : Shape} (a : s.Idx → EReal) : Prop := ∀ i, ∃ r : ℝ, a i = (r : EReal)

variable {s t u : Shape} {a b : FVec Ideal s .f32}

theorem AllReal.addf (ha : AllReal a) (hb : AllReal b) : AllReal (addf a b) := fun i => by
  obtain ⟨r, hr⟩ := ha i
  obtain ⟨v, hv⟩ := hb i
  exact ⟨r + v, by show a i + b i = _; rw [hr, hv, EReal.coe_add]⟩

theorem AllReal.subf (ha : AllReal a) (hb : AllReal b) : AllReal (subf a b) := fun i => by
  obtain ⟨r, hr⟩ := ha i
  obtain ⟨v, hv⟩ := hb i
  exact ⟨r - v, by show a i - b i = _; rw [hr, hv, EReal.coe_sub]⟩

theorem AllReal.mulf (ha : AllReal a) (hb : AllReal b) : AllReal (mulf a b) := fun i => by
  obtain ⟨r, hr⟩ := ha i
  obtain ⟨v, hv⟩ := hb i
  exact ⟨r * v, by show a i * b i = _; rw [hr, hv, EReal.coe_mul]⟩

-- ⌊r⌋ is an integer, and every integer is a real number.
theorem AllReal.floor (ha : AllReal a) : AllReal (Host.floor a) := fun i => by
  obtain ⟨r, hr⟩ := ha i
  exact ⟨((⌊r⌋ : ℤ) : ℝ), by show Ideal.liftRound Int.floor (a i) = _; rw [hr]; rfl⟩

theorem AllReal.frac (ha : AllReal a) : AllReal (Idealize.ShloMosaic.subf a (Host.floor a)) := ha.subf ha.floor

-- A bit pattern read as a number is a natural number, whatever the bits are.
theorem AllReal.uitofp {w : Nat} {v : IVec s w} : AllReal (uitofp (F := Ideal) .f32 v) :=
  fun i => ⟨((v i).toNat : ℝ), rfl⟩

-- A gather, a reshaped slice and a twofold broadcast each list entries of their operand.
theorem AllReal.gather {si : Shape} {w : Nat} {d : GatherDims s si t} {a : s.Idx → EReal} (ha : AllReal a) {idx : IVec si w} :
    AllReal (Host.gather d a idx) :=
  fun _ => ha _

theorem AllReal.col {off : Fin s.rank → Nat} {hs : s.Slices off t} {hc : t.ShapeCasts u} {a : s.Idx → EReal} (ha : AllReal a) :
    AllReal (shapeCast u (extractStridedSlice t off a hs) hc) :=
  fun _ => ha _

theorem AllReal.wt {d₁ : Fin s.rank → Fin t.rank} {d₂ : Fin t.rank → Fin u.rank} {h₁ : s.BroadcastsInDim t d₁}
    {h₂ : t.BroadcastsInDim u d₂} {a : s.Idx → EReal} (ha : AllReal a) :
    AllReal (broadcastInDim u d₂ h₂ (broadcastInDim t d₁ h₁ a)) :=
  fun _ => ha _

theorem ofBits_160 : Ideal.ofBits .f32 0x43200000#32 = ((160 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

-- The same real number at every sample point.
theorem lit {w : BitVec 32} {r : ℝ} (h : Ideal.ofBits .f32 w = (r : EReal)) :
    AllReal (broadcastInDim S8x12544 ![] bcast_S_S8x12544 (constant (F := Ideal) S_ .f32 w)) :=
  fun _ => ⟨r, h⟩

-- The sampled array is built from the two real inputs by operations that keep arrays real, applied here in the order they are composed.
theorem v203_real (x0 : (⟨S8x150x160x160, .f32⟩ : BufTy).Contents (Elt Ideal))
    (x4 : (⟨S8x12544x2, .f32⟩ : BufTy).Contents (Elt Ideal))
    (h0 : ∀ i, ∃ r : ℝ, x0 i = (r : EReal)) (h4 : ∀ i, ∃ r : ℝ, x4 i = (r : EReal)) :
    ∀ i, ∃ r : ℝ, val_main_v203 (F := Ideal) x0 x4 i = (r : EReal) :=
  have fx : AllReal (val_main_v33 (F := Ideal) x4) := (((AllReal.col h4).mulf (lit ofBits_160)).subf (lit ofBits_half)).frac
  have fy : AllReal (val_main_v34 (F := Ideal) x4) := (((AllReal.col h4).mulf (lit ofBits_160)).subf (lit ofBits_half)).frac
  have o := lit ofBits_one
  ((((((AllReal.gather h0).mulf AllReal.uitofp.wt).mulf (o.subf fx).wt).mulf (o.subf fy).wt).addf
    ((((AllReal.gather h0).mulf AllReal.uitofp.wt).mulf fx.wt).mulf (o.subf fy).wt)).addf
    ((((AllReal.gather h0).mulf AllReal.uitofp.wt).mulf (o.subf fx).wt).mulf fy.wt)).addf
    ((((AllReal.gather h0).mulf AllReal.uitofp.wt).mulf fx.wt).mulf fy.wt)

theorem v388_real (x2 : (⟨S8x32x160x160, .f32⟩ : BufTy).Contents (Elt Ideal))
    (x4 : (⟨S8x12544x2, .f32⟩ : BufTy).Contents (Elt Ideal))
    (h2 : ∀ i, ∃ r : ℝ, x2 i = (r : EReal)) (h4 : ∀ i, ∃ r : ℝ, x4 i = (r : EReal)) :
    ∀ i, ∃ r : ℝ, val_main_v388 (F := Ideal) x2 x4 i = (r : EReal) :=
  have fx : AllReal (val_main_v218 (F := Ideal) x4) := (((AllReal.col h4).mulf (lit ofBits_160)).subf (lit ofBits_half)).frac
  have fy : AllReal (val_main_v219 (F := Ideal) x4) := (((AllReal.col h4).mulf (lit ofBits_160)).subf (lit ofBits_half)).frac
  have o := lit ofBits_one
  ((((((AllReal.gather h2).mulf AllReal.uitofp.wt).mulf (o.subf fx).wt).mulf (o.subf fy).wt).addf
    ((((AllReal.gather h2).mulf AllReal.uitofp.wt).mulf fx.wt).mulf (o.subf fy).wt)).addf
    ((((AllReal.gather h2).mulf AllReal.uitofp.wt).mulf (o.subf fx).wt).mulf fy.wt)).addf
    ((((AllReal.gather h2).mulf AllReal.uitofp.wt).mulf fx.wt).mulf fy.wt)

end Cert.ReferenceIdeal.Finite
-- ==== Proof.KerTail.lean ====
import proofs.«401846_j83760452207136_3_alg».proof.Proof.Gen.KernelIdeal.Frame

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

abbrev regionArr (c : Dev nD) : FVec F S8x150x32 .f32 := (dats m 0 c).arrAt 2 cfg0.N

abbrev classArr (c : Dev nD) : FVec F S8x150x32 .f32 := V m c main_v156

theorem tail_value (c : Dev nD) :
    Pipeline.afterTail₀ cfgs (dats m) 0 (V0 m) [hostOps1] c main_v160
      = addf (regionArr m c) (mulf (broadcastInDim S8x150x32 ![] bcast_S_S8x150x32 (constant S_ .f32 0x3F800000#32)) (classArr m c)) := by
  unfold Pipeline.afterTail₀
  show StableHlo.after hostOps1 _ (Proc.devRef .tc main_v160) = _
  after_results
  have h1 : (Pipeline.withArrays (cfgs 0).spec c (V0 m c) (fun w => (dats m 0 c).arrAt w (cfgs 0).N)
      (Proc.devRef .tc main_v157) : FVec F S8x150x32 .f32) = regionArr m c :=
    Pipeline.withArrays_arr spec0 launch0.win.arr_inj c _ _ 2
  have h2 : (Pipeline.withArrays (cfgs 0).spec c (V0 m c) (fun w => (dats m 0 c).arrAt w (cfgs 0).N)
      (Proc.devRef .tc main_v156) : FVec F S8x150x32 .f32) = classArr m c :=
    Pipeline.withArrays_of_ne _ c (V0 m c) _ main_v156 (by exact (by decide : ∀ w, Pipeline.arrRef spec0 w ≠ main_v156))
  exact congrArg₂ addf h1 (congrArg (mulf _) h2)

theorem run_value :
    θ_run defs (onTc (τ := τ) (main (F := F))) ⟨m, fun _ => 0, ρ⟩ (fun r => ∀ c : Dev nD,
      r.2.mem ((c.tc : Thread nD τ).loc main_v160)
          = addf (regionArr m c) (mulf (broadcastInDim S8x150x32 ![] bcast_S_S8x150x32 (constant S_ .f32 0x3F800000#32)) (classArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v160 (Pipeline.mem_restRefs_of main_v160 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.KerPieces.lean ====
import proofs.«401846_j83760452207136_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (arg2 : Memref sig .tc .vmem S1x1792x150 .f32) (harg2 : arg2.IsWhole) (arg3 : Memref sig .tc .vmem S1x1792x32 .f32) (harg3 : arg3.IsWhole) (arg4 : Memref sig .tc .vmem S1x150x32 .f32) (harg4 : arg4.IsWhole) (arg5 : Memref sig .tc .vmem S150x32 .f32) (harg5 : arg5.IsWhole) (arg6 : Memref sig .tc .vmem S150x32 .f32) (harg6 : arg6.IsWhole) (arg7 : Memref sig .tc .vmem S1x150 .f32) (harg7 : arg7.IsWhole) (arg8 : Memref sig .tc .vmem S1x150 .f32) (harg8 : arg8.IsWhole) (arg9 : Memref sig .tc .vmem S1x32 .f32) (harg9 : arg9.IsWhole)

section A
variable (hc0 : cond0_0 i) (hc1 : ¬cond0_1 i) (x0 : Vec F S1x1792x150 .f32) (x1 : Vec F S1x1792x32 .f32)

theorem sout_A_0 :
    sout0_A_0 c i arg2 harg2 arg3 harg3 arg4 harg4 arg5 harg5 arg6 harg6 arg7 harg7 arg8 harg8 arg9 harg9 hc0 hc1 x0 x1 = k0_pay2 (k0_pay10 x0) (k0_pay11 x1) (k0_pay5 (F := F)) := by
  unfold sout0_A_0
  rw [View.read_writes_eq_canon _ _ _ fun y => scover0_A_0 (y := y) ..]
  unfold kernelRun0_A
  dsimp only
  sl_unfold_words
  rw [View.canon_cons_unit_zero (S := S150x32) hz2, View.readCov_unit_zero (S := S150x32) _ hz2]
  simp only [View.readAt_eq_ld, harg2.read_unread, harg3.read_unread, View.ld_unit_zero (S := S1x1792x150) hz3, View.ld_unit_zero (S := S1x1792x32) hz3]

theorem sout_A_1 :
    sout0_A_1 c i arg2 harg2 arg3 harg3 arg4 harg4 arg5 harg5 arg6 harg6 arg7 harg7 arg8 harg8 arg9 harg9 hc0 hc1 x0 x1 = k0_pay3 (k0_pay11 x1) (k0_pay12 x0) (k0_pay6 (F := F)) := by
  unfold sout0_A_1
  rw [View.read_writes_eq_canon _ _ _ fun y => scover0_A_1 (y := y) ..]
  unfold kernelRun0_A
  dsimp only
  sl_unfold_words
  rw [View.canon_cons_unit_zero (S := S150x32) hz2, View.readCov_unit_zero (S := S150x32) _ hz2]
  simp only [View.readAt_eq_ld, harg2.read_unread, harg3.read_unread, View.ld_unit_zero (S := S1x1792x150) hz3, View.ld_unit_zero (S := S1x1792x32) hz3]

theorem sout_A_2 :
    sout0_A_2 c i arg2 harg2 arg3 harg3 arg4 harg4 arg5 harg5 arg6 harg6 arg7 harg7 arg8 harg8 arg9 harg9 hc0 hc1 x0 x1 = k0_pay13 x0 (k0_pay7 (F := F)) := by
  unfold sout0_A_2
  rw [View.read_writes_eq_canon _ _ _ fun y => scover0_A_2 (y := y) ..]
  unfold kernelRun0_A
  dsimp only
  sl_unfold_words
  rw [View.canon_cons_unit_zero (S := S1x150) hz2, View.readCov_unit_zero (S := S1x150) _ hz2]
  simp only [View.readAt_eq_ld, harg2.read_unread, harg3.read_unread, View.ld_unit_zero (S := S1x1792x150) hz3, View.ld_unit_zero (S := S1x1792x32) hz3]

theorem sout_A_3 :
    sout0_A_3 c i arg2 harg2 arg3 harg3 arg4 harg4 arg5 harg5 arg6 harg6 arg7 harg7 arg8 harg8 arg9 harg9 hc0 hc1 x0 x1 = k0_pay14 x0 (k0_pay8 (F := F)) := by
  unfold sout0_A_3
  rw [View.read_writes_eq_canon _ _ _ fun y => scover0_A_3 (y := y) ..]
  unfold kernelRun0_A
  dsimp only
  sl_unfold_words
  rw [View.canon_cons_unit_zero (S := S1x150) hz2, View.readCov_unit_zero (S := S1x150) _ hz2]
  simp only [View.readAt_eq_ld, harg2.read_unread, harg3.read_unread, View.ld_unit_zero (S := S1x1792x150) hz3, View.ld_unit_zero (S := S1x1792x32) hz3]

theorem sout_A_4 :
    sout0_A_4 c i arg2 harg2 arg3 harg3 arg4 harg4 arg5 harg5 arg6 harg6 arg7 harg7 arg8 harg8 arg9 harg9 hc0 hc1 x0 x1 = k0_pay1 (k0_pay11 x1) (k0_pay9 (F := F)) := by
  unfold sout0_A_4
  rw [View.read_writes_eq_canon _ _ _ fun y => scover0_A_4 (y := y) ..]
  unfold kernelRun0_A
  dsimp only
  sl_unfold_words
  rw [View.canon_cons_unit_zero (S := S1x32) hz2, View.readCov_unit_zero (S := S1x32) _ hz2]
  simp only [View.readAt_eq_ld, harg2.read_unread, harg3.read_unread, View.ld_unit_zero (S := S1x1792x150) hz3, View.ld_unit_zero (S := S1x1792x32) hz3]

end A

section B
variable (hc0 : ¬cond0_0 i) (hc1 : ¬cond0_1 i) (x0 : Vec F S1x1792x150 .f32) (x1 : Vec F S1x1792x32 .f32) (xs0 : Vec F S150x32 .f32) (xs1 : Vec F S150x32 .f32) (xs2 : Vec F S1x150 .f32) (xs3 : Vec F S1x150 .f32) (xs4 : Vec F S1x32 .f32)

theorem sout_B_0 :
    sout0_B_0 c i arg2 harg2 arg3 harg3 arg4 harg4 arg5 harg5 arg6 harg6 arg7 harg7 arg8 harg8 arg9 harg9 hc0 hc1 x0 x1 xs0 xs1 xs2 xs3 xs4 = k0_pay2 (k0_pay10 x0) (k0_pay11 x1) xs0 := by
  unfold sout0_B_0
  rw [View.read_writes_eq_canon _ _ _ fun y => scover0_B_0 (y := y) ..]
  unfold kernelRun0_B
  dsimp only
  sl_unfold_words
  rw [View.canon_unit_zero (S := S150x32) hz2]
  simp only [View.readAt_eq_ld, harg2.read_unread, harg3.read_unread, View.ld_unit_zero (S := S1x1792x150) hz3, View.ld_unit_zero (S := S1x1792x32) hz3, harg5.read_unread, View.ld_unit_zero (S := S150x32) hz2]

theorem sout_B_1 :
    sout0_B_1 c i arg2 harg2 arg3 harg3 arg4 harg4 arg5 harg5 arg6 harg6 arg7 harg7 arg8 harg8 arg9 harg9 hc0 hc1 x0 x1 xs0 xs1 xs2 xs3 xs4 = k0_pay3 (k0_pay11 x1) (k0_pay12 x0) xs1 := by
  unfold sout0_B_1
  rw [View.read_writes_eq_canon _ _ _ fun y => scover0_B_1 (y := y) ..]
  unfold kernelRun0_B
  dsimp only
  sl_unfold_words
  rw [View.canon_unit_zero (S := S150x32) hz2]
  simp only [View.readAt_eq_ld, harg2.read_unread, harg3.read_unread, View.ld_unit_zero (S := S1x1792x150) hz3, View.ld_unit_zero (S := S1x1792x32) hz3, harg6.read_unread, View.ld_unit_zero (S := S150x32) hz2]

theorem sout_B_2 :
    sout0_B_2 c i arg2 harg2 arg3 harg3 arg4 harg4 arg5 harg5 arg6 harg6 arg7 harg7 arg8 harg8 arg9 harg9 hc0 hc1 x0 x1 xs0 xs1 xs2 xs3 xs4 = k0_pay13 x0 xs2 := by
  unfold sout0_B_2
  rw [View.read_writes_eq_canon _ _ _ fun y => scover0_B_2 (y := y) ..]
  unfold kernelRun0_B
  dsimp only
  sl_unfold_words
  rw [View.canon_unit_zero (S := S1x150) hz2]
  simp only [View.readAt_eq_ld, harg2.read_unread, harg3.read_unread, View.ld_unit_zero (S := S1x1792x150) hz3, View.ld_unit_zero (S := S1x1792x32) hz3, harg7.read_unread, View.ld_unit_zero (S := S1x150) hz2]

theorem sout_B_3 :
    sout0_B_3 c i arg2 harg2 arg3 harg3 arg4 harg4 arg5 harg5 arg6 harg6 arg7 harg7 arg8 harg8 arg9 harg9 hc0 hc1 x0 x1 xs0 xs1 xs2 xs3 xs4 = k0_pay14 x0 xs3 := by
  unfold sout0_B_3
  rw [View.read_writes_eq_canon _ _ _ fun y => scover0_B_3 (y := y) ..]
  unfold kernelRun0_B
  dsimp only
  sl_unfold_words
  rw [View.canon_unit_zero (S := S1x150) hz2]
  simp only [View.readAt_eq_ld, harg2.read_unread, harg3.read_unread, View.ld_unit_zero (S := S1x1792x150) hz3, View.ld_unit_zero (S := S1x1792x32) hz3, harg8.read_unread, View.ld_unit_zero (S := S1x150) hz2]

theorem sout_B_4 :
    sout0_B_4 c i arg2 harg2 arg3 harg3 arg4 harg4 arg5 harg5 arg6 harg6 arg7 harg7 arg8 harg8 arg9 harg9 hc0 hc1 x0 x1 xs0 xs1 xs2 xs3 xs4 = k0_pay1 (k0_pay11 x1) xs4 := by
  unfold sout0_B_4
  rw [View.read_writes_eq_canon _ _ _ fun y => scover0_B_4 (y := y) ..]
  unfold kernelRun0_B
  dsimp only
  sl_unfold_words
  rw [View.canon_unit_zero (S := S1x32) hz2]
  simp only [View.readAt_eq_ld, harg2.read_unread, harg3.read_unread, View.ld_unit_zero (S := S1x1792x150) hz3, View.ld_unit_zero (S := S1x1792x32) hz3, harg9.read_unread, View.ld_unit_zero (S := S1x32) hz2]

end B

section C
variable (hc0 : ¬cond0_0 i) (hc1 : cond0_1 i) (x0 : Vec F S1x1792x150 .f32) (x1 : Vec F S1x1792x32 .f32) (xs0 : Vec F S150x32 .f32) (xs1 : Vec F S150x32 .f32) (xs2 : Vec F S1x150 .f32) (xs3 : Vec F S1x150 .f32) (xs4 : Vec F S1x32 .f32)

theorem sout_C_0 :
    sout0_C_0 c i arg2 harg2 arg3 harg3 arg4 harg4 arg5 harg5 arg6 harg6 arg7 harg7 arg8 harg8 arg9 harg9 hc0 hc1 x0 x1 xs0 xs1 xs2 xs3 xs4 = k0_pay2 (k0_pay10 x0) (k0_pay11 x1) xs0 := by
  unfold sout0_C_0
  rw [View.read_writes_eq_canon _ _ _ fun y => scover0_C_0 (y := y) ..]
  unfold kernelRun0_C
  dsimp only
  sl_unfold_words
  rw [View.canon_unit_zero (S := S150x32) hz2]
  simp only [View.readAt_eq_ld, harg2.read_unread, harg3.read_unread, View.ld_unit_zero (S := S1x1792x150) hz3, View.ld_unit_zero (S := S1x1792x32) hz3, harg5.read_unread, View.ld_unit_zero (S := S150x32) hz2]

theorem sout_C_1 :
    sout0_C_1 c i arg2 harg2 arg3 harg3 arg4 harg4 arg5 harg5 arg6 harg6 arg7 harg7 arg8 harg8 arg9 harg9 hc0 hc1 x0 x1 xs0 xs1 xs2 xs3 xs4 = k0_pay3 (k0_pay11 x1) (k0_pay12 x0) xs1 := by
  unfold sout0_C_1
  rw [View.read_writes_eq_canon _ _ _ fun y => scover0_C_1 (y := y) ..]
  unfold kernelRun0_C
  dsimp only
  sl_unfold_words
  rw [View.canon_unit_zero (S := S150x32) hz2]
  simp only [View.readAt_eq_ld, harg2.read_unread, harg3.read_unread, View.ld_unit_zero (S := S1x1792x150) hz3, View.ld_unit_zero (S := S1x1792x32) hz3, harg6.read_unread, View.ld_unit_zero (S := S150x32) hz2]

theorem sout_C_2 :
    sout0_C_2 c i arg2 harg2 arg3 harg3 arg4 harg4 arg5 harg5 arg6 harg6 arg7 harg7 arg8 harg8 arg9 harg9 hc0 hc1 x0 x1 xs0 xs1 xs2 xs3 xs4 = k0_pay13 x0 xs2 := by
  unfold sout0_C_2
  rw [View.read_writes_eq_canon _ _ _ fun y => scover0_C_2 (y := y) ..]
  unfold kernelRun0_C
  dsimp only
  sl_unfold_words
  rw [View.canon_unit_zero (S := S1x150) hz2]
  simp only [View.readAt_eq_ld, harg2.read_unread, harg3.read_unread, View.ld_unit_zero (S := S1x1792x150) hz3, View.ld_unit_zero (S := S1x1792x32) hz3, harg7.read_unread, View.ld_unit_zero (S := S1x150) hz2]

theorem sout_C_3 :
    sout0_C_3 c i arg2 harg2 arg3 harg3 arg4 harg4 arg5 harg5 arg6 harg6 arg7 harg7 arg8 harg8 arg9 harg9 hc0 hc1 x0 x1 xs0 xs1 xs2 xs3 xs4 = k0_pay14 x0 xs3 := by
  unfold sout0_C_3
  rw [View.read_writes_eq_canon _ _ _ fun y => scover0_C_3 (y := y) ..]
  unfold kernelRun0_C
  dsimp only
  sl_unfold_words
  rw [View.canon_unit_zero (S := S1x150) hz2]
  simp only [View.readAt_eq_ld, harg2.read_unread, harg3.read_unread, View.ld_unit_zero (S := S1x1792x150) hz3, View.ld_unit_zero (S := S1x1792x32) hz3, harg8.read_unread, View.ld_unit_zero (S := S1x150) hz2]

theorem sout_C_4 :
    sout0_C_4 c i arg2 harg2 arg3 harg3 arg4 harg4 arg5 harg5 arg6 harg6 arg7 harg7 arg8 harg8 arg9 harg9 hc0 hc1 x0 x1 xs0 xs1 xs2 xs3 xs4 = k0_pay1 (k0_pay11 x1) xs4 := by
  unfold sout0_C_4
  rw [View.read_writes_eq_canon _ _ _ fun y => scover0_C_4 (y := y) ..]
  unfold kernelRun0_C
  dsimp only
  sl_unfold_words
  rw [View.canon_unit_zero (S := S1x32) hz2]
  simp only [View.readAt_eq_ld, harg2.read_unread, harg3.read_unread, View.ld_unit_zero (S := S1x1792x150) hz3, View.ld_unit_zero (S := S1x1792x32) hz3, harg9.read_unread, View.ld_unit_zero (S := S1x32) hz2]

theorem out_C_2 :
    out0_C_2 c i arg2 harg2 arg3 harg3 arg4 harg4 arg5 harg5 arg6 harg6 arg7 harg7 arg8 harg8 arg9 harg9 hc0 hc1 x0 x1 xs0 xs1 xs2 xs3 xs4 = k0_pay4 (k0_pay13 x0 xs2) (k0_pay14 x0 xs3) (k0_pay2 (k0_pay10 x0) (k0_pay11 x1) xs0) (k0_pay3 (k0_pay11 x1) (k0_pay12 x0) xs1) (k0_pay1 (k0_pay11 x1) xs4) := by
  unfold out0_C_2
  rw [View.read_writes_eq_canon _ _ _ fun y => cover0_C_2 (y := y) ..]
  unfold kernelRun0_C
  dsimp only
  sl_unfold_words
  rw [View.canon_unit_zero (S := S1x150x32) hz3]
  simp only [View.readAt_eq_ld, harg2.read_unread, harg3.read_unread, View.ld_unit_zero (S := S1x1792x150) hz3, View.ld_unit_zero (S := S1x1792x32) hz3, harg5.read_unread, harg6.read_unread, harg7.read_unread, harg8.read_unread, harg9.read_unread,
    View.ld_unit_zero (S := S150x32) hz2, View.ld_unit_zero (S := S1x150) hz2, View.ld_unit_zero (S := S1x32) hz2,
    View.readCov_unit_zero (S := S150x32) _ hz2, View.readCov_unit_zero (S := S1x150) _ hz2, View.readCov_unit_zero (S := S1x32) _ hz2]

end C

end Cert.KernelIdeal.Pieces

end
-- ==== Proof.KerPayload.lean ====
import proofs.«401846_j83760452207136_3_alg».proof.Proof.Gen.KernelIdeal.Skeleton
import proofs.«401846_j83760452207136_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx Cert.Spec
open scoped BigOperators

theorem pay10_apply (v3 : Vec Ideal S1x1792x150 .f32) (r : Fin 1792) (q : Fin 150) :
    k0_pay10 (F := Ideal) v3 (ix2 r q) = v3 (ix3 (0 : Fin 1) r q) := by
  unfold k0_pay10
  exact shapeCast_1ab_ab_apply v3 _ r q

theorem pay11_apply (v5 : Vec Ideal S1x1792x32 .f32) (r : Fin 1792) (t : Fin 32) :
    k0_pay11 (F := Ideal) v5 (ix2 r t) = v5 (ix3 (0 : Fin 1) r t) := by
  unfold k0_pay11
  exact shapeCast_1ab_ab_apply v5 _ r t

theorem pay12_apply (v3 : Vec Ideal S1x1792x150 .f32) (r : Fin 1792) (q : Fin 150) :
    k0_pay12 (F := Ideal) v3 (ix2 r q) = sigm (v3 (ix3 (0 : Fin 1) r q)) := by
  unfold k0_pay12
  show Ideal.logistic (k0_pay10 (F := Ideal) v3 (ix2 r q)) = _
  rw [pay10_apply]
  rfl

theorem lift_rows150 (h : S1792x150.Reduces [0] S150) (q : Fin 150) (r : Fin 1792) :
    h.lift (ix1 q) r = ix2 r q := by
  funext a
  match a with
  | ⟨0, _⟩ => exact Fin.ext rfl
  | ⟨1, _⟩ => exact Fin.ext rfl

theorem lift_rows32 (h : S1792x32.Reduces [0] S32) (t : Fin 32) (r : Fin 1792) :
    h.lift (ix1 t) r = ix2 r t := by
  funext a
  match a with
  | ⟨0, _⟩ => exact Fin.ext rfl
  | ⟨1, _⟩ => exact Fin.ext rfl

theorem colsum150 (x : FVec Ideal S1792x150 .f32) (f : Fin 1792 → EReal) (q : Fin 150) (hx : ∀ r, x (ix2 r q) = f r) :
    shapeCast S1x150 (multiReduction (F := Ideal) .add [0] S150 x 0x00000000#32 reduces_S1792x150_S150 (.inl rfl) rfl)
        shapeCasts_S150_S1x150 (ix2 (0 : Fin 1) q) = ∑ r : Fin 1792, f r := by
  refine (shapeCast_a_1a_apply _ _ (0 : Fin 1) q).trans ?_
  refine (Ideal.multiReduction_add_single x _ reduces_S1792x150_S150 _ _ (ix1 q)).trans ?_
  refine Finset.sum_congr rfl fun r _ => ?_
  exact (congrArg x (lift_rows150 _ q r)).trans (hx r)

theorem colsum32 (x : FVec Ideal S1792x32 .f32) (f : Fin 1792 → EReal) (t : Fin 32) (hx : ∀ r, x (ix2 r t) = f r) :
    shapeCast S1x32 (multiReduction (F := Ideal) .add [0] S32 x 0x00000000#32 reduces_S1792x32_S32 (.inl rfl) rfl)
        shapeCasts_S32_S1x32 (ix2 (0 : Fin 1) t) = ∑ r : Fin 1792, f r := by
  refine (shapeCast_a_1a_apply _ _ (0 : Fin 1) t).trans ?_
  refine (Ideal.multiReduction_add_single x _ reduces_S1792x32_S32 _ _ (ix1 t)).trans ?_
  refine Finset.sum_congr rfl fun r _ => ?_
  exact (congrArg x (lift_rows32 _ t r)).trans (hx r)

theorem softplus_word (x : Ideal .f32) :
    Scalar.select (FloatOps.cmpf .one (FloatOps.subf x (Scalar.ofBits .f32 0x00000000#32)) (FloatOps.subf x (Scalar.ofBits .f32 0x00000000#32)))
      (FloatOps.addf x (Scalar.ofBits .f32 0x00000000#32))
      (FloatOps.addf (FloatOps.maximumf x (Scalar.ofBits .f32 0x00000000#32))
        (FloatOps.log1p (FloatOps.exp (FloatOps.subf (Scalar.ofBits .f32 0x00000000#32)
          (FloatOps.absf (FloatOps.subf x (Scalar.ofBits .f32 0x00000000#32)))))))
      = softplus x := by
  show Scalar.select (Ideal.cmp .one (x - Ideal.ofBits .f32 0x00000000#32) (x - Ideal.ofBits .f32 0x00000000#32))
      (x + Ideal.ofBits .f32 0x00000000#32)
      (max x (Ideal.ofBits .f32 0x00000000#32) + Ideal.log1p (Ideal.exp (Ideal.ofBits .f32 0x00000000#32
        - max (x - Ideal.ofBits .f32 0x00000000#32) (-(x - Ideal.ofBits .f32 0x00000000#32))))) = _
  rw [Ideal.ofBits_zero_f32, sub_zero, zero_sub]
  have hc : Ideal.cmp .one x x = 0#1 := by simp [Ideal.cmp]
  rw [hc, select_zero]
  rfl

theorem pay13_apply (v3 : Vec Ideal S1x1792x150 .f32) (v22 : Vec Ideal S1x150 .f32) (q : Fin 150) :
    k0_pay13 (F := Ideal) v3 v22 (ix2 (0 : Fin 1) q)
      = v22 (ix2 (0 : Fin 1) q) + ∑ r : Fin 1792, softplus (v3 (ix3 (0 : Fin 1) r q)) := by
  unfold k0_pay13
  dsimp only
  rw [shapeCast_self]
  refine congrArg (v22 (ix2 (0 : Fin 1) q) + ·) ?_
  refine colsum150 _ _ q fun r => ?_
  exact (softplus_word _).trans (congrArg softplus (pay10_apply v3 r q))

theorem pay14_apply (v3 : Vec Ideal S1x1792x150 .f32) (v29 : Vec Ideal S1x150 .f32) (q : Fin 150) :
    k0_pay14 (F := Ideal) v3 v29 (ix2 (0 : Fin 1) q)
      = v29 (ix2 (0 : Fin 1) q) + ∑ r : Fin 1792, sigm (v3 (ix3 (0 : Fin 1) r q)) := by
  unfold k0_pay14
  dsimp only
  rw [shapeCast_self]
  refine congrArg (v29 (ix2 (0 : Fin 1) q) + ·) ?_
  exact colsum150 _ _ q fun r => pay12_apply v3 r q

theorem pay1_apply (v6 : FVec Ideal S1792x32 .f32) (v36 : Vec Ideal S1x32 .f32) (t : Fin 32) :
    k0_pay1 (F := Ideal) v6 v36 (ix2 (0 : Fin 1) t) = v36 (ix2 (0 : Fin 1) t) + ∑ r : Fin 1792, v6 (ix2 r t) := by
  unfold k0_pay1
  dsimp only
  rw [shapeCast_self]
  refine congrArg (v36 (ix2 (0 : Fin 1) t) + ·) ?_
  exact colsum32 v6 _ t fun r => rfl

theorem lhs_dot_0 (i : S150x32.Idx) (k : dot_S1792x150_S1792x32_S150x32_0_0_1_1_n_n.contr.Idx) :
    (dot_S1792x150_S1792x32_S150x32_0_0_1_1_n_n.lhsIdx i k 0).val = (k ⟨0, by decide⟩).val :=
  dot_S1792x150_S1792x32_S150x32_0_0_1_1_n_n.lhsIdx_val_of_single rfl i k

theorem lhs_dot_1 (i : S150x32.Idx) (k : dot_S1792x150_S1792x32_S150x32_0_0_1_1_n_n.contr.Idx) :
    (dot_S1792x150_S1792x32_S150x32_0_0_1_1_n_n.lhsIdx i k 1).val = (i 0).val := by
  unfold DotDims.lhsIdx
  rw [dif_neg (show ¬(1 : Fin S1792x150.rank) ∈ dot_S1792x150_S1792x32_S150x32_0_0_1_1_n_n.lhsBatch by decide),
    dif_pos (show (1 : Fin S1792x150.rank) ∈ dot_S1792x150_S1792x32_S150x32_0_0_1_1_n_n.lhsNonContracting by decide)]
  rfl

theorem rhs_dot_0 (i : S150x32.Idx) (k : dot_S1792x150_S1792x32_S150x32_0_0_1_1_n_n.contr.Idx) :
    (dot_S1792x150_S1792x32_S150x32_0_0_1_1_n_n.rhsIdx i k 0).val = (k ⟨0, by decide⟩).val :=
  dot_S1792x150_S1792x32_S150x32_0_0_1_1_n_n.rhsIdx_val_of_single rfl i k

theorem rhs_dot_1 (i : S150x32.Idx) (k : dot_S1792x150_S1792x32_S150x32_0_0_1_1_n_n.contr.Idx) :
    (dot_S1792x150_S1792x32_S150x32_0_0_1_1_n_n.rhsIdx i k 1).val = (i 1).val := by
  unfold DotDims.rhsIdx
  rw [dif_neg (show ¬(1 : Fin S1792x32.rank) ∈ dot_S1792x150_S1792x32_S150x32_0_0_1_1_n_n.rhsBatch by decide),
    dif_pos (show (1 : Fin S1792x32.rank) ∈ dot_S1792x150_S1792x32_S150x32_0_0_1_1_n_n.rhsNonContracting by decide)]
  rfl

theorem matmul_zero_apply (x : FVec Ideal S1792x150 .f32) (y : FVec Ideal S1792x32 .f32) (q : Fin 150) (t : Fin 32) :
    FloatOps.matmul dot_S1792x150_S1792x32_S150x32_0_0_1_1_n_n (some .fp32) x y
        (constant (F := Ideal) S150x32 .f32 0x00000000#32) (ix2 q t)
      = ∑ r : Fin 1792, x (ix2 r q) * y (ix2 r t) := by
  rw [Ideal.matmul_constant_zero_apply,
    ← Equiv.sum_comp (contrEquiv1 dot_S1792x150_S1792x32_S150x32_0_0_1_1_n_n 1792 rfl rfl).symm]
  refine Finset.sum_congr rfl fun k _ => ?_
  have hk := contrEquiv1_symm_val dot_S1792x150_S1792x32_S150x32_0_0_1_1_n_n 1792 rfl rfl k
  have el : dot_S1792x150_S1792x32_S150x32_0_0_1_1_n_n.lhsIdx (ix2 q t)
      ((contrEquiv1 dot_S1792x150_S1792x32_S150x32_0_0_1_1_n_n 1792 rfl rfl).symm k) = ix2 k q :=
    funext fun a => Fin.ext (by
      match a with
      | ⟨0, _⟩ => exact (lhs_dot_0 _ _).trans hk
      | ⟨1, _⟩ => exact lhs_dot_1 _ _)
  have er : dot_S1792x150_S1792x32_S150x32_0_0_1_1_n_n.rhsIdx (ix2 q t)
      ((contrEquiv1 dot_S1792x150_S1792x32_S150x32_0_0_1_1_n_n 1792 rfl rfl).symm k) = ix2 k t :=
    funext fun a => Fin.ext (by
      match a with
      | ⟨0, _⟩ => exact (rhs_dot_0 _ _).trans hk
      | ⟨1, _⟩ => exact rhs_dot_1 _ _)
  rw [el, er]

theorem pay2_apply (v4 : FVec Ideal S1792x150 .f32) (v6 : FVec Ideal S1792x32 .f32) (v43 : Vec Ideal S150x32 .f32)
    (q : Fin 150) (t : Fin 32) :
    k0_pay2 (F := Ideal) v4 v6 v43 (ix2 q t) = v43 (ix2 q t) + ∑ r : Fin 1792, v4 (ix2 r q) * v6 (ix2 r t) := by
  unfold k0_pay2
  rw [shapeCast_self]
  refine congrArg (v43 (ix2 q t) + ·) ?_
  exact matmul_zero_apply v4 v6 q t

theorem pay3_apply (v6 : FVec Ideal S1792x32 .f32) (v21 : FVec Ideal S1792x150 .f32) (v49 : Vec Ideal S150x32 .f32)
    (q : Fin 150) (t : Fin 32) :
    k0_pay3 (F := Ideal) v6 v21 v49 (ix2 q t) = v49 (ix2 q t) + ∑ r : Fin 1792, v21 (ix2 r q) * v6 (ix2 r t) := by
  unfold k0_pay3
  rw [shapeCast_self]
  refine congrArg (v49 (ix2 q t) + ·) ?_
  exact matmul_zero_apply v21 v6 q t

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem col_apply (v : Vec Ideal S1x150 .f32) (q : Fin 150) (t : Fin 32) :
    broadcastTo S150x32 (transpose S150x1 [1, 0] v transposes_S1x150_p1_0_S150x1) broadcasts_S150x1_S150x32 (ix2 q t)
      = v (ix2 (0 : Fin 1) q) :=
  (broadcastTo_a1_ab_apply _ _ q t).trans (transpose_ix2_apply v _ q (0 : Fin 1))

theorem inv_pts : Named.named (F := Ideal) Cert.KernelIdeal.κ "inv_12544" (φ := .f32) 0x38A72F05#32 = invPts :=
  IdealRules.named_const.ideal_named_scalar _ _ _ _ rfl

theorem pay4_apply (v58 v60 : Vec Ideal S1x150 .f32) (v62 v67 : Vec Ideal S150x32 .f32) (v72 : Vec Ideal S1x32 .f32)
    (q : Fin 150) (t : Fin 32) :
    k0_pay4 (F := Ideal) v58 v60 v62 v67 v72 (ix3 (0 : Fin 1) q t)
      = five32 * ((v58 (ix2 (0 : Fin 1) q) - v62 (ix2 q t)) * invPts)
        + five32 * (one32 - Ideal.div (two32 * v67 (ix2 q t) + one32)
            ((v60 (ix2 (0 : Fin 1) q) + v72 (ix2 (0 : Fin 1) t)) + one32)) := by
  unfold k0_pay4
  dsimp only
  refine (shapeCast_ab_1ab_apply _ _ (0 : Fin 1) q t).trans ?_
  show five32 * ((broadcastTo S150x32 (transpose S150x1 [1, 0] v58 transposes_S1x150_p1_0_S150x1) broadcasts_S150x1_S150x32 (ix2 q t)
          - v62 (ix2 q t)) * Named.named (F := Ideal) Cert.KernelIdeal.κ "inv_12544" (φ := .f32) 0x38A72F05#32)
      + five32 * (one32 - Ideal.div (two32 * v67 (ix2 q t) + one32)
          ((broadcastTo S150x32 (transpose S150x1 [1, 0] v60 transposes_S1x150_p1_0_S150x1) broadcasts_S150x1_S150x32 (ix2 q t)
            + broadcastTo S150x32 v72 broadcasts_S1x32_S150x32 (ix2 q t)) + one32)) = _
  rw [inv_pts, col_apply v58 q t, col_apply v60 q t, broadcastTo_1b_ab_apply v72 _ q t]

theorem zero_block {s : Shape} (h : s.ShapeCasts s) (i : s.Idx) :
    shapeCast s (broadcast s (Scalar.ofBits (F := Ideal) .f32 0x00000000#32)) h i = 0 := by
  rw [shapeCast_self]
  exact Ideal.ofBits_zero_f32

theorem pay5_apply (q : Fin 150) (t : Fin 32) : k0_pay5 (F := Ideal) (ix2 q t) = 0 := by
  unfold k0_pay5
  exact zero_block _ _
theorem pay6_apply (q : Fin 150) (t : Fin 32) : k0_pay6 (F := Ideal) (ix2 q t) = 0 := by
  unfold k0_pay6
  exact zero_block _ _
theorem pay7_apply (q : Fin 150) : k0_pay7 (F := Ideal) (ix2 (0 : Fin 1) q) = 0 := by
  unfold k0_pay7
  exact zero_block _ _
theorem pay8_apply (q : Fin 150) : k0_pay8 (F := Ideal) (ix2 (0 : Fin 1) q) = 0 := by
  unfold k0_pay8
  exact zero_block _ _
theorem pay9_apply (t : Fin 32) : k0_pay9 (F := Ideal) (ix2 (0 : Fin 1) t) = 0 := by
  unfold k0_pay9
  exact zero_block _ _

end Cert.KernelIdeal.Payload

end
-- ==== Proof.KerRegion.lean ====
import proofs.«401846_j83760452207136_3_alg».proof.Proof.Gen.KernelIdeal.Frame
import proofs.«401846_j83760452207136_3_alg».proof.Proof.Spec
import proofs.«401846_j83760452207136_3_alg».proof.Proof.KerPieces
import proofs.«401846_j83760452207136_3_alg».proof.Proof.KerPayload
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec
open Cert.KernelIdeal Cert.KernelIdeal.Gen

variable (m : (ℓ : Loc nD τ sig) → Buf (Elt Ideal) ℓ)

abbrev parr (c : Dev nD) : S8x12544x150.Idx → EReal := V (F := Ideal) m c main_v142

abbrev tarr (c : Dev nD) : S8x12544x32.Idx → EReal := V (F := Ideal) m c main_v143

abbrev xblk (c : Dev nD) (t : Fin cfg0.N) : Vec Ideal S1x1792x150 .f32 := iblk (F := Ideal) m c 0 t

abbrev yblk (c : Dev nD) (t : Fin cfg0.N) : Vec Ideal S1x1792x32 .f32 := iblk (F := Ideal) m c 1 t

def bOf (n : ℕ) (hn : n < cfg0.N) : Fin 8 :=
  ⟨n / 7, by have hN : n < 56 := lt_of_lt_of_eq hn (show cfg0.N = 56 from N_0); omega⟩

def jOf (n : ℕ) : Fin 7 := ⟨n % 7, Nat.mod_lt _ (by decide)⟩

abbrev pmAt (c : Dev nD) (b : Fin 8) (q : Fin 150) (p : Fin 12544) : EReal := parr m c (ix3 b p q)

abbrev tmAt (c : Dev nD) (b : Fin 8) (t : Fin 32) (p : Fin 12544) : EReal := tarr m c (ix3 b p t)

theorem index0 : ∀ t : Fin grid0.N, win0_0.index t (0 : Fin 3) = t.val / 7 ∧ win0_0.index t (1 : Fin 3) = t.val % 7 ∧ win0_0.index t (2 : Fin 3) = 0 := by
  decide +kernel
theorem index1 : ∀ t : Fin grid0.N, win0_1.index t (0 : Fin 3) = t.val / 7 ∧ win0_1.index t (1 : Fin 3) = t.val % 7 ∧ win0_1.index t (2 : Fin 3) = 0 := by
  decide +kernel

-- Row r of point t's block is sample point 1792·(t % 7) + r of batch entry t / 7, by the decided block indices.
theorem xblk_apply (c : Dev nD) (t : Fin cfg0.N) (r : Fin 1792) (q : Fin 150) :
    xblk m c t (ix3 (0 : Fin 1) r q) = pmAt m c (bOf t.val t.isLt) q (tileIx (jOf t.val) r) := by
  show V (F := Ideal) m c main_v142 (((cfg0.win 0).blk t).view.emb (ix3 (0 : Fin 1) r q)) = V (F := Ideal) m c main_v142 _
  congr 1
  funext a
  apply Fin.ext
  obtain ⟨h0, h1, h2⟩ := index0 t
  match a with
  | ⟨0, _⟩ => show win0_0.index t 0 * 1 + 1 * 0 = t.val / 7; rw [h0]; omega
  | ⟨1, _⟩ => show win0_0.index t 1 * 1792 + 1 * r.val = 1792 * (t.val % 7) + r.val; rw [h1]; omega
  | ⟨2, _⟩ => show win0_0.index t 2 * 150 + 1 * q.val = q.val; rw [h2]; omega

theorem yblk_apply (c : Dev nD) (t : Fin cfg0.N) (r : Fin 1792) (s : Fin 32) :
    yblk m c t (ix3 (0 : Fin 1) r s) = tmAt m c (bOf t.val t.isLt) s (tileIx (jOf t.val) r) := by
  show V (F := Ideal) m c main_v143 (((cfg0.win 1).blk t).view.emb (ix3 (0 : Fin 1) r s)) = V (F := Ideal) m c main_v143 _
  congr 1
  funext a
  apply Fin.ext
  obtain ⟨h0, h1, h2⟩ := index1 t
  match a with
  | ⟨0, _⟩ => show win0_1.index t 0 * 1 + 1 * 0 = t.val / 7; rw [h0]; omega
  | ⟨1, _⟩ => show win0_1.index t 1 * 1792 + 1 * r.val = 1792 * (t.val % 7) + r.val; rw [h1]; omega
  | ⟨2, _⟩ => show win0_1.index t 2 * 32 + 1 * s.val = s.val; rw [h2]; omega

-- A sum over a block's 1792 rows is the spec's tile sum, whatever is summed: the rows are the tile's sample points.
theorem tile_eq (c : Dev nD) (n : ℕ) (hn : n < cfg0.N) (g : EReal → EReal → EReal) (q : Fin 150) (s : Fin 32) (f : Fin 1792 → EReal)
    (hf : ∀ r, f r = g (xblk m c ⟨n, hn⟩ (ix3 (0 : Fin 1) r q)) (yblk m c ⟨n, hn⟩ (ix3 (0 : Fin 1) r s))) :
    ∑ r, f r = tileSum (fun p => g (pmAt m c (bOf n hn) q p) (tmAt m c (bOf n hn) s p)) (n % 7) := by
  unfold tileSum
  rw [dif_pos (Nat.mod_lt n (by decide))]
  refine Finset.sum_congr rfl fun r _ => ?_
  rw [hf r, xblk_apply m c ⟨n, hn⟩ r q, yblk_apply m c ⟨n, hn⟩ r s]
  rfl

theorem comp0 (c : Dev nD) (n : ℕ) (hn : n < cfg0.N) (xs0 : Vec Ideal S150x32 .f32) (q : Fin 150) (s : Fin 32) :
    k0_pay2 (F := Ideal) (k0_pay10 (xblk m c ⟨n, hn⟩)) (k0_pay11 (yblk m c ⟨n, hn⟩)) xs0 (ix2 q s)
      = xs0 (ix2 q s) + tileSum (fun p => pmAt m c (bOf n hn) q p * tmAt m c (bOf n hn) s p) (n % 7) := by
  rw [Payload.pay2_apply]
  exact congrArg (xs0 (ix2 q s) + ·) (tile_eq m c n hn (· * ·) q s _ fun r => by rw [Payload.pay10_apply, Payload.pay11_apply])
theorem comp1 (c : Dev nD) (n : ℕ) (hn : n < cfg0.N) (xs1 : Vec Ideal S150x32 .f32) (q : Fin 150) (s : Fin 32) :
    k0_pay3 (F := Ideal) (k0_pay11 (yblk m c ⟨n, hn⟩)) (k0_pay12 (xblk m c ⟨n, hn⟩)) xs1 (ix2 q s)
      = xs1 (ix2 q s) + tileSum (fun p => sigm (pmAt m c (bOf n hn) q p) * tmAt m c (bOf n hn) s p) (n % 7) := by
  rw [Payload.pay3_apply]
  exact congrArg (xs1 (ix2 q s) + ·) (tile_eq m c n hn (sigm · * ·) q s _ fun r => by rw [Payload.pay12_apply, Payload.pay11_apply])
theorem comp2 (c : Dev nD) (n : ℕ) (hn : n < cfg0.N) (xs2 : Vec Ideal S1x150 .f32) (q : Fin 150) :
    k0_pay13 (F := Ideal) (xblk m c ⟨n, hn⟩) xs2 (ix2 (0 : Fin 1) q)
      = xs2 (ix2 (0 : Fin 1) q) + tileSum (fun p => softplus (pmAt m c (bOf n hn) q p)) (n % 7) := by
  rw [Payload.pay13_apply]
  exact congrArg (xs2 (ix2 (0 : Fin 1) q) + ·) (tile_eq m c n hn (fun a _ => softplus a) q 0 _ fun _ => rfl)
theorem comp3 (c : Dev nD) (n : ℕ) (hn : n < cfg0.N) (xs3 : Vec Ideal S1x150 .f32) (q : Fin 150) :
    k0_pay14 (F := Ideal) (xblk m c ⟨n, hn⟩) xs3 (ix2 (0 : Fin 1) q)
      = xs3 (ix2 (0 : Fin 1) q) + tileSum (fun p => sigm (pmAt m c (bOf n hn) q p)) (n % 7) := by
  rw [Payload.pay14_apply]
  exact congrArg (xs3 (ix2 (0 : Fin 1) q) + ·) (tile_eq m c n hn (fun a _ => sigm a) q 0 _ fun _ => rfl)
theorem comp4 (c : Dev nD) (n : ℕ) (hn : n < cfg0.N) (xs4 : Vec Ideal S1x32 .f32) (s : Fin 32) :
    k0_pay1 (F := Ideal) (k0_pay11 (yblk m c ⟨n, hn⟩)) xs4 (ix2 (0 : Fin 1) s)
      = xs4 (ix2 (0 : Fin 1) s) + tileSum (fun p => tmAt m c (bOf n hn) s p) (n % 7) := by
  rw [Payload.pay1_apply]
  exact congrArg (xs4 (ix2 (0 : Fin 1) s) + ·) (tile_eq m c n hn (fun _ b => b) 0 s _ fun r => by rw [Payload.pay11_apply])

-- After point n the five totals are the running sums over tiles 0 … n % 7 of batch entry n / 7.
def Inv (c : Dev nD) (n : ℕ) (hn : n < cfg0.N) : Prop :=
  ∀ (q : Fin 150) (s : Fin 32),
    (outsAt0 (F := Ideal) m c n hn).2.1 (ix2 q s) = accTo (tileSum (fun p => pmAt m c (bOf n hn) q p * tmAt m c (bOf n hn) s p)) (n % 7)
    ∧ (outsAt0 (F := Ideal) m c n hn).2.2.1 (ix2 q s) = accTo (tileSum (fun p => sigm (pmAt m c (bOf n hn) q p) * tmAt m c (bOf n hn) s p)) (n % 7)
    ∧ (outsAt0 (F := Ideal) m c n hn).2.2.2.1 (ix2 (0 : Fin 1) q) = accTo (tileSum (fun p => softplus (pmAt m c (bOf n hn) q p))) (n % 7)
    ∧ (outsAt0 (F := Ideal) m c n hn).2.2.2.2.1 (ix2 (0 : Fin 1) q) = accTo (tileSum (fun p => sigm (pmAt m c (bOf n hn) q p))) (n % 7)
    ∧ (outsAt0 (F := Ideal) m c n hn).2.2.2.2.2 (ix2 (0 : Fin 1) s) = accTo (tileSum (fun p => tmAt m c (bOf n hn) s p)) (n % 7)

-- A first tile leaves zero plus its own share in each total.
theorem inv_A (c : Dev nD) (n : ℕ) (hn : n < cfg0.N) (h0 : n % 7 = 0) : Inv m c n hn := by
  intro q s
  have h1 : ¬n % 7 = 6 := by omega
  rw [outsAt0_A (F := Ideal) m c ⟨n, hn⟩ h0 h1]
  dsimp only
  rw [Pieces.sout_A_0, Pieces.sout_A_1, Pieces.sout_A_2, Pieces.sout_A_3, Pieces.sout_A_4,
    comp0 m c n hn, comp1 m c n hn, comp2 m c n hn, comp3 m c n hn, comp4 m c n hn,
    Payload.pay5_apply, Payload.pay6_apply, Payload.pay7_apply, Payload.pay8_apply, Payload.pay9_apply, h0]
  exact ⟨rfl, rfl, rfl, rfl, rfl⟩

theorem accTo_succ (f : ℕ → EReal) (k : ℕ) : accTo f (k + 1) = accTo f k + f (k + 1) := rfl

-- A later tile adds its share to what the tile before left; the two remaining control cases update alike.
theorem inv_S (c : Dev nD) (n : ℕ) (hn : n + 1 < cfg0.N) (h0 : ¬(n + 1) % 7 = 0)
    (ih : Inv m c n (Nat.lt_of_succ_lt hn)) : Inv m c (n + 1) hn := by
  intro q s
  obtain ⟨i0, i1, i2, i3, i4⟩ := ih q s
  have hb : bOf (n + 1) hn = bOf n (Nat.lt_of_succ_lt hn) := Fin.ext (by show (n + 1) / 7 = n / 7; omega)
  have hj : (n + 1) % 7 = n % 7 + 1 := by omega
  by_cases h1 : (n + 1) % 7 = 6
  · rw [outsAt0_C (F := Ideal) m c ⟨n + 1, hn⟩ h0 h1]
    dsimp only
    try simp only [Nat.add_sub_cancel]
    rw [Pieces.sout_C_0, Pieces.sout_C_1, Pieces.sout_C_2, Pieces.sout_C_3, Pieces.sout_C_4,
      comp0 m c (n + 1) hn, comp1 m c (n + 1) hn, comp2 m c (n + 1) hn, comp3 m c (n + 1) hn, comp4 m c (n + 1) hn,
      i0, i1, i2, i3, i4, hb, hj]
    exact ⟨(accTo_succ _ _).symm, (accTo_succ _ _).symm, (accTo_succ _ _).symm, (accTo_succ _ _).symm, (accTo_succ _ _).symm⟩
  · rw [outsAt0_B (F := Ideal) m c ⟨n + 1, hn⟩ h0 h1]
    dsimp only
    try simp only [Nat.add_sub_cancel]
    rw [Pieces.sout_B_0, Pieces.sout_B_1, Pieces.sout_B_2, Pieces.sout_B_3, Pieces.sout_B_4,
      comp0 m c (n + 1) hn, comp1 m c (n + 1) hn, comp2 m c (n + 1) hn, comp3 m c (n + 1) hn, comp4 m c (n + 1) hn,
      i0, i1, i2, i3, i4, hb, hj]
    exact ⟨(accTo_succ _ _).symm, (accTo_succ _ _).symm, (accTo_succ _ _).symm, (accTo_succ _ _).symm, (accTo_succ _ _).symm⟩

theorem inv (c : Dev nD) : ∀ (n : ℕ) (hn : n < cfg0.N), Inv m c n hn
  | 0, hn => inv_A m c 0 hn rfl
  | n + 1, hn => by
    by_cases h0 : (n + 1) % 7 = 0
    · exact inv_A m c (n + 1) hn h0
    · exact inv_S m c n hn h0 (inv c n (Nat.lt_of_succ_lt hn))

-- At a last tile the stored block is the cost formula at the five completed totals.
theorem out_C (c : Dev nD) (n : ℕ) (hn : n < cfg0.N) (h6 : n % 7 = 6) (q : Fin 150) (s : Fin 32) :
    (outsAt0 (F := Ideal) m c n hn).1 (ix3 (0 : Fin 1) q s) = regionOut (pmAt m c (bOf n hn)) (tmAt m c (bOf n hn)) q s := by
  obtain ⟨k, rfl⟩ : ∃ k, n = k + 1 := ⟨n - 1, by omega⟩
  have h0 : ¬(k + 1) % 7 = 0 := by omega
  obtain ⟨i0, i1, i2, i3, i4⟩ := inv m c k (Nat.lt_of_succ_lt hn) q s
  have hb : bOf (k + 1) hn = bOf k (Nat.lt_of_succ_lt hn) := Fin.ext (by show (k + 1) / 7 = k / 7; omega)
  have hj : k % 7 = 5 := by omega
  rw [outsAt0_C (F := Ideal) m c ⟨k + 1, hn⟩ h0 h6]
  dsimp only
  try simp only [Nat.add_sub_cancel]
  rw [Pieces.out_C_2, Payload.pay4_apply,
    comp2 m c (k + 1) hn, comp3 m c (k + 1) hn, comp0 m c (k + 1) hn, comp1 m c (k + 1) hn, comp4 m c (k + 1) hn,
    i0, i1, i2, i3, i4, hb, h6, hj]
  rfl

theorem index2 : ∀ t : Fin grid0.N, win0_2.index t (0 : Fin 3) = t.val / 7 ∧ win0_2.index t (1 : Fin 3) = 0 ∧ win0_2.index t (2 : Fin 3) = 0 := by
  decide +kernel

def G (c : Dev nD) : S8x150x32.Idx → EReal := fun i => regionOut (pmAt m c (i 0)) (tmAt m c (i 0)) (i 1) (i 2)

theorem flushed_eq (c : Dev nD) (t : Fin cfg0.N) (hf : (cfg0.win 2).flush t = true) :
    (dats (F := Ideal) m 0 c).flushed 2 t = ((cfg0.win 2).blk t).view.read (Elt Ideal) (G m c) := by
  have h6 : t.val % 7 = 6 := (flush0_2 t).mp hf
  obtain ⟨h0, h1, h2⟩ := index2 t
  funext y
  have hy0 : (y 0).val < 1 := (y 0).isLt
  have hy1 : (y 1).val < 150 := (y 1).isLt
  have hy2 : (y 2).val < 32 := (y 2).isLt
  show (cfg0.win 2).cut (grid0.coords t) ((dats (F := Ideal) m 0 c).after 2 t) y = G m c (((cfg0.win 2).blk t).view.emb y)
  rw [after0_2]
  have e1 : (cfg0.win 2).xinj (grid0.coords t) y = (ix3 (0 : Fin 1) ⟨(y 1).val, hy1⟩ ⟨(y 2).val, hy2⟩ : S1x150x32.Idx) := by
    funext a
    apply Fin.ext
    match a with
    | ⟨0, _⟩ => show (y 0).val = 0; omega
    | ⟨1, _⟩ => rfl
    | ⟨2, _⟩ => rfl
  have e2 : ((cfg0.win 2).blk t).view.emb y = (ix3 (bOf t.val t.isLt) ⟨(y 1).val, hy1⟩ ⟨(y 2).val, hy2⟩ : S8x150x32.Idx) := by
    funext a
    apply Fin.ext
    match a with
    | ⟨0, _⟩ => show win0_2.index t 0 * 1 + 1 * (y 0).val = t.val / 7; rw [h0]; omega
    | ⟨1, _⟩ => show win0_2.index t 1 * 150 + 1 * (y 1).val = (y 1).val; rw [h1]; omega
    | ⟨2, _⟩ => show win0_2.index t 2 * 32 + 1 * (y 2).val = (y 2).val; rw [h2]; omega
  exact (congrArg (outsAt0 (F := Ideal) m c t.val t.isLt).1 e1).trans
    ((out_C m c t.val t.isLt h6 _ _).trans (congrArg (G m c) e2).symm)

theorem mem_blk2 (t : Fin cfg0.N) (i : S8x150x32.Idx) :
    i ∈ ((cfg0.win 2).blk t).view.set
      ↔ ∀ a, win0_2.index t a * win0_2.size a ≤ (i a).val ∧ (i a).val < win0_2.index t a * win0_2.size a + win0_2.xsize (grid0.coords t) a := by
  show i ∈ ((View.whole main_v157).slice (win0_2.rect t)).set ↔ _
  rw [View.set_slice_whole, Rect.mem_set_unit]

-- Entry (b, q, s) of the result is written at point 7·b + 6, the last tile of batch entry b.
theorem cover (i : S8x150x32.Idx) :
    ∃ t : Fin cfg0.N, (cfg0.win 2).flush t = true ∧ i ∈ ((cfg0.win 2).blk t).view.set := by
  have hi0 : (i 0).val < 8 := (i 0).isLt
  have hi1 : (i 1).val < 150 := (i 1).isLt
  have hi2 : (i 2).val < 32 := (i 2).isLt
  have hN : cfg0.N = 56 := N_0
  have ht : 7 * (i 0).val + 6 < cfg0.N := by omega
  obtain ⟨h0, h1, h2⟩ := index2 ⟨7 * (i 0).val + 6, ht⟩
  refine ⟨⟨7 * (i 0).val + 6, ht⟩, (flush0_2 _).mpr (by show (7 * (i 0).val + 6) % 7 = 6; omega), ?_⟩
  rw [mem_blk2]
  intro a
  match a with
  | ⟨0, _⟩ =>
    show win0_2.index ⟨7 * (i 0).val + 6, ht⟩ 0 * 1 ≤ (i 0).val ∧ (i 0).val < win0_2.index ⟨7 * (i 0).val + 6, ht⟩ 0 * 1 + 1
    rw [h0]; dsimp only; omega
  | ⟨1, _⟩ =>
    show win0_2.index ⟨7 * (i 0).val + 6, ht⟩ 1 * 150 ≤ (i 1).val ∧ (i 1).val < win0_2.index ⟨7 * (i 0).val + 6, ht⟩ 1 * 150 + 150
    rw [h1]; omega
  | ⟨2, _⟩ =>
    show win0_2.index ⟨7 * (i 0).val + 6, ht⟩ 2 * 32 ≤ (i 2).val ∧ (i 2).val < win0_2.index ⟨7 * (i 0).val + 6, ht⟩ 2 * 32 + 32
    rw [h2]; omega

theorem region_array (c : Dev nD) : (dats (F := Ideal) m 0 c).arrAt 2 cfg0.N = G m c :=
  (dats (F := Ideal) m 0 c).arrAt_eq_of_cover 2 (G m c) (flushed_eq m c) cover

theorem region_value (c : Dev nD) (b : Fin 8) (q : Fin 150) (t : Fin 32) :
    (dats (F := Ideal) m 0 c).arrAt 2 cfg0.N (ix3 b q t)
      = regionOut (fun q p => (V (F := Ideal) m c main_v142 : S8x12544x150.Idx → EReal) (ix3 b p q))
                  (fun t p => (V (F := Ideal) m c main_v143 : S8x12544x32.Idx → EReal) (ix3 b p t)) q t :=
  congrFun (region_array m c) (ix3 b q t)

end Cert.KernelIdeal.Region

end
-- ==== Proof.TapSpec.lean ====
import Idealize.ShloMosaic.PureOps.Ideal
import Idealize.ShloMosaic.Lib.ValueIdx

noncomputable section

namespace Cert.TapSpec

open Idealize.ShloMosaic Idealize.ShloMosaic.ValueIdx

def tapVal {N : ℕ} (A : (⟨4, ![8, N, 160, 160]⟩ : Shape).Idx → EReal)
    (Y X : (⟨2, ![8, 12544]⟩ : Shape).Idx → BitVec 32) (Msk : (⟨2, ![8, 12544]⟩ : Shape).Idx → BitVec 1)
    (b : Fin 8) (n : Fin N) (p : Fin 12544) : EReal :=
  A (ix4 b n ⟨min (Y (ix2 b p)).toInt.toNat 159, by omega⟩ ⟨min (X (ix2 b p)).toInt.toNat 159, by omega⟩)
    * FloatOps.uitofp (F := Ideal) .f32 (Msk (ix2 b p))

def blendVal (t00 t01 t10 t11 tx ty : EReal) : EReal :=
  (((t00 * (Ideal.ofBits .f32 0x3F800000#32 - tx)) * (Ideal.ofBits .f32 0x3F800000#32 - ty)
      + (t01 * tx) * (Ideal.ofBits .f32 0x3F800000#32 - ty))
    + (t10 * (Ideal.ofBits .f32 0x3F800000#32 - tx)) * ty)
    + (t11 * tx) * ty

end Cert.TapSpec

end
-- ==== Proof.LibIndex.lean ====
import Idealize.ShloMosaic.PureOps
import Idealize.ShloMosaic.Lib.ValueIdx
import Idealize.ShloMosaic.Lib.StableHlo.Predicate

noncomputable section

namespace Cert.LibIndex

open Idealize.ShloMosaic Idealize.ShloMosaic.ValueIdx

section Row
variable {α : Type}

abbrev rowDims (B R C P : Nat)
    (wf : GatherDims.WF ⟨3, ![B, R, C]⟩ ⟨3, ![B, P, 1]⟩ ⟨3, ![B, P, C]⟩ [2] [1] [0] [1] [0] 2 ![1, 1, C]) :
    GatherDims ⟨3, ![B, R, C]⟩ ⟨3, ![B, P, 1]⟩ ⟨3, ![B, P, C]⟩ where
  offsetDims := [2]
  collapsedSliceDims := [1]
  operandBatchingDims := [0]
  startIndicesBatchingDims := [0]
  startIndexMap := [1]
  indexVectorDim := 2
  sliceSizes := ![1, 1, C]
  wf := wf

theorem gather_rowDims_apply {B R C P w : Nat} (hR : 0 < R)
    (wf : GatherDims.WF ⟨3, ![B, R, C]⟩ ⟨3, ![B, P, 1]⟩ ⟨3, ![B, P, C]⟩ [2] [1] [0] [1] [0] 2 ![1, 1, C])
    (x : (⟨3, ![B, R, C]⟩ : Shape).Idx → α) (idx : IVec ⟨3, ![B, P, 1]⟩ w) (b : Fin B) (p : Fin P) (n : Fin C) :
    Host.gather (rowDims B R C P wf) x idx (ix3 b p n)
      = x (ix3 b ⟨min (idx (ix3 b p (0 : Fin 1))).toInt.toNat (R - 1), by omega⟩ n) := by
  have n10 : (1 : Fin 3) ∉ ([0] : List (Fin 3)) := by decide
  have n20 : (2 : Fin 3) ∉ ([0] : List (Fin 3)) := by decide
  have n21 : (2 : Fin 3) ∉ ([1] : List (Fin 3)) := by decide

  have h0 : (rowDims B R C P wf).start (ix3 b p n) idx 0 + (rowDims B R C P wf).batchCoord (ix3 b p n) 0
      + (rowDims B R C P wf).offCoord (ix3 b p n) 0 = b.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl

  have h1 : (rowDims B R C P wf).start (ix3 b p n) idx 1 + (rowDims B R C P wf).batchCoord (ix3 b p n) 1
      + (rowDims B R C P wf).offCoord (ix3 b p n) 1 = min (idx (ix3 b p (0 : Fin 1))).toInt.toNat (R - 1) := by
    rw [GatherDims.batchCoord_eq_zero _ _ _ n10,
      GatherDims.offCoord_eq_zero _ _ _ (fun h => ((GatherDims.mem_sKept _ _).mp h).1 (List.mem_singleton.mpr rfl)),
      Nat.add_zero]
    unfold GatherDims.start
    rw [dif_pos (show (1 : Fin 3) ∈ (rowDims B R C P wf).startIndexMap from List.mem_singleton.mpr rfl)]
    have hsi : (rowDims B R C P wf).siIdx (ix3 b p n) ⟨List.idxOf (1 : Fin 3) (rowDims B R C P wf).startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl

  have h2 : (rowDims B R C P wf).start (ix3 b p n) idx 2 + (rowDims B R C P wf).batchCoord (ix3 b p n) 2
      + (rowDims B R C P wf).offCoord (ix3 b p n) 2 = n.val := by
    have hst : (rowDims B R C P wf).start (ix3 b p n) idx 2 = 0 := by
      unfold GatherDims.start; rw [dif_neg n21]
    rw [GatherDims.batchCoord_eq_zero _ _ _ n20, hst, Nat.add_zero, Nat.zero_add]
    rfl
  unfold Host.gather
  congr 1
  funext a
  refine Fin.ext ?_
  match a with
  | ⟨0, _⟩ => exact h0
  | ⟨1, _⟩ => exact h1
  | ⟨2, _⟩ => exact h2

theorem gather_row_apply {B R C P w : Nat} (hR : 0 < R)
    (d : GatherDims ⟨3, ![B, R, C]⟩ ⟨3, ![B, P, 1]⟩ ⟨3, ![B, P, C]⟩)
    (hod : d.offsetDims = [2]) (hcd : d.collapsedSliceDims = [1]) (hob : d.operandBatchingDims = [0])
    (hsb : d.startIndicesBatchingDims = [0]) (hsm : d.startIndexMap = [1]) (hiv : d.indexVectorDim = 2)
    (hss : d.sliceSizes = ![1, 1, C])
    (x : (⟨3, ![B, R, C]⟩ : Shape).Idx → α) (idx : IVec ⟨3, ![B, P, 1]⟩ w) (b : Fin B) (p : Fin P) (n : Fin C) :
    Host.gather d x idx (ix3 b p n)
      = x (ix3 b ⟨min (idx (ix3 b p (0 : Fin 1))).toInt.toNat (R - 1), by omega⟩ n) := by
  obtain ⟨od, cd, ob, sb, sm, iv, ss, wf⟩ := d
  simp only at hod hcd hob hsb hsm hiv hss
  subst hod hcd hob hsb hsm hiv hss
  exact gather_rowDims_apply hR wf x idx b p n

end Row

section Pair
variable {α : Type}

abbrev pairDims (B N H W P : Nat)
    (wf : GatherDims.WF ⟨4, ![B, N, H, W]⟩ ⟨3, ![B, P, 2]⟩ ⟨3, ![B, N, P]⟩ [1] [2, 3] [0] [2, 3] [0] 2 ![1, N, 1, 1]) :
    GatherDims ⟨4, ![B, N, H, W]⟩ ⟨3, ![B, P, 2]⟩ ⟨3, ![B, N, P]⟩ where
  offsetDims := [1]
  collapsedSliceDims := [2, 3]
  operandBatchingDims := [0]
  startIndicesBatchingDims := [0]
  startIndexMap := [2, 3]
  indexVectorDim := 2
  sliceSizes := ![1, N, 1, 1]
  wf := wf

theorem gather_pairDims_apply {B N H W P w : Nat} (hH : 0 < H) (hW : 0 < W)
    (wf : GatherDims.WF ⟨4, ![B, N, H, W]⟩ ⟨3, ![B, P, 2]⟩ ⟨3, ![B, N, P]⟩ [1] [2, 3] [0] [2, 3] [0] 2 ![1, N, 1, 1])
    (x : (⟨4, ![B, N, H, W]⟩ : Shape).Idx → α) (idx : IVec ⟨3, ![B, P, 2]⟩ w) (b : Fin B) (n : Fin N) (p : Fin P) :
    Host.gather (pairDims B N H W P wf) x idx (ix3 b n p)
      = x (ix4 b n ⟨min (idx (ix3 b p (0 : Fin 2))).toInt.toNat (H - 1), by omega⟩
          ⟨min (idx (ix3 b p (1 : Fin 2))).toInt.toNat (W - 1), by omega⟩) := by
  have n10 : (1 : Fin 4) ∉ ([0] : List (Fin 4)) := by decide
  have n20 : (2 : Fin 4) ∉ ([0] : List (Fin 4)) := by decide
  have n30 : (3 : Fin 4) ∉ ([0] : List (Fin 4)) := by decide
  have n1s : (1 : Fin 4) ∉ ([2, 3] : List (Fin 4)) := by decide
  have m2c : (2 : Fin 4) ∈ ([2, 3] : List (Fin 4)) := by decide
  have m3c : (3 : Fin 4) ∈ ([2, 3] : List (Fin 4)) := by decide

  have h0 : (pairDims B N H W P wf).start (ix3 b n p) idx 0 + (pairDims B N H W P wf).batchCoord (ix3 b n p) 0
      + (pairDims B N H W P wf).offCoord (ix3 b n p) 0 = b.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl

  have h1 : (pairDims B N H W P wf).start (ix3 b n p) idx 1 + (pairDims B N H W P wf).batchCoord (ix3 b n p) 1
      + (pairDims B N H W P wf).offCoord (ix3 b n p) 1 = n.val := by
    have hst : (pairDims B N H W P wf).start (ix3 b n p) idx 1 = 0 := by
      unfold GatherDims.start; rw [dif_neg n1s]
    rw [GatherDims.batchCoord_eq_zero _ _ _ n10, hst, Nat.add_zero, Nat.zero_add]
    rfl

  have h2 : (pairDims B N H W P wf).start (ix3 b n p) idx 2 + (pairDims B N H W P wf).batchCoord (ix3 b n p) 2
      + (pairDims B N H W P wf).offCoord (ix3 b n p) 2 = min (idx (ix3 b p (0 : Fin 2))).toInt.toNat (H - 1) := by
    rw [GatherDims.batchCoord_eq_zero _ _ _ n20,
      GatherDims.offCoord_eq_zero _ _ _ (fun h => ((GatherDims.mem_sKept _ _).mp h).1 m2c), Nat.add_zero]
    unfold GatherDims.start
    rw [dif_pos (show (2 : Fin 4) ∈ (pairDims B N H W P wf).startIndexMap from m2c)]
    have hsi : (pairDims B N H W P wf).siIdx (ix3 b n p) ⟨List.idxOf (2 : Fin 4) (pairDims B N H W P wf).startIndexMap,
        List.idxOf_lt_length_iff.2 m2c⟩ = ix3 b p (0 : Fin 2) := by
      funext c; refine Fin.ext ?_
      match c with
      | ⟨0, _⟩ => rfl
      | ⟨1, _⟩ => rfl
      | ⟨2, _⟩ => rfl
    rw [hsi]
    rfl

  have h3 : (pairDims B N H W P wf).start (ix3 b n p) idx 3 + (pairDims B N H W P wf).batchCoord (ix3 b n p) 3
      + (pairDims B N H W P wf).offCoord (ix3 b n p) 3 = min (idx (ix3 b p (1 : Fin 2))).toInt.toNat (W - 1) := by
    rw [GatherDims.batchCoord_eq_zero _ _ _ n30,
      GatherDims.offCoord_eq_zero _ _ _ (fun h => ((GatherDims.mem_sKept _ _).mp h).1 m3c), Nat.add_zero]
    unfold GatherDims.start
    rw [dif_pos (show (3 : Fin 4) ∈ (pairDims B N H W P wf).startIndexMap from m3c)]
    have hsi : (pairDims B N H W P wf).siIdx (ix3 b n p) ⟨List.idxOf (3 : Fin 4) (pairDims B N H W P wf).startIndexMap,
        List.idxOf_lt_length_iff.2 m3c⟩ = ix3 b p (1 : Fin 2) := by
      funext c; refine Fin.ext ?_
      match c with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1
  | ⟨2, _⟩ => exact h2
  | ⟨3, _⟩ => exact h3

theorem gather_pair_apply {B N H W P w : Nat} (hH : 0 < H) (hW : 0 < W)
    (d : GatherDims ⟨4, ![B, N, H, W]⟩ ⟨3, ![B, P, 2]⟩ ⟨3, ![B, N, P]⟩)
    (hod : d.offsetDims = [1]) (hcd : d.collapsedSliceDims = [2, 3]) (hob : d.operandBatchingDims = [0])
    (hsb : d.startIndicesBatchingDims = [0]) (hsm : d.startIndexMap = [2, 3]) (hiv : d.indexVectorDim = 2)
    (hss : d.sliceSizes = ![1, N, 1, 1])
    (x : (⟨4, ![B, N, H, W]⟩ : Shape).Idx → α) (idx : IVec ⟨3, ![B, P, 2]⟩ w) (b : Fin B) (n : Fin N) (p : Fin P) :
    Host.gather d x idx (ix3 b n p)
      = x (ix4 b n ⟨min (idx (ix3 b p (0 : Fin 2))).toInt.toNat (H - 1), by omega⟩
          ⟨min (idx (ix3 b p (1 : Fin 2))).toInt.toNat (W - 1), by omega⟩) := by
  obtain ⟨od, cd, ob, sb, sm, iv, ss, wf⟩ := d
  simp only at hod hcd hob hsb hsm hiv hss
  subst hod hcd hob hsb hsm hiv hss
  exact gather_pairDims_apply hH hW wf x idx b n p

end Pair

section Words

theorem toInt_maxsi {w : Nat} (a b : BitVec w) : (IntOp.maxsi a b).toInt = max a.toInt b.toInt := by
  unfold IntOp.maxsi
  simp only [BitVec.slt]
  split
  · rename_i h; simp only [decide_eq_true_eq] at h; omega
  · rename_i h; simp only [decide_eq_true_eq] at h; omega

theorem toInt_minsi {w : Nat} (a b : BitVec w) : (IntOp.minsi a b).toInt = min a.toInt b.toInt := by
  unfold IntOp.minsi
  simp only [BitVec.slt]
  split
  · rename_i h; simp only [decide_eq_true_eq] at h; omega
  · rename_i h; simp only [decide_eq_true_eq] at h; omega

theorem toNat_of_toInt_nonneg {c : BitVec 32} (h : 0 ≤ c.toInt) : (c.toNat : Int) = c.toInt ∧ c.toNat < 2 ^ 31 := by
  have hlt : c.toNat < 2 ^ 32 := c.isLt
  have hc := BitVec.toInt_eq_toNat_cond c
  by_cases h2 : 2 * c.toNat < 2 ^ 32
  · rw [if_pos h2] at hc; omega
  · rw [if_neg h2] at hc; omega

theorem clip_toInt (w : BitVec 32) :
    (IntOp.minsi 159#32 (IntOp.maxsi 0#32 w)).toInt = min 159 (max 0 w.toInt) := by
  have h0 : (0#32 : BitVec 32).toInt = 0 := by decide
  have h159 : (159#32 : BitVec 32).toInt = 159 := by decide
  rw [toInt_minsi, toInt_maxsi, h0, h159]

theorem clip_bounds (w : BitVec 32) :
    0 ≤ (IntOp.minsi 159#32 (IntOp.maxsi 0#32 w)).toInt ∧ (IntOp.minsi 159#32 (IntOp.maxsi 0#32 w)).toInt ≤ 159 := by
  rw [clip_toInt]
  omega

theorem wrap_id (c k : BitVec 32) (h : 0 ≤ c.toInt) :
    Scalar.select (IntOp.cmpi .slt c 0#32) (IntOp.addi c k) c = c := by
  have h0 : (0#32 : BitVec 32).toInt = 0 := by decide
  have hs : c.slt 0#32 = false := by
    simp only [BitVec.slt, h0]
    exact decide_eq_false (by omega)
  have hc : IntOp.cmpi .slt c 0#32 = 0#1 := by
    show BitVec.ofBool (c.slt 0#32) = 0#1
    rw [hs]; rfl
  rw [hc]
  exact select_zero _ _

theorem flat_toInt (cy cx : BitVec 32) (h : 0 ≤ cy.toInt ∧ cy.toInt ≤ 159) (h' : 0 ≤ cx.toInt ∧ cx.toInt ≤ 159) :
    (IntOp.addi (IntOp.muli cy 160#32) cx).toInt = cy.toInt * 160 + cx.toInt := by
  obtain ⟨ey, _⟩ := toNat_of_toInt_nonneg h.1
  obtain ⟨ex, _⟩ := toNat_of_toInt_nonneg h'.1
  have hn : (IntOp.addi (IntOp.muli cy 160#32) cx).toNat = cy.toNat * 160 + cx.toNat := by
    unfold IntOp.addi IntOp.muli
    rw [BitVec.toNat_add, BitVec.toNat_mul]
    simp only [BitVec.toNat_ofNat, Nat.reducePow, Nat.reduceMod]
    omega
  rw [StableHlo.Predicate.toInt_eq_toNat_of_lt (by rw [hn]; omega), hn]
  omega

theorem in_range (f : BitVec 32) (h : 0 ≤ f.toInt ∧ f.toInt ≤ 25599) :
    IntOp.andi (IntOp.cmpi .sge f 0#32) (IntOp.cmpi .sle f 25599#32) = 1#1 := by
  have h0 : (0#32 : BitVec 32).toInt = 0 := by decide
  have hk : (25599#32 : BitVec 32).toInt = 25599 := by decide
  have h1 : IntOp.cmpi .sge f 0#32 = 1#1 := by
    show BitVec.ofBool ((0#32 : BitVec 32).sle f) = 1#1
    rw [StableHlo.Predicate.ofBool_eq_one_iff]
    simp only [BitVec.sle, h0, decide_eq_true_eq]
    exact h.1
  have h2 : IntOp.cmpi .sle f 25599#32 = 1#1 := by
    show BitVec.ofBool (f.sle 25599#32) = 1#1
    rw [StableHlo.Predicate.ofBool_eq_one_iff]
    simp only [BitVec.sle, hk, decide_eq_true_eq]
    exact h.2
  rw [h1, h2]
  rfl

end Words

end Cert.LibIndex

end
-- ==== Proof.KerTapK.lean ====
import proofs.«401846_j83760452207136_3_alg».proof.Proof.Gen.KernelIdeal
import proofs.«401846_j83760452207136_3_alg».proof.Proof.TapSpec
import proofs.«401846_j83760452207136_3_alg».proof.Proof.LibIndex
import Idealize.ShloMosaic.Lib.Pipeline.Value
import Idealize.ShloMosaic.Lib.ValueIdx
import Idealize.ShloMosaic.Lib.ValueLayout

noncomputable section

namespace Cert.KernelIdeal.TapK

open Cert.KernelIdeal Cert.KernelIdeal.Gen Idealize.ShloMosaic Idealize.ShloMosaic.ValueIdx Cert.TapSpec

def tableK (a0 : FVec Ideal S8x150x160x160 .f32) (a2 : FVec Ideal S8x32x160x160 .f32) : FVec Ideal S8x25600x182 .f32 :=
  transpose S8x25600x182 [0, 2, 1]
    (shapeCast S8x182x25600
      (concatenate S8x182x160x160 1 [⟨S8x150x160x160, a0⟩, ⟨S8x32x160x160, a2⟩]
        concatenates_S8x150x160x160_S8x32x160x160_S8x182x160x160_d1)
      shapeCasts_S8x182x160x160_S8x182x25600)
    transposes_S8x182x25600_S8x25600x182_0_2_1

def takeK (T : FVec Ideal S8x25600x182 .f32) (fi : IVec S8x12544 32) : FVec Ideal S8x12544x182 .f32 :=
  select
    (broadcastInDim S8x12544x182 ![0, 1] bcast_S8x12544_S8x12544x182_0_1
      (Host.reduce IntOp.andi
        (andi
          (cmpi .sge
            (broadcastInDim S8x12544x1 ![0, 1] bcast_S8x12544_S8x12544x1_0_1
              (select (cmpi .slt fi (broadcastInDim S8x12544 ![] bcast_S_S8x12544 (constantI S_ 32 0#32)))
                (addi fi (broadcastInDim S8x12544 ![] bcast_S_S8x12544 (constantI S_ 32 25600#32))) fi))
            (broadcastInDim S8x12544x1 ![] bcast_S_S8x12544x1 (constantI S_ 32 0#32)))
          (cmpi .sle
            (broadcastInDim S8x12544x1 ![0, 1] bcast_S8x12544_S8x12544x1_0_1
              (select (cmpi .slt fi (broadcastInDim S8x12544 ![] bcast_S_S8x12544 (constantI S_ 32 0#32)))
                (addi fi (broadcastInDim S8x12544 ![] bcast_S_S8x12544 (constantI S_ 32 25600#32))) fi))
            (broadcastInDim S8x12544x1 ![0, 1, 2] bcast_S1x1x1_S8x12544x1_0_1_2
              (broadcastInDim S1x1x1 ![2] bcast_S1_S1x1x1_2 (constantI S1 32 25599#32)))))
        (constantI S_ 1 1#1) reducesTo_S8x12544x1_S8x12544_d2 h_S_))
    (Host.gather gather_S8x25600x182_S8x12544x1_S8x12544x182_2_1_0_0_1_2_11182 T
      (broadcastInDim S8x12544x1 ![0, 1] bcast_S8x12544_S8x12544x1_0_1
        (select (cmpi .slt fi (broadcastInDim S8x12544 ![] bcast_S_S8x12544 (constantI S_ 32 0#32)))
          (addi fi (broadcastInDim S8x12544 ![] bcast_S_S8x12544 (constantI S_ 32 25600#32))) fi)))
    (broadcastInDim S8x12544x182 ![] bcast_S_S8x12544x182 (constant (F := Ideal) S_ .f32 0x7FC00000#32))

def tapK (T : FVec Ideal S8x25600x182 .f32) (Y X : IVec S8x12544 32) (Msk : IVec S8x12544 1) : FVec Ideal S8x12544x182 .f32 :=
  mulf
    (takeK T (addi (muli Y (broadcastInDim S8x12544 ![] bcast_S_S8x12544 (constantI S_ 32 160#32))) X))
    (broadcastInDim S8x12544x182 ![0, 1, 2] bcast_S8x12544x1_S8x12544x182_0_1_2
      (uitofp (F := Ideal) .f32 (broadcastInDim S8x12544x1 ![0, 1] bcast_S8x12544_S8x12544x1_0_1 Msk)))

theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = L
  have e : IntOp.andi (1#1 : BitVec 1) 1#1 = 1#1 := by decide
  induction L with
  | nil => rfl
  | cons n L ih => rw [List.foldl_cons, hx, e]; exact ih

theorem tableK_apply (a0 : FVec Ideal S8x150x160x160 .f32) (a2 : FVec Ideal S8x32x160x160 .f32)
    (b : Fin 8) (r : Fin 25600) (n : Fin 182) (y x : Fin 160) (hr : r.val = y.val * 160 + x.val) :
    tableK a0 a2 (ix3 b r n)
      = if h : n.val < 150 then a0 (ix4 b ⟨n.val, h⟩ y x)
        else a2 (ix4 b ⟨n.val - 150, by have := n.isLt; omega⟩ y x) := by
  unfold tableK
  rw [transpose_apply [0, 2, 1] _ transposes_S8x182x25600_S8x25600x182_0_2_1 (ix3 b r n) (ix3 b n r)
    (fun c => match c with | ⟨0, _⟩ => rfl | ⟨1, _⟩ => rfl | ⟨2, _⟩ => rfl)]
  rw [shapeCast_apply _ shapeCasts_S8x182x160x160_S8x182x25600 (ix3 b n r) (ix4 b n y x)
    (by rewrite [Shape.rowMajor_val_four, Shape.rowMajor_val_three]
        show ((b.val * 182 + n.val) * 160 + y.val) * 160 + x.val = (b.val * 182 + n.val) * 25600 + r.val
        omega)]
  by_cases hn : n.val < 150
  · rw [dif_pos hn]
    exact concatenate_pair_apply_left 1 a0 a2 _ (ix4 b n y x) rfl (ix4 b ⟨n.val, hn⟩ y x)
      (fun c => match c with | ⟨0, _⟩ => rfl | ⟨1, _⟩ => rfl | ⟨2, _⟩ => rfl | ⟨3, _⟩ => rfl)
  · rw [dif_neg hn]
    exact concatenate_pair_apply_right 1 a0 a2 _ (ix4 b n y x) rfl rfl (ix4 b ⟨n.val - 150, by have := n.isLt; omega⟩ y x)
      (fun c hc => match c, hc with
        | ⟨0, _⟩, _ => rfl
        | ⟨1, _⟩, hc => absurd rfl hc
        | ⟨2, _⟩, _ => rfl
        | ⟨3, _⟩, _ => rfl)
      (by show n.val - 150 + 150 = n.val; omega)

theorem maskK_apply (Msk : IVec S8x12544 1) (b : Fin 8) (p : Fin 12544) (n : Fin 182) :
    broadcastInDim S8x12544x182 ![0, 1, 2] bcast_S8x12544x1_S8x12544x182_0_1_2
      (uitofp (F := Ideal) .f32 (broadcastInDim S8x12544x1 ![0, 1] bcast_S8x12544_S8x12544x1_0_1 Msk)) (ix3 b p n)
      = FloatOps.uitofp (F := Ideal) .f32 (Msk (ix2 b p)) := by
  rw [broadcastInDim_apply _ _ _ (ix3 b p n) (ix3 b p (0 : Fin 1))
    (fun a => match a with | ⟨0, _⟩ => rfl | ⟨1, _⟩ => rfl | ⟨2, _⟩ => rfl)]
  show FloatOps.uitofp (F := Ideal) .f32 (broadcastInDim S8x12544x1 ![0, 1] bcast_S8x12544_S8x12544x1_0_1 Msk (ix3 b p (0 : Fin 1))) = _
  rw [broadcastInDim_apply _ _ _ (ix3 b p (0 : Fin 1)) (ix2 b p)
    (fun a => match a with | ⟨0, _⟩ => rfl | ⟨1, _⟩ => rfl)]

theorem takeK_apply (T : FVec Ideal S8x25600x182 .f32) (fi : IVec S8x12544 32)
    (hfi : ∀ i, 0 ≤ (fi i).toInt ∧ (fi i).toInt ≤ 25599) (b : Fin 8) (p : Fin 12544) (n : Fin 182) :
    takeK T fi (ix3 b p n)
      = T (ix3 b ⟨min (fi (ix2 b p)).toInt.toNat (25600 - 1), by omega⟩ n) := by
  have hw : select (cmpi .slt fi (broadcastInDim S8x12544 ![] bcast_S_S8x12544 (constantI S_ 32 0#32)))
      (addi fi (broadcastInDim S8x12544 ![] bcast_S_S8x12544 (constantI S_ 32 25600#32))) fi = fi :=
    funext fun i => LibIndex.wrap_id (fi i) 25600#32 (hfi i).1
  have hm : ∀ i : S8x12544x1.Idx,
      andi (cmpi .sge (broadcastInDim S8x12544x1 ![0, 1] bcast_S8x12544_S8x12544x1_0_1 fi)
            (broadcastInDim S8x12544x1 ![] bcast_S_S8x12544x1 (constantI S_ 32 0#32)))
          (cmpi .sle (broadcastInDim S8x12544x1 ![0, 1] bcast_S8x12544_S8x12544x1_0_1 fi)
            (broadcastInDim S8x12544x1 ![0, 1, 2] bcast_S1x1x1_S8x12544x1_0_1_2
              (broadcastInDim S1x1x1 ![2] bcast_S1_S1x1x1_2 (constantI S1 32 25599#32)))) i = 1#1 := fun i => by
    have e : broadcastInDim S8x12544x1 ![0, 1] bcast_S8x12544_S8x12544x1_0_1 fi i = fi (ix2 (i 0) (i 1)) :=
      broadcastInDim_apply _ _ _ i (ix2 (i 0) (i 1)) (fun a => match a with | ⟨0, _⟩ => rfl | ⟨1, _⟩ => rfl)
    show IntOp.andi (IntOp.cmpi .sge (broadcastInDim S8x12544x1 ![0, 1] bcast_S8x12544_S8x12544x1_0_1 fi i) 0#32)
        (IntOp.cmpi .sle (broadcastInDim S8x12544x1 ![0, 1] bcast_S8x12544_S8x12544x1_0_1 fi i) 25599#32) = 1#1
    rw [e]
    exact LibIndex.in_range _ (hfi _)
  have e0 : broadcastInDim S8x12544x1 ![0, 1] bcast_S8x12544_S8x12544x1_0_1 fi (ix3 b p (0 : Fin 1)) = fi (ix2 b p) :=
    broadcastInDim_apply _ _ _ (ix3 b p (0 : Fin 1)) (ix2 b p) (fun a => match a with | ⟨0, _⟩ => rfl | ⟨1, _⟩ => rfl)
  unfold takeK
  rw [hw, select_apply]
  rw [broadcastInDim_apply _ _ _ (ix3 b p n) (ix2 b p) (fun a => match a with | ⟨0, _⟩ => rfl | ⟨1, _⟩ => rfl)]
  rw [reduce_andi_one _ (constantI S_ 1 1#1) _ _ hm (fun _ => rfl)]
  rw [select_one]
  rw [LibIndex.gather_row_apply (by decide) _ rfl rfl rfl rfl rfl rfl rfl T _ b p n]
  exact congrArg T (congrArg (fun r : Fin 25600 => (ix3 b r n : S8x25600x182.Idx))
    (Fin.ext (congrArg (fun w : BitVec 32 => min w.toInt.toNat (25600 - 1)) e0)))

theorem take_table_apply (a0 : FVec Ideal S8x150x160x160 .f32) (a2 : FVec Ideal S8x32x160x160 .f32) (fi : IVec S8x12544 32)
    (hfi : ∀ i, 0 ≤ (fi i).toInt ∧ (fi i).toInt ≤ 25599) (b : Fin 8) (p : Fin 12544) (n : Fin 182) (y x : Fin 160)
    (hyx : (fi (ix2 b p)).toInt = (y.val : Int) * 160 + (x.val : Int)) :
    takeK (tableK a0 a2) fi (ix3 b p n)
      = if h : n.val < 150 then a0 (ix4 b ⟨n.val, h⟩ y x)
        else a2 (ix4 b ⟨n.val - 150, by have := n.isLt; omega⟩ y x) := by
  rw [takeK_apply _ _ hfi]
  exact tableK_apply a0 a2 b _ n y x (by
    show min (fi (ix2 b p)).toInt.toNat (25600 - 1) = y.val * 160 + x.val
    have := y.isLt; have := x.isLt; omega)

theorem tapK_apply (a0 : FVec Ideal S8x150x160x160 .f32) (a2 : FVec Ideal S8x32x160x160 .f32) (Y X : IVec S8x12544 32) (Msk : IVec S8x12544 1)
    (hY : ∀ i, 0 ≤ (Y i).toInt ∧ (Y i).toInt ≤ 159) (hX : ∀ i, 0 ≤ (X i).toInt ∧ (X i).toInt ≤ 159) (b : Fin 8) (p : Fin 12544) (n : Fin 182) :
    tapK (tableK a0 a2) Y X Msk (ix3 b p n)
      = if h : n.val < 150 then tapVal a0 Y X Msk b ⟨n.val, h⟩ p else tapVal a2 Y X Msk b ⟨n.val - 150, by have := n.isLt; omega⟩ p := by
  have hf : ∀ i, (addi (muli Y (broadcastInDim S8x12544 ![] bcast_S_S8x12544 (constantI S_ 32 160#32))) X i).toInt
      = (Y i).toInt * 160 + (X i).toInt := fun i => LibIndex.flat_toInt (Y i) (X i) (hY i) (hX i)
  have hfi : ∀ i, 0 ≤ (addi (muli Y (broadcastInDim S8x12544 ![] bcast_S_S8x12544 (constantI S_ 32 160#32))) X i).toInt
      ∧ (addi (muli Y (broadcastInDim S8x12544 ![] bcast_S_S8x12544 (constantI S_ 32 160#32))) X i).toInt ≤ 25599 := fun i => by
    rw [hf i]; have := hY i; have := hX i; omega
  have hyx : (addi (muli Y (broadcastInDim S8x12544 ![] bcast_S_S8x12544 (constantI S_ 32 160#32))) X (ix2 b p)).toInt
      = ((min (Y (ix2 b p)).toInt.toNat 159 : ℕ) : Int) * 160 + ((min (X (ix2 b p)).toInt.toNat 159 : ℕ) : Int) := by
    rw [hf]; have := hY (ix2 b p); have := hX (ix2 b p); omega
  unfold tapK
  rw [mulf_apply, maskK_apply, take_table_apply a0 a2 _ hfi b p n
    ⟨min (Y (ix2 b p)).toInt.toNat 159, by omega⟩ ⟨min (X (ix2 b p)).toInt.toNat 159, by omega⟩ hyx]
  by_cases hn : n.val < 150
  · rw [dif_pos hn, dif_pos hn]; rfl
  · rw [dif_neg hn, dif_neg hn]; rfl

end Cert.KernelIdeal.TapK

end
-- ==== Proof.KerBlend.lean ====
import proofs.«401846_j83760452207136_3_alg».proof.Proof.Gen.KernelIdeal
import proofs.«401846_j83760452207136_3_alg».proof.Proof.RefStages
import proofs.«401846_j83760452207136_3_alg».proof.Proof.TapSpec
import Idealize.ShloMosaic.Lib.Pipeline.Value
import Idealize.ShloMosaic.Lib.ValueIdx

noncomputable section

namespace Cert.KernelIdeal.Blend

open Cert.KernelIdeal Cert.KernelIdeal.Facts₀ Cert.KernelIdeal.Facts Idealize.ShloMosaic Idealize.ShloMosaic.ValueIdx Cert.TapSpec

def blendK (T00 T01 T10 T11 : FVec Ideal S8x12544x182 .f32) (tx ty : FVec Ideal S8x12544 .f32) :
    FVec Ideal S8x12544x182 .f32 :=
  have v18 : FVec Ideal S8x12544x1 .f32 := broadcastInDim S8x12544x1 ![0, 1] bcast_S8x12544_S8x12544x1_0_1 tx
  have v20 : FVec Ideal S8x12544x1 .f32 := broadcastInDim S8x12544x1 ![0, 1] bcast_S8x12544_S8x12544x1_0_1 ty
  have cst_42 : FVec Ideal S_ .f32 := constant (F := Ideal) S_ .f32 0x3F800000#32
  have v115 : FVec Ideal S8x12544x1 .f32 := broadcastInDim S8x12544x1 ![] bcast_S_S8x12544x1 cst_42
  have v116 : FVec Ideal S8x12544x1 .f32 := subf v115 v18
  have v117 : FVec Ideal S8x12544x182 .f32 := broadcastInDim S8x12544x182 ![0, 1, 2] bcast_S8x12544x1_S8x12544x182_0_1_2 v116
  have v118 : FVec Ideal S8x12544x182 .f32 := mulf T00 v117
  have cst_43 : FVec Ideal S_ .f32 := constant (F := Ideal) S_ .f32 0x3F800000#32
  have v119 : FVec Ideal S8x12544x1 .f32 := broadcastInDim S8x12544x1 ![] bcast_S_S8x12544x1 cst_43
  have v120 : FVec Ideal S8x12544x1 .f32 := subf v119 v20
  have v121 : FVec Ideal S8x12544x182 .f32 := broadcastInDim S8x12544x182 ![0, 1, 2] bcast_S8x12544x1_S8x12544x182_0_1_2 v120
  have v122 : FVec Ideal S8x12544x182 .f32 := mulf v118 v121
  have v123 : FVec Ideal S8x12544x182 .f32 := broadcastInDim S8x12544x182 ![0, 1, 2] bcast_S8x12544x1_S8x12544x182_0_1_2 v18
  have v124 : FVec Ideal S8x12544x182 .f32 := mulf T01 v123
  have cst_44 : FVec Ideal S_ .f32 := constant (F := Ideal) S_ .f32 0x3F800000#32
  have v125 : FVec Ideal S8x12544x1 .f32 := broadcastInDim S8x12544x1 ![] bcast_S_S8x12544x1 cst_44
  have v126 : FVec Ideal S8x12544x1 .f32 := subf v125 v20
  have v127 : FVec Ideal S8x12544x182 .f32 := broadcastInDim S8x12544x182 ![0, 1, 2] bcast_S8x12544x1_S8x12544x182_0_1_2 v126
  have v128 : FVec Ideal S8x12544x182 .f32 := mulf v124 v127
  have v129 : FVec Ideal S8x12544x182 .f32 := addf v122 v128
  have cst_45 : FVec Ideal S_ .f32 := constant (F := Ideal) S_ .f32 0x3F800000#32
  have v130 : FVec Ideal S8x12544x1 .f32 := broadcastInDim S8x12544x1 ![] bcast_S_S8x12544x1 cst_45
  have v131 : FVec Ideal S8x12544x1 .f32 := subf v130 v18
  have v132 : FVec Ideal S8x12544x182 .f32 := broadcastInDim S8x12544x182 ![0, 1, 2] bcast_S8x12544x1_S8x12544x182_0_1_2 v131
  have v133 : FVec Ideal S8x12544x182 .f32 := mulf T10 v132
  have v134 : FVec Ideal S8x12544x182 .f32 := broadcastInDim S8x12544x182 ![0, 1, 2] bcast_S8x12544x1_S8x12544x182_0_1_2 v20
  have v135 : FVec Ideal S8x12544x182 .f32 := mulf v133 v134
  have v136 : FVec Ideal S8x12544x182 .f32 := addf v129 v135
  have v137 : FVec Ideal S8x12544x182 .f32 := broadcastInDim S8x12544x182 ![0, 1, 2] bcast_S8x12544x1_S8x12544x182_0_1_2 v18
  have v138 : FVec Ideal S8x12544x182 .f32 := mulf T11 v137
  have v139 : FVec Ideal S8x12544x182 .f32 := broadcastInDim S8x12544x182 ![0, 1, 2] bcast_S8x12544x1_S8x12544x182_0_1_2 v20
  have v140 : FVec Ideal S8x12544x182 .f32 := mulf v138 v139
  have v141 : FVec Ideal S8x12544x182 .f32 := addf v136 v140
  v141

def pmK (S : FVec Ideal S8x12544x182 .f32) : FVec Ideal S8x12544x150 .f32 :=
  extractStridedSlice S8x12544x150 ![0, 0, 0] S slices_S8x12544x182_S8x12544x150_0_0_0

def tmK (S : FVec Ideal S8x12544x182 .f32) : FVec Ideal S8x12544x32 .f32 :=
  extractStridedSlice S8x12544x32 ![0, 0, 150] S slices_S8x12544x182_S8x12544x32_0_0_150

theorem bc3_apply (x : FVec Ideal S8x12544x1 .f32) (b : Fin 8) (p : Fin 12544) (n : Fin 182) :
    broadcastInDim S8x12544x182 ![0, 1, 2] bcast_S8x12544x1_S8x12544x182_0_1_2 x (ix3 b p n) = x (ix3 b p (0 : Fin 1)) :=
  broadcastInDim_apply _ _ x _ _ fun a => match a with
    | ⟨0, _⟩ => rfl
    | ⟨1, _⟩ => rfl
    | ⟨2, _⟩ => rfl

theorem bc2_apply (x : FVec Ideal S8x12544 .f32) (b : Fin 8) (p : Fin 12544) (u : Fin 1) :
    broadcastInDim S8x12544x1 ![0, 1] bcast_S8x12544_S8x12544x1_0_1 x (ix3 b p u) = x (ix2 b p) :=
  broadcastInDim_apply _ _ x _ _ fun a => match a with
    | ⟨0, _⟩ => rfl
    | ⟨1, _⟩ => rfl

theorem one_apply (j : S8x12544x1.Idx) :
    broadcastInDim S8x12544x1 ![] bcast_S_S8x12544x1 (constant (F := Ideal) S_ .f32 0x3F800000#32) j
      = Ideal.ofBits .f32 0x3F800000#32 :=
  broadcastInDim_apply _ _ (constant (F := Ideal) S_ .f32 0x3F800000#32) j ix0 fun a => a.elim0

theorem blendK_apply (T00 T01 T10 T11 : FVec Ideal S8x12544x182 .f32) (tx ty : FVec Ideal S8x12544 .f32)
    (b : Fin 8) (p : Fin 12544) (n : Fin 182) :
    blendK T00 T01 T10 T11 tx ty (ix3 b p n)
      = blendVal (T00 (ix3 b p n)) (T01 (ix3 b p n)) (T10 (ix3 b p n)) (T11 (ix3 b p n)) (tx (ix2 b p)) (ty (ix2 b p)) := by
  unfold blendK blendVal
  simp only [addf_apply, mulf_apply]
  rw [bc3_apply, bc3_apply, bc3_apply, bc3_apply]
  simp only [subf_apply]
  rw [one_apply, bc2_apply, bc2_apply]

theorem pmK_apply (S : FVec Ideal S8x12544x182 .f32) (b : Fin 8) (p : Fin 12544) (q : Fin 150) :
    pmK S (ix3 b p q) = S (ix3 b p ⟨q.val, by have := q.isLt; omega⟩) := by
  unfold pmK
  refine extractStridedSlice_apply _ S _ _ _ fun a => ?_
  match a with
  | ⟨0, _⟩ => show b.val = 0 + b.val; omega
  | ⟨1, _⟩ => show p.val = 0 + p.val; omega
  | ⟨2, _⟩ => show q.val = 0 + q.val; omega

theorem tmK_apply (S : FVec Ideal S8x12544x182 .f32) (b : Fin 8) (p : Fin 12544) (t : Fin 32) :
    tmK S (ix3 b p t) = S (ix3 b p ⟨150 + t.val, by have := t.isLt; omega⟩) := by
  unfold tmK
  refine extractStridedSlice_apply _ S _ _ _ fun a => ?_
  match a with
  | ⟨0, _⟩ => show b.val = 0 + b.val; omega
  | ⟨1, _⟩ => show p.val = 0 + p.val; omega
  | ⟨2, _⟩ => show 150 + t.val = 150 + t.val; rfl

theorem plane150_apply (w : FVec Ideal S8x12544 .f32) (b : Fin 8) (q : Fin 150) (p : Fin 12544) :
    broadcastInDim Cert.ReferenceIdeal.S8x150x12544 ![0, 1, 2] Cert.ReferenceIdeal.Facts₀.bcast_S8x1x12544_S8x150x12544_0_1_2
        (broadcastInDim Cert.ReferenceIdeal.S8x1x12544 ![0, 2] Cert.ReferenceIdeal.Facts₀.bcast_S8x12544_S8x1x12544_0_2 w) (ix3 b q p)
      = w (ix2 b p) :=
  (broadcastInDim_apply _ _ _ (ix3 b q p) (ix3 b (0 : Fin 1) p) fun a => match a with
    | ⟨0, _⟩ => rfl
    | ⟨1, _⟩ => rfl
    | ⟨2, _⟩ => rfl).trans
  (broadcastInDim_apply _ _ w (ix3 b (0 : Fin 1) p) (ix2 b p) fun a => match a with
    | ⟨0, _⟩ => rfl
    | ⟨1, _⟩ => rfl)

theorem plane32_apply (w : FVec Ideal S8x12544 .f32) (b : Fin 8) (t : Fin 32) (p : Fin 12544) :
    broadcastInDim Cert.ReferenceIdeal.S8x32x12544 ![0, 1, 2] Cert.ReferenceIdeal.Facts₀.bcast_S8x1x12544_S8x32x12544_0_1_2
        (broadcastInDim Cert.ReferenceIdeal.S8x1x12544 ![0, 2] Cert.ReferenceIdeal.Facts₀.bcast_S8x12544_S8x1x12544_0_2 w) (ix3 b t p)
      = w (ix2 b p) :=
  (broadcastInDim_apply _ _ _ (ix3 b t p) (ix3 b (0 : Fin 1) p) fun a => match a with
    | ⟨0, _⟩ => rfl
    | ⟨1, _⟩ => rfl
    | ⟨2, _⟩ => rfl).trans
  (broadcastInDim_apply _ _ w (ix3 b (0 : Fin 1) p) (ix2 b p) fun a => match a with
    | ⟨0, _⟩ => rfl
    | ⟨1, _⟩ => rfl)

theorem ref_pm_apply (x0 : (⟨Cert.ReferenceIdeal.S8x150x160x160, .f32⟩ : BufTy).Contents (Elt Ideal))
    (x4 : (⟨Cert.ReferenceIdeal.S8x12544x2, .f32⟩ : BufTy).Contents (Elt Ideal)) (b : Fin 8) (q : Fin 150) (p : Fin 12544) :
    Cert.ReferenceIdeal.ReadP.val_main_v203 (F := Ideal) x0 x4 (ix3 b q p)
      = blendVal (Cert.ReferenceIdeal.ReadP.val_main_v67 (F := Ideal) x0 x4 (ix3 b q p))
          (Cert.ReferenceIdeal.ReadP.val_main_v100 (F := Ideal) x0 x4 (ix3 b q p))
          (Cert.ReferenceIdeal.ReadP.val_main_v133 (F := Ideal) x0 x4 (ix3 b q p))
          (Cert.ReferenceIdeal.ReadP.val_main_v168 (F := Ideal) x0 x4 (ix3 b q p))
          (Cert.ReferenceIdeal.ReadP.val_main_v33 (F := Ideal) x4 (ix2 b p))
          (Cert.ReferenceIdeal.ReadP.val_main_v34 (F := Ideal) x4 (ix2 b p)) := by
  have hA : Cert.ReferenceIdeal.ReadP.val_main_v172 (F := Ideal) x4 (ix3 b q p)
      = Ideal.ofBits .f32 0x3F800000#32 - Cert.ReferenceIdeal.ReadP.val_main_v33 (F := Ideal) x4 (ix2 b p) :=
    plane150_apply (Cert.ReferenceIdeal.ReadP.val_main_v170 (F := Ideal) x4) b q p
  have hB : Cert.ReferenceIdeal.ReadP.val_main_v177 (F := Ideal) x4 (ix3 b q p)
      = Ideal.ofBits .f32 0x3F800000#32 - Cert.ReferenceIdeal.ReadP.val_main_v34 (F := Ideal) x4 (ix2 b p) :=
    plane150_apply (Cert.ReferenceIdeal.ReadP.val_main_v175 (F := Ideal) x4) b q p
  have hC : Cert.ReferenceIdeal.ReadP.val_main_v180 (F := Ideal) x4 (ix3 b q p)
      = Cert.ReferenceIdeal.ReadP.val_main_v33 (F := Ideal) x4 (ix2 b p) :=
    plane150_apply (Cert.ReferenceIdeal.ReadP.val_main_v33 (F := Ideal) x4) b q p
  have hD : Cert.ReferenceIdeal.ReadP.val_main_v185 (F := Ideal) x4 (ix3 b q p)
      = Ideal.ofBits .f32 0x3F800000#32 - Cert.ReferenceIdeal.ReadP.val_main_v34 (F := Ideal) x4 (ix2 b p) :=
    plane150_apply (Cert.ReferenceIdeal.ReadP.val_main_v183 (F := Ideal) x4) b q p
  have hE : Cert.ReferenceIdeal.ReadP.val_main_v191 (F := Ideal) x4 (ix3 b q p)
      = Ideal.ofBits .f32 0x3F800000#32 - Cert.ReferenceIdeal.ReadP.val_main_v33 (F := Ideal) x4 (ix2 b p) :=
    plane150_apply (Cert.ReferenceIdeal.ReadP.val_main_v189 (F := Ideal) x4) b q p
  have hF : Cert.ReferenceIdeal.ReadP.val_main_v194 (F := Ideal) x4 (ix3 b q p)
      = Cert.ReferenceIdeal.ReadP.val_main_v34 (F := Ideal) x4 (ix2 b p) :=
    plane150_apply (Cert.ReferenceIdeal.ReadP.val_main_v34 (F := Ideal) x4) b q p
  have hG : Cert.ReferenceIdeal.ReadP.val_main_v198 (F := Ideal) x4 (ix3 b q p)
      = Cert.ReferenceIdeal.ReadP.val_main_v33 (F := Ideal) x4 (ix2 b p) :=
    plane150_apply (Cert.ReferenceIdeal.ReadP.val_main_v33 (F := Ideal) x4) b q p
  have hH : Cert.ReferenceIdeal.ReadP.val_main_v201 (F := Ideal) x4 (ix3 b q p)
      = Cert.ReferenceIdeal.ReadP.val_main_v34 (F := Ideal) x4 (ix2 b p) :=
    plane150_apply (Cert.ReferenceIdeal.ReadP.val_main_v34 (F := Ideal) x4) b q p
  show (((Cert.ReferenceIdeal.ReadP.val_main_v67 (F := Ideal) x0 x4 (ix3 b q p)
            * Cert.ReferenceIdeal.ReadP.val_main_v172 (F := Ideal) x4 (ix3 b q p))
          * Cert.ReferenceIdeal.ReadP.val_main_v177 (F := Ideal) x4 (ix3 b q p)
        + (Cert.ReferenceIdeal.ReadP.val_main_v100 (F := Ideal) x0 x4 (ix3 b q p)
            * Cert.ReferenceIdeal.ReadP.val_main_v180 (F := Ideal) x4 (ix3 b q p))
          * Cert.ReferenceIdeal.ReadP.val_main_v185 (F := Ideal) x4 (ix3 b q p))
      + (Cert.ReferenceIdeal.ReadP.val_main_v133 (F := Ideal) x0 x4 (ix3 b q p)
            * Cert.ReferenceIdeal.ReadP.val_main_v191 (F := Ideal) x4 (ix3 b q p))
          * Cert.ReferenceIdeal.ReadP.val_main_v194 (F := Ideal) x4 (ix3 b q p))
      + (Cert.ReferenceIdeal.ReadP.val_main_v168 (F := Ideal) x0 x4 (ix3 b q p)
            * Cert.ReferenceIdeal.ReadP.val_main_v198 (F := Ideal) x4 (ix3 b q p))
          * Cert.ReferenceIdeal.ReadP.val_main_v201 (F := Ideal) x4 (ix3 b q p) = _
  rw [hA, hB, hC, hD, hE, hF, hG, hH]
  rfl

theorem ref_tx_eq (x4 : (⟨Cert.ReferenceIdeal.S8x12544x2, .f32⟩ : BufTy).Contents (Elt Ideal)) :
    Cert.ReferenceIdeal.ReadP.val_main_v218 (F := Ideal) x4 = Cert.ReferenceIdeal.ReadP.val_main_v33 (F := Ideal) x4 := rfl
theorem ref_ty_eq (x4 : (⟨Cert.ReferenceIdeal.S8x12544x2, .f32⟩ : BufTy).Contents (Elt Ideal)) :
    Cert.ReferenceIdeal.ReadP.val_main_v219 (F := Ideal) x4 = Cert.ReferenceIdeal.ReadP.val_main_v34 (F := Ideal) x4 := rfl

theorem ref_tm_apply (x2 : (⟨Cert.ReferenceIdeal.S8x32x160x160, .f32⟩ : BufTy).Contents (Elt Ideal))
    (x4 : (⟨Cert.ReferenceIdeal.S8x12544x2, .f32⟩ : BufTy).Contents (Elt Ideal)) (b : Fin 8) (t : Fin 32) (p : Fin 12544) :
    Cert.ReferenceIdeal.ReadP.val_main_v388 (F := Ideal) x2 x4 (ix3 b t p)
      = blendVal (Cert.ReferenceIdeal.ReadP.val_main_v252 (F := Ideal) x2 x4 (ix3 b t p))
          (Cert.ReferenceIdeal.ReadP.val_main_v285 (F := Ideal) x2 x4 (ix3 b t p))
          (Cert.ReferenceIdeal.ReadP.val_main_v318 (F := Ideal) x2 x4 (ix3 b t p))
          (Cert.ReferenceIdeal.ReadP.val_main_v353 (F := Ideal) x2 x4 (ix3 b t p))
          (Cert.ReferenceIdeal.ReadP.val_main_v33 (F := Ideal) x4 (ix2 b p))
          (Cert.ReferenceIdeal.ReadP.val_main_v34 (F := Ideal) x4 (ix2 b p)) := by
  have hA : Cert.ReferenceIdeal.ReadP.val_main_v357 (F := Ideal) x4 (ix3 b t p)
      = Ideal.ofBits .f32 0x3F800000#32 - Cert.ReferenceIdeal.ReadP.val_main_v218 (F := Ideal) x4 (ix2 b p) :=
    plane32_apply (Cert.ReferenceIdeal.ReadP.val_main_v355 (F := Ideal) x4) b t p
  have hB : Cert.ReferenceIdeal.ReadP.val_main_v362 (F := Ideal) x4 (ix3 b t p)
      = Ideal.ofBits .f32 0x3F800000#32 - Cert.ReferenceIdeal.ReadP.val_main_v219 (F := Ideal) x4 (ix2 b p) :=
    plane32_apply (Cert.ReferenceIdeal.ReadP.val_main_v360 (F := Ideal) x4) b t p
  have hC : Cert.ReferenceIdeal.ReadP.val_main_v365 (F := Ideal) x4 (ix3 b t p)
      = Cert.ReferenceIdeal.ReadP.val_main_v218 (F := Ideal) x4 (ix2 b p) :=
    plane32_apply (Cert.ReferenceIdeal.ReadP.val_main_v218 (F := Ideal) x4) b t p
  have hD : Cert.ReferenceIdeal.ReadP.val_main_v370 (F := Ideal) x4 (ix3 b t p)
      = Ideal.ofBits .f32 0x3F800000#32 - Cert.ReferenceIdeal.ReadP.val_main_v219 (F := Ideal) x4 (ix2 b p) :=
    plane32_apply (Cert.ReferenceIdeal.ReadP.val_main_v368 (F := Ideal) x4) b t p
  have hE : Cert.ReferenceIdeal.ReadP.val_main_v376 (F := Ideal) x4 (ix3 b t p)
      = Ideal.ofBits .f32 0x3F800000#32 - Cert.ReferenceIdeal.ReadP.val_main_v218 (F := Ideal) x4 (ix2 b p) :=
    plane32_apply (Cert.ReferenceIdeal.ReadP.val_main_v374 (F := Ideal) x4) b t p
  have hF : Cert.ReferenceIdeal.ReadP.val_main_v379 (F := Ideal) x4 (ix3 b t p)
      = Cert.ReferenceIdeal.ReadP.val_main_v219 (F := Ideal) x4 (ix2 b p) :=
    plane32_apply (Cert.ReferenceIdeal.ReadP.val_main_v219 (F := Ideal) x4) b t p
  have hG : Cert.ReferenceIdeal.ReadP.val_main_v383 (F := Ideal) x4 (ix3 b t p)
      = Cert.ReferenceIdeal.ReadP.val_main_v218 (F := Ideal) x4 (ix2 b p) :=
    plane32_apply (Cert.ReferenceIdeal.ReadP.val_main_v218 (F := Ideal) x4) b t p
  have hH : Cert.ReferenceIdeal.ReadP.val_main_v386 (F := Ideal) x4 (ix3 b t p)
      = Cert.ReferenceIdeal.ReadP.val_main_v219 (F := Ideal) x4 (ix2 b p) :=
    plane32_apply (Cert.ReferenceIdeal.ReadP.val_main_v219 (F := Ideal) x4) b t p
  show (((Cert.ReferenceIdeal.ReadP.val_main_v252 (F := Ideal) x2 x4 (ix3 b t p)
            * Cert.ReferenceIdeal.ReadP.val_main_v357 (F := Ideal) x4 (ix3 b t p))
          * Cert.ReferenceIdeal.ReadP.val_main_v362 (F := Ideal) x4 (ix3 b t p)
        + (Cert.ReferenceIdeal.ReadP.val_main_v285 (F := Ideal) x2 x4 (ix3 b t p)
            * Cert.ReferenceIdeal.ReadP.val_main_v365 (F := Ideal) x4 (ix3 b t p))
          * Cert.ReferenceIdeal.ReadP.val_main_v370 (F := Ideal) x4 (ix3 b t p))
      + (Cert.ReferenceIdeal.ReadP.val_main_v318 (F := Ideal) x2 x4 (ix3 b t p)
            * Cert.ReferenceIdeal.ReadP.val_main_v376 (F := Ideal) x4 (ix3 b t p))
          * Cert.ReferenceIdeal.ReadP.val_main_v379 (F := Ideal) x4 (ix3 b t p))
      + (Cert.ReferenceIdeal.ReadP.val_main_v353 (F := Ideal) x2 x4 (ix3 b t p)
            * Cert.ReferenceIdeal.ReadP.val_main_v383 (F := Ideal) x4 (ix3 b t p))
          * Cert.ReferenceIdeal.ReadP.val_main_v386 (F := Ideal) x4 (ix3 b t p) = _
  rw [hA, hB, hC, hD, hE, hF, hG, hH, ref_tx_eq, ref_ty_eq]
  rfl

end Cert.KernelIdeal.Blend

end
-- ==== Proof.LibLine.lean ====
import Idealize.ShloMosaic.Lib.StableHlo.Run

noncomputable section

namespace Cert.Line

open Idealize.ShloMosaic Idealize.SL.Sem Idealize.ShloMosaic.StableHlo

variable {τ : Topo} {sig : RefSig} {Val : EltTy → Type}

theorem after_append : ∀ (l₁ l₂ : List (HloOp τ sig Val)) (V : Valuation τ sig Val),
    after (l₁ ++ l₂) V = after l₂ (after l₁ V)
  | [], _, _ => rfl
  | _ :: l₁, l₂, V => after_append l₁ l₂ _

/-- The operation touches TensorCore buffers only, determines its result, and writes the one reference `y`. -/
structure Plain (op : HloOp τ sig Val) (y : Ref sig .tc) : Prop where
  sub : op.bufs ⊆ tcRefs τ sig
  fresh : op.fresh = ∅
  writes : op.writes = {Proc.devRef .tc y}

section Builders
variable (x a b c y : Ref sig .tc)

theorem Plain.nullary (v : y.ty.Contents Val) (hy) : Plain (nullary (τ := τ) y v hy) y :=
  ⟨nullary_bufs_sub .., rfl, rfl⟩
theorem Plain.unary (f : x.ty.Contents Val → y.ty.Contents Val) (hx hy) : Plain (unary (τ := τ) x y f hx hy) y :=
  ⟨unary_bufs_sub .., rfl, rfl⟩
theorem Plain.binary (f : a.ty.Contents Val → b.ty.Contents Val → y.ty.Contents Val) (ha hb hy) :
    Plain (binary (τ := τ) a b y f ha hb hy) y :=
  ⟨binary_bufs_sub .., rfl, rfl⟩
theorem Plain.ternary (f : c.ty.Contents Val → a.ty.Contents Val → b.ty.Contents Val → y.ty.Contents Val) (hc ha hb hy) :
    Plain (ternary (τ := τ) c a b y f hc ha hb hy) y :=
  ⟨ternary_bufs_sub .., rfl, rfl⟩
theorem Plain.reshape (he hn hx hy) : Plain (reshape (τ := τ) (Val := Val) x y he hn hx hy) y :=
  ⟨reshape_bufs_sub .., rfl, rfl⟩
end Builders

/-- A line of plain operations, with the references they write in order. -/
abbrev Plains (ops : List (HloOp τ sig Val)) (W : List (Ref sig .tc)) : Prop := List.Forall₂ Plain ops W

theorem Plains.sub {ops : List (HloOp τ sig Val)} {W : List (Ref sig .tc)} (h : Plains ops W) :
    ops.Forall fun op => op.bufs ⊆ tcRefs τ sig := by
  induction h with
  | nil => trivial
  | cons hp _ ih => exact (List.forall_cons _ _ _).mpr ⟨hp.sub, ih⟩

theorem Plains.fresh {ops : List (HloOp τ sig Val)} {W : List (Ref sig .tc)} (h : Plains ops W) :
    ∀ op ∈ ops, op.fresh = ∅ := by
  induction h with
  | nil => exact fun _ h => nomatch h
  | cons hp _ ih => exact List.forall_mem_cons.mpr ⟨hp.fresh, ih⟩

/-- A reference the line does not write keeps its contents. -/
theorem Plains.keep {ops : List (HloOp τ sig Val)} {W : List (Ref sig .tc)} (h : Plains ops W)
    {r : Ref sig .tc} (hr : r ∉ W) (V : Valuation τ sig Val) :
    after ops V (Proc.devRef .tc r) = V (Proc.devRef .tc r) := by
  induction h generalizing V with
  | nil => rfl
  | @cons op y ops W hp _ ih =>
    rw [after_cons, ih (fun h => hr (List.mem_cons_of_mem _ h)), op.result_of_not_mem V]
    rw [hp.writes, Finset.mem_singleton]
    exact fun e => hr (Proc.devRef_injective _ e ▸ List.mem_cons_self)

/-! A line cut into chunks, in single-assignment form. -/

variable {line : List (List (HloOp τ sig Val))} {Wl : List (List (Ref sig .tc))}

theorem Plains.drop (h : List.Forall₂ Plains line Wl) (K : Nat) : Plains (line.drop K).flatten (Wl.drop K).flatten :=
  List.rel_flatten (List.forall₂_drop K h)

/-- The first `K + 1` chunks run in turn are chunk `K` run after the first `K`. -/
theorem after_take_succ {K : Nat} {ops : List (HloOp τ sig Val)} (h : line[K]? = some ops) (V : Valuation τ sig Val) :
    after (line.take (K + 1)).flatten V = after ops (after (line.take K).flatten V) := by
  rw [List.take_succ, h, Option.toList_some, List.flatten_append, after_append, List.flatten_cons, List.flatten_nil,
    List.append_nil]

/-! What buffers hold, as a list of facts, carried along the chunks. -/

/-- One buffer and its contents. -/
structure Fact (sig : RefSig) (Val : EltTy → Type) where
  r : Ref sig .tc
  v : r.ty.Contents Val

/-- Every listed buffer holds its listed contents. -/
abbrev Holds (U : Valuation τ sig Val) (L : List (Fact sig Val)) : Prop :=
  L.Forall fun f => U (Proc.devRef .tc f.r) = f.v

theorem Holds.congr {U U' : Valuation τ sig Val} {L : List (Fact sig Val)} {W : List (Ref sig .tc)} (R : List (Ref sig .tc))
    (hd : ∀ r ∈ R, r ∉ W) (e : ∀ r ∉ W, U' (Proc.devRef .tc r) = U (Proc.devRef .tc r))
    (h : Holds U L) (hR : L.map (·.r) = R) : Holds U' L :=
  List.forall_iff_forall_mem.mpr fun f hf =>
    (e f.r (hd _ (hR ▸ List.mem_map_of_mem hf))).trans (List.forall_iff_forall_mem.mp h f hf)

/-- Facts about buffers the line does not write hold after it. -/
theorem Holds.keep {ops : List (HloOp τ sig Val)} {W : List (Ref sig .tc)} (hp : Plains ops W) {V : Valuation τ sig Val}
    {L : List (Fact sig Val)} (R : List (Ref sig .tc)) (hd : ∀ r ∈ R, r ∉ W) (h : Holds V L)
    (hR : L.map (·.r) = R := by rfl) : Holds (after ops V) L :=
  h.congr R hd (fun _ hr => hp.keep hr V) hR

/-- What chunk `K` proves of its own result holds after the first `K + 1` chunks. -/
theorem Holds.step {K : Nat} {ops : List (HloOp τ sig Val)} (h : line[K]? = some ops) {V : Valuation τ sig Val}
    {L : List (Fact sig Val)} (hc : Holds (after ops (after (line.take K).flatten V)) L) :
    Holds (after (line.take (K + 1)).flatten V) L :=
  after_take_succ h V ▸ hc

/-- Single assignment: facts that hold after the first `j` chunks, about buffers that chunks `j` to `K - 1` do not
    write, hold after the first `K`. -/
theorem Holds.carry (hl : List.Forall₂ Plains line Wl) (j K : Nat) (hjK : j ≤ K) {V : Valuation τ sig Val}
    {L : List (Fact sig Val)} (R : List (Ref sig .tc)) (hd : ∀ r ∈ R, r ∉ ((Wl.take K).drop j).flatten)
    (h : Holds (after (line.take j).flatten V) L) (hR : L.map (·.r) = R := by rfl) :
    Holds (after (line.take K).flatten V) L := by
  have e : line.take K = line.take j ++ (line.take K).drop j := by
    conv_lhs => rw [← List.take_append_drop j (line.take K), List.take_take, Nat.min_eq_left hjK]
  rw [e, List.flatten_append, after_append]
  exact Holds.keep (List.rel_flatten (List.forall₂_drop j (List.forall₂_take K hl))) R hd h hR

end Cert.Line

end
-- ==== Proof.KerHost.Basic.lean ====
import proofs.«401846_j83760452207136_3_alg».proof.Proof.Gen.KernelIdeal.Frame
import proofs.«401846_j83760452207136_3_alg».proof.Proof.RefStages
import proofs.«401846_j83760452207136_3_alg».proof.Proof.KerTapK
import proofs.«401846_j83760452207136_3_alg».proof.Proof.KerBlend
import proofs.«401846_j83760452207136_3_alg».proof.Proof.LibLine

noncomputable section

namespace Cert.KernelIdeal.HostRun

open Cert.KernelIdeal Cert.KernelIdeal.Gen Idealize.ShloMosaic Idealize.ShloMosaic.TcCoe Idealize.SL.Sem Idealize.ShloMosaic.StableHlo

abbrev X0 := FVec Ideal S8x150x160x160 .f32
abbrev X2 := FVec Ideal S8x32x160x160 .f32
abbrev X4 := FVec Ideal S8x12544x2 .f32

end Cert.KernelIdeal.HostRun

end
-- ==== Proof.KerHost.Outs.lean ====
import proofs.«401846_j83760452207136_3_alg».proof.Proof.KerHost.Basic

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev RL : List (Ref sig .tc) := [main_arg0, main_arg2, main_arg4]
abbrev OutL (a0 : X0) (a2 : X2) (a4 : X4) : List (Fact sig (Elt Ideal)) :=
  [⟨main_arg0, a0⟩,
   ⟨main_arg2, a2⟩,
   ⟨main_arg4, a4⟩]

abbrev R0 : List (Ref sig .tc) := [main_v2, main_v18, main_v20, main_v21, main_v22, main_v33, main_c_6, main_c_7]
abbrev Out0 (a0 : X0) (a2 : X2) (a4 : X4) : List (Fact sig (Elt Ideal)) :=
  [⟨main_v2, (TapK.tableK a0 a2)⟩,
   ⟨main_v18, (broadcastInDim S8x12544x1 ![0, 1] bcast_S8x12544_S8x12544x1_0_1 (Cert.ReferenceIdeal.ReadP.val_main_v33 (F := Ideal) a4))⟩,
   ⟨main_v20, (broadcastInDim S8x12544x1 ![0, 1] bcast_S8x12544_S8x12544x1_0_1 (Cert.ReferenceIdeal.ReadP.val_main_v34 (F := Ideal) a4))⟩,
   ⟨main_v21, (Cert.ReferenceIdeal.ReadP.val_main_v35 (F := Ideal) a4)⟩,
   ⟨main_v22, (Cert.ReferenceIdeal.ReadP.val_main_v36 (F := Ideal) a4)⟩,
   ⟨main_v33, (Cert.ReferenceIdeal.ReadP.val_main_v47 (F := Ideal) a4)⟩,
   ⟨main_c_6, (constantI S_ 32 0#32)⟩,
   ⟨main_c_7, (constantI S_ 32 159#32)⟩]

abbrev R1 : List (Ref sig .tc) := [main_v34]
abbrev Out1 (a0 : X0) (a2 : X2) (a4 : X4) : List (Fact sig (Elt Ideal)) :=
  [⟨main_v34, (Cert.ReferenceIdeal.ReadP.val_main_v50 (F := Ideal) a4)⟩]

abbrev R2 : List (Ref sig .tc) := [main_c_8, main_c_9]
abbrev Out2 (a0 : X0) (a2 : X2) (a4 : X4) : List (Fact sig (Elt Ideal)) :=
  [⟨main_c_8, (constantI S_ 32 0#32)⟩,
   ⟨main_c_9, (constantI S_ 32 159#32)⟩]

abbrev R3 : List (Ref sig .tc) := [main_v35]
abbrev Out3 (a0 : X0) (a2 : X2) (a4 : X4) : List (Fact sig (Elt Ideal)) :=
  [⟨main_v35, (Cert.ReferenceIdeal.ReadP.val_main_v49 (F := Ideal) a4)⟩]

abbrev R4 : List (Ref sig .tc) := [main_v38]
abbrev Out4 (a0 : X0) (a2 : X2) (a4 : X4) : List (Fact sig (Elt Ideal)) :=
  [⟨main_v38, (addi (muli (Cert.ReferenceIdeal.ReadP.val_main_v49 (F := Ideal) a4) (broadcastInDim S8x12544 ![] bcast_S_S8x12544 (constantI S_ 32 160#32))) (Cert.ReferenceIdeal.ReadP.val_main_v50 (F := Ideal) a4))⟩]

abbrev R5 : List (Ref sig .tc) := [main_v39]
abbrev Out5 (a0 : X0) (a2 : X2) (a4 : X4) : List (Fact sig (Elt Ideal)) :=
  [⟨main_v39, (TapK.takeK (TapK.tableK a0 a2) (addi (muli (Cert.ReferenceIdeal.ReadP.val_main_v49 (F := Ideal) a4) (broadcastInDim S8x12544 ![] bcast_S_S8x12544 (constantI S_ 32 160#32))) (Cert.ReferenceIdeal.ReadP.val_main_v50 (F := Ideal) a4)))⟩]

abbrev R6 : List (Ref sig .tc) := [main_v43, main_v45, main_v56, main_c_16, main_c_17]
abbrev Out6 (a0 : X0) (a2 : X2) (a4 : X4) : List (Fact sig (Elt Ideal)) :=
  [⟨main_v43, (TapK.tapK (TapK.tableK a0 a2) (Cert.ReferenceIdeal.ReadP.val_main_v49 (F := Ideal) a4) (Cert.ReferenceIdeal.ReadP.val_main_v50 (F := Ideal) a4) (Cert.ReferenceIdeal.ReadP.val_main_v47 (F := Ideal) a4))⟩,
   ⟨main_v45, (Cert.ReferenceIdeal.ReadP.val_main_v69 (F := Ideal) a4)⟩,
   ⟨main_v56, (Cert.ReferenceIdeal.ReadP.val_main_v80 (F := Ideal) a4)⟩,
   ⟨main_c_16, (constantI S_ 32 0#32)⟩,
   ⟨main_c_17, (constantI S_ 32 159#32)⟩]

abbrev R7 : List (Ref sig .tc) := [main_v57]
abbrev Out7 (a0 : X0) (a2 : X2) (a4 : X4) : List (Fact sig (Elt Ideal)) :=
  [⟨main_v57, (Cert.ReferenceIdeal.ReadP.val_main_v83 (F := Ideal) a4)⟩]

abbrev R8 : List (Ref sig .tc) := [main_c_18, main_c_19]
abbrev Out8 (a0 : X0) (a2 : X2) (a4 : X4) : List (Fact sig (Elt Ideal)) :=
  [⟨main_c_18, (constantI S_ 32 0#32)⟩,
   ⟨main_c_19, (constantI S_ 32 159#32)⟩]

abbrev R9 : List (Ref sig .tc) := [main_v58]
abbrev Out9 (a0 : X0) (a2 : X2) (a4 : X4) : List (Fact sig (Elt Ideal)) :=
  [⟨main_v58, (Cert.ReferenceIdeal.ReadP.val_main_v82 (F := Ideal) a4)⟩]

abbrev R10 : List (Ref sig .tc) := [main_v61]
abbrev Out10 (a0 : X0) (a2 : X2) (a4 : X4) : List (Fact sig (Elt Ideal)) :=
  [⟨main_v61, (addi (muli (Cert.ReferenceIdeal.ReadP.val_main_v82 (F := Ideal) a4) (broadcastInDim S8x12544 ![] bcast_S_S8x12544 (constantI S_ 32 160#32))) (Cert.ReferenceIdeal.ReadP.val_main_v83 (F := Ideal) a4))⟩]

abbrev R11 : List (Ref sig .tc) := [main_v62]
abbrev Out11 (a0 : X0) (a2 : X2) (a4 : X4) : List (Fact sig (Elt Ideal)) :=
  [⟨main_v62, (TapK.takeK (TapK.tableK a0 a2) (addi (muli (Cert.ReferenceIdeal.ReadP.val_main_v82 (F := Ideal) a4) (broadcastInDim S8x12544 ![] bcast_S_S8x12544 (constantI S_ 32 160#32))) (Cert.ReferenceIdeal.ReadP.val_main_v83 (F := Ideal) a4)))⟩]

abbrev R12 : List (Ref sig .tc) := [main_v66, main_v68, main_v79, main_c_26, main_c_27]
abbrev Out12 (a0 : X0) (a2 : X2) (a4 : X4) : List (Fact sig (Elt Ideal)) :=
  [⟨main_v66, (TapK.tapK (TapK.tableK a0 a2) (Cert.ReferenceIdeal.ReadP.val_main_v82 (F := Ideal) a4) (Cert.ReferenceIdeal.ReadP.val_main_v83 (F := Ideal) a4) (Cert.ReferenceIdeal.ReadP.val_main_v80 (F := Ideal) a4))⟩,
   ⟨main_v68, (Cert.ReferenceIdeal.ReadP.val_main_v102 (F := Ideal) a4)⟩,
   ⟨main_v79, (Cert.ReferenceIdeal.ReadP.val_main_v113 (F := Ideal) a4)⟩,
   ⟨main_c_26, (constantI S_ 32 0#32)⟩,
   ⟨main_c_27, (constantI S_ 32 159#32)⟩]

abbrev R13 : List (Ref sig .tc) := [main_v80]
abbrev Out13 (a0 : X0) (a2 : X2) (a4 : X4) : List (Fact sig (Elt Ideal)) :=
  [⟨main_v80, (Cert.ReferenceIdeal.ReadP.val_main_v116 (F := Ideal) a4)⟩]

abbrev R14 : List (Ref sig .tc) := [main_c_28, main_c_29]
abbrev Out14 (a0 : X0) (a2 : X2) (a4 : X4) : List (Fact sig (Elt Ideal)) :=
  [⟨main_c_28, (constantI S_ 32 0#32)⟩,
   ⟨main_c_29, (constantI S_ 32 159#32)⟩]

abbrev R15 : List (Ref sig .tc) := [main_v81]
abbrev Out15 (a0 : X0) (a2 : X2) (a4 : X4) : List (Fact sig (Elt Ideal)) :=
  [⟨main_v81, (Cert.ReferenceIdeal.ReadP.val_main_v115 (F := Ideal) a4)⟩]

abbrev R16 : List (Ref sig .tc) := [main_v84]
abbrev Out16 (a0 : X0) (a2 : X2) (a4 : X4) : List (Fact sig (Elt Ideal)) :=
  [⟨main_v84, (addi (muli (Cert.ReferenceIdeal.ReadP.val_main_v115 (F := Ideal) a4) (broadcastInDim S8x12544 ![] bcast_S_S8x12544 (constantI S_ 32 160#32))) (Cert.ReferenceIdeal.ReadP.val_main_v116 (F := Ideal) a4))⟩]

abbrev R17 : List (Ref sig .tc) := [main_v85]
abbrev Out17 (a0 : X0) (a2 : X2) (a4 : X4) : List (Fact sig (Elt Ideal)) :=
  [⟨main_v85, (TapK.takeK (TapK.tableK a0 a2) (addi (muli (Cert.ReferenceIdeal.ReadP.val_main_v115 (F := Ideal) a4) (broadcastInDim S8x12544 ![] bcast_S_S8x12544 (constantI S_ 32 160#32))) (Cert.ReferenceIdeal.ReadP.val_main_v116 (F := Ideal) a4)))⟩]

abbrev R18 : List (Ref sig .tc) := [main_v89, main_v91, main_v93, main_v104, main_c_37, main_c_38]
abbrev Out18 (a0 : X0) (a2 : X2) (a4 : X4) : List (Fact sig (Elt Ideal)) :=
  [⟨main_v89, (TapK.tapK (TapK.tableK a0 a2) (Cert.ReferenceIdeal.ReadP.val_main_v115 (F := Ideal) a4) (Cert.ReferenceIdeal.ReadP.val_main_v116 (F := Ideal) a4) (Cert.ReferenceIdeal.ReadP.val_main_v113 (F := Ideal) a4))⟩,
   ⟨main_v91, (Cert.ReferenceIdeal.ReadP.val_main_v135 (F := Ideal) a4)⟩,
   ⟨main_v93, (Cert.ReferenceIdeal.ReadP.val_main_v137 (F := Ideal) a4)⟩,
   ⟨main_v104, (Cert.ReferenceIdeal.ReadP.val_main_v148 (F := Ideal) a4)⟩,
   ⟨main_c_37, (constantI S_ 32 0#32)⟩,
   ⟨main_c_38, (constantI S_ 32 159#32)⟩]

abbrev R19 : List (Ref sig .tc) := [main_v105]
abbrev Out19 (a0 : X0) (a2 : X2) (a4 : X4) : List (Fact sig (Elt Ideal)) :=
  [⟨main_v105, (Cert.ReferenceIdeal.ReadP.val_main_v151 (F := Ideal) a4)⟩]

abbrev R20 : List (Ref sig .tc) := [main_c_39, main_c_40]
abbrev Out20 (a0 : X0) (a2 : X2) (a4 : X4) : List (Fact sig (Elt Ideal)) :=
  [⟨main_c_39, (constantI S_ 32 0#32)⟩,
   ⟨main_c_40, (constantI S_ 32 159#32)⟩]

abbrev R21 : List (Ref sig .tc) := [main_v106]
abbrev Out21 (a0 : X0) (a2 : X2) (a4 : X4) : List (Fact sig (Elt Ideal)) :=
  [⟨main_v106, (Cert.ReferenceIdeal.ReadP.val_main_v150 (F := Ideal) a4)⟩]

abbrev R22 : List (Ref sig .tc) := [main_v109]
abbrev Out22 (a0 : X0) (a2 : X2) (a4 : X4) : List (Fact sig (Elt Ideal)) :=
  [⟨main_v109, (addi (muli (Cert.ReferenceIdeal.ReadP.val_main_v150 (F := Ideal) a4) (broadcastInDim S8x12544 ![] bcast_S_S8x12544 (constantI S_ 32 160#32))) (Cert.ReferenceIdeal.ReadP.val_main_v151 (F := Ideal) a4))⟩]

abbrev R23 : List (Ref sig .tc) := [main_v110]
abbrev Out23 (a0 : X0) (a2 : X2) (a4 : X4) : List (Fact sig (Elt Ideal)) :=
  [⟨main_v110, (TapK.takeK (TapK.tableK a0 a2) (addi (muli (Cert.ReferenceIdeal.ReadP.val_main_v150 (F := Ideal) a4) (broadcastInDim S8x12544 ![] bcast_S_S8x12544 (constantI S_ 32 160#32))) (Cert.ReferenceIdeal.ReadP.val_main_v151 (F := Ideal) a4)))⟩]

abbrev R24 : List (Ref sig .tc) := [main_v142, main_v143]
abbrev Out24 (a0 : X0) (a2 : X2) (a4 : X4) : List (Fact sig (Elt Ideal)) :=
  [⟨main_v142, (Blend.pmK (Blend.blendK (TapK.tapK (TapK.tableK a0 a2) (Cert.ReferenceIdeal.ReadP.val_main_v49 (F := Ideal) a4) (Cert.ReferenceIdeal.ReadP.val_main_v50 (F := Ideal) a4) (Cert.ReferenceIdeal.ReadP.val_main_v47 (F := Ideal) a4)) (TapK.tapK (TapK.tableK a0 a2) (Cert.ReferenceIdeal.ReadP.val_main_v82 (F := Ideal) a4) (Cert.ReferenceIdeal.ReadP.val_main_v83 (F := Ideal) a4) (Cert.ReferenceIdeal.ReadP.val_main_v80 (F := Ideal) a4)) (TapK.tapK (TapK.tableK a0 a2) (Cert.ReferenceIdeal.ReadP.val_main_v115 (F := Ideal) a4) (Cert.ReferenceIdeal.ReadP.val_main_v116 (F := Ideal) a4) (Cert.ReferenceIdeal.ReadP.val_main_v113 (F := Ideal) a4)) (TapK.tapK (TapK.tableK a0 a2) (Cert.ReferenceIdeal.ReadP.val_main_v150 (F := Ideal) a4) (Cert.ReferenceIdeal.ReadP.val_main_v151 (F := Ideal) a4) (Cert.ReferenceIdeal.ReadP.val_main_v148 (F := Ideal) a4)) (Cert.ReferenceIdeal.ReadP.val_main_v33 (F := Ideal) a4) (Cert.ReferenceIdeal.ReadP.val_main_v34 (F := Ideal) a4)))⟩,
   ⟨main_v143, (Blend.tmK (Blend.blendK (TapK.tapK (TapK.tableK a0 a2) (Cert.ReferenceIdeal.ReadP.val_main_v49 (F := Ideal) a4) (Cert.ReferenceIdeal.ReadP.val_main_v50 (F := Ideal) a4) (Cert.ReferenceIdeal.ReadP.val_main_v47 (F := Ideal) a4)) (TapK.tapK (TapK.tableK a0 a2) (Cert.ReferenceIdeal.ReadP.val_main_v82 (F := Ideal) a4) (Cert.ReferenceIdeal.ReadP.val_main_v83 (F := Ideal) a4) (Cert.ReferenceIdeal.ReadP.val_main_v80 (F := Ideal) a4)) (TapK.tapK (TapK.tableK a0 a2) (Cert.ReferenceIdeal.ReadP.val_main_v115 (F := Ideal) a4) (Cert.ReferenceIdeal.ReadP.val_main_v116 (F := Ideal) a4) (Cert.ReferenceIdeal.ReadP.val_main_v113 (F := Ideal) a4)) (TapK.tapK (TapK.tableK a0 a2) (Cert.ReferenceIdeal.ReadP.val_main_v150 (F := Ideal) a4) (Cert.ReferenceIdeal.ReadP.val_main_v151 (F := Ideal) a4) (Cert.ReferenceIdeal.ReadP.val_main_v148 (F := Ideal) a4)) (Cert.ReferenceIdeal.ReadP.val_main_v33 (F := Ideal) a4) (Cert.ReferenceIdeal.ReadP.val_main_v34 (F := Ideal) a4)))⟩]

end Cert.KernelIdeal.HostRun

end
-- ==== Proof.KerHost.S00.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W0 : List (Ref sig .tc) :=
  [main_v0, main_v1, main_v2, main_v3, main_v4, main_cst, main_v5, main_v6, main_cst_0, main_v7, main_v8, main_v9, main_v10, main_cst_1, main_v11, main_v12, main_cst_2, main_v13, main_v14, main_v15, main_v16, main_v17, main_v18, main_v19, main_v20, main_v21, main_v22, main_c, main_v23, main_v24, main_c_3, main_v25, main_v26, main_v27, main_c_4, main_v28, main_v29, main_v30, main_c_5, main_v31, main_v32, main_v33, main_c_6, main_c_7]

theorem s0_plains : Plains (hostOps0 : List (HloOp τ sig (Elt Ideal))) W0 := by
  repeat (first | exact .nil | refine .cons (by first | exact .nullary .. | exact .unary .. | exact .binary .. | exact .ternary .. | exact .reshape ..) ?_)

set_option maxRecDepth 8192 in
set_option maxHeartbeats 4000000 in
theorem s0 {a0 : X0} {a2 : X2} {a4 : X4} {W : Valuation τ sig (Elt Ideal)}
    (hL : Holds W (OutL a0 a2 a4)) :
    Holds (after (hostOps0 (F := Ideal)) W) (Out0 a0 a2 a4) := by
  simp only [Holds, OutL, Out0, List.forall_cons, List.Forall, and_true] at hL ⊢
  refine ⟨?_, ?_, ?_, ?_, ?_, ?_, ?_, ?_⟩
  all_goals after_results_simp
  all_goals try simp only [hL.1, hL.2.1, hL.2.2]
  all_goals first | rfl | trivial | (rw [← hL.1, ← hL.2.1]; rfl)

end Cert.KernelIdeal.HostRun

end
-- ==== Proof.KerHost.S01.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W1 : List (Ref sig .tc) :=
  [main_call0_v0, main_call0_v1, main_call0_v2, main_call0_v3, main_call0_v4, main_v34]

theorem s1_plains : Plains (hostOps0_1 : List (HloOp τ sig (Elt Ideal))) W1 := by
  repeat (first | exact .nil | refine .cons (by first | exact .nullary .. | exact .unary .. | exact .binary .. | exact .ternary .. | exact .reshape ..) ?_)

set_option maxRecDepth 8192 in
set_option maxHeartbeats 4000000 in
theorem s1 {a0 : X0} {a2 : X2} {a4 : X4} {W : Valuation τ sig (Elt Ideal)}
    (h0 : Holds W (Out0 a0 a2 a4)) :
    Holds (after (hostOps0_1 (F := Ideal)) W) (Out1 a0 a2 a4) := by
  simp only [Holds, Out0, Out1, List.forall_cons, List.Forall, and_true] at h0 ⊢
  all_goals after_results_simp
  all_goals try simp only [h0.1, h0.2.1, h0.2.2.1, h0.2.2.2.1, h0.2.2.2.2.1, h0.2.2.2.2.2.1, h0.2.2.2.2.2.2.1, h0.2.2.2.2.2.2.2]
  all_goals first | rfl | trivial

end Cert.KernelIdeal.HostRun

end
-- ==== Proof.KerHost.S02.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W2 : List (Ref sig .tc) :=
  [main_c_8, main_c_9]

theorem s2_plains : Plains (hostOps0_2 : List (HloOp τ sig (Elt Ideal))) W2 := by
  repeat (first | exact .nil | refine .cons (by first | exact .nullary .. | exact .unary .. | exact .binary .. | exact .ternary .. | exact .reshape ..) ?_)

set_option maxRecDepth 8192 in
set_option maxHeartbeats 4000000 in
theorem s2 {a0 : X0} {a2 : X2} {a4 : X4} {W : Valuation τ sig (Elt Ideal)}
    (h0 : Holds W (Out0 a0 a2 a4)) (h1 : Holds W (Out1 a0 a2 a4)) :
    Holds (after (hostOps0_2 (F := Ideal)) W) (Out2 a0 a2 a4) := by
  simp only [Holds, Out0, Out1, Out2, List.forall_cons, List.Forall, and_true] at h0 h1 ⊢
  refine ⟨?_, ?_⟩
  all_goals after_results_simp
  all_goals try simp only [h0.1, h0.2.1, h0.2.2.1, h0.2.2.2.1, h0.2.2.2.2.1, h0.2.2.2.2.2.1, h1]
  all_goals first | rfl | trivial

end Cert.KernelIdeal.HostRun

end
-- ==== Proof.KerHost.S03.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W3 : List (Ref sig .tc) :=
  [main_call1_v0, main_call1_v1, main_call1_v2, main_call1_v3, main_call1_v4, main_v35]

theorem s3_plains : Plains (hostOps0_3 : List (HloOp τ sig (Elt Ideal))) W3 := by
  repeat (first | exact .nil | refine .cons (by first | exact .nullary .. | exact .unary .. | exact .binary .. | exact .ternary .. | exact .reshape ..) ?_)

set_option maxRecDepth 8192 in
set_option maxHeartbeats 4000000 in
theorem s3 {a0 : X0} {a2 : X2} {a4 : X4} {W : Valuation τ sig (Elt Ideal)}
    (h0 : Holds W (Out0 a0 a2 a4)) (h1 : Holds W (Out1 a0 a2 a4)) (h2 : Holds W (Out2 a0 a2 a4)) :
    Holds (after (hostOps0_3 (F := Ideal)) W) (Out3 a0 a2 a4) := by
  simp only [Holds, Out0, Out1, Out2, Out3, List.forall_cons, List.Forall, and_true] at h0 h1 h2 ⊢
  all_goals after_results_simp
  all_goals try simp only [h0.1, h0.2.1, h0.2.2.1, h0.2.2.2.1, h0.2.2.2.2.1, h0.2.2.2.2.2.1, h1, h2.1, h2.2]
  all_goals first | rfl | trivial

end Cert.KernelIdeal.HostRun

end
-- ==== Proof.KerHost.S04.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W4 : List (Ref sig .tc) :=
  [main_c_10, main_v36, main_v37, main_v38]

theorem s4_plains : Plains (hostOps0_4 : List (HloOp τ sig (Elt Ideal))) W4 := by
  repeat (first | exact .nil | refine .cons (by first | exact .nullary .. | exact .unary .. | exact .binary .. | exact .ternary .. | exact .reshape ..) ?_)

set_option maxRecDepth 8192 in
set_option maxHeartbeats 4000000 in
theorem s4 {a0 : X0} {a2 : X2} {a4 : X4} {W : Valuation τ sig (Elt Ideal)}
    (h0 : Holds W (Out0 a0 a2 a4)) (h1 : Holds W (Out1 a0 a2 a4)) (h3 : Holds W (Out3 a0 a2 a4)) :
    Holds (after (hostOps0_4 (F := Ideal)) W) (Out4 a0 a2 a4) := by
  simp only [Holds, Out0, Out1, Out3, Out4, List.forall_cons, List.Forall, and_true] at h0 h1 h3 ⊢
  all_goals after_results_simp
  all_goals try simp only [h0.1, h0.2.1, h0.2.2.1, h0.2.2.2.1, h0.2.2.2.2.1, h0.2.2.2.2.2.1, h1, h3]
  all_goals first | rfl | trivial

end Cert.KernelIdeal.HostRun

end
-- ==== Proof.KerHost.S05.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v39]

abbrev plain5 : List (HloOp τ sig (Elt Ideal)) :=
  [ StableHlo.nullary main_call2_c (constantI S_ 32 0#32),
    StableHlo.unary main_call2_c main_call2_v0 ((broadcastInDim S8x12544 ![] bcast_S_S8x12544) : (⟨S_, .i32⟩ : BufTy).Contents (Elt Ideal) → (⟨S8x12544, .i32⟩ : BufTy).Contents (Elt Ideal)),
    StableHlo.binary main_v38 main_call2_v0 main_call2_v1 ((cmpi .slt) : (⟨S8x12544, .i32⟩ : BufTy).Contents (Elt Ideal) → (⟨S8x12544, .i32⟩ : BufTy).Contents (Elt Ideal) → (⟨S8x12544, .i1⟩ : BufTy).Contents (Elt Ideal)),
    StableHlo.nullary main_call2_c_0 (constantI S_ 32 25600#32),
    StableHlo.unary main_call2_c_0 main_call2_v2 ((broadcastInDim S8x12544 ![] bcast_S_S8x12544) : (⟨S_, .i32⟩ : BufTy).Contents (Elt Ideal) → (⟨S8x12544, .i32⟩ : BufTy).Contents (Elt Ideal)),
    StableHlo.binary main_v38 main_call2_v2 main_call2_v3 (addi : (⟨S8x12544, .i32⟩ : BufTy).Contents (Elt Ideal) → (⟨S8x12544, .i32⟩ : BufTy).Contents (Elt Ideal) → (⟨S8x12544, .i32⟩ : BufTy).Contents (Elt Ideal)),
    StableHlo.ternary main_call2_v1 main_call2_v3 main_v38 main_call2_v4 (select : (⟨S8x12544, .i1⟩ : BufTy).Contents (Elt Ideal) → (⟨S8x12544, .i32⟩ : BufTy).Contents (Elt Ideal) → (⟨S8x12544, .i32⟩ : BufTy).Contents (Elt Ideal) → (⟨S8x12544, .i32⟩ : BufTy).Contents (Elt Ideal)),
    StableHlo.unary main_call2_v4 main_call2_v5 ((broadcastInDim S8x12544x1 ![0, 1] bcast_S8x12544_S8x12544x1_0_1) : (⟨S8x12544, .i32⟩ : BufTy).Contents (Elt Ideal) → (⟨S8x12544x1, .i32⟩ : BufTy).Contents (Elt Ideal)),
    StableHlo.nullary main_call2_c_1 (constantI S1 32 25599#32),
    StableHlo.nullary main_call2_c_2 (constantI S_ 32 0#32),
    StableHlo.unary main_call2_c_2 main_call2_v6 ((broadcastInDim S8x12544x1 ![] bcast_S_S8x12544x1) : (⟨S_, .i32⟩ : BufTy).Contents (Elt Ideal) → (⟨S8x12544x1, .i32⟩ : BufTy).Contents (Elt Ideal)),
    StableHlo.binary main_call2_v5 main_call2_v6 main_call2_v7 ((cmpi .sge) : (⟨S8x12544x1, .i32⟩ : BufTy).Contents (Elt Ideal) → (⟨S8x12544x1, .i32⟩ : BufTy).Contents (Elt Ideal) → (⟨S8x12544x1, .i1⟩ : BufTy).Contents (Elt Ideal)),
    StableHlo.unary main_call2_c_1 main_call2_v8 ((broadcastInDim S1x1x1 ![2] bcast_S1_S1x1x1_2) : (⟨S1, .i32⟩ : BufTy).Contents (Elt Ideal) → (⟨S1x1x1, .i32⟩ : BufTy).Contents (Elt Ideal)),
    StableHlo.unary main_call2_v8 main_call2_v9 ((broadcastInDim S8x12544x1 ![0, 1, 2] bcast_S1x1x1_S8x12544x1_0_1_2) : (⟨S1x1x1, .i32⟩ : BufTy).Contents (Elt Ideal) → (⟨S8x12544x1, .i32⟩ : BufTy).Contents (Elt Ideal)),
    StableHlo.binary main_call2_v5 main_call2_v9 main_call2_v10 ((cmpi .sle) : (⟨S8x12544x1, .i32⟩ : BufTy).Contents (Elt Ideal) → (⟨S8x12544x1, .i32⟩ : BufTy).Contents (Elt Ideal) → (⟨S8x12544x1, .i1⟩ : BufTy).Contents (Elt Ideal)),
    StableHlo.binary main_call2_v7 main_call2_v10 main_call2_v11 (andi : (⟨S8x12544x1, .i1⟩ : BufTy).Contents (Elt Ideal) → (⟨S8x12544x1, .i1⟩ : BufTy).Contents (Elt Ideal) → (⟨S8x12544x1, .i1⟩ : BufTy).Contents (Elt Ideal)),
    StableHlo.nullary main_call2_c_3 (constantI S_ 1 1#1),
    StableHlo.binary main_call2_v11 main_call2_c_3 main_call2_v12 ((fun x v => Host.reduce IntOp.andi x v reducesTo_S8x12544x1_S8x12544_d2 h_S_) : (⟨S8x12544x1, .i1⟩ : BufTy).Contents (Elt Ideal) → (⟨S_, .i1⟩ : BufTy).Contents (Elt Ideal) → (⟨S8x12544, .i1⟩ : BufTy).Contents (Elt Ideal)),
    StableHlo.binary main_v2 main_call2_v5 main_call2_v13 ((fun x i => Host.gather gather_S8x25600x182_S8x12544x1_S8x12544x182_2_1_0_0_1_2_11182 x i) : (⟨S8x25600x182, .f32⟩ : BufTy).Contents (Elt Ideal) → (⟨S8x12544x1, .i32⟩ : BufTy).Contents (Elt Ideal) → (⟨S8x12544x182, .f32⟩ : BufTy).Contents (Elt Ideal)),
    StableHlo.unary main_call2_v12 main_call2_v14 ((broadcastInDim S8x12544x182 ![0, 1] bcast_S8x12544_S8x12544x182_0_1) : (⟨S8x12544, .i1⟩ : BufTy).Contents (Elt Ideal) → (⟨S8x12544x182, .i1⟩ : BufTy).Contents (Elt Ideal)),
    StableHlo.nullary main_call2_cst (constant (F := Ideal) S_ .f32 0x7FC00000#32),
    StableHlo.unary main_call2_cst main_call2_v15 ((broadcastInDim S8x12544x182 ![] bcast_S_S8x12544x182) : (⟨S_, .f32⟩ : BufTy).Contents (Elt Ideal) → (⟨S8x12544x182, .f32⟩ : BufTy).Contents (Elt Ideal)),
    StableHlo.ternary main_call2_v14 main_call2_v13 main_call2_v15 main_v39 (select : (⟨S8x12544x182, .i1⟩ : BufTy).Contents (Elt Ideal) → (⟨S8x12544x182, .f32⟩ : BufTy).Contents (Elt Ideal) → (⟨S8x12544x182, .f32⟩ : BufTy).Contents (Elt Ideal) → (⟨S8x12544x182, .f32⟩ : BufTy).Contents (Elt Ideal)) ]

section
attribute [local irreducible] Idealize.ShloMosaic.select Idealize.ShloMosaic.broadcastInDim Idealize.ShloMosaic.Host.reduce Idealize.ShloMosaic.Host.gather
  Idealize.ShloMosaic.mulf Idealize.ShloMosaic.addf Idealize.ShloMosaic.subf Idealize.ShloMosaic.andi Idealize.ShloMosaic.cmpi Idealize.ShloMosaic.addi
  Idealize.ShloMosaic.muli Idealize.ShloMosaic.minsi Idealize.ShloMosaic.maxsi Idealize.ShloMosaic.uitofp Idealize.ShloMosaic.transpose
  Idealize.ShloMosaic.shapeCast Idealize.ShloMosaic.concatenate Idealize.ShloMosaic.constantI Idealize.ShloMosaic.constant Idealize.ShloMosaic.fptosi
  Idealize.ShloMosaic.Host.floor Idealize.ShloMosaic.extractStridedSlice

set_option maxRecDepth 8192 in
theorem ops5_plain : (hostOps0_5 : List (HloOp τ sig (Elt Ideal))) = plain5 := rfl
end

theorem s5_plains : Plains (hostOps0_5 : List (HloOp τ sig (Elt Ideal))) W5 := by
  rw [ops5_plain]
  repeat (first | exact .nil | refine .cons (by first | exact .nullary .. | exact .unary .. | exact .binary .. | exact .ternary .. | exact .reshape ..) ?_)

set_option maxRecDepth 8192 in
set_option maxHeartbeats 4000000 in
theorem s5 {a0 : X0} {a2 : X2} {a4 : X4} {W : Valuation τ sig (Elt Ideal)}
    (h0 : Holds W (Out0 a0 a2 a4)) (h4 : Holds W (Out4 a0 a2 a4)) :
    Holds (after (hostOps0_5 (F := Ideal)) W) (Out5 a0 a2 a4) := by
  simp only [Holds, Out0, Out4, Out5, List.forall_cons, List.Forall, and_true] at h0 h4 ⊢
  rw [ops5_plain]
  all_goals after_results_simp
  all_goals try simp only [h0.1, h0.2.1, h0.2.2.1, h0.2.2.2.1, h0.2.2.2.2.1, h0.2.2.2.2.2.1, h4]
  all_goals first | rfl | trivial

end Cert.KernelIdeal.HostRun

end
-- ==== Proof.KerHost.S06.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W6 : List (Ref sig .tc) :=
  [main_v40, main_v41, main_v42, main_v43, main_c_11, main_v44, main_v45, main_c_12, main_v46, main_v47, main_c_13, main_v48, main_v49, main_v50, main_c_14, main_v51, main_v52, main_v53, main_c_15, main_v54, main_v55, main_v56, main_c_16, main_c_17]

theorem s6_plains : Plains (hostOps0_6 : List (HloOp τ sig (Elt Ideal))) W6 := by
  repeat (first | exact .nil | refine .cons (by first | exact .nullary .. | exact .unary .. | exact .binary .. | exact .ternary .. | exact .reshape ..) ?_)

set_option maxRecDepth 8192 in
set_option maxHeartbeats 4000000 in
theorem s6 {a0 : X0} {a2 : X2} {a4 : X4} {W : Valuation τ sig (Elt Ideal)}
    (h0 : Holds W (Out0 a0 a2 a4)) (h5 : Holds W (Out5 a0 a2 a4)) :
    Holds (after (hostOps0_6 (F := Ideal)) W) (Out6 a0 a2 a4) := by
  simp only [Holds, Out0, Out5, Out6, List.forall_cons, List.Forall, and_true] at h0 h5 ⊢
  refine ⟨?_, ?_, ?_, ?_, ?_⟩
  all_goals after_results_simp
  all_goals try simp only [h0.1, h0.2.1, h0.2.2.1, h0.2.2.2.1, h0.2.2.2.2.1, h0.2.2.2.2.2.1, h5]
  all_goals first | rfl | trivial

end Cert.KernelIdeal.HostRun

end
-- ==== Proof.KerHost.S07.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W7 : List (Ref sig .tc) :=
  [main_call3_v0, main_call3_v1, main_call3_v2, main_call3_v3, main_call3_v4, main_v57]

theorem s7_plains : Plains (hostOps0_7 : List (HloOp τ sig (Elt Ideal))) W7 := by
  repeat (first | exact .nil | refine .cons (by first | exact .nullary .. | exact .unary .. | exact .binary .. | exact .ternary .. | exact .reshape ..) ?_)

set_option maxRecDepth 8192 in
set_option maxHeartbeats 4000000 in
theorem s7 {a0 : X0} {a2 : X2} {a4 : X4} {W : Valuation τ sig (Elt Ideal)}
    (h0 : Holds W (Out0 a0 a2 a4)) (h6 : Holds W (Out6 a0 a2 a4)) :
    Holds (after (hostOps0_7 (F := Ideal)) W) (Out7 a0 a2 a4) := by
  simp only [Holds, Out0, Out6, Out7, List.forall_cons, List.Forall, and_true] at h0 h6 ⊢
  all_goals after_results_simp
  all_goals try simp only [h0.1, h0.2.1, h0.2.2.1, h0.2.2.2.1, h0.2.2.2.2.1, h6.1, h6.2.1, h6.2.2.1, h6.2.2.2.1, h6.2.2.2.2]
  all_goals first | rfl | trivial

end Cert.KernelIdeal.HostRun

end
-- ==== Proof.KerHost.S08.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W8 : List (Ref sig .tc) :=
  [main_c_18, main_c_19]

theorem s8_plains : Plains (hostOps0_8 : List (HloOp τ sig (Elt Ideal))) W8 := by
  repeat (first | exact .nil | refine .cons (by first | exact .nullary .. | exact .unary .. | exact .binary .. | exact .ternary .. | exact .reshape ..) ?_)

set_option maxRecDepth 8192 in
set_option maxHeartbeats 4000000 in
theorem s8 {a0 : X0} {a2 : X2} {a4 : X4} {W : Valuation τ sig (Elt Ideal)}
    (h0 : Holds W (Out0 a0 a2 a4)) (h6 : Holds W (Out6 a0 a2 a4)) (h7 : Holds W (Out7 a0 a2 a4)) :
    Holds (after (hostOps0_8 (F := Ideal)) W) (Out8 a0 a2 a4) := by
  simp only [Holds, Out0, Out6, Out7, Out8, List.forall_cons, List.Forall, and_true] at h0 h6 h7 ⊢
  refine ⟨?_, ?_⟩
  all_goals after_results_simp
  all_goals try simp only [h0.1, h0.2.1, h0.2.2.1, h0.2.2.2.1, h0.2.2.2.2.1, h6.1, h6.2.2.1, h7]
  all_goals first | rfl | trivial

end Cert.KernelIdeal.HostRun

end
-- ==== Proof.KerHost.S09.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W9 : List (Ref sig .tc) :=
  [main_call4_v0, main_call4_v1, main_call4_v2, main_call4_v3, main_call4_v4, main_v58]

theorem s9_plains : Plains (hostOps0_9 : List (HloOp τ sig (Elt Ideal))) W9 := by
  repeat (first | exact .nil | refine .cons (by first | exact .nullary .. | exact .unary .. | exact .binary .. | exact .ternary .. | exact .reshape ..) ?_)

set_option maxRecDepth 8192 in
set_option maxHeartbeats 4000000 in
theorem s9 {a0 : X0} {a2 : X2} {a4 : X4} {W : Valuation τ sig (Elt Ideal)}
    (h0 : Holds W (Out0 a0 a2 a4)) (h6 : Holds W (Out6 a0 a2 a4)) (h7 : Holds W (Out7 a0 a2 a4)) (h8 : Holds W (Out8 a0 a2 a4)) :
    Holds (after (hostOps0_9 (F := Ideal)) W) (Out9 a0 a2 a4) := by
  simp only [Holds, Out0, Out6, Out7, Out8, Out9, List.forall_cons, List.Forall, and_true] at h0 h6 h7 h8 ⊢
  all_goals after_results_simp
  all_goals try simp only [h0.1, h0.2.1, h0.2.2.1, h0.2.2.2.1, h0.2.2.2.2.1, h6.1, h6.2.2.1, h7, h8.1, h8.2]
  all_goals first | rfl | trivial

end Cert.KernelIdeal.HostRun

end
-- ==== Proof.KerHost.S10.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W10 : List (Ref sig .tc) :=
  [main_c_20, main_v59, main_v60, main_v61]

theorem s10_plains : Plains (hostOps0_10 : List (HloOp τ sig (Elt Ideal))) W10 := by
  repeat (first | exact .nil | refine .cons (by first | exact .nullary .. | exact .unary .. | exact .binary .. | exact .ternary .. | exact .reshape ..) ?_)

set_option maxRecDepth 8192 in
set_option maxHeartbeats 4000000 in
theorem s10 {a0 : X0} {a2 : X2} {a4 : X4} {W : Valuation τ sig (Elt Ideal)}
    (h0 : Holds W (Out0 a0 a2 a4)) (h6 : Holds W (Out6 a0 a2 a4)) (h7 : Holds W (Out7 a0 a2 a4)) (h9 : Holds W (Out9 a0 a2 a4)) :
    Holds (after (hostOps0_10 (F := Ideal)) W) (Out10 a0 a2 a4) := by
  simp only [Holds, Out0, Out6, Out7, Out9, Out10, List.forall_cons, List.Forall, and_true] at h0 h6 h7 h9 ⊢
  all_goals after_results_simp
  all_goals try simp only [h0.1, h0.2.1, h0.2.2.1, h0.2.2.2.1, h0.2.2.2.2.1, h6.1, h6.2.2.1, h7, h9]
  all_goals first | rfl | trivial

end Cert.KernelIdeal.HostRun

end
-- ==== Proof.KerHost.S11.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W11 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v62]

abbrev plain11 : List (HloOp τ sig (Elt Ideal)) :=
  [ StableHlo.nullary main_call5_c (constantI S_ 32 0#32),
    StableHlo.unary main_call5_c main_call5_v0 ((broadcastInDim S8x12544 ![] bcast_S_S8x12544) : (⟨S_, .i32⟩ : BufTy).Contents (Elt Ideal) → (⟨S8x12544, .i32⟩ : BufTy).Contents (Elt Ideal)),
    StableHlo.binary main_v61 main_call5_v0 main_call5_v1 ((cmpi .slt) : (⟨S8x12544, .i32⟩ : BufTy).Contents (Elt Ideal) → (⟨S8x12544, .i32⟩ : BufTy).Contents (Elt Ideal) → (⟨S8x12544, .i1⟩ : BufTy).Contents (Elt Ideal)),
    StableHlo.nullary main_call5_c_0 (constantI S_ 32 25600#32),
    StableHlo.unary main_call5_c_0 main_call5_v2 ((broadcastInDim S8x12544 ![] bcast_S_S8x12544) : (⟨S_, .i32⟩ : BufTy).Contents (Elt Ideal) → (⟨S8x12544, .i32⟩ : BufTy).Contents (Elt Ideal)),
    StableHlo.binary main_v61 main_call5_v2 main_call5_v3 (addi : (⟨S8x12544, .i32⟩ : BufTy).Contents (Elt Ideal) → (⟨S8x12544, .i32⟩ : BufTy).Contents (Elt Ideal) → (⟨S8x12544, .i32⟩ : BufTy).Contents (Elt Ideal)),
    StableHlo.ternary main_call5_v1 main_call5_v3 main_v61 main_call5_v4 (select : (⟨S8x12544, .i1⟩ : BufTy).Contents (Elt Ideal) → (⟨S8x12544, .i32⟩ : BufTy).Contents (Elt Ideal) → (⟨S8x12544, .i32⟩ : BufTy).Contents (Elt Ideal) → (⟨S8x12544, .i32⟩ : BufTy).Contents (Elt Ideal)),
    StableHlo.unary main_call5_v4 main_call5_v5 ((broadcastInDim S8x12544x1 ![0, 1] bcast_S8x12544_S8x12544x1_0_1) : (⟨S8x12544, .i32⟩ : BufTy).Contents (Elt Ideal) → (⟨S8x12544x1, .i32⟩ : BufTy).Contents (Elt Ideal)),
    StableHlo.nullary main_call5_c_1 (constantI S1 32 25599#32),
    StableHlo.nullary main_call5_c_2 (constantI S_ 32 0#32),
    StableHlo.unary main_call5_c_2 main_call5_v6 ((broadcastInDim S8x12544x1 ![] bcast_S_S8x12544x1) : (⟨S_, .i32⟩ : BufTy).Contents (Elt Ideal) → (⟨S8x12544x1, .i32⟩ : BufTy).Contents (Elt Ideal)),
    StableHlo.binary main_call5_v5 main_call5_v6 main_call5_v7 ((cmpi .sge) : (⟨S8x12544x1, .i32⟩ : BufTy).Contents (Elt Ideal) → (⟨S8x12544x1, .i32⟩ : BufTy).Contents (Elt Ideal) → (⟨S8x12544x1, .i1⟩ : BufTy).Contents (Elt Ideal)),
    StableHlo.unary main_call5_c_1 main_call5_v8 ((broadcastInDim S1x1x1 ![2] bcast_S1_S1x1x1_2) : (⟨S1, .i32⟩ : BufTy).Contents (Elt Ideal) → (⟨S1x1x1, .i32⟩ : BufTy).Contents (Elt Ideal)),
    StableHlo.unary main_call5_v8 main_call5_v9 ((broadcastInDim S8x12544x1 ![0, 1, 2] bcast_S1x1x1_S8x12544x1_0_1_2) : (⟨S1x1x1, .i32⟩ : BufTy).Contents (Elt Ideal) → (⟨S8x12544x1, .i32⟩ : BufTy).Contents (Elt Ideal)),
    StableHlo.binary main_call5_v5 main_call5_v9 main_call5_v10 ((cmpi .sle) : (⟨S8x12544x1, .i32⟩ : BufTy).Contents (Elt Ideal) → (⟨S8x12544x1, .i32⟩ : BufTy).Contents (Elt Ideal) → (⟨S8x12544x1, .i1⟩ : BufTy).Contents (Elt Ideal)),
    StableHlo.binary main_call5_v7 main_call5_v10 main_call5_v11 (andi : (⟨S8x12544x1, .i1⟩ : BufTy).Contents (Elt Ideal) → (⟨S8x12544x1, .i1⟩ : BufTy).Contents (Elt Ideal) → (⟨S8x12544x1, .i1⟩ : BufTy).Contents (Elt Ideal)),
    StableHlo.nullary main_call5_c_3 (constantI S_ 1 1#1),
    StableHlo.binary main_call5_v11 main_call5_c_3 main_call5_v12 ((fun x v => Host.reduce IntOp.andi x v reducesTo_S8x12544x1_S8x12544_d2 h_S_) : (⟨S8x12544x1, .i1⟩ : BufTy).Contents (Elt Ideal) → (⟨S_, .i1⟩ : BufTy).Contents (Elt Ideal) → (⟨S8x12544, .i1⟩ : BufTy).Contents (Elt Ideal)),
    StableHlo.binary main_v2 main_call5_v5 main_call5_v13 ((fun x i => Host.gather gather_S8x25600x182_S8x12544x1_S8x12544x182_2_1_0_0_1_2_11182 x i) : (⟨S8x25600x182, .f32⟩ : BufTy).Contents (Elt Ideal) → (⟨S8x12544x1, .i32⟩ : BufTy).Contents (Elt Ideal) → (⟨S8x12544x182, .f32⟩ : BufTy).Contents (Elt Ideal)),
    StableHlo.unary main_call5_v12 main_call5_v14 ((broadcastInDim S8x12544x182 ![0, 1] bcast_S8x12544_S8x12544x182_0_1) : (⟨S8x12544, .i1⟩ : BufTy).Contents (Elt Ideal) → (⟨S8x12544x182, .i1⟩ : BufTy).Contents (Elt Ideal)),
    StableHlo.nullary main_call5_cst (constant (F := Ideal) S_ .f32 0x7FC00000#32),
    StableHlo.unary main_call5_cst main_call5_v15 ((broadcastInDim S8x12544x182 ![] bcast_S_S8x12544x182) : (⟨S_, .f32⟩ : BufTy).Contents (Elt Ideal) → (⟨S8x12544x182, .f32⟩ : BufTy).Contents (Elt Ideal)),
    StableHlo.ternary main_call5_v14 main_call5_v13 main_call5_v15 main_v62 (select : (⟨S8x12544x182, .i1⟩ : BufTy).Contents (Elt Ideal) → (⟨S8x12544x182, .f32⟩ : BufTy).Contents (Elt Ideal) → (⟨S8x12544x182, .f32⟩ : BufTy).Contents (Elt Ideal) → (⟨S8x12544x182, .f32⟩ : BufTy).Contents (Elt Ideal)) ]

section
attribute [local irreducible] Idealize.ShloMosaic.select Idealize.ShloMosaic.broadcastInDim Idealize.ShloMosaic.Host.reduce Idealize.ShloMosaic.Host.gather
  Idealize.ShloMosaic.mulf Idealize.ShloMosaic.addf Idealize.ShloMosaic.subf Idealize.ShloMosaic.andi Idealize.ShloMosaic.cmpi Idealize.ShloMosaic.addi
  Idealize.ShloMosaic.muli Idealize.ShloMosaic.minsi Idealize.ShloMosaic.maxsi Idealize.ShloMosaic.uitofp Idealize.ShloMosaic.transpose
  Idealize.ShloMosaic.shapeCast Idealize.ShloMosaic.concatenate Idealize.ShloMosaic.constantI Idealize.ShloMosaic.constant Idealize.ShloMosaic.fptosi
  Idealize.ShloMosaic.Host.floor Idealize.ShloMosaic.extractStridedSlice

set_option maxRecDepth 8192 in
theorem ops11_plain : (hostOps0_11 : List (HloOp τ sig (Elt Ideal))) = plain11 := rfl
end

theorem s11_plains : Plains (hostOps0_11 : List (HloOp τ sig (Elt Ideal))) W11 := by
  rw [ops11_plain]
  repeat (first | exact .nil | refine .cons (by first | exact .nullary .. | exact .unary .. | exact .binary .. | exact .ternary .. | exact .reshape ..) ?_)

set_option maxRecDepth 8192 in
set_option maxHeartbeats 4000000 in
theorem s11 {a0 : X0} {a2 : X2} {a4 : X4} {W : Valuation τ sig (Elt Ideal)}
    (h0 : Holds W (Out0 a0 a2 a4)) (h6 : Holds W (Out6 a0 a2 a4)) (h10 : Holds W (Out10 a0 a2 a4)) :
    Holds (after (hostOps0_11 (F := Ideal)) W) (Out11 a0 a2 a4) := by
  simp only [Holds, Out0, Out6, Out10, Out11, List.forall_cons, List.Forall, and_true] at h0 h6 h10 ⊢
  rw [ops11_plain]
  all_goals after_results_simp
  all_goals try simp only [h0.1, h0.2.1, h0.2.2.1, h0.2.2.2.1, h0.2.2.2.2.1, h6.1, h6.2.2.1, h10]
  all_goals first | rfl | trivial

end Cert.KernelIdeal.HostRun

end
-- ==== Proof.KerHost.S12.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W12 : List (Ref sig .tc) :=
  [main_v63, main_v64, main_v65, main_v66, main_c_21, main_v67, main_v68, main_c_22, main_v69, main_v70, main_c_23, main_v71, main_v72, main_v73, main_c_24, main_v74, main_v75, main_v76, main_c_25, main_v77, main_v78, main_v79, main_c_26, main_c_27]

theorem s12_plains : Plains (hostOps0_12 : List (HloOp τ sig (Elt Ideal))) W12 := by
  repeat (first | exact .nil | refine .cons (by first | exact .nullary .. | exact .unary .. | exact .binary .. | exact .ternary .. | exact .reshape ..) ?_)

set_option maxRecDepth 8192 in
set_option maxHeartbeats 4000000 in
theorem s12 {a0 : X0} {a2 : X2} {a4 : X4} {W : Valuation τ sig (Elt Ideal)}
    (h0 : Holds W (Out0 a0 a2 a4)) (h6 : Holds W (Out6 a0 a2 a4)) (h11 : Holds W (Out11 a0 a2 a4)) :
    Holds (after (hostOps0_12 (F := Ideal)) W) (Out12 a0 a2 a4) := by
  simp only [Holds, Out0, Out6, Out11, Out12, List.forall_cons, List.Forall, and_true] at h0 h6 h11 ⊢
  refine ⟨?_, ?_, ?_, ?_, ?_⟩
  all_goals after_results_simp
  all_goals try simp only [h0.1, h0.2.1, h0.2.2.1, h0.2.2.2.1, h0.2.2.2.2.1, h6.1, h6.2.2.1, h11]
  all_goals first | rfl | trivial

end Cert.KernelIdeal.HostRun

end
-- ==== Proof.KerHost.S13.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W13 : List (Ref sig .tc) :=
  [main_call6_v0, main_call6_v1, main_call6_v2, main_call6_v3, main_call6_v4, main_v80]

theorem s13_plains : Plains (hostOps0_13 : List (HloOp τ sig (Elt Ideal))) W13 := by
  repeat (first | exact .nil | refine .cons (by first | exact .nullary .. | exact .unary .. | exact .binary .. | exact .ternary .. | exact .reshape ..) ?_)

set_option maxRecDepth 8192 in
set_option maxHeartbeats 4000000 in
theorem s13 {a0 : X0} {a2 : X2} {a4 : X4} {W : Valuation τ sig (Elt Ideal)}
    (h0 : Holds W (Out0 a0 a2 a4)) (h6 : Holds W (Out6 a0 a2 a4)) (h12 : Holds W (Out12 a0 a2 a4)) :
    Holds (after (hostOps0_13 (F := Ideal)) W) (Out13 a0 a2 a4) := by
  simp only [Holds, Out0, Out6, Out12, Out13, List.forall_cons, List.Forall, and_true] at h0 h6 h12 ⊢
  all_goals after_results_simp
  all_goals try simp only [h0.1, h0.2.1, h0.2.2.1, h0.2.2.2.1, h0.2.2.2.2.1, h6.1, h12.1, h12.2.1, h12.2.2.1, h12.2.2.2.1, h12.2.2.2.2]
  all_goals first | rfl | trivial

end Cert.KernelIdeal.HostRun

end
-- ==== Proof.KerHost.S14.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W14 : List (Ref sig .tc) :=
  [main_c_28, main_c_29]

theorem s14_plains : Plains (hostOps0_14 : List (HloOp τ sig (Elt Ideal))) W14 := by
  repeat (first | exact .nil | refine .cons (by first | exact .nullary .. | exact .unary .. | exact .binary .. | exact .ternary .. | exact .reshape ..) ?_)

set_option maxRecDepth 8192 in
set_option maxHeartbeats 4000000 in
theorem s14 {a0 : X0} {a2 : X2} {a4 : X4} {W : Valuation τ sig (Elt Ideal)}
    (h0 : Holds W (Out0 a0 a2 a4)) (h6 : Holds W (Out6 a0 a2 a4)) (h12 : Holds W (Out12 a0 a2 a4)) (h13 : Holds W (Out13 a0 a2 a4)) :
    Holds (after (hostOps0_14 (F := Ideal)) W) (Out14 a0 a2 a4) := by
  simp only [Holds, Out0, Out6, Out12, Out13, Out14, List.forall_cons, List.Forall, and_true] at h0 h6 h12 h13 ⊢
  refine ⟨?_, ?_⟩
  all_goals after_results_simp
  all_goals try simp only [h0.1, h0.2.1, h0.2.2.1, h0.2.2.2.1, h0.2.2.2.2.1, h6.1, h12.1, h12.2.1, h12.2.2.1, h13]
  all_goals first | rfl | trivial

end Cert.KernelIdeal.HostRun

end
-- ==== Proof.KerHost.S15.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W15 : List (Ref sig .tc) :=
  [main_call7_v0, main_call7_v1, main_call7_v2, main_call7_v3, main_call7_v4, main_v81]

theorem s15_plains : Plains (hostOps0_15 : List (HloOp τ sig (Elt Ideal))) W15 := by
  repeat (first | exact .nil | refine .cons (by first | exact .nullary .. | exact .unary .. | exact .binary .. | exact .ternary .. | exact .reshape ..) ?_)

set_option maxRecDepth 8192 in
set_option maxHeartbeats 4000000 in
theorem s15 {a0 : X0} {a2 : X2} {a4 : X4} {W : Valuation τ sig (Elt Ideal)}
    (h0 : Holds W (Out0 a0 a2 a4)) (h6 : Holds W (Out6 a0 a2 a4)) (h12 : Holds W (Out12 a0 a2 a4)) (h13 : Holds W (Out13 a0 a2 a4)) (h14 : Holds W (Out14 a0 a2 a4)) :
    Holds (after (hostOps0_15 (F := Ideal)) W) (Out15 a0 a2 a4) := by
  simp only [Holds, Out0, Out6, Out12, Out13, Out14, Out15, List.forall_cons, List.Forall, and_true] at h0 h6 h12 h13 h14 ⊢
  all_goals after_results_simp
  all_goals try simp only [h0.1, h0.2.1, h0.2.2.1, h0.2.2.2.1, h0.2.2.2.2.1, h6.1, h12.1, h12.2.1, h12.2.2.1, h13, h14.1, h14.2]
  all_goals first | rfl | trivial

end Cert.KernelIdeal.HostRun

end
-- ==== Proof.KerHost.S16.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W16 : List (Ref sig .tc) :=
  [main_c_30, main_v82, main_v83, main_v84]

theorem s16_plains : Plains (hostOps0_16 : List (HloOp τ sig (Elt Ideal))) W16 := by
  repeat (first | exact .nil | refine .cons (by first | exact .nullary .. | exact .unary .. | exact .binary .. | exact .ternary .. | exact .reshape ..) ?_)

set_option maxRecDepth 8192 in
set_option maxHeartbeats 4000000 in
theorem s16 {a0 : X0} {a2 : X2} {a4 : X4} {W : Valuation τ sig (Elt Ideal)}
    (h0 : Holds W (Out0 a0 a2 a4)) (h6 : Holds W (Out6 a0 a2 a4)) (h12 : Holds W (Out12 a0 a2 a4)) (h13 : Holds W (Out13 a0 a2 a4)) (h15 : Holds W (Out15 a0 a2 a4)) :
    Holds (after (hostOps0_16 (F := Ideal)) W) (Out16 a0 a2 a4) := by
  simp only [Holds, Out0, Out6, Out12, Out13, Out15, Out16, List.forall_cons, List.Forall, and_true] at h0 h6 h12 h13 h15 ⊢
  all_goals after_results_simp
  all_goals try simp only [h0.1, h0.2.1, h0.2.2.1, h0.2.2.2.1, h0.2.2.2.2.1, h6.1, h12.1, h12.2.2.1, h13, h15]
  all_goals first | rfl | trivial

end Cert.KernelIdeal.HostRun

end
-- ==== Proof.KerHost.S17.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W17 : List (Ref sig .tc) :=
  [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v85]

abbrev plain17 : List (HloOp τ sig (Elt Ideal)) :=
  [ StableHlo.nullary main_call8_c (constantI S_ 32 0#32),
    StableHlo.unary main_call8_c main_call8_v0 ((broadcastInDim S8x12544 ![] bcast_S_S8x12544) : (⟨S_, .i32⟩ : BufTy).Contents (Elt Ideal) → (⟨S8x12544, .i32⟩ : BufTy).Contents (Elt Ideal)),
    StableHlo.binary main_v84 main_call8_v0 main_call8_v1 ((cmpi .slt) : (⟨S8x12544, .i32⟩ : BufTy).Contents (Elt Ideal) → (⟨S8x12544, .i32⟩ : BufTy).Contents (Elt Ideal) → (⟨S8x12544, .i1⟩ : BufTy).Contents (Elt Ideal)),
    StableHlo.nullary main_call8_c_0 (constantI S_ 32 25600#32),
    StableHlo.unary main_call8_c_0 main_call8_v2 ((broadcastInDim S8x12544 ![] bcast_S_S8x12544) : (⟨S_, .i32⟩ : BufTy).Contents (Elt Ideal) → (⟨S8x12544, .i32⟩ : BufTy).Contents (Elt Ideal)),
    StableHlo.binary main_v84 main_call8_v2 main_call8_v3 (addi : (⟨S8x12544, .i32⟩ : BufTy).Contents (Elt Ideal) → (⟨S8x12544, .i32⟩ : BufTy).Contents (Elt Ideal) → (⟨S8x12544, .i32⟩ : BufTy).Contents (Elt Ideal)),
    StableHlo.ternary main_call8_v1 main_call8_v3 main_v84 main_call8_v4 (select : (⟨S8x12544, .i1⟩ : BufTy).Contents (Elt Ideal) → (⟨S8x12544, .i32⟩ : BufTy).Contents (Elt Ideal) → (⟨S8x12544, .i32⟩ : BufTy).Contents (Elt Ideal) → (⟨S8x12544, .i32⟩ : BufTy).Contents (Elt Ideal)),
    StableHlo.unary main_call8_v4 main_call8_v5 ((broadcastInDim S8x12544x1 ![0, 1] bcast_S8x12544_S8x12544x1_0_1) : (⟨S8x12544, .i32⟩ : BufTy).Contents (Elt Ideal) → (⟨S8x12544x1, .i32⟩ : BufTy).Contents (Elt Ideal)),
    StableHlo.nullary main_call8_c_1 (constantI S1 32 25599#32),
    StableHlo.nullary main_call8_c_2 (constantI S_ 32 0#32),
    StableHlo.unary main_call8_c_2 main_call8_v6 ((broadcastInDim S8x12544x1 ![] bcast_S_S8x12544x1) : (⟨S_, .i32⟩ : BufTy).Contents (Elt Ideal) → (⟨S8x12544x1, .i32⟩ : BufTy).Contents (Elt Ideal)),
    StableHlo.binary main_call8_v5 main_call8_v6 main_call8_v7 ((cmpi .sge) : (⟨S8x12544x1, .i32⟩ : BufTy).Contents (Elt Ideal) → (⟨S8x12544x1, .i32⟩ : BufTy).Contents (Elt Ideal) → (⟨S8x12544x1, .i1⟩ : BufTy).Contents (Elt Ideal)),
    StableHlo.unary main_call8_c_1 main_call8_v8 ((broadcastInDim S1x1x1 ![2] bcast_S1_S1x1x1_2) : (⟨S1, .i32⟩ : BufTy).Contents (Elt Ideal) → (⟨S1x1x1, .i32⟩ : BufTy).Contents (Elt Ideal)),
    StableHlo.unary main_call8_v8 main_call8_v9 ((broadcastInDim S8x12544x1 ![0, 1, 2] bcast_S1x1x1_S8x12544x1_0_1_2) : (⟨S1x1x1, .i32⟩ : BufTy).Contents (Elt Ideal) → (⟨S8x12544x1, .i32⟩ : BufTy).Contents (Elt Ideal)),
    StableHlo.binary main_call8_v5 main_call8_v9 main_call8_v10 ((cmpi .sle) : (⟨S8x12544x1, .i32⟩ : BufTy).Contents (Elt Ideal) → (⟨S8x12544x1, .i32⟩ : BufTy).Contents (Elt Ideal) → (⟨S8x12544x1, .i1⟩ : BufTy).Contents (Elt Ideal)),
    StableHlo.binary main_call8_v7 main_call8_v10 main_call8_v11 (andi : (⟨S8x12544x1, .i1⟩ : BufTy).Contents (Elt Ideal) → (⟨S8x12544x1, .i1⟩ : BufTy).Contents (Elt Ideal) → (⟨S8x12544x1, .i1⟩ : BufTy).Contents (Elt Ideal)),
    StableHlo.nullary main_call8_c_3 (constantI S_ 1 1#1),
    StableHlo.binary main_call8_v11 main_call8_c_3 main_call8_v12 ((fun x v => Host.reduce IntOp.andi x v reducesTo_S8x12544x1_S8x12544_d2 h_S_) : (⟨S8x12544x1, .i1⟩ : BufTy).Contents (Elt Ideal) → (⟨S_, .i1⟩ : BufTy).Contents (Elt Ideal) → (⟨S8x12544, .i1⟩ : BufTy).Contents (Elt Ideal)),
    StableHlo.binary main_v2 main_call8_v5 main_call8_v13 ((fun x i => Host.gather gather_S8x25600x182_S8x12544x1_S8x12544x182_2_1_0_0_1_2_11182 x i) : (⟨S8x25600x182, .f32⟩ : BufTy).Contents (Elt Ideal) → (⟨S8x12544x1, .i32⟩ : BufTy).Contents (Elt Ideal) → (⟨S8x12544x182, .f32⟩ : BufTy).Contents (Elt Ideal)),
    StableHlo.unary main_call8_v12 main_call8_v14 ((broadcastInDim S8x12544x182 ![0, 1] bcast_S8x12544_S8x12544x182_0_1) : (⟨S8x12544, .i1⟩ : BufTy).Contents (Elt Ideal) → (⟨S8x12544x182, .i1⟩ : BufTy).Contents (Elt Ideal)),
    StableHlo.nullary main_call8_cst (constant (F := Ideal) S_ .f32 0x7FC00000#32),
    StableHlo.unary main_call8_cst main_call8_v15 ((broadcastInDim S8x12544x182 ![] bcast_S_S8x12544x182) : (⟨S_, .f32⟩ : BufTy).Contents (Elt Ideal) → (⟨S8x12544x182, .f32⟩ : BufTy).Contents (Elt Ideal)),
    StableHlo.ternary main_call8_v14 main_call8_v13 main_call8_v15 main_v85 (select : (⟨S8x12544x182, .i1⟩ : BufTy).Contents (Elt Ideal) → (⟨S8x12544x182, .f32⟩ : BufTy).Contents (Elt Ideal) → (⟨S8x12544x182, .f32⟩ : BufTy).Contents (Elt Ideal) → (⟨S8x12544x182, .f32⟩ : BufTy).Contents (Elt Ideal)) ]

section
attribute [local irreducible] Idealize.ShloMosaic.select Idealize.ShloMosaic.broadcastInDim Idealize.ShloMosaic.Host.reduce Idealize.ShloMosaic.Host.gather
  Idealize.ShloMosaic.mulf Idealize.ShloMosaic.addf Idealize.ShloMosaic.subf Idealize.ShloMosaic.andi Idealize.ShloMosaic.cmpi Idealize.ShloMosaic.addi
  Idealize.ShloMosaic.muli Idealize.ShloMosaic.minsi Idealize.ShloMosaic.maxsi Idealize.ShloMosaic.uitofp Idealize.ShloMosaic.transpose
  Idealize.ShloMosaic.shapeCast Idealize.ShloMosaic.concatenate Idealize.ShloMosaic.constantI Idealize.ShloMosaic.constant Idealize.ShloMosaic.fptosi
  Idealize.ShloMosaic.Host.floor Idealize.ShloMosaic.extractStridedSlice

set_option maxRecDepth 8192 in
theorem ops17_plain : (hostOps0_17 : List (HloOp τ sig (Elt Ideal))) = plain17 := rfl
end

theorem s17_plains : Plains (hostOps0_17 : List (HloOp τ sig (Elt Ideal))) W17 := by
  rw [ops17_plain]
  repeat (first | exact .nil | refine .cons (by first | exact .nullary .. | exact .unary .. | exact .binary .. | exact .ternary .. | exact .reshape ..) ?_)

set_option maxRecDepth 8192 in
set_option maxHeartbeats 4000000 in
theorem s17 {a0 : X0} {a2 : X2} {a4 : X4} {W : Valuation τ sig (Elt Ideal)}
    (h0 : Holds W (Out0 a0 a2 a4)) (h6 : Holds W (Out6 a0 a2 a4)) (h12 : Holds W (Out12 a0 a2 a4)) (h16 : Holds W (Out16 a0 a2 a4)) :
    Holds (after (hostOps0_17 (F := Ideal)) W) (Out17 a0 a2 a4) := by
  simp only [Holds, Out0, Out6, Out12, Out16, Out17, List.forall_cons, List.Forall, and_true] at h0 h6 h12 h16 ⊢
  rw [ops17_plain]
  all_goals after_results_simp
  all_goals try simp only [h0.1, h0.2.1, h0.2.2.1, h0.2.2.2.1, h0.2.2.2.2.1, h6.1, h12.1, h12.2.2.1, h16]
  all_goals first | rfl | trivial

end Cert.KernelIdeal.HostRun

end
-- ==== Proof.KerHost.S18.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W18 : List (Ref sig .tc) :=
  [main_v86, main_v87, main_v88, main_v89, main_c_31, main_v90, main_v91, main_c_32, main_v92, main_v93, main_c_33, main_v94, main_v95, main_c_34, main_v96, main_v97, main_v98, main_c_35, main_v99, main_v100, main_v101, main_c_36, main_v102, main_v103, main_v104, main_c_37, main_c_38]

theorem s18_plains : Plains (hostOps0_18 : List (HloOp τ sig (Elt Ideal))) W18 := by
  repeat (first | exact .nil | refine .cons (by first | exact .nullary .. | exact .unary .. | exact .binary .. | exact .ternary .. | exact .reshape ..) ?_)

set_option maxRecDepth 8192 in
set_option maxHeartbeats 4000000 in
theorem s18 {a0 : X0} {a2 : X2} {a4 : X4} {W : Valuation τ sig (Elt Ideal)}
    (h0 : Holds W (Out0 a0 a2 a4)) (h6 : Holds W (Out6 a0 a2 a4)) (h12 : Holds W (Out12 a0 a2 a4)) (h17 : Holds W (Out17 a0 a2 a4)) :
    Holds (after (hostOps0_18 (F := Ideal)) W) (Out18 a0 a2 a4) := by
  simp only [Holds, Out0, Out6, Out12, Out17, Out18, List.forall_cons, List.Forall, and_true] at h0 h6 h12 h17 ⊢
  refine ⟨?_, ?_, ?_, ?_, ?_, ?_⟩
  all_goals after_results_simp
  all_goals try simp only [h0.1, h0.2.1, h0.2.2.1, h0.2.2.2.1, h0.2.2.2.2.1, h6.1, h12.1, h12.2.2.1, h17]
  all_goals first | rfl | trivial

end Cert.KernelIdeal.HostRun

end
-- ==== Proof.KerHost.S19.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W19 : List (Ref sig .tc) :=
  [main_call9_v0, main_call9_v1, main_call9_v2, main_call9_v3, main_call9_v4, main_v105]

theorem s19_plains : Plains (hostOps0_19 : List (HloOp τ sig (Elt Ideal))) W19 := by
  repeat (first | exact .nil | refine .cons (by first | exact .nullary .. | exact .unary .. | exact .binary .. | exact .ternary .. | exact .reshape ..) ?_)

set_option maxRecDepth 8192 in
set_option maxHeartbeats 4000000 in
theorem s19 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) :
    Holds (after (hostOps0_19 (F := Ideal)) W) (Out19 a0 a2 a4) := by
  simp only [Holds, Out0, Out6, Out12, Out18, Out19, List.forall_cons, List.Forall, and_true] at h0 h6 h12 h18 ⊢
  all_goals after_results_simp
  all_goals try simp only [h0.1, h0.2.1, h0.2.2.1, h6.1, h12.1, h18.1, h18.2.1, h18.2.2.1, h18.2.2.2.1, h18.2.2.2.2.1, h18.2.2.2.2.2]
  all_goals first | rfl | trivial

end Cert.KernelIdeal.HostRun

end
-- ==== Proof.KerHost.S20.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W20 : List (Ref sig .tc) :=
  [main_c_39, main_c_40]

theorem s20_plains : Plains (hostOps0_20 : List (HloOp τ sig (Elt Ideal))) W20 := by
  repeat (first | exact .nil | refine .cons (by first | exact .nullary .. | exact .unary .. | exact .binary .. | exact .ternary .. | exact .reshape ..) ?_)

set_option maxRecDepth 8192 in
set_option maxHeartbeats 4000000 in
theorem s20 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) (h19 : Holds W (Out19 a0 a2 a4)) :
    Holds (after (hostOps0_20 (F := Ideal)) W) (Out20 a0 a2 a4) := by
  simp only [Holds, Out0, Out6, Out12, Out18, Out19, Out20, List.forall_cons, List.Forall, and_true] at h0 h6 h12 h18 h19 ⊢
  refine ⟨?_, ?_⟩
  all_goals after_results_simp
  all_goals try simp only [h0.1, h0.2.1, h0.2.2.1, h6.1, h12.1, h18.1, h18.2.2.1, h18.2.2.2.1, h19]
  all_goals first | rfl | trivial

end Cert.KernelIdeal.HostRun

end
-- ==== Proof.KerHost.S21.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W21 : List (Ref sig .tc) :=
  [main_call10_v0, main_call10_v1, main_call10_v2, main_call10_v3, main_call10_v4, main_v106]

theorem s21_plains : Plains (hostOps0_21 : List (HloOp τ sig (Elt Ideal))) W21 := by
  repeat (first | exact .nil | refine .cons (by first | exact .nullary .. | exact .unary .. | exact .binary .. | exact .ternary .. | exact .reshape ..) ?_)

set_option maxRecDepth 8192 in
set_option maxHeartbeats 4000000 in
theorem s21 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) (h19 : Holds W (Out19 a0 a2 a4)) (h20 : Holds W (Out20 a0 a2 a4)) :
    Holds (after (hostOps0_21 (F := Ideal)) W) (Out21 a0 a2 a4) := by
  simp only [Holds, Out0, Out6, Out12, Out18, Out19, Out20, Out21, List.forall_cons, List.Forall, and_true] at h0 h6 h12 h18 h19 h20 ⊢
  all_goals after_results_simp
  all_goals try simp only [h0.1, h0.2.1, h0.2.2.1, h6.1, h12.1, h18.1, h18.2.2.1, h18.2.2.2.1, h19, h20.1, h20.2]
  all_goals first | rfl | trivial

end Cert.KernelIdeal.HostRun

end
-- ==== Proof.KerHost.S22.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W22 : List (Ref sig .tc) :=
  [main_c_41, main_v107, main_v108, main_v109]

theorem s22_plains : Plains (hostOps0_22 : List (HloOp τ sig (Elt Ideal))) W22 := by
  repeat (first | exact .nil | refine .cons (by first | exact .nullary .. | exact .unary .. | exact .binary .. | exact .ternary .. | exact .reshape ..) ?_)

set_option maxRecDepth 8192 in
set_option maxHeartbeats 4000000 in
theorem s22 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) (h19 : Holds W (Out19 a0 a2 a4)) (h21 : Holds W (Out21 a0 a2 a4)) :
    Holds (after (hostOps0_22 (F := Ideal)) W) (Out22 a0 a2 a4) := by
  simp only [Holds, Out0, Out6, Out12, Out18, Out19, Out21, Out22, List.forall_cons, List.Forall, and_true] at h0 h6 h12 h18 h19 h21 ⊢
  all_goals after_results_simp
  all_goals try simp only [h0.1, h0.2.1, h0.2.2.1, h6.1, h12.1, h18.1, h18.2.2.2.1, h19, h21]
  all_goals first | rfl | trivial

end Cert.KernelIdeal.HostRun

end
-- ==== Proof.KerHost.S23.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W23 : List (Ref sig .tc) :=
  [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v110]

abbrev plain23 : List (HloOp τ sig (Elt Ideal)) :=
  [ StableHlo.nullary main_call11_c (constantI S_ 32 0#32),
    StableHlo.unary main_call11_c main_call11_v0 ((broadcastInDim S8x12544 ![] bcast_S_S8x12544) : (⟨S_, .i32⟩ : BufTy).Contents (Elt Ideal) → (⟨S8x12544, .i32⟩ : BufTy).Contents (Elt Ideal)),
    StableHlo.binary main_v109 main_call11_v0 main_call11_v1 ((cmpi .slt) : (⟨S8x12544, .i32⟩ : BufTy).Contents (Elt Ideal) → (⟨S8x12544, .i32⟩ : BufTy).Contents (Elt Ideal) → (⟨S8x12544, .i1⟩ : BufTy).Contents (Elt Ideal)),
    StableHlo.nullary main_call11_c_0 (constantI S_ 32 25600#32),
    StableHlo.unary main_call11_c_0 main_call11_v2 ((broadcastInDim S8x12544 ![] bcast_S_S8x12544) : (⟨S_, .i32⟩ : BufTy).Contents (Elt Ideal) → (⟨S8x12544, .i32⟩ : BufTy).Contents (Elt Ideal)),
    StableHlo.binary main_v109 main_call11_v2 main_call11_v3 (addi : (⟨S8x12544, .i32⟩ : BufTy).Contents (Elt Ideal) → (⟨S8x12544, .i32⟩ : BufTy).Contents (Elt Ideal) → (⟨S8x12544, .i32⟩ : BufTy).Contents (Elt Ideal)),
    StableHlo.ternary main_call11_v1 main_call11_v3 main_v109 main_call11_v4 (select : (⟨S8x12544, .i1⟩ : BufTy).Contents (Elt Ideal) → (⟨S8x12544, .i32⟩ : BufTy).Contents (Elt Ideal) → (⟨S8x12544, .i32⟩ : BufTy).Contents (Elt Ideal) → (⟨S8x12544, .i32⟩ : BufTy).Contents (Elt Ideal)),
    StableHlo.unary main_call11_v4 main_call11_v5 ((broadcastInDim S8x12544x1 ![0, 1] bcast_S8x12544_S8x12544x1_0_1) : (⟨S8x12544, .i32⟩ : BufTy).Contents (Elt Ideal) → (⟨S8x12544x1, .i32⟩ : BufTy).Contents (Elt Ideal)),
    StableHlo.nullary main_call11_c_1 (constantI S1 32 25599#32),
    StableHlo.nullary main_call11_c_2 (constantI S_ 32 0#32),
    StableHlo.unary main_call11_c_2 main_call11_v6 ((broadcastInDim S8x12544x1 ![] bcast_S_S8x12544x1) : (⟨S_, .i32⟩ : BufTy).Contents (Elt Ideal) → (⟨S8x12544x1, .i32⟩ : BufTy).Contents (Elt Ideal)),
    StableHlo.binary main_call11_v5 main_call11_v6 main_call11_v7 ((cmpi .sge) : (⟨S8x12544x1, .i32⟩ : BufTy).Contents (Elt Ideal) → (⟨S8x12544x1, .i32⟩ : BufTy).Contents (Elt Ideal) → (⟨S8x12544x1, .i1⟩ : BufTy).Contents (Elt Ideal)),
    StableHlo.unary main_call11_c_1 main_call11_v8 ((broadcastInDim S1x1x1 ![2] bcast_S1_S1x1x1_2) : (⟨S1, .i32⟩ : BufTy).Contents (Elt Ideal) → (⟨S1x1x1, .i32⟩ : BufTy).Contents (Elt Ideal)),
    StableHlo.unary main_call11_v8 main_call11_v9 ((broadcastInDim S8x12544x1 ![0, 1, 2] bcast_S1x1x1_S8x12544x1_0_1_2) : (⟨S1x1x1, .i32⟩ : BufTy).Contents (Elt Ideal) → (⟨S8x12544x1, .i32⟩ : BufTy).Contents (Elt Ideal)),
    StableHlo.binary main_call11_v5 main_call11_v9 main_call11_v10 ((cmpi .sle) : (⟨S8x12544x1, .i32⟩ : BufTy).Contents (Elt Ideal) → (⟨S8x12544x1, .i32⟩ : BufTy).Contents (Elt Ideal) → (⟨S8x12544x1, .i1⟩ : BufTy).Contents (Elt Ideal)),
    StableHlo.binary main_call11_v7 main_call11_v10 main_call11_v11 (andi : (⟨S8x12544x1, .i1⟩ : BufTy).Contents (Elt Ideal) → (⟨S8x12544x1, .i1⟩ : BufTy).Contents (Elt Ideal) → (⟨S8x12544x1, .i1⟩ : BufTy).Contents (Elt Ideal)),
    StableHlo.nullary main_call11_c_3 (constantI S_ 1 1#1),
    StableHlo.binary main_call11_v11 main_call11_c_3 main_call11_v12 ((fun x v => Host.reduce IntOp.andi x v reducesTo_S8x12544x1_S8x12544_d2 h_S_) : (⟨S8x12544x1, .i1⟩ : BufTy).Contents (Elt Ideal) → (⟨S_, .i1⟩ : BufTy).Contents (Elt Ideal) → (⟨S8x12544, .i1⟩ : BufTy).Contents (Elt Ideal)),
    StableHlo.binary main_v2 main_call11_v5 main_call11_v13 ((fun x i => Host.gather gather_S8x25600x182_S8x12544x1_S8x12544x182_2_1_0_0_1_2_11182 x i) : (⟨S8x25600x182, .f32⟩ : BufTy).Contents (Elt Ideal) → (⟨S8x12544x1, .i32⟩ : BufTy).Contents (Elt Ideal) → (⟨S8x12544x182, .f32⟩ : BufTy).Contents (Elt Ideal)),
    StableHlo.unary main_call11_v12 main_call11_v14 ((broadcastInDim S8x12544x182 ![0, 1] bcast_S8x12544_S8x12544x182_0_1) : (⟨S8x12544, .i1⟩ : BufTy).Contents (Elt Ideal) → (⟨S8x12544x182, .i1⟩ : BufTy).Contents (Elt Ideal)),
    StableHlo.nullary main_call11_cst (constant (F := Ideal) S_ .f32 0x7FC00000#32),
    StableHlo.unary main_call11_cst main_call11_v15 ((broadcastInDim S8x12544x182 ![] bcast_S_S8x12544x182) : (⟨S_, .f32⟩ : BufTy).Contents (Elt Ideal) → (⟨S8x12544x182, .f32⟩ : BufTy).Contents (Elt Ideal)),
    StableHlo.ternary main_call11_v14 main_call11_v13 main_call11_v15 main_v110 (select : (⟨S8x12544x182, .i1⟩ : BufTy).Contents (Elt Ideal) → (⟨S8x12544x182, .f32⟩ : BufTy).Contents (Elt Ideal) → (⟨S8x12544x182, .f32⟩ : BufTy).Contents (Elt Ideal) → (⟨S8x12544x182, .f32⟩ : BufTy).Contents (Elt Ideal)) ]

section
attribute [local irreducible] Idealize.ShloMosaic.select Idealize.ShloMosaic.broadcastInDim Idealize.ShloMosaic.Host.reduce Idealize.ShloMosaic.Host.gather
  Idealize.ShloMosaic.mulf Idealize.ShloMosaic.addf Idealize.ShloMosaic.subf Idealize.ShloMosaic.andi Idealize.ShloMosaic.cmpi Idealize.ShloMosaic.addi
  Idealize.ShloMosaic.muli Idealize.ShloMosaic.minsi Idealize.ShloMosaic.maxsi Idealize.ShloMosaic.uitofp Idealize.ShloMosaic.transpose
  Idealize.ShloMosaic.shapeCast Idealize.ShloMosaic.concatenate Idealize.ShloMosaic.constantI Idealize.ShloMosaic.constant Idealize.ShloMosaic.fptosi
  Idealize.ShloMosaic.Host.floor Idealize.ShloMosaic.extractStridedSlice

set_option maxRecDepth 8192 in
theorem ops23_plain : (hostOps0_23 : List (HloOp τ sig (Elt Ideal))) = plain23 := rfl
end

theorem s23_plains : Plains (hostOps0_23 : List (HloOp τ sig (Elt Ideal))) W23 := by
  rw [ops23_plain]
  repeat (first | exact .nil | refine .cons (by first | exact .nullary .. | exact .unary .. | exact .binary .. | exact .ternary .. | exact .reshape ..) ?_)

set_option maxRecDepth 8192 in
set_option maxHeartbeats 4000000 in
theorem s23 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) (h22 : Holds W (Out22 a0 a2 a4)) :
    Holds (after (hostOps0_23 (F := Ideal)) W) (Out23 a0 a2 a4) := by
  simp only [Holds, Out0, Out6, Out12, Out18, Out22, Out23, List.forall_cons, List.Forall, and_true] at h0 h6 h12 h18 h22 ⊢
  rw [ops23_plain]
  all_goals after_results_simp
  all_goals try simp only [h0.1, h0.2.1, h0.2.2.1, h6.1, h12.1, h18.1, h18.2.2.2.1, h22]
  all_goals first | rfl | trivial

end Cert.KernelIdeal.HostRun

end
-- ==== Proof.KerHost.S24.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W24 : List (Ref sig .tc) :=
  [main_v111, main_v112, main_v113, main_v114, main_cst_42, main_v115, main_v116, main_v117, main_v118, main_cst_43, main_v119, main_v120, main_v121, main_v122, main_v123, main_v124, main_cst_44, main_v125, main_v126, main_v127, main_v128, main_v129, main_cst_45, main_v130, main_v131, main_v132, main_v133, main_v134, main_v135, main_v136, main_v137, main_v138, main_v139, main_v140, main_v141, main_v142, main_v143, main_cst_46, main_v144, main_cst_47, main_v145, main_v146, main_v147, main_v148, main_v149, main_v150, main_cst_48, main_v151, main_v152, main_v153, main_v154]

theorem s24_plains : Plains (hostOps0_24 : List (HloOp τ sig (Elt Ideal))) W24 := by
  repeat (first | exact .nil | refine .cons (by first | exact .nullary .. | exact .unary .. | exact .binary .. | exact .ternary .. | exact .reshape ..) ?_)

set_option maxRecDepth 8192 in
set_option maxHeartbeats 4000000 in
theorem s24 {a0 : X0} {a2 : X2} {a4 : X4} {W : Valuation τ sig (Elt Ideal)}
    (h0 : Holds W (Out0 a0 a2 a4)) (h6 : Holds W (Out6 a0 a2 a4)) (h12 : Holds W (Out12 a0 a2 a4)) (h18 : Holds W (Out18 a0 a2 a4)) (h23 : Holds W (Out23 a0 a2 a4)) :
    Holds (after (hostOps0_24 (F := Ideal)) W) (Out24 a0 a2 a4) := by
  simp only [Holds, Out0, Out6, Out12, Out18, Out23, Out24, List.forall_cons, List.Forall, and_true] at h0 h6 h12 h18 h23 ⊢
  refine ⟨?_, ?_⟩
  all_goals after_results_simp
  all_goals try simp only [h0.2.1, h0.2.2.1, h6.1, h12.1, h18.1, h18.2.2.2.1, h23]
  all_goals first | rfl | trivial

end Cert.KernelIdeal.HostRun

end
-- ==== Proof.KerHost.S25.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W25 : List (Ref sig .tc) :=
  [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v155]

theorem s25_plains : Plains (hostOps0_25 : List (HloOp τ sig (Elt Ideal))) W25 := by
  repeat (first | exact .nil | refine .cons (by first | exact .nullary .. | exact .unary .. | exact .binary .. | exact .ternary .. | exact .reshape ..) ?_)

end Cert.KernelIdeal.HostRun

end
-- ==== Proof.KerHost.S26.lean ====
import proofs.«401846_j83760452207136_3_alg».proof.Proof.KerHost.Outs

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev W26 : List (Ref sig .tc) :=
  [main_v156]

theorem s26_plains : Plains (hostOps0_26 : List (HloOp τ sig (Elt Ideal))) W26 := by
  repeat (first | exact .nil | refine .cons (by first | exact .nullary .. | exact .unary .. | exact .binary .. | exact .ternary .. | exact .reshape ..) ?_)

end Cert.KernelIdeal.HostRun

end
-- ==== Proof.KerHost.Facts.lean ====
import proofs.«401846_j83760452207136_3_alg».proof.Proof.KerHost.S00
import proofs.«401846_j83760452207136_3_alg».proof.Proof.KerHost.S01
import proofs.«401846_j83760452207136_3_alg».proof.Proof.KerHost.S02
import proofs.«401846_j83760452207136_3_alg».proof.Proof.KerHost.S03
import proofs.«401846_j83760452207136_3_alg».proof.Proof.KerHost.S04
import proofs.«401846_j83760452207136_3_alg».proof.Proof.KerHost.S05
import proofs.«401846_j83760452207136_3_alg».proof.Proof.KerHost.S06
import proofs.«401846_j83760452207136_3_alg».proof.Proof.KerHost.S07
import proofs.«401846_j83760452207136_3_alg».proof.Proof.KerHost.S08
import proofs.«401846_j83760452207136_3_alg».proof.Proof.KerHost.S09
import proofs.«401846_j83760452207136_3_alg».proof.Proof.KerHost.S10
import proofs.«401846_j83760452207136_3_alg».proof.Proof.KerHost.S11
import proofs.«401846_j83760452207136_3_alg».proof.Proof.KerHost.S12
import proofs.«401846_j83760452207136_3_alg».proof.Proof.KerHost.S13
import proofs.«401846_j83760452207136_3_alg».proof.Proof.KerHost.S14
import proofs.«401846_j83760452207136_3_alg».proof.Proof.KerHost.S15
import proofs.«401846_j83760452207136_3_alg».proof.Proof.KerHost.S16
import proofs.«401846_j83760452207136_3_alg».proof.Proof.KerHost.S17
import proofs.«401846_j83760452207136_3_alg».proof.Proof.KerHost.S18
import proofs.«401846_j83760452207136_3_alg».proof.Proof.KerHost.S19
import proofs.«401846_j83760452207136_3_alg».proof.Proof.KerHost.S20
import proofs.«401846_j83760452207136_3_alg».proof.Proof.KerHost.S21
import proofs.«401846_j83760452207136_3_alg».proof.Proof.KerHost.S22
import proofs.«401846_j83760452207136_3_alg».proof.Proof.KerHost.S23
import proofs.«401846_j83760452207136_3_alg».proof.Proof.KerHost.S24
import proofs.«401846_j83760452207136_3_alg».proof.Proof.KerHost.S25
import proofs.«401846_j83760452207136_3_alg».proof.Proof.KerHost.S26

noncomputable section

namespace Cert.KernelIdeal.HostRun

open Cert.KernelIdeal Cert.KernelIdeal.Gen Cert.Line Idealize.ShloMosaic Idealize.ShloMosaic.TcCoe Idealize.SL.Sem Idealize.ShloMosaic.StableHlo

abbrev line : List (List (HloOp τ sig (Elt Ideal))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

abbrev Wl : List (List (Ref sig .tc)) := [W0, W1, W2, W3, W4, W5, W6, W7, W8, W9, W10, W11, W12, W13, W14, W15, W16, W17, W18, W19, W20, W21, W22, W23, W24, W25, W26]

theorem line_plain : List.Forall₂ Plains line Wl :=
  .cons s0_plains (.cons s1_plains (.cons s2_plains (.cons s3_plains (.cons s4_plains (.cons s5_plains (.cons s6_plains (.cons s7_plains (.cons s8_plains (.cons s9_plains (.cons s10_plains (.cons s11_plains (.cons s12_plains (.cons s13_plains (.cons s14_plains (.cons s15_plains (.cons s16_plains (.cons s17_plains (.cons s18_plains (.cons s19_plains (.cons s20_plains (.cons s21_plains (.cons s22_plains (.cons s23_plains (.cons s24_plains (.cons s25_plains (.cons s26_plains (.nil)))))))))))))))))))))))))))

variable {a0 : X0} {a2 : X2} {a4 : X4} {V0 : Valuation τ sig (Elt Ideal)}

theorem gL (a : Holds V0 (OutL a0 a2 a4)) : Holds (after (line.take 0).flatten V0) (OutL a0 a2 a4) := a

theorem g0 (a : Holds V0 (OutL a0 a2 a4)) : Holds (after (line.take 1).flatten V0) (Out0 a0 a2 a4) :=
  Holds.step (K := 0) rfl (s0 (gL a))

theorem g1 (a : Holds V0 (OutL a0 a2 a4)) : Holds (after (line.take 2).flatten V0) (Out1 a0 a2 a4) :=
  Holds.step (K := 1) rfl (s1 (g0 a))

theorem g2 (a : Holds V0 (OutL a0 a2 a4)) : Holds (after (line.take 3).flatten V0) (Out2 a0 a2 a4) :=
  Holds.step (K := 2) rfl (s2 (Holds.carry line_plain 1 2 (by decide) R0 (by decide +kernel) (g0 a))
    (g1 a))

theorem g3 (a : Holds V0 (OutL a0 a2 a4)) : Holds (after (line.take 4).flatten V0) (Out3 a0 a2 a4) :=
  Holds.step (K := 3) rfl (s3 (Holds.carry line_plain 1 3 (by decide) R0 (by decide +kernel) (g0 a))
    (Holds.carry line_plain 2 3 (by decide) R1 (by decide +kernel) (g1 a))
    (g2 a))

theorem g4 (a : Holds V0 (OutL a0 a2 a4)) : Holds (after (line.take 5).flatten V0) (Out4 a0 a2 a4) :=
  Holds.step (K := 4) rfl (s4 (Holds.carry line_plain 1 4 (by decide) R0 (by decide +kernel) (g0 a))
    (Holds.carry line_plain 2 4 (by decide) R1 (by decide +kernel) (g1 a))
    (g3 a))

theorem g5 (a : Holds V0 (OutL a0 a2 a4)) : Holds (after (line.take 6).flatten V0) (Out5 a0 a2 a4) :=
  Holds.step (K := 5) rfl (s5 (Holds.carry line_plain 1 5 (by decide) R0 (by decide +kernel) (g0 a))
    (g4 a))

theorem g6 (a : Holds V0 (OutL a0 a2 a4)) : Holds (after (line.take 7).flatten V0) (Out6 a0 a2 a4) :=
  Holds.step (K := 6) rfl (s6 (Holds.carry line_plain 1 6 (by decide) R0 (by decide +kernel) (g0 a))
    (g5 a))

theorem g7 (a : Holds V0 (OutL a0 a2 a4)) : Holds (after (line.take 8).flatten V0) (Out7 a0 a2 a4) :=
  Holds.step (K := 7) rfl (s7 (Holds.carry line_plain 1 7 (by decide) R0 (by decide +kernel) (g0 a))
    (g6 a))

theorem g8 (a : Holds V0 (OutL a0 a2 a4)) : Holds (after (line.take 9).flatten V0) (Out8 a0 a2 a4) :=
  Holds.step (K := 8) rfl (s8 (Holds.carry line_plain 1 8 (by decide) R0 (by decide +kernel) (g0 a))
    (Holds.carry line_plain 7 8 (by decide) R6 (by decide +kernel) (g6 a))
    (g7 a))

theorem g9 (a : Holds V0 (OutL a0 a2 a4)) : Holds (after (line.take 10).flatten V0) (Out9 a0 a2 a4) :=
  Holds.step (K := 9) rfl (s9 (Holds.carry line_plain 1 9 (by decide) R0 (by decide +kernel) (g0 a))
    (Holds.carry line_plain 7 9 (by decide) R6 (by decide +kernel) (g6 a))
    (Holds.carry line_plain 8 9 (by decide) R7 (by decide +kernel) (g7 a))
    (g8 a))

theorem g10 (a : Holds V0 (OutL a0 a2 a4)) : Holds (after (line.take 11).flatten V0) (Out10 a0 a2 a4) :=
  Holds.step (K := 10) rfl (s10 (Holds.carry line_plain 1 10 (by decide) R0 (by decide +kernel) (g0 a))
    (Holds.carry line_plain 7 10 (by decide) R6 (by decide +kernel) (g6 a))
    (Holds.carry line_plain 8 10 (by decide) R7 (by decide +kernel) (g7 a))
    (g9 a))

theorem g11 (a : Holds V0 (OutL a0 a2 a4)) : Holds (after (line.take 12).flatten V0) (Out11 a0 a2 a4) :=
  Holds.step (K := 11) rfl (s11 (Holds.carry line_plain 1 11 (by decide) R0 (by decide +kernel) (g0 a))
    (Holds.carry line_plain 7 11 (by decide) R6 (by decide +kernel) (g6 a))
    (g10 a))

theorem g12 (a : Holds V0 (OutL a0 a2 a4)) : Holds (after (line.take 13).flatten V0) (Out12 a0 a2 a4) :=
  Holds.step (K := 12) rfl (s12 (Holds.carry line_plain 1 12 (by decide) R0 (by decide +kernel) (g0 a))
    (Holds.carry line_plain 7 12 (by decide) R6 (by decide +kernel) (g6 a))
    (g11 a))

theorem g13 (a : Holds V0 (OutL a0 a2 a4)) : Holds (after (line.take 14).flatten V0) (Out13 a0 a2 a4) :=
  Holds.step (K := 13) rfl (s13 (Holds.carry line_plain 1 13 (by decide) R0 (by decide +kernel) (g0 a))
    (Holds.carry line_plain 7 13 (by decide) R6 (by decide +kernel) (g6 a))
    (g12 a))

theorem g14 (a : Holds V0 (OutL a0 a2 a4)) : Holds (after (line.take 15).flatten V0) (Out14 a0 a2 a4) :=
  Holds.step (K := 14) rfl (s14 (Holds.carry line_plain 1 14 (by decide) R0 (by decide +kernel) (g0 a))
    (Holds.carry line_plain 7 14 (by decide) R6 (by decide +kernel) (g6 a))
    (Holds.carry line_plain 13 14 (by decide) R12 (by decide +kernel) (g12 a))
    (g13 a))

theorem g15 (a : Holds V0 (OutL a0 a2 a4)) : Holds (after (line.take 16).flatten V0) (Out15 a0 a2 a4) :=
  Holds.step (K := 15) rfl (s15 (Holds.carry line_plain 1 15 (by decide) R0 (by decide +kernel) (g0 a))
    (Holds.carry line_plain 7 15 (by decide) R6 (by decide +kernel) (g6 a))
    (Holds.carry line_plain 13 15 (by decide) R12 (by decide +kernel) (g12 a))
    (Holds.carry line_plain 14 15 (by decide) R13 (by decide +kernel) (g13 a))
    (g14 a))

theorem g16 (a : Holds V0 (OutL a0 a2 a4)) : Holds (after (line.take 17).flatten V0) (Out16 a0 a2 a4) :=
  Holds.step (K := 16) rfl (s16 (Holds.carry line_plain 1 16 (by decide) R0 (by decide +kernel) (g0 a))
    (Holds.carry line_plain 7 16 (by decide) R6 (by decide +kernel) (g6 a))
    (Holds.carry line_plain 13 16 (by decide) R12 (by decide +kernel) (g12 a))
    (Holds.carry line_plain 14 16 (by decide) R13 (by decide +kernel) (g13 a))
    (g15 a))

theorem g17 (a : Holds V0 (OutL a0 a2 a4)) : Holds (after (line.take 18).flatten V0) (Out17 a0 a2 a4) :=
  Holds.step (K := 17) rfl (s17 (Holds.carry line_plain 1 17 (by decide) R0 (by decide +kernel) (g0 a))
    (Holds.carry line_plain 7 17 (by decide) R6 (by decide +kernel) (g6 a))
    (Holds.carry line_plain 13 17 (by decide) R12 (by decide +kernel) (g12 a))
    (g16 a))

theorem g18 (a : Holds V0 (OutL a0 a2 a4)) : Holds (after (line.take 19).flatten V0) (Out18 a0 a2 a4) :=
  Holds.step (K := 18) rfl (s18 (Holds.carry line_plain 1 18 (by decide) R0 (by decide +kernel) (g0 a))
    (Holds.carry line_plain 7 18 (by decide) R6 (by decide +kernel) (g6 a))
    (Holds.carry line_plain 13 18 (by decide) R12 (by decide +kernel) (g12 a))
    (g17 a))

theorem g19 (a : Holds V0 (OutL a0 a2 a4)) : Holds (after (line.take 20).flatten V0) (Out19 a0 a2 a4) :=
  Holds.step (K := 19) rfl (s19 (Holds.carry line_plain 1 19 (by decide) R0 (by decide +kernel) (g0 a))
    (Holds.carry line_plain 7 19 (by decide) R6 (by decide +kernel) (g6 a))
    (Holds.carry line_plain 13 19 (by decide) R12 (by decide +kernel) (g12 a))
    (g18 a))

theorem g20 (a : Holds V0 (OutL a0 a2 a4)) : Holds (after (line.take 21).flatten V0) (Out20 a0 a2 a4) :=
  Holds.step (K := 20) rfl (s20 (Holds.carry line_plain 1 20 (by decide) R0 (by decide +kernel) (g0 a))
    (Holds.carry line_plain 7 20 (by decide) R6 (by decide +kernel) (g6 a))
    (Holds.carry line_plain 13 20 (by decide) R12 (by decide +kernel) (g12 a))
    (Holds.carry line_plain 19 20 (by decide) R18 (by decide +kernel) (g18 a))
    (g19 a))

theorem g21 (a : Holds V0 (OutL a0 a2 a4)) : Holds (after (line.take 22).flatten V0) (Out21 a0 a2 a4) :=
  Holds.step (K := 21) rfl (s21 (Holds.carry line_plain 1 21 (by decide) R0 (by decide +kernel) (g0 a))
    (Holds.carry line_plain 7 21 (by decide) R6 (by decide +kernel) (g6 a))
    (Holds.carry line_plain 13 21 (by decide) R12 (by decide +kernel) (g12 a))
    (Holds.carry line_plain 19 21 (by decide) R18 (by decide +kernel) (g18 a))
    (Holds.carry line_plain 20 21 (by decide) R19 (by decide +kernel) (g19 a))
    (g20 a))

theorem g22 (a : Holds V0 (OutL a0 a2 a4)) : Holds (after (line.take 23).flatten V0) (Out22 a0 a2 a4) :=
  Holds.step (K := 22) rfl (s22 (Holds.carry line_plain 1 22 (by decide) R0 (by decide +kernel) (g0 a))
    (Holds.carry line_plain 7 22 (by decide) R6 (by decide +kernel) (g6 a))
    (Holds.carry line_plain 13 22 (by decide) R12 (by decide +kernel) (g12 a))
    (Holds.carry line_plain 19 22 (by decide) R18 (by decide +kernel) (g18 a))
    (Holds.carry line_plain 20 22 (by decide) R19 (by decide +kernel) (g19 a))
    (g21 a))

theorem g23 (a : Holds V0 (OutL a0 a2 a4)) : Holds (after (line.take 24).flatten V0) (Out23 a0 a2 a4) :=
  Holds.step (K := 23) rfl (s23 (Holds.carry line_plain 1 23 (by decide) R0 (by decide +kernel) (g0 a))
    (Holds.carry line_plain 7 23 (by decide) R6 (by decide +kernel) (g6 a))
    (Holds.carry line_plain 13 23 (by decide) R12 (by decide +kernel) (g12 a))
    (Holds.carry line_plain 19 23 (by decide) R18 (by decide +kernel) (g18 a))
    (g22 a))

theorem g24 (a : Holds V0 (OutL a0 a2 a4)) : Holds (after (line.take 25).flatten V0) (Out24 a0 a2 a4) :=
  Holds.step (K := 24) rfl (s24 (Holds.carry line_plain 1 24 (by decide) R0 (by decide +kernel) (g0 a))
    (Holds.carry line_plain 7 24 (by decide) R6 (by decide +kernel) (g6 a))
    (Holds.carry line_plain 13 24 (by decide) R12 (by decide +kernel) (g12 a))
    (Holds.carry line_plain 19 24 (by decide) R18 (by decide +kernel) (g18 a))
    (g23 a))

end Cert.KernelIdeal.HostRun

end
-- ==== Proof.RefTaps.lean ====
import proofs.«401846_j83760452207136_3_alg».proof.Proof.RefStages
import proofs.«401846_j83760452207136_3_alg».proof.Proof.TapSpec
import proofs.«401846_j83760452207136_3_alg».proof.Proof.LibIndex
import Idealize.ShloMosaic.Lib.Pipeline.Value
import Idealize.ShloMosaic.Lib.ValueIdx

noncomputable section

namespace Cert.ReferenceIdeal.Taps

open Cert.ReferenceIdeal Cert.ReferenceIdeal.Gen Cert.ReferenceIdeal.ReadP Idealize.ShloMosaic Idealize.ShloMosaic.ValueIdx Cert.TapSpec
  Cert.LibIndex

-- A word clipped into [0, 159] is not negative.
theorem clip_nonneg (s : IVec S8x12544 32) (i : S8x12544.Idx) :
    0 ≤ (minsi (broadcastInDim S8x12544 ![] bcast_S_S8x12544 (constantI S_ 32 159#32))
      (maxsi (broadcastInDim S8x12544 ![] bcast_S_S8x12544 (constantI S_ 32 0#32)) s) i).toInt :=
  (clip_bounds (s i)).1

/-- One column of the start-index pair: the index array after the negative-index wrap, a unit axis appended. -/
def col (c k : IVec S8x12544 32) : IVec S8x12544x1 32 :=
  broadcastInDim S8x12544x1 ![0, 1] bcast_S8x12544_S8x12544x1_0_1
    (select (cmpi .slt c (broadcastInDim S8x12544 ![] bcast_S_S8x12544 (constantI S_ 32 0#32))) (addi c k) c)

-- The wrap leaves an index that is not negative alone, so the column reads the index array itself.
theorem col_apply (c k : IVec S8x12544 32) (h : ∀ i, 0 ≤ (c i).toInt) (b : Fin 8) (p : Fin 12544) :
    col c k (ix3 b p (0 : Fin 1)) = c (ix2 b p) :=
  (broadcastInDim_apply _ _ _ _ (ix2 b p) fun a => by match a with | ⟨0, _⟩ => rfl | ⟨1, _⟩ => rfl).trans
    (wrap_id _ _ (h _))

-- The gather reads the array at the pixel the two columns name, and the validity bit comes along its two broadcasts.
theorem tap_of {N : ℕ}
    (wf : GatherDims.WF ⟨4, ![8, N, 160, 160]⟩ ⟨3, ![8, 12544, 2]⟩ ⟨3, ![8, N, 12544]⟩ [1] [2, 3] [0] [2, 3] [0] 2 ![1, N, 1, 1])
    (hb : S8x1x12544.BroadcastsInDim ⟨3, ![8, N, 12544]⟩ ![0, 1, 2])
    (A : (⟨4, ![8, N, 160, 160]⟩ : Shape).Idx → EReal) (Y X ky kx : IVec S8x12544 32)
    (hY : ∀ i, 0 ≤ (Y i).toInt) (hX : ∀ i, 0 ≤ (X i).toInt) (M : IVec S8x12544 1) (b : Fin 8) (n : Fin N) (p : Fin 12544) :
    mulf (F := Ideal) (φ := .f32)
      (Host.gather (pairDims 8 N 160 160 12544 wf) A (concatenate S8x12544x2 2 [⟨S8x12544x1, col Y ky⟩, ⟨S8x12544x1, col X kx⟩]
        concatenates_S8x12544x1_S8x12544x1_S8x12544x2_d2))
      (broadcastInDim _ ![0, 1, 2] hb (broadcastInDim S8x1x12544 ![0, 2] bcast_S8x12544_S8x1x12544_0_2 (uitofp .f32 M)))
      (ix3 b n p) = tapVal A Y X M b n p := by
  have hy := (concatenate_pair_apply_left (t := S8x12544x2) (s₁ := S8x12544x1) (s₂ := S8x12544x1) (2 : Fin 3) (col Y ky) (col X kx)
    concatenates_S8x12544x1_S8x12544x1_S8x12544x2_d2 (ix3 b p (0 : Fin 2)) rfl (ix3 b p (0 : Fin 1))
    (fun a => by match a with | ⟨0, _⟩ => rfl | ⟨1, _⟩ => rfl | ⟨2, _⟩ => rfl)).trans (col_apply Y ky hY b p)
  have hx := (concatenate_pair_apply_right (t := S8x12544x2) (s₁ := S8x12544x1) (s₂ := S8x12544x1) (2 : Fin 3) (col Y ky) (col X kx)
    concatenates_S8x12544x1_S8x12544x1_S8x12544x2_d2 (ix3 b p (1 : Fin 2)) rfl rfl (ix3 b p (0 : Fin 1))
    (fun a ha => by match a with | ⟨0, _⟩ => rfl | ⟨1, _⟩ => rfl | ⟨2, _⟩ => exact absurd rfl ha) rfl).trans (col_apply X kx hX b p)
  unfold mulf
  rw [gather_pairDims_apply (by decide) (by decide),
    broadcastInDim_apply _ hb _ (ix3 b n p) (ix3 b (0 : Fin 1) p)
      (fun a => by match a with | ⟨0, _⟩ => rfl | ⟨1, _⟩ => rfl | ⟨2, _⟩ => rfl),
    broadcastInDim_apply _ bcast_S8x12544_S8x1x12544_0_2 _ (ix3 b (0 : Fin 1) p) (ix2 b p)
      (fun a => by match a with | ⟨0, _⟩ => rfl | ⟨1, _⟩ => rfl)]
  simp only [hy, hx]
  rfl

variable (x0 : (⟨S8x150x160x160, .f32⟩ : BufTy).Contents (Elt Ideal)) (x2 : (⟨S8x32x160x160, .f32⟩ : BufTy).Contents (Elt Ideal)) (x4 : (⟨S8x12544x2, .f32⟩ : BufTy).Contents (Elt Ideal))

theorem tap00_pm (b : Fin 8) (q : Fin 150) (p : Fin 12544) :
    val_main_v67 (F := Ideal) x0 x4 (ix3 b q p)
      = tapVal x0 (val_main_v49 (F := Ideal) x4) (val_main_v50 (F := Ideal) x4) (val_main_v47 (F := Ideal) x4) b q p :=
  tap_of _ _ x0 _ _ _ _ (clip_nonneg _) (clip_nonneg _) _ b q p

theorem tap01_pm (b : Fin 8) (q : Fin 150) (p : Fin 12544) :
    val_main_v100 (F := Ideal) x0 x4 (ix3 b q p)
      = tapVal x0 (val_main_v82 (F := Ideal) x4) (val_main_v83 (F := Ideal) x4) (val_main_v80 (F := Ideal) x4) b q p :=
  tap_of _ _ x0 _ _ _ _ (clip_nonneg _) (clip_nonneg _) _ b q p

theorem tap10_pm (b : Fin 8) (q : Fin 150) (p : Fin 12544) :
    val_main_v133 (F := Ideal) x0 x4 (ix3 b q p)
      = tapVal x0 (val_main_v115 (F := Ideal) x4) (val_main_v116 (F := Ideal) x4) (val_main_v113 (F := Ideal) x4) b q p :=
  tap_of _ _ x0 _ _ _ _ (clip_nonneg _) (clip_nonneg _) _ b q p

theorem tap11_pm (b : Fin 8) (q : Fin 150) (p : Fin 12544) :
    val_main_v168 (F := Ideal) x0 x4 (ix3 b q p)
      = tapVal x0 (val_main_v150 (F := Ideal) x4) (val_main_v151 (F := Ideal) x4) (val_main_v148 (F := Ideal) x4) b q p :=
  tap_of _ _ x0 _ _ _ _ (clip_nonneg _) (clip_nonneg _) _ b q p

theorem tap00_tm (b : Fin 8) (t : Fin 32) (p : Fin 12544) :
    val_main_v252 (F := Ideal) x2 x4 (ix3 b t p)
      = tapVal x2 (val_main_v234 (F := Ideal) x4) (val_main_v235 (F := Ideal) x4) (val_main_v232 (F := Ideal) x4) b t p :=
  tap_of _ _ x2 _ _ _ _ (clip_nonneg _) (clip_nonneg _) _ b t p

theorem tap01_tm (b : Fin 8) (t : Fin 32) (p : Fin 12544) :
    val_main_v285 (F := Ideal) x2 x4 (ix3 b t p)
      = tapVal x2 (val_main_v267 (F := Ideal) x4) (val_main_v268 (F := Ideal) x4) (val_main_v265 (F := Ideal) x4) b t p :=
  tap_of _ _ x2 _ _ _ _ (clip_nonneg _) (clip_nonneg _) _ b t p

theorem tap10_tm (b : Fin 8) (t : Fin 32) (p : Fin 12544) :
    val_main_v318 (F := Ideal) x2 x4 (ix3 b t p)
      = tapVal x2 (val_main_v300 (F := Ideal) x4) (val_main_v301 (F := Ideal) x4) (val_main_v298 (F := Ideal) x4) b t p :=
  tap_of _ _ x2 _ _ _ _ (clip_nonneg _) (clip_nonneg _) _ b t p

theorem tap11_tm (b : Fin 8) (t : Fin 32) (p : Fin 12544) :
    val_main_v353 (F := Ideal) x2 x4 (ix3 b t p)
      = tapVal x2 (val_main_v335 (F := Ideal) x4) (val_main_v336 (F := Ideal) x4) (val_main_v333 (F := Ideal) x4) b t p :=
  tap_of _ _ x2 _ _ _ _ (clip_nonneg _) (clip_nonneg _) _ b t p

end Cert.ReferenceIdeal.Taps

end
-- ==== Proof.KerSampleDefs.lean ====
import proofs.«401846_j83760452207136_3_alg».proof.Proof.KerTapK
import proofs.«401846_j83760452207136_3_alg».proof.Proof.KerBlend
import proofs.«401846_j83760452207136_3_alg».proof.Proof.RefTaps
import proofs.«401846_j83760452207136_3_alg».proof.Proof.RefStages
import proofs.«401846_j83760452207136_3_alg».proof.Proof.TapSpec
import proofs.«401846_j83760452207136_3_alg».proof.Proof.LibIndex
import Idealize.ShloMosaic.Lib.ValueIdx

noncomputable section

namespace Cert.KernelIdeal.SampleDefs

open Cert.KernelIdeal Idealize.ShloMosaic Idealize.ShloMosaic.ValueIdx Cert.TapSpec Cert.ReferenceIdeal.ReadP

theorem rangeY00 (a4 : FVec Ideal S8x12544x2 .f32) (i : S8x12544.Idx) :
    0 ≤ (val_main_v49 (F := Ideal) a4 i).toInt ∧ (val_main_v49 (F := Ideal) a4 i).toInt ≤ 159 := by
  rw [val_main_v49_apply, val_main_call0_v4_apply, val_main_call0_v3_apply, val_main_c_12_apply,
    val_main_call0_v2_apply, val_main_call0_v1_apply, val_main_call0_v0_apply, val_main_c_11_apply]
  exact Cert.LibIndex.clip_bounds _

theorem rangeX00 (a4 : FVec Ideal S8x12544x2 .f32) (i : S8x12544.Idx) :
    0 ≤ (val_main_v50 (F := Ideal) a4 i).toInt ∧ (val_main_v50 (F := Ideal) a4 i).toInt ≤ 159 := by
  rw [val_main_v50_apply, val_main_call1_v4_apply, val_main_call1_v3_apply, val_main_c_14_apply,
    val_main_call1_v2_apply, val_main_call1_v1_apply, val_main_call1_v0_apply, val_main_c_13_apply]
  exact Cert.LibIndex.clip_bounds _

theorem rangeY01 (a4 : FVec Ideal S8x12544x2 .f32) (i : S8x12544.Idx) :
    0 ≤ (val_main_v82 (F := Ideal) a4 i).toInt ∧ (val_main_v82 (F := Ideal) a4 i).toInt ≤ 159 := by
  rw [val_main_v82_apply, val_main_call2_v4_apply, val_main_call2_v3_apply, val_main_c_25_apply,
    val_main_call2_v2_apply, val_main_call2_v1_apply, val_main_call2_v0_apply, val_main_c_24_apply]
  exact Cert.LibIndex.clip_bounds _

theorem rangeX01 (a4 : FVec Ideal S8x12544x2 .f32) (i : S8x12544.Idx) :
    0 ≤ (val_main_v83 (F := Ideal) a4 i).toInt ∧ (val_main_v83 (F := Ideal) a4 i).toInt ≤ 159 := by
  rw [val_main_v83_apply, val_main_call3_v4_apply, val_main_call3_v3_apply, val_main_c_27_apply,
    val_main_call3_v2_apply, val_main_call3_v1_apply, val_main_call3_v0_apply, val_main_c_26_apply]
  exact Cert.LibIndex.clip_bounds _

theorem rangeY10 (a4 : FVec Ideal S8x12544x2 .f32) (i : S8x12544.Idx) :
    0 ≤ (val_main_v115 (F := Ideal) a4 i).toInt ∧ (val_main_v115 (F := Ideal) a4 i).toInt ≤ 159 := by
  rw [val_main_v115_apply, val_main_call4_v4_apply, val_main_call4_v3_apply, val_main_c_38_apply,
    val_main_call4_v2_apply, val_main_call4_v1_apply, val_main_call4_v0_apply, val_main_c_37_apply]
  exact Cert.LibIndex.clip_bounds _

theorem rangeX10 (a4 : FVec Ideal S8x12544x2 .f32) (i : S8x12544.Idx) :
    0 ≤ (val_main_v116 (F := Ideal) a4 i).toInt ∧ (val_main_v116 (F := Ideal) a4 i).toInt ≤ 159 := by
  rw [val_main_v116_apply, val_main_call5_v4_apply, val_main_call5_v3_apply, val_main_c_40_apply,
    val_main_call5_v2_apply, val_main_call5_v1_apply, val_main_call5_v0_apply, val_main_c_39_apply]
  exact Cert.LibIndex.clip_bounds _

theorem rangeY11 (a4 : FVec Ideal S8x12544x2 .f32) (i : S8x12544.Idx) :
    0 ≤ (val_main_v150 (F := Ideal) a4 i).toInt ∧ (val_main_v150 (F := Ideal) a4 i).toInt ≤ 159 := by
  rw [val_main_v150_apply, val_main_call6_v4_apply, val_main_call6_v3_apply, val_main_c_52_apply,
    val_main_call6_v2_apply, val_main_call6_v1_apply, val_main_call6_v0_apply, val_main_c_51_apply]
  exact Cert.LibIndex.clip_bounds _

theorem rangeX11 (a4 : FVec Ideal S8x12544x2 .f32) (i : S8x12544.Idx) :
    0 ≤ (val_main_v151 (F := Ideal) a4 i).toInt ∧ (val_main_v151 (F := Ideal) a4 i).toInt ≤ 159 := by
  rw [val_main_v151_apply, val_main_call7_v4_apply, val_main_call7_v3_apply, val_main_c_54_apply,
    val_main_call7_v2_apply, val_main_call7_v1_apply, val_main_call7_v0_apply, val_main_c_53_apply]
  exact Cert.LibIndex.clip_bounds _

theorem bridgeY00 (a4 : FVec Ideal S8x12544x2 .f32) : val_main_v234 (F := Ideal) a4 = val_main_v49 (F := Ideal) a4 := rfl
theorem bridgeX00 (a4 : FVec Ideal S8x12544x2 .f32) : val_main_v235 (F := Ideal) a4 = val_main_v50 (F := Ideal) a4 := rfl
theorem bridgeM00 (a4 : FVec Ideal S8x12544x2 .f32) : val_main_v232 (F := Ideal) a4 = val_main_v47 (F := Ideal) a4 := rfl

theorem bridgeY01 (a4 : FVec Ideal S8x12544x2 .f32) : val_main_v267 (F := Ideal) a4 = val_main_v82 (F := Ideal) a4 := rfl
theorem bridgeX01 (a4 : FVec Ideal S8x12544x2 .f32) : val_main_v268 (F := Ideal) a4 = val_main_v83 (F := Ideal) a4 := rfl
theorem bridgeM01 (a4 : FVec Ideal S8x12544x2 .f32) : val_main_v265 (F := Ideal) a4 = val_main_v80 (F := Ideal) a4 := rfl

theorem bridgeY10 (a4 : FVec Ideal S8x12544x2 .f32) : val_main_v300 (F := Ideal) a4 = val_main_v115 (F := Ideal) a4 := rfl
theorem bridgeX10 (a4 : FVec Ideal S8x12544x2 .f32) : val_main_v301 (F := Ideal) a4 = val_main_v116 (F := Ideal) a4 := rfl
theorem bridgeM10 (a4 : FVec Ideal S8x12544x2 .f32) : val_main_v298 (F := Ideal) a4 = val_main_v113 (F := Ideal) a4 := rfl

theorem bridgeY11 (a4 : FVec Ideal S8x12544x2 .f32) : val_main_v335 (F := Ideal) a4 = val_main_v150 (F := Ideal) a4 := rfl
theorem bridgeX11 (a4 : FVec Ideal S8x12544x2 .f32) : val_main_v336 (F := Ideal) a4 = val_main_v151 (F := Ideal) a4 := rfl
theorem bridgeM11 (a4 : FVec Ideal S8x12544x2 .f32) : val_main_v333 (F := Ideal) a4 = val_main_v148 (F := Ideal) a4 := rfl

def sampledK (a0 : FVec Ideal S8x150x160x160 .f32) (a2 : FVec Ideal S8x32x160x160 .f32) (a4 : FVec Ideal S8x12544x2 .f32) : FVec Ideal S8x12544x182 .f32 :=
  Blend.blendK (TapK.tapK (TapK.tableK a0 a2) (val_main_v49 (F := Ideal) a4) (val_main_v50 (F := Ideal) a4) (val_main_v47 (F := Ideal) a4))
    (TapK.tapK (TapK.tableK a0 a2) (val_main_v82 (F := Ideal) a4) (val_main_v83 (F := Ideal) a4) (val_main_v80 (F := Ideal) a4))
    (TapK.tapK (TapK.tableK a0 a2) (val_main_v115 (F := Ideal) a4) (val_main_v116 (F := Ideal) a4) (val_main_v113 (F := Ideal) a4))
    (TapK.tapK (TapK.tableK a0 a2) (val_main_v150 (F := Ideal) a4) (val_main_v151 (F := Ideal) a4) (val_main_v148 (F := Ideal) a4))
    (val_main_v33 (F := Ideal) a4) (val_main_v34 (F := Ideal) a4)

theorem sampledK_apply (a0 : FVec Ideal S8x150x160x160 .f32) (a2 : FVec Ideal S8x32x160x160 .f32) (a4 : FVec Ideal S8x12544x2 .f32) (b : Fin 8) (p : Fin 12544) (n : Fin 182) :
    sampledK a0 a2 a4 (ix3 b p n)
      = blendVal ((TapK.tapK (TapK.tableK a0 a2) (val_main_v49 (F := Ideal) a4) (val_main_v50 (F := Ideal) a4) (val_main_v47 (F := Ideal) a4)) (ix3 b p n)) ((TapK.tapK (TapK.tableK a0 a2) (val_main_v82 (F := Ideal) a4) (val_main_v83 (F := Ideal) a4) (val_main_v80 (F := Ideal) a4)) (ix3 b p n))
          ((TapK.tapK (TapK.tableK a0 a2) (val_main_v115 (F := Ideal) a4) (val_main_v116 (F := Ideal) a4) (val_main_v113 (F := Ideal) a4)) (ix3 b p n)) ((TapK.tapK (TapK.tableK a0 a2) (val_main_v150 (F := Ideal) a4) (val_main_v151 (F := Ideal) a4) (val_main_v148 (F := Ideal) a4)) (ix3 b p n))
          (val_main_v33 (F := Ideal) a4 (ix2 b p)) (val_main_v34 (F := Ideal) a4 (ix2 b p)) := by
  unfold sampledK
  exact Blend.blendK_apply _ _ _ _ _ _ b p n

theorem pm_sampled (a0 : FVec Ideal S8x150x160x160 .f32) (a2 : FVec Ideal S8x32x160x160 .f32) (a4 : FVec Ideal S8x12544x2 .f32) (b : Fin 8) (p : Fin 12544) (q : Fin 150) :
    Blend.pmK (sampledK a0 a2 a4) (ix3 b p q) = val_main_v203 (F := Ideal) a0 a4 (ix3 b q p) := by
  rw [Blend.pmK_apply, sampledK_apply, Blend.ref_pm_apply,
    TapK.tapK_apply a0 a2 _ _ _ (rangeY00 a4) (rangeX00 a4), TapK.tapK_apply a0 a2 _ _ _ (rangeY01 a4) (rangeX01 a4),
    TapK.tapK_apply a0 a2 _ _ _ (rangeY10 a4) (rangeX10 a4), TapK.tapK_apply a0 a2 _ _ _ (rangeY11 a4) (rangeX11 a4),
    Cert.ReferenceIdeal.Taps.tap00_pm, Cert.ReferenceIdeal.Taps.tap01_pm, Cert.ReferenceIdeal.Taps.tap10_pm,
    Cert.ReferenceIdeal.Taps.tap11_pm]
  simp only [dif_pos q.isLt]

theorem tm_sampled (a0 : FVec Ideal S8x150x160x160 .f32) (a2 : FVec Ideal S8x32x160x160 .f32) (a4 : FVec Ideal S8x12544x2 .f32) (b : Fin 8) (p : Fin 12544) (t : Fin 32) :
    Blend.tmK (sampledK a0 a2 a4) (ix3 b p t) = val_main_v388 (F := Ideal) a2 a4 (ix3 b t p) := by
  have hn : ¬ (150 + t.val < 150) := by omega
  have ht : (⟨150 + t.val - 150, by have := t.isLt; omega⟩ : Fin 32) = t := Fin.ext (by simp)
  rw [Blend.tmK_apply, sampledK_apply, Blend.ref_tm_apply,
    TapK.tapK_apply a0 a2 _ _ _ (rangeY00 a4) (rangeX00 a4), TapK.tapK_apply a0 a2 _ _ _ (rangeY01 a4) (rangeX01 a4),
    TapK.tapK_apply a0 a2 _ _ _ (rangeY10 a4) (rangeX10 a4), TapK.tapK_apply a0 a2 _ _ _ (rangeY11 a4) (rangeX11 a4),
    Cert.ReferenceIdeal.Taps.tap00_tm, Cert.ReferenceIdeal.Taps.tap01_tm, Cert.ReferenceIdeal.Taps.tap10_tm,
    Cert.ReferenceIdeal.Taps.tap11_tm, bridgeY00, bridgeX00, bridgeM00, bridgeY01, bridgeX01, bridgeM01,
    bridgeY10, bridgeX10, bridgeM10, bridgeY11, bridgeX11, bridgeM11]
  simp only [dif_neg hn, ht]

end Cert.KernelIdeal.SampleDefs

end
-- ==== Proof.KerSample.lean ====
import proofs.«401846_j83760452207136_3_alg».proof.Proof.KerHost.Facts
import proofs.«401846_j83760452207136_3_alg».proof.Proof.KerSampleDefs

noncomputable section

namespace Cert.KernelIdeal.HostSample

open Cert.KernelIdeal Cert.KernelIdeal.Gen Cert.Line Idealize.ShloMosaic Idealize.ShloMosaic.ValueIdx Idealize.ShloMosaic.StableHlo

variable (m : (ℓ : Loc nD τ sig) → Buf (Elt Ideal) ℓ)

/-- What the region finds is the whole host line's fold from the launch contents; the two slices stretch 24 leaves (the
    blend of the four taps: predicted-mask and target-mask channels) are not written again. -/
theorem sampled (c : Dev nD) : Holds (V0 (F := Ideal) m c) (HostRun.Out24 (m ((c.tc : Thread nD τ).loc main_arg0)) (m ((c.tc : Thread nD τ).loc main_arg2)) (m ((c.tc : Thread nD τ).loc main_arg4))) :=
  Holds.carry HostRun.line_plain 25 27 (by decide) HostRun.R24 (by decide +kernel) (HostRun.g24 (V0 := fun b => m (c, b)) ⟨rfl, rfl, rfl⟩)

/-- The kernel keeps points before channels: its sampled predicted masks at (b, p, q) are the reference's at (b, q, p). -/
theorem pm_apply (c : Dev nD) (b : Fin 8) (p : Fin 12544) (q : Fin 150) :
    (V (F := Ideal) m c main_v142 : S8x12544x150.Idx → EReal) (ix3 b p q)
      = Cert.ReferenceIdeal.ReadP.val_main_v203 (F := Ideal) (m ((c.tc : Thread nD τ).loc main_arg0)) (m ((c.tc : Thread nD τ).loc main_arg4)) (ix3 b q p) :=
  (congrFun (sampled m c).1 (ix3 b p q)).trans (SampleDefs.pm_sampled (m ((c.tc : Thread nD τ).loc main_arg0)) (m ((c.tc : Thread nD τ).loc main_arg2)) (m ((c.tc : Thread nD τ).loc main_arg4)) b p q)

/-- Likewise the sampled target masks at (b, p, t) are the reference's at (b, t, p). -/
theorem tm_apply (c : Dev nD) (b : Fin 8) (p : Fin 12544) (t : Fin 32) :
    (V (F := Ideal) m c main_v143 : S8x12544x32.Idx → EReal) (ix3 b p t)
      = Cert.ReferenceIdeal.ReadP.val_main_v388 (F := Ideal) (m ((c.tc : Thread nD τ).loc main_arg2)) (m ((c.tc : Thread nD τ).loc main_arg4)) (ix3 b t p) :=
  (congrFun (sampled m c).2 (ix3 b p t)).trans (SampleDefs.tm_sampled (m ((c.tc : Thread nD τ).loc main_arg0)) (m ((c.tc : Thread nD τ).loc main_arg2)) (m ((c.tc : Thread nD τ).loc main_arg4)) b p t)

end Cert.KernelIdeal.HostSample

end
-- ==== Proof.KerClass.lean ====
import proofs.«401846_j83760452207136_3_alg».proof.Proof.Gen.KernelIdeal.Frame
import proofs.«401846_j83760452207136_3_alg».proof.Proof.RefStages
import Idealize.ShloMosaic.Lib.ValueIdx
import Idealize.ShloMosaic.Lib.Pipeline.Value
import Idealize.ShloMosaic.Lib.ReduceAll
import Idealize.ShloMosaic.Lib.IdealHost
import Idealize.ShloMosaic.PureOps.Reduce

set_option maxRecDepth 16384

noncomputable section

namespace Cert.KernelIdeal.ClassCost

open Cert.KernelIdeal Cert.KernelIdeal.Gen Idealize.ShloMosaic Idealize.ShloMosaic.ValueIdx Idealize.ShloMosaic.StableHlo Idealize.ShloMosaic.TcCoe Idealize.SL.Sem

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

theorem bcast_all_one {s t : Shape} (dims : Fin s.rank → Fin t.rank) (h : s.BroadcastsInDim t dims)
    (x : s.Idx → BitVec 1) (hx : ∀ k, x k = 1#1) (j : t.Idx) : broadcastInDim t dims h x j = 1#1 := hx _

theorem bcast_read {s t : Shape} {α : Type} (dims : Fin s.rank → Fin t.rank) (h : s.BroadcastsInDim t dims)
    (x : s.Idx → α) (j : t.Idx) : ∃ k, broadcastInDim t dims h x j = x k := ⟨_, rfl⟩

theorem select_eq_left {s : Shape} {α : Type} (c : IVec s 1) (a b : s.Idx → α) (hc : ∀ j, c j = 1#1) :
    select c a b = a := by
  funext j
  rw [select_apply, hc j, select_one]

abbrev wrapIdx (l : IVec S8x32 32) : IVec S8x32 32 :=
  select (cmpi .slt l (broadcastInDim S8x32 ![] bcast_S_S8x32 (constantI S_ 32 0#32)))
    (addi l (broadcastInDim S8x32 ![] bcast_S_S8x32 (constantI S_ 32 134#32))) l

theorem wrapIdx_apply (l : IVec S8x32 32) (k : S8x32.Idx) (hk : 0 ≤ (l k).toInt) : wrapIdx l k = l k := by
  have z0 : (0#32 : BitVec 32).toInt = 0 := by decide
  have h0 : IntOp.cmpi .slt (l k) 0#32 = 0#1 := by
    apply eq_zero_of_ne_one
    rw [IntOp.cmpi_slt, z0]
    omega
  show Scalar.select (IntOp.cmpi .slt (l k) (broadcastInDim S8x32 ![] bcast_S_S8x32 (constantI S_ 32 0#32) k)) _ _ = _
  rw [broadcastInDim_scalar_apply]
  show Scalar.select (IntOp.cmpi .slt (l k) 0#32) _ _ = _
  rw [h0, select_zero]

theorem inrange_elem (l : IVec S8x32 32) (hl : ∀ k, 0 ≤ (l k).toInt ∧ (l k).toInt < 134) (i : S8x32x1.Idx) :
    andi
      (cmpi .sge (broadcastInDim S8x32x1 ![0, 1] bcast_S8x32_S8x32x1_0_1 (wrapIdx l))
        (broadcastInDim S8x32x1 ![] bcast_S_S8x32x1 (constantI S_ 32 0#32)))
      (cmpi .sle (broadcastInDim S8x32x1 ![0, 1] bcast_S8x32_S8x32x1_0_1 (wrapIdx l))
        (broadcastInDim S8x32x1 ![0, 1, 2] bcast_S1x1x1_S8x32x1_0_1_2
          (broadcastInDim S1x1x1 ![2] bcast_S1_S1x1x1_2 (constantI S1 32 133#32)))) i = 1#1 := by
  obtain ⟨k, hk⟩ := bcast_read ![0, 1] bcast_S8x32_S8x32x1_0_1 (wrapIdx l) i
  show IntOp.andi
      (IntOp.cmpi .sge (broadcastInDim S8x32x1 ![0, 1] bcast_S8x32_S8x32x1_0_1 (wrapIdx l) i) 0#32)
      (IntOp.cmpi .sle (broadcastInDim S8x32x1 ![0, 1] bcast_S8x32_S8x32x1_0_1 (wrapIdx l) i) 133#32) = 1#1
  have z0 : (0#32 : BitVec 32).toInt = 0 := by decide
  have z133 : (133#32 : BitVec 32).toInt = 133 := by decide
  rw [hk, wrapIdx_apply l k (hl k).1, IntOp.andi_eq_one, IntOp.cmpi_sge, IntOp.cmpi_sle, z0, z133]
  have := hl k
  omega

theorem mask_one (l : IVec S8x32 32) (hl : ∀ k, 0 ≤ (l k).toInt ∧ (l k).toInt < 134) (j : S8x150x32.Idx) :
    broadcastInDim S8x150x32 ![0, 2] bcast_S8x32_S8x150x32_0_2
      (Host.reduce IntOp.andi
        (andi
          (cmpi .sge (broadcastInDim S8x32x1 ![0, 1] bcast_S8x32_S8x32x1_0_1 (wrapIdx l))
            (broadcastInDim S8x32x1 ![] bcast_S_S8x32x1 (constantI S_ 32 0#32)))
          (cmpi .sle (broadcastInDim S8x32x1 ![0, 1] bcast_S8x32_S8x32x1_0_1 (wrapIdx l))
            (broadcastInDim S8x32x1 ![0, 1, 2] bcast_S1x1x1_S8x32x1_0_1_2
              (broadcastInDim S1x1x1 ![2] bcast_S1_S1x1x1_2 (constantI S1 32 133#32)))))
        (constantI S_ 1 1#1) reducesTo_S8x32x1_S8x32_d2 h_S_) j = 1#1 :=
  bcast_all_one _ _ _ (fun k => reduce_andi_one _ _ _ _ (inrange_elem l hl) (fun _ => rfl) k) j

variable (m : (ℓ : Loc nD τ sig) → Buf (Elt Ideal) ℓ)

set_option maxHeartbeats 4000000 in
theorem class_eq (c : Dev nD)
    (hl : ∀ i, 0 ≤ ((m ((c.tc : Thread nD τ).loc main_arg3) : S8x32.Idx → BitVec 32) i).toInt
      ∧ ((m ((c.tc : Thread nD τ).loc main_arg3) : S8x32.Idx → BitVec 32) i).toInt < 134) :
    (V (F := Ideal) m c main_v156 : S8x150x32.Idx → EReal)
      = Cert.ReferenceIdeal.ReadP.val_main_v18 (F := Ideal) (m ((c.tc : Thread nD τ).loc main_arg1))
          (m ((c.tc : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  simp only [TRef.ofBuf, TRef.toBuf, cast_eq]
  unfold Cert.ReferenceIdeal.ReadP.val_main_v18 Cert.ReferenceIdeal.ReadP.val_main_v17
  refine congrArg Host.negf ?_

  refine (select_eq_left _ _ _ (mask_one _ hl)).trans ?_
  rfl

end Cert.KernelIdeal.ClassCost

end
-- ==== Proof.RefRun.Basic.lean ====
import proofs.«401846_j83760452207136_3_alg».proof.Proof.RefStages
import proofs.«401846_j83760452207136_3_alg».proof.Proof.LibLine

noncomputable section

namespace Cert.ReferenceIdeal.RunH

open Cert.ReferenceIdeal Cert.ReferenceIdeal.Gen Idealize.ShloMosaic Idealize.ShloMosaic.TcCoe Idealize.SL.Sem Idealize.ShloMosaic.StableHlo

abbrev X0 (F : FTy → Type) [FloatOps F] := (⟨S8x150x160x160, .f32⟩ : BufTy).Contents (Elt F)
abbrev X1 (F : FTy → Type) [FloatOps F] := (⟨S8x150x134, .f32⟩ : BufTy).Contents (Elt F)
abbrev X2 (F : FTy → Type) [FloatOps F] := (⟨S8x32x160x160, .f32⟩ : BufTy).Contents (Elt F)
abbrev X3 (F : FTy → Type) [FloatOps F] := (⟨S8x32, .i32⟩ : BufTy).Contents (Elt F)
abbrev X4 (F : FTy → Type) [FloatOps F] := (⟨S8x12544x2, .f32⟩ : BufTy).Contents (Elt F)

end Cert.ReferenceIdeal.RunH

end
-- ==== Proof.RefRun.Outs.lean ====
import proofs.«401846_j83760452207136_3_alg».proof.Proof.RefRun.Basic

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev R0 : List (Ref sig .tc) := [main_arg0, main_arg1, main_arg2, main_arg3, main_arg4]
abbrev Out0 (x0 : X0 F) (x1 : X1 F) (x2 : X2 F) (x3 : X3 F) (x4 : X4 F) : List (Fact sig (Elt F)) :=
  [⟨main_arg0, x0⟩,
   ⟨main_arg1, x1⟩,
   ⟨main_arg2, x2⟩,
   ⟨main_arg3, x3⟩,
   ⟨main_arg4, x4⟩]

abbrev R1 : List (Ref sig .tc) := [main_v18, main_v22, main_cst_4]
abbrev Out1 (x0 : X0 F) (x1 : X1 F) (x2 : X2 F) (x3 : X3 F) (x4 : X4 F) : List (Fact sig (Elt F)) :=
  [⟨main_v18, val_main_v18 (F := F) x1 x3⟩,
   ⟨main_v22, val_main_v22 (F := F) x4⟩,
   ⟨main_cst_4, val_main_cst_4 (F := F)⟩]

abbrev R2 : List (Ref sig .tc) := [main_v33, main_v34, main_v35, main_v36, main_v44, main_v46]
abbrev Out2 (x0 : X0 F) (x1 : X1 F) (x2 : X2 F) (x3 : X3 F) (x4 : X4 F) : List (Fact sig (Elt F)) :=
  [⟨main_v33, val_main_v33 (F := F) x4⟩,
   ⟨main_v34, val_main_v34 (F := F) x4⟩,
   ⟨main_v35, val_main_v35 (F := F) x4⟩,
   ⟨main_v36, val_main_v36 (F := F) x4⟩,
   ⟨main_v44, val_main_v44 (F := F) x4⟩,
   ⟨main_v46, val_main_v46 (F := F) x4⟩]

abbrev R3 : List (Ref sig .tc) := [main_v48, main_v61, main_v62]
abbrev Out3 (x0 : X0 F) (x1 : X1 F) (x2 : X2 F) (x3 : X3 F) (x4 : X4 F) : List (Fact sig (Elt F)) :=
  [⟨main_v48, val_main_v48 (F := F) x4⟩,
   ⟨main_v61, val_main_v61 (F := F) x4⟩,
   ⟨main_v62, val_main_v62 (F := F) x4⟩]

abbrev R4 : List (Ref sig .tc) := [main_v67, main_v69, main_v80]
abbrev Out4 (x0 : X0 F) (x1 : X1 F) (x2 : X2 F) (x3 : X3 F) (x4 : X4 F) : List (Fact sig (Elt F)) :=
  [⟨main_v67, val_main_v67 (F := F) x0 x4⟩,
   ⟨main_v69, val_main_v69 (F := F) x4⟩,
   ⟨main_v80, val_main_v80 (F := F) x4⟩]

abbrev R5 : List (Ref sig .tc) := [main_v81, main_v82, main_v83, main_v85, main_v87]
abbrev Out5 (x0 : X0 F) (x1 : X1 F) (x2 : X2 F) (x3 : X3 F) (x4 : X4 F) : List (Fact sig (Elt F)) :=
  [⟨main_v81, val_main_v81 (F := F) x4⟩,
   ⟨main_v82, val_main_v82 (F := F) x4⟩,
   ⟨main_v83, val_main_v83 (F := F) x4⟩,
   ⟨main_v85, val_main_v85 (F := F) x4⟩,
   ⟨main_v87, val_main_v87 (F := F) x4⟩]

abbrev R6 : List (Ref sig .tc) := [main_v94, main_v95]
abbrev Out6 (x0 : X0 F) (x1 : X1 F) (x2 : X2 F) (x3 : X3 F) (x4 : X4 F) : List (Fact sig (Elt F)) :=
  [⟨main_v94, val_main_v94 (F := F) x4⟩,
   ⟨main_v95, val_main_v95 (F := F) x4⟩]

abbrev R7 : List (Ref sig .tc) := [main_v100, main_v102, main_v114, main_c_38, main_call4_v1]
abbrev Out7 (x0 : X0 F) (x1 : X1 F) (x2 : X2 F) (x3 : X3 F) (x4 : X4 F) : List (Fact sig (Elt F)) :=
  [⟨main_v100, val_main_v100 (F := F) x0 x4⟩,
   ⟨main_v102, val_main_v102 (F := F) x4⟩,
   ⟨main_v114, val_main_v114 (F := F) x4⟩,
   ⟨main_c_38, val_main_c_38 (F := F)⟩,
   ⟨main_call4_v1, val_main_call4_v1 (F := F)⟩]

abbrev R8 : List (Ref sig .tc) := [main_v127, main_v128]
abbrev Out8 (x0 : X0 F) (x1 : X1 F) (x2 : X2 F) (x3 : X3 F) (x4 : X4 F) : List (Fact sig (Elt F)) :=
  [⟨main_v127, val_main_v127 (F := F) x4⟩,
   ⟨main_v128, val_main_v128 (F := F) x4⟩]

abbrev R9 : List (Ref sig .tc) := [main_v130, main_v132]
abbrev Out9 (x0 : X0 F) (x1 : X1 F) (x2 : X2 F) (x3 : X3 F) (x4 : X4 F) : List (Fact sig (Elt F)) :=
  [⟨main_v130, val_main_v130 (F := F) x0 x4⟩,
   ⟨main_v132, val_main_v132 (F := F) x4⟩]

abbrev R10 : List (Ref sig .tc) := [main_v133, main_v135, main_v149, main_c_52, main_call6_v2]
abbrev Out10 (x0 : X0 F) (x1 : X1 F) (x2 : X2 F) (x3 : X3 F) (x4 : X4 F) : List (Fact sig (Elt F)) :=
  [⟨main_v133, val_main_v133 (F := F) x0 x4⟩,
   ⟨main_v135, val_main_v135 (F := F) x4⟩,
   ⟨main_v149, val_main_v149 (F := F) x4⟩,
   ⟨main_c_52, val_main_c_52 (F := F)⟩,
   ⟨main_call6_v2, val_main_call6_v2 (F := F) x4⟩]

abbrev R11 : List (Ref sig .tc) := [main_v162, main_v163]
abbrev Out11 (x0 : X0 F) (x1 : X1 F) (x2 : X2 F) (x3 : X3 F) (x4 : X4 F) : List (Fact sig (Elt F)) :=
  [⟨main_v162, val_main_v162 (F := F) x4⟩,
   ⟨main_v163, val_main_v163 (F := F) x4⟩]

abbrev R12 : List (Ref sig .tc) := [main_v168, main_v173, main_v176]
abbrev Out12 (x0 : X0 F) (x1 : X1 F) (x2 : X2 F) (x3 : X3 F) (x4 : X4 F) : List (Fact sig (Elt F)) :=
  [⟨main_v168, val_main_v168 (F := F) x0 x4⟩,
   ⟨main_v173, val_main_v173 (F := F) x0 x4⟩,
   ⟨main_v176, val_main_v176 (F := F) x4⟩]

abbrev R13 : List (Ref sig .tc) := [main_v203, main_v204]
abbrev Out13 (x0 : X0 F) (x1 : X1 F) (x2 : X2 F) (x3 : X3 F) (x4 : X4 F) : List (Fact sig (Elt F)) :=
  [⟨main_v203, val_main_v203 (F := F) x0 x4⟩,
   ⟨main_v204, val_main_v204 (F := F) x4⟩]

abbrev R14 : List (Ref sig .tc) := [main_v218, main_v219, main_v220, main_v221, main_v226, main_v227]
abbrev Out14 (x0 : X0 F) (x1 : X1 F) (x2 : X2 F) (x3 : X3 F) (x4 : X4 F) : List (Fact sig (Elt F)) :=
  [⟨main_v218, val_main_v218 (F := F) x4⟩,
   ⟨main_v219, val_main_v219 (F := F) x4⟩,
   ⟨main_v220, val_main_v220 (F := F) x4⟩,
   ⟨main_v221, val_main_v221 (F := F) x4⟩,
   ⟨main_v226, val_main_v226 (F := F) x4⟩,
   ⟨main_v227, val_main_v227 (F := F)⟩]

abbrev R15 : List (Ref sig .tc) := [main_v233, main_v246, main_v247]
abbrev Out15 (x0 : X0 F) (x1 : X1 F) (x2 : X2 F) (x3 : X3 F) (x4 : X4 F) : List (Fact sig (Elt F)) :=
  [⟨main_v233, val_main_v233 (F := F) x4⟩,
   ⟨main_v246, val_main_v246 (F := F) x4⟩,
   ⟨main_v247, val_main_v247 (F := F) x4⟩]

abbrev R16 : List (Ref sig .tc) := [main_v252, main_v266, main_v267, main_v268, main_c_88]
abbrev Out16 (x0 : X0 F) (x1 : X1 F) (x2 : X2 F) (x3 : X3 F) (x4 : X4 F) : List (Fact sig (Elt F)) :=
  [⟨main_v252, val_main_v252 (F := F) x2 x4⟩,
   ⟨main_v266, val_main_v266 (F := F) x4⟩,
   ⟨main_v267, val_main_v267 (F := F) x4⟩,
   ⟨main_v268, val_main_v268 (F := F) x4⟩,
   ⟨main_c_88, val_main_c_88 (F := F)⟩]

abbrev R17 : List (Ref sig .tc) := [main_v279, main_v280]
abbrev Out17 (x0 : X0 F) (x1 : X1 F) (x2 : X2 F) (x3 : X3 F) (x4 : X4 F) : List (Fact sig (Elt F)) :=
  [⟨main_v279, val_main_v279 (F := F) x4⟩,
   ⟨main_v280, val_main_v280 (F := F) x4⟩]

abbrev R18 : List (Ref sig .tc) := [main_v285, main_v287, main_v299, main_c_98, main_call12_v1]
abbrev Out18 (x0 : X0 F) (x1 : X1 F) (x2 : X2 F) (x3 : X3 F) (x4 : X4 F) : List (Fact sig (Elt F)) :=
  [⟨main_v285, val_main_v285 (F := F) x2 x4⟩,
   ⟨main_v287, val_main_v287 (F := F) x4⟩,
   ⟨main_v299, val_main_v299 (F := F) x4⟩,
   ⟨main_c_98, val_main_c_98 (F := F)⟩,
   ⟨main_call12_v1, val_main_call12_v1 (F := F)⟩]

abbrev R19 : List (Ref sig .tc) := [main_v311, main_v312]
abbrev Out19 (x0 : X0 F) (x1 : X1 F) (x2 : X2 F) (x3 : X3 F) (x4 : X4 F) : List (Fact sig (Elt F)) :=
  [⟨main_v311, val_main_v311 (F := F) x4⟩,
   ⟨main_v312, val_main_v312 (F := F) x4⟩]

abbrev R20 : List (Ref sig .tc) := [main_v313]
abbrev Out20 (x0 : X0 F) (x1 : X1 F) (x2 : X2 F) (x3 : X3 F) (x4 : X4 F) : List (Fact sig (Elt F)) :=
  [⟨main_v313, val_main_v313 (F := F) x4⟩]

abbrev R21 : List (Ref sig .tc) := [main_v318, main_v320, main_v322, main_v334, main_c_112, main_call14_v0]
abbrev Out21 (x0 : X0 F) (x1 : X1 F) (x2 : X2 F) (x3 : X3 F) (x4 : X4 F) : List (Fact sig (Elt F)) :=
  [⟨main_v318, val_main_v318 (F := F) x2 x4⟩,
   ⟨main_v320, val_main_v320 (F := F) x4⟩,
   ⟨main_v322, val_main_v322 (F := F) x4⟩,
   ⟨main_v334, val_main_v334 (F := F) x4⟩,
   ⟨main_c_112, val_main_c_112 (F := F)⟩,
   ⟨main_call14_v0, val_main_call14_v0 (F := F)⟩]

abbrev R22 : List (Ref sig .tc) := [main_v347, main_v348]
abbrev Out22 (x0 : X0 F) (x1 : X1 F) (x2 : X2 F) (x3 : X3 F) (x4 : X4 F) : List (Fact sig (Elt F)) :=
  [⟨main_v347, val_main_v347 (F := F) x4⟩,
   ⟨main_v348, val_main_v348 (F := F) x4⟩]

abbrev R23 : List (Ref sig .tc) := [main_v353, main_v357]
abbrev Out23 (x0 : X0 F) (x1 : X1 F) (x2 : X2 F) (x3 : X3 F) (x4 : X4 F) : List (Fact sig (Elt F)) :=
  [⟨main_v353, val_main_v353 (F := F) x2 x4⟩,
   ⟨main_v357, val_main_v357 (F := F) x4⟩]

abbrev R24 : List (Ref sig .tc) := [main_v388, main_call16_v1, main_call16_v3, main_call16_v4, main_call16_v6]
abbrev Out24 (x0 : X0 F) (x1 : X1 F) (x2 : X2 F) (x3 : X3 F) (x4 : X4 F) : List (Fact sig (Elt F)) :=
  [⟨main_v388, val_main_v388 (F := F) x2 x4⟩,
   ⟨main_call16_v1, val_main_call16_v1 (F := F) x0 x4⟩,
   ⟨main_call16_v3, val_main_call16_v3 (F := F) x0 x4⟩,
   ⟨main_call16_v4, val_main_call16_v4 (F := F) x0 x4⟩,
   ⟨main_call16_v6, val_main_call16_v6 (F := F) x0 x4⟩]

abbrev R25 : List (Ref sig .tc) := [main_v402, main_v408, main_v409]
abbrev Out25 (x0 : X0 F) (x1 : X1 F) (x2 : X2 F) (x3 : X3 F) (x4 : X4 F) : List (Fact sig (Elt F)) :=
  [⟨main_v402, val_main_v402 (F := F) x0 x2 x4⟩,
   ⟨main_v408, val_main_v408 (F := F) x0 x4⟩,
   ⟨main_v409, val_main_v409 (F := F) x2 x4⟩]

abbrev R26 : List (Ref sig .tc) := [main_v434]
abbrev Out26 (x0 : X0 F) (x1 : X1 F) (x2 : X2 F) (x3 : X3 F) (x4 : X4 F) : List (Fact sig (Elt F)) :=
  [⟨main_v434, val_main_v434 (F := F) x0 x1 x2 x3 x4⟩]

end Cert.ReferenceIdeal.RunH

end
-- ==== Proof.RefRun.C01.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops1 : List (HloOp τ sig (Elt F)) :=
  [ nullary main_cst (constant S_ .f32 0xFF800000#32),
    binary main_arg1 main_cst main_v0 ((fun x v => Host.reduce FloatOps.maximumf x v reducesTo_S8x150x134_S8x150_d2 h_S_) : (⟨S8x150x134, .f32⟩ : BufTy).Contents (Elt F) → (⟨S_, .f32⟩ : BufTy).Contents (Elt F) → (⟨S8x150, .f32⟩ : BufTy).Contents (Elt F)),
    nullary main_cst_0 (constant S_ .f32 0xFF800000#32),
    unary main_cst_0 main_v1 (broadcastInDim S8x150 ![] bcast_S_S8x150 : (⟨S_, .f32⟩ : BufTy).Contents (Elt F) → (⟨S8x150, .f32⟩ : BufTy).Contents (Elt F)),
    binary main_v1 main_v0 main_v2 (maximumf : (⟨S8x150, .f32⟩ : BufTy).Contents (Elt F) → (⟨S8x150, .f32⟩ : BufTy).Contents (Elt F) → (⟨S8x150, .f32⟩ : BufTy).Contents (Elt F)),
    unary main_v2 main_v3 (broadcastInDim S8x150x1 ![0, 1] bcast_S8x150_S8x150x1_0_1 : (⟨S8x150, .f32⟩ : BufTy).Contents (Elt F) → (⟨S8x150x1, .f32⟩ : BufTy).Contents (Elt F)),
    unary main_v3 main_v4 (broadcastInDim S8x150x134 ![0, 1, 2] bcast_S8x150x1_S8x150x134_0_1_2 : (⟨S8x150x1, .f32⟩ : BufTy).Contents (Elt F) → (⟨S8x150x134, .f32⟩ : BufTy).Contents (Elt F)),
    binary main_arg1 main_v4 main_v5 (subf : (⟨S8x150x134, .f32⟩ : BufTy).Contents (Elt F) → (⟨S8x150x134, .f32⟩ : BufTy).Contents (Elt F) → (⟨S8x150x134, .f32⟩ : BufTy).Contents (Elt F)),
    unary main_v5 main_v6 (Host.exp : (⟨S8x150x134, .f32⟩ : BufTy).Contents (Elt F) → (⟨S8x150x134, .f32⟩ : BufTy).Contents (Elt F)),
    nullary main_cst_1 (constant S_ .f32 0x00000000#32),
    binary main_v6 main_cst_1 main_v7 ((fun x v => Host.reduceAdd x v reducesTo_S8x150x134_S8x150_d2 h_S_) : (⟨S8x150x134, .f32⟩ : BufTy).Contents (Elt F) → (⟨S_, .f32⟩ : BufTy).Contents (Elt F) → (⟨S8x150, .f32⟩ : BufTy).Contents (Elt F)),
    unary main_v7 main_v8 (broadcastInDim S8x150x1 ![0, 1] bcast_S8x150_S8x150x1_0_1 : (⟨S8x150, .f32⟩ : BufTy).Contents (Elt F) → (⟨S8x150x1, .f32⟩ : BufTy).Contents (Elt F)),
    unary main_v8 main_v9 (broadcastInDim S8x150x134 ![0, 1, 2] bcast_S8x150x1_S8x150x134_0_1_2 : (⟨S8x150x1, .f32⟩ : BufTy).Contents (Elt F) → (⟨S8x150x134, .f32⟩ : BufTy).Contents (Elt F)),
    binary main_v6 main_v9 main_v10 (Host.divf : (⟨S8x150x134, .f32⟩ : BufTy).Contents (Elt F) → (⟨S8x150x134, .f32⟩ : BufTy).Contents (Elt F) → (⟨S8x150x134, .f32⟩ : BufTy).Contents (Elt F)),
    nullary main_c (constantI S_ 32 0#32),
    unary main_c main_v11 (broadcastInDim S8x32 ![] bcast_S_S8x32 : (⟨S_, .i32⟩ : BufTy).Contents (Elt F) → (⟨S8x32, .i32⟩ : BufTy).Contents (Elt F)),
    binary main_arg3 main_v11 main_v12 (cmpi .slt : (⟨S8x32, .i32⟩ : BufTy).Contents (Elt F) → (⟨S8x32, .i32⟩ : BufTy).Contents (Elt F) → (⟨S8x32, .i1⟩ : BufTy).Contents (Elt F)),
    nullary main_c_2 (constantI S_ 32 134#32),
    unary main_c_2 main_v13 (broadcastInDim S8x32 ![] bcast_S_S8x32 : (⟨S_, .i32⟩ : BufTy).Contents (Elt F) → (⟨S8x32, .i32⟩ : BufTy).Contents (Elt F)),
    binary main_arg3 main_v13 main_v14 (addi : (⟨S8x32, .i32⟩ : BufTy).Contents (Elt F) → (⟨S8x32, .i32⟩ : BufTy).Contents (Elt F) → (⟨S8x32, .i32⟩ : BufTy).Contents (Elt F)),
    ternary main_v12 main_v14 main_arg3 main_v15 (select : (⟨S8x32, .i1⟩ : BufTy).Contents (Elt F) → (⟨S8x32, .i32⟩ : BufTy).Contents (Elt F) → (⟨S8x32, .i32⟩ : BufTy).Contents (Elt F) → (⟨S8x32, .i32⟩ : BufTy).Contents (Elt F)),
    unary main_v15 main_v16 (broadcastInDim S8x32x1 ![0, 1] bcast_S8x32_S8x32x1_0_1 : (⟨S8x32, .i32⟩ : BufTy).Contents (Elt F) → (⟨S8x32x1, .i32⟩ : BufTy).Contents (Elt F)),
    binary main_v10 main_v16 main_v17 ((fun x i => Host.gather gather_S8x150x134_S8x32x1_S8x150x32_1_2_0_0_2_2_11501 x i) : (⟨S8x150x134, .f32⟩ : BufTy).Contents (Elt F) → (⟨S8x32x1, .i32⟩ : BufTy).Contents (Elt F) → (⟨S8x150x32, .f32⟩ : BufTy).Contents (Elt F)),
    unary main_v17 main_v18 (Host.negf : (⟨S8x150x32, .f32⟩ : BufTy).Contents (Elt F) → (⟨S8x150x32, .f32⟩ : BufTy).Contents (Elt F)),
    unary main_arg4 main_v19 ((extractStridedSlice S8x12544x1 ![0, 0, 0] · slices_S8x12544x2_S8x12544x1_0_0_0) : (⟨S8x12544x2, .f32⟩ : BufTy).Contents (Elt F) → (⟨S8x12544x1, .f32⟩ : BufTy).Contents (Elt F)),
    reshape main_v19 main_v20 rfl shapeCasts_S8x12544x1_S8x12544,
    nullary main_cst_3 (constant S_ .f32 0x43200000#32),
    unary main_cst_3 main_v21 (broadcastInDim S8x12544 ![] bcast_S_S8x12544 : (⟨S_, .f32⟩ : BufTy).Contents (Elt F) → (⟨S8x12544, .f32⟩ : BufTy).Contents (Elt F)),
    binary main_v20 main_v21 main_v22 (mulf : (⟨S8x12544, .f32⟩ : BufTy).Contents (Elt F) → (⟨S8x12544, .f32⟩ : BufTy).Contents (Elt F) → (⟨S8x12544, .f32⟩ : BufTy).Contents (Elt F)),
    nullary main_cst_4 (constant S_ .f32 0x3F000000#32)]

abbrev W1 : List (Ref sig .tc) :=
  [main_cst, main_v0, main_cst_0, main_v1, main_v2, main_v3, main_v4, main_v5, main_v6, main_cst_1, main_v7, main_v8, main_v9, main_v10, main_c, main_v11, main_v12, main_c_2, main_v13, main_v14, main_v15, main_v16, main_v17, main_v18, main_v19, main_v20, main_cst_3, main_v21, main_v22, main_cst_4]

theorem ops1_plain : Plains (ops1 : List (HloOp τ sig (Elt F))) W1 := by
  repeat (first | exact .nil | refine .cons (by first | exact .nullary .. | exact .unary .. | exact .binary .. | exact .ternary .. | exact .reshape ..) ?_)

set_option maxRecDepth 8192 in
set_option maxHeartbeats 4000000 in
theorem c1 {x0 : X0 F} {x1 : X1 F} {x2 : X2 F} {x3 : X3 F} {x4 : X4 F} {V : Valuation τ sig (Elt F)}
    (h0 : Holds V (Out0 x0 x1 x2 x3 x4)) :
    Holds (after (ops1 (F := F)) V) (Out1 x0 x1 x2 x3 x4) := by
  simp only [Holds, Out0, Out1, List.forall_cons, List.Forall, and_true] at h0 ⊢
  after_results_simp
  try simp only [h0.2.1, h0.2.2.2.1, h0.2.2.2.2]
  refine ⟨?_, ?_, ?_⟩ <;> rfl

end Cert.ReferenceIdeal.RunH

end
-- ==== Proof.RefRun.C02.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops2 : List (HloOp τ sig (Elt F)) :=
  [ unary main_cst_4 main_v23 (broadcastInDim S8x12544 ![] bcast_S_S8x12544 : (⟨S_, .f32⟩ : BufTy).Contents (Elt F) → (⟨S8x12544, .f32⟩ : BufTy).Contents (Elt F)),
    binary main_v22 main_v23 main_v24 (subf : (⟨S8x12544, .f32⟩ : BufTy).Contents (Elt F) → (⟨S8x12544, .f32⟩ : BufTy).Contents (Elt F) → (⟨S8x12544, .f32⟩ : BufTy).Contents (Elt F)),
    unary main_arg4 main_v25 ((extractStridedSlice S8x12544x1 ![0, 0, 1] · slices_S8x12544x2_S8x12544x1_0_0_1) : (⟨S8x12544x2, .f32⟩ : BufTy).Contents (Elt F) → (⟨S8x12544x1, .f32⟩ : BufTy).Contents (Elt F)),
    reshape main_v25 main_v26 rfl shapeCasts_S8x12544x1_S8x12544,
    nullary main_cst_5 (constant S_ .f32 0x43200000#32),
    unary main_cst_5 main_v27 (broadcastInDim S8x12544 ![] bcast_S_S8x12544 : (⟨S_, .f32⟩ : BufTy).Contents (Elt F) → (⟨S8x12544, .f32⟩ : BufTy).Contents (Elt F)),
    binary main_v26 main_v27 main_v28 (mulf : (⟨S8x12544, .f32⟩ : BufTy).Contents (Elt F) → (⟨S8x12544, .f32⟩ : BufTy).Contents (Elt F) → (⟨S8x12544, .f32⟩ : BufTy).Contents (Elt F)),
    nullary main_cst_6 (constant S_ .f32 0x3F000000#32),
    unary main_cst_6 main_v29 (broadcastInDim S8x12544 ![] bcast_S_S8x12544 : (⟨S_, .f32⟩ : BufTy).Contents (Elt F) → (⟨S8x12544, .f32⟩ : BufTy).Contents (Elt F)),
    binary main_v28 main_v29 main_v30 (subf : (⟨S8x12544, .f32⟩ : BufTy).Contents (Elt F) → (⟨S8x12544, .f32⟩ : BufTy).Contents (Elt F) → (⟨S8x12544, .f32⟩ : BufTy).Contents (Elt F)),
    unary main_v24 main_v31 (Host.floor : (⟨S8x12544, .f32⟩ : BufTy).Contents (Elt F) → (⟨S8x12544, .f32⟩ : BufTy).Contents (Elt F)),
    unary main_v30 main_v32 (Host.floor : (⟨S8x12544, .f32⟩ : BufTy).Contents (Elt F) → (⟨S8x12544, .f32⟩ : BufTy).Contents (Elt F)),
    binary main_v24 main_v31 main_v33 (subf : (⟨S8x12544, .f32⟩ : BufTy).Contents (Elt F) → (⟨S8x12544, .f32⟩ : BufTy).Contents (Elt F) → (⟨S8x12544, .f32⟩ : BufTy).Contents (Elt F)),
    binary main_v30 main_v32 main_v34 (subf : (⟨S8x12544, .f32⟩ : BufTy).Contents (Elt F) → (⟨S8x12544, .f32⟩ : BufTy).Contents (Elt F) → (⟨S8x12544, .f32⟩ : BufTy).Contents (Elt F)),
    unary main_v31 main_v35 (fptosi 32 : (⟨S8x12544, .f32⟩ : BufTy).Contents (Elt F) → (⟨S8x12544, .i32⟩ : BufTy).Contents (Elt F)),
    unary main_v32 main_v36 (fptosi 32 : (⟨S8x12544, .f32⟩ : BufTy).Contents (Elt F) → (⟨S8x12544, .i32⟩ : BufTy).Contents (Elt F)),
    nullary main_c_7 (constantI S_ 32 0#32),
    unary main_c_7 main_v37 (broadcastInDim S8x12544 ![] bcast_S_S8x12544 : (⟨S_, .i32⟩ : BufTy).Contents (Elt F) → (⟨S8x12544, .i32⟩ : BufTy).Contents (Elt F)),
    binary main_v35 main_v37 main_v38 (cmpi .sge : (⟨S8x12544, .i32⟩ : BufTy).Contents (Elt F) → (⟨S8x12544, .i32⟩ : BufTy).Contents (Elt F) → (⟨S8x12544, .i1⟩ : BufTy).Contents (Elt F)),
    nullary main_c_8 (constantI S_ 32 160#32),
    unary main_c_8 main_v39 (broadcastInDim S8x12544 ![] bcast_S_S8x12544 : (⟨S_, .i32⟩ : BufTy).Contents (Elt F) → (⟨S8x12544, .i32⟩ : BufTy).Contents (Elt F)),
    binary main_v35 main_v39 main_v40 (cmpi .slt : (⟨S8x12544, .i32⟩ : BufTy).Contents (Elt F) → (⟨S8x12544, .i32⟩ : BufTy).Contents (Elt F) → (⟨S8x12544, .i1⟩ : BufTy).Contents (Elt F)),
    binary main_v38 main_v40 main_v41 (andi : (⟨S8x12544, .i1⟩ : BufTy).Contents (Elt F) → (⟨S8x12544, .i1⟩ : BufTy).Contents (Elt F) → (⟨S8x12544, .i1⟩ : BufTy).Contents (Elt F)),
    nullary main_c_9 (constantI S_ 32 0#32),
    unary main_c_9 main_v42 (broadcastInDim S8x12544 ![] bcast_S_S8x12544 : (⟨S_, .i32⟩ : BufTy).Contents (Elt F) → (⟨S8x12544, .i32⟩ : BufTy).Contents (Elt F)),
    binary main_v36 main_v42 main_v43 (cmpi .sge : (⟨S8x12544, .i32⟩ : BufTy).Contents (Elt F) → (⟨S8x12544, .i32⟩ : BufTy).Contents (Elt F) → (⟨S8x12544, .i1⟩ : BufTy).Contents (Elt F)),
    binary main_v41 main_v43 main_v44 (andi : (⟨S8x12544, .i1⟩ : BufTy).Contents (Elt F) → (⟨S8x12544, .i1⟩ : BufTy).Contents (Elt F) → (⟨S8x12544, .i1⟩ : BufTy).Contents (Elt F)),
    nullary main_c_10 (constantI S_ 32 160#32),
    unary main_c_10 main_v45 (broadcastInDim S8x12544 ![] bcast_S_S8x12544 : (⟨S_, .i32⟩ : BufTy).Contents (Elt F) → (⟨S8x12544, .i32⟩ : BufTy).Contents (Elt F)),
    binary main_v36 main_v45 main_v46 (cmpi .slt : (⟨S8x12544, .i32⟩ : BufTy).Contents (Elt F) → (⟨S8x12544, .i32⟩ : BufTy).Contents (Elt F) → (⟨S8x12544, .i1⟩ : BufTy).Contents (Elt F))]

abbrev W2 : List (Ref sig .tc) :=
  [main_v23, main_v24, main_v25, main_v26, main_cst_5, main_v27, main_v28, main_cst_6, main_v29, main_v30, main_v31, main_v32, main_v33, main_v34, main_v35, main_v36, main_c_7, main_v37, main_v38, main_c_8, main_v39, main_v40, main_v41, main_c_9, main_v42, main_v43, main_v44, main_c_10, main_v45, main_v46]

theorem ops2_plain : Plains (ops2 : List (HloOp τ sig (Elt F))) W2 := by
  repeat (first | exact .nil | refine .cons (by first | exact .nullary .. | exact .unary .. | exact .binary .. | exact .ternary .. | exact .reshape ..) ?_)

set_option maxRecDepth 8192 in
set_option maxHeartbeats 4000000 in
theorem c2 {x0 : X0 F} {x1 : X1 F} {x2 : X2 F} {x3 : X3 F} {x4 : X4 F} {V : Valuation τ sig (Elt F)}
    (h0 : Holds V (Out0 x0 x1 x2 x3 x4)) (h1 : Holds V (Out1 x0 x1 x2 x3 x4)) :
    Holds (after (ops2 (F := F)) V) (Out2 x0 x1 x2 x3 x4) := by
  simp only [Holds, Out0, Out1, Out2, List.forall_cons, List.Forall, and_true] at h0 h1 ⊢
  after_results_simp
  try simp only [h1.2.2, h1.2.1, h0.2.2.2.2]
  refine ⟨?_, ?_, ?_, ?_, ?_, ?_⟩ <;> rfl

end Cert.ReferenceIdeal.RunH

end
-- ==== Proof.RefRun.W0.lean ====
import proofs.«401846_j83760452207136_3_alg».proof.Proof.RefRun.C01
import proofs.«401846_j83760452207136_3_alg».proof.Proof.RefRun.C02
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq (ops1 ++ ops2) := by chain_rfl

end Cert.ReferenceIdeal.RunH

end
-- ==== Proof.RefRun.C03.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops3 : List (HloOp τ sig (Elt F)) :=
  [ binary main_v44 main_v46 main_v47 (andi : (⟨S8x12544, .i1⟩ : BufTy).Contents (Elt F) → (⟨S8x12544, .i1⟩ : BufTy).Contents (Elt F) → (⟨S8x12544, .i1⟩ : BufTy).Contents (Elt F)),
    unary main_v47 main_v48 (uitofp .f32 : (⟨S8x12544, .i1⟩ : BufTy).Contents (Elt F) → (⟨S8x12544, .f32⟩ : BufTy).Contents (Elt F)),
    nullary main_c_11 (constantI S_ 32 0#32),
    nullary main_c_12 (constantI S_ 32 159#32),
    TRef.unary (TRef.of (T := ⟨S_, .i32⟩) main_c_11) (TRef.of (T := ⟨S_, .i32⟩) main_call0_v0) id,
    TRef.unary (TRef.of (T := ⟨S_, .i32⟩) main_call0_v0) (TRef.of (T := ⟨S8x12544, .i32⟩) main_call0_v1) (broadcastInDim S8x12544 ![] bcast_S_S8x12544),
    TRef.binary (TRef.of (T := ⟨S8x12544, .i32⟩) main_call0_v1) (TRef.of (T := ⟨S8x12544, .i32⟩) main_v36) (TRef.of (T := ⟨S8x12544, .i32⟩) main_call0_v2) maxsi,
    TRef.unary (TRef.of (T := ⟨S_, .i32⟩) main_c_12) (TRef.of (T := ⟨S_, .i32⟩) main_call0_v3) id,
    TRef.unary (TRef.of (T := ⟨S_, .i32⟩) main_call0_v3) (TRef.of (T := ⟨S8x12544, .i32⟩) main_call0_v4) (broadcastInDim S8x12544 ![] bcast_S_S8x12544),
    TRef.binary (TRef.of (T := ⟨S8x12544, .i32⟩) main_call0_v4) (TRef.of (T := ⟨S8x12544, .i32⟩) main_call0_v2) (TRef.of (T := ⟨S8x12544, .i32⟩) main_v49) minsi,
    nullary main_c_13 (constantI S_ 32 0#32),
    nullary main_c_14 (constantI S_ 32 159#32),
    TRef.unary (TRef.of (T := ⟨S_, .i32⟩) main_c_13) (TRef.of (T := ⟨S_, .i32⟩) main_call1_v0) id,
    TRef.unary (TRef.of (T := ⟨S_, .i32⟩) main_call1_v0) (TRef.of (T := ⟨S8x12544, .i32⟩) main_call1_v1) (broadcastInDim S8x12544 ![] bcast_S_S8x12544),
    TRef.binary (TRef.of (T := ⟨S8x12544, .i32⟩) main_call1_v1) (TRef.of (T := ⟨S8x12544, .i32⟩) main_v35) (TRef.of (T := ⟨S8x12544, .i32⟩) main_call1_v2) maxsi,
    TRef.unary (TRef.of (T := ⟨S_, .i32⟩) main_c_14) (TRef.of (T := ⟨S_, .i32⟩) main_call1_v3) id,
    TRef.unary (TRef.of (T := ⟨S_, .i32⟩) main_call1_v3) (TRef.of (T := ⟨S8x12544, .i32⟩) main_call1_v4) (broadcastInDim S8x12544 ![] bcast_S_S8x12544),
    TRef.binary (TRef.of (T := ⟨S8x12544, .i32⟩) main_call1_v4) (TRef.of (T := ⟨S8x12544, .i32⟩) main_call1_v2) (TRef.of (T := ⟨S8x12544, .i32⟩) main_v50) minsi,
    nullary main_c_15 (constantI S_ 32 0#32),
    unary main_c_15 main_v51 (broadcastInDim S8x12544 ![] bcast_S_S8x12544 : (⟨S_, .i32⟩ : BufTy).Contents (Elt F) → (⟨S8x12544, .i32⟩ : BufTy).Contents (Elt F)),
    binary main_v49 main_v51 main_v52 (cmpi .slt : (⟨S8x12544, .i32⟩ : BufTy).Contents (Elt F) → (⟨S8x12544, .i32⟩ : BufTy).Contents (Elt F) → (⟨S8x12544, .i1⟩ : BufTy).Contents (Elt F)),
    nullary main_c_16 (constantI S_ 32 160#32),
    unary main_c_16 main_v53 (broadcastInDim S8x12544 ![] bcast_S_S8x12544 : (⟨S_, .i32⟩ : BufTy).Contents (Elt F) → (⟨S8x12544, .i32⟩ : BufTy).Contents (Elt F)),
    binary main_v49 main_v53 main_v54 (addi : (⟨S8x12544, .i32⟩ : BufTy).Contents (Elt F) → (⟨S8x12544, .i32⟩ : BufTy).Contents (Elt F) → (⟨S8x12544, .i32⟩ : BufTy).Contents (Elt F)),
    ternary main_v52 main_v54 main_v49 main_v55 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_17 (constantI S_ 32 0#32),
    unary main_c_17 main_v56 (broadcastInDim S8x12544 ![] bcast_S_S8x12544 : (⟨S_, .i32⟩ : BufTy).Contents (Elt F) → (⟨S8x12544, .i32⟩ : BufTy).Contents (Elt F)),
    binary main_v50 main_v56 main_v57 (cmpi .slt : (⟨S8x12544, .i32⟩ : BufTy).Contents (Elt F) → (⟨S8x12544, .i32⟩ : BufTy).Contents (Elt F) → (⟨S8x12544, .i1⟩ : BufTy).Contents (Elt F)),
    nullary main_c_18 (constantI S_ 32 160#32),
    unary main_c_18 main_v58 (broadcastInDim S8x12544 ![] bcast_S_S8x12544 : (⟨S_, .i32⟩ : BufTy).Contents (Elt F) → (⟨S8x12544, .i32⟩ : BufTy).Contents (Elt F)),
    binary main_v50 main_v58 main_v59 (addi : (⟨S8x12544, .i32⟩ : BufTy).Contents (Elt F) → (⟨S8x12544, .i32⟩ : BufTy).Contents (Elt F) → (⟨S8x12544, .i32⟩ : BufTy).Contents (Elt F)),
    ternary main_v57 main_v59 main_v50 main_v60 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v55 main_v61 (broadcastInDim S8x12544x1 ![0, 1] bcast_S8x12544_S8x12544x1_0_1 : (⟨S8x12544, .i32⟩ : BufTy).Contents (Elt F) → (⟨S8x12544x1, .i32⟩ : BufTy).Contents (Elt F)),
    unary main_v60 main_v62 (broadcastInDim S8x12544x1 ![0, 1] bcast_S8x12544_S8x12544x1_0_1 : (⟨S8x12544, .i32⟩ : BufTy).Contents (Elt F) → (⟨S8x12544x1, .i32⟩ : BufTy).Contents (Elt F))]

abbrev W3 : List (Ref sig .tc) :=
  [main_v47, main_v48, main_c_11, main_c_12, main_call0_v0, main_call0_v1, main_call0_v2, main_call0_v3, main_call0_v4, main_v49, main_c_13, main_c_14, main_call1_v0, main_call1_v1, main_call1_v2, main_call1_v3, main_call1_v4, main_v50, main_c_15, main_v51, main_v52, main_c_16, main_v53, main_v54, main_v55, main_c_17, main_v56, main_v57, main_c_18, main_v58, main_v59, main_v60, main_v61, main_v62]

theorem ops3_plain : Plains (ops3 : List (HloOp τ sig (Elt F))) W3 := by
  repeat (first | exact .nil | refine .cons (by first | exact .nullary .. | exact .unary .. | exact .binary .. | exact .ternary .. | exact .reshape ..) ?_)

set_option maxRecDepth 8192 in
set_option maxHeartbeats 4000000 in
theorem c3 {x0 : X0 F} {x1 : X1 F} {x2 : X2 F} {x3 : X3 F} {x4 : X4 F} {V : Valuation τ sig (Elt F)}
    (h2 : Holds V (Out2 x0 x1 x2 x3 x4)) :
    Holds (after (ops3 (F := F)) V) (Out3 x0 x1 x2 x3 x4) := by
  simp only [Holds, Out2, Out3, List.forall_cons, List.Forall, and_true] at h2 ⊢
  after_results_simp
  try simp only [h2.2.2.2.2.1, h2.2.2.2.2.2, h2.2.2.2.1, h2.2.2.1]
  refine ⟨?_, ?_, ?_⟩ <;> rfl

end Cert.ReferenceIdeal.RunH

end
-- ==== Proof.RefRun.C04.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops4 : List (HloOp τ sig (Elt F)) :=
  [ binary main_v61 main_v62 main_v63 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg0 main_v63 main_v64 ((fun x i => Host.gather gather_S8x150x160x160_S8x12544x2_S8x150x12544_1_23_0_0_23_2_115011 x i) : (⟨S8x150x160x160, .f32⟩ : BufTy).Contents (Elt F) → (⟨S8x12544x2, .i32⟩ : BufTy).Contents (Elt F) → (⟨S8x150x12544, .f32⟩ : BufTy).Contents (Elt F)),
    unary main_v48 main_v65 (broadcastInDim S8x1x12544 ![0, 2] bcast_S8x12544_S8x1x12544_0_2 : (⟨S8x12544, .f32⟩ : BufTy).Contents (Elt F) → (⟨S8x1x12544, .f32⟩ : BufTy).Contents (Elt F)),
    unary main_v65 main_v66 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v64 main_v66 main_v67 (mulf : (⟨S8x150x12544, .f32⟩ : BufTy).Contents (Elt F) → (⟨S8x150x12544, .f32⟩ : BufTy).Contents (Elt F) → (⟨S8x150x12544, .f32⟩ : BufTy).Contents (Elt F)),
    nullary main_c_19 (constantI S_ 32 1#32),
    unary main_c_19 main_v68 (broadcastInDim S8x12544 ![] bcast_S_S8x12544 : (⟨S_, .i32⟩ : BufTy).Contents (Elt F) → (⟨S8x12544, .i32⟩ : BufTy).Contents (Elt F)),
    binary main_v35 main_v68 main_v69 (addi : (⟨S8x12544, .i32⟩ : BufTy).Contents (Elt F) → (⟨S8x12544, .i32⟩ : BufTy).Contents (Elt F) → (⟨S8x12544, .i32⟩ : BufTy).Contents (Elt F)),
    nullary main_c_20 (constantI S_ 32 0#32),
    unary main_c_20 main_v70 (broadcastInDim S8x12544 ![] bcast_S_S8x12544 : (⟨S_, .i32⟩ : BufTy).Contents (Elt F) → (⟨S8x12544, .i32⟩ : BufTy).Contents (Elt F)),
    binary main_v69 main_v70 main_v71 (cmpi .sge : (⟨S8x12544, .i32⟩ : BufTy).Contents (Elt F) → (⟨S8x12544, .i32⟩ : BufTy).Contents (Elt F) → (⟨S8x12544, .i1⟩ : BufTy).Contents (Elt F)),
    nullary main_c_21 (constantI S_ 32 160#32),
    unary main_c_21 main_v72 (broadcastInDim S8x12544 ![] bcast_S_S8x12544 : (⟨S_, .i32⟩ : BufTy).Contents (Elt F) → (⟨S8x12544, .i32⟩ : BufTy).Contents (Elt F)),
    binary main_v69 main_v72 main_v73 (cmpi .slt : (⟨S8x12544, .i32⟩ : BufTy).Contents (Elt F) → (⟨S8x12544, .i32⟩ : BufTy).Contents (Elt F) → (⟨S8x12544, .i1⟩ : BufTy).Contents (Elt F)),
    binary main_v71 main_v73 main_v74 (andi : (⟨S8x12544, .i1⟩ : BufTy).Contents (Elt F) → (⟨S8x12544, .i1⟩ : BufTy).Contents (Elt F) → (⟨S8x12544, .i1⟩ : BufTy).Contents (Elt F)),
    nullary main_c_22 (constantI S_ 32 0#32),
    unary main_c_22 main_v75 (broadcastInDim S8x12544 ![] bcast_S_S8x12544 : (⟨S_, .i32⟩ : BufTy).Contents (Elt F) → (⟨S8x12544, .i32⟩ : BufTy).Contents (Elt F)),
    binary main_v36 main_v75 main_v76 (cmpi .sge : (⟨S8x12544, .i32⟩ : BufTy).Contents (Elt F) → (⟨S8x12544, .i32⟩ : BufTy).Contents (Elt F) → (⟨S8x12544, .i1⟩ : BufTy).Contents (Elt F)),
    binary main_v74 main_v76 main_v77 (andi : (⟨S8x12544, .i1⟩ : BufTy).Contents (Elt F) → (⟨S8x12544, .i1⟩ : BufTy).Contents (Elt F) → (⟨S8x12544, .i1⟩ : BufTy).Contents (Elt F)),
    nullary main_c_23 (constantI S_ 32 160#32),
    unary main_c_23 main_v78 (broadcastInDim S8x12544 ![] bcast_S_S8x12544 : (⟨S_, .i32⟩ : BufTy).Contents (Elt F) → (⟨S8x12544, .i32⟩ : BufTy).Contents (Elt F)),
    binary main_v36 main_v78 main_v79 (cmpi .slt : (⟨S8x12544, .i32⟩ : BufTy).Contents (Elt F) → (⟨S8x12544, .i32⟩ : BufTy).Contents (Elt F) → (⟨S8x12544, .i1⟩ : BufTy).Contents (Elt F)),
    binary main_v77 main_v79 main_v80 (andi : (⟨S8x12544, .i1⟩ : BufTy).Contents (Elt F) → (⟨S8x12544, .i1⟩ : BufTy).Contents (Elt F) → (⟨S8x12544, .i1⟩ : BufTy).Contents (Elt F))]

abbrev W4 : List (Ref sig .tc) :=
  [main_v63, main_v64, main_v65, main_v66, main_v67, main_c_19, main_v68, main_v69, main_c_20, main_v70, main_v71, main_c_21, main_v72, main_v73, main_v74, main_c_22, main_v75, main_v76, main_v77, main_c_23, main_v78, main_v79, main_v80]

theorem ops4_plain : Plains (ops4 : List (HloOp τ sig (Elt F))) W4 := by
  repeat (first | exact .nil | refine .cons (by first | exact .nullary .. | exact .unary .. | exact .binary .. | exact .ternary .. | exact .reshape ..) ?_)

set_option maxRecDepth 8192 in
set_option maxHeartbeats 4000000 in
theorem c4 {x0 : X0 F} {x1 : X1 F} {x2 : X2 F} {x3 : X3 F} {x4 : X4 F} {V : Valuation τ sig (Elt F)}
    (h0 : Holds V (Out0 x0 x1 x2 x3 x4)) (h2 : Holds V (Out2 x0 x1 x2 x3 x4)) (h3 : Holds V (Out3 x0 x1 x2 x3 x4)) :
    Holds (after (ops4 (F := F)) V) (Out4 x0 x1 x2 x3 x4) := by
  simp only [Holds, Out0, Out2, Out3, Out4, List.forall_cons, List.Forall, and_true] at h0 h2 h3 ⊢
  after_results_simp
  try simp only [h3.2.1, h3.2.2, h0.1, h3.1, h2.2.2.1, h2.2.2.2.1]
  try rw [h3.2.1]
  try rw [h3.2.2]
  refine ⟨?_, ?_, ?_⟩ <;> rfl

end Cert.ReferenceIdeal.RunH

end
-- ==== Proof.RefRun.C05.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops5 : List (HloOp τ sig (Elt F)) :=
  [ unary main_v80 main_v81 (uitofp .f32 : (⟨S8x12544, .i1⟩ : BufTy).Contents (Elt F) → (⟨S8x12544, .f32⟩ : BufTy).Contents (Elt F)),
    nullary main_c_24 (constantI S_ 32 0#32),
    nullary main_c_25 (constantI S_ 32 159#32),
    TRef.unary (TRef.of (T := ⟨S_, .i32⟩) main_c_24) (TRef.of (T := ⟨S_, .i32⟩) main_call2_v0) id,
    TRef.unary (TRef.of (T := ⟨S_, .i32⟩) main_call2_v0) (TRef.of (T := ⟨S8x12544, .i32⟩) main_call2_v1) (broadcastInDim S8x12544 ![] bcast_S_S8x12544),
    TRef.binary (TRef.of (T := ⟨S8x12544, .i32⟩) main_call2_v1) (TRef.of (T := ⟨S8x12544, .i32⟩) main_v36) (TRef.of (T := ⟨S8x12544, .i32⟩) main_call2_v2) maxsi,
    TRef.unary (TRef.of (T := ⟨S_, .i32⟩) main_c_25) (TRef.of (T := ⟨S_, .i32⟩) main_call2_v3) id,
    TRef.unary (TRef.of (T := ⟨S_, .i32⟩) main_call2_v3) (TRef.of (T := ⟨S8x12544, .i32⟩) main_call2_v4) (broadcastInDim S8x12544 ![] bcast_S_S8x12544),
    TRef.binary (TRef.of (T := ⟨S8x12544, .i32⟩) main_call2_v4) (TRef.of (T := ⟨S8x12544, .i32⟩) main_call2_v2) (TRef.of (T := ⟨S8x12544, .i32⟩) main_v82) minsi,
    nullary main_c_26 (constantI S_ 32 0#32),
    nullary main_c_27 (constantI S_ 32 159#32),
    TRef.unary (TRef.of (T := ⟨S_, .i32⟩) main_c_26) (TRef.of (T := ⟨S_, .i32⟩) main_call3_v0) id,
    TRef.unary (TRef.of (T := ⟨S_, .i32⟩) main_call3_v0) (TRef.of (T := ⟨S8x12544, .i32⟩) main_call3_v1) (broadcastInDim S8x12544 ![] bcast_S_S8x12544),
    TRef.binary (TRef.of (T := ⟨S8x12544, .i32⟩) main_call3_v1) (TRef.of (T := ⟨S8x12544, .i32⟩) main_v69) (TRef.of (T := ⟨S8x12544, .i32⟩) main_call3_v2) maxsi,
    TRef.unary (TRef.of (T := ⟨S_, .i32⟩) main_c_27) (TRef.of (T := ⟨S_, .i32⟩) main_call3_v3) id,
    TRef.unary (TRef.of (T := ⟨S_, .i32⟩) main_call3_v3) (TRef.of (T := ⟨S8x12544, .i32⟩) main_call3_v4) (broadcastInDim S8x12544 ![] bcast_S_S8x12544),
    TRef.binary (TRef.of (T := ⟨S8x12544, .i32⟩) main_call3_v4) (TRef.of (T := ⟨S8x12544, .i32⟩) main_call3_v2) (TRef.of (T := ⟨S8x12544, .i32⟩) main_v83) minsi,
    nullary main_c_28 (constantI S_ 32 0#32),
    unary main_c_28 main_v84 (broadcastInDim S8x12544 ![] bcast_S_S8x12544 : (⟨S_, .i32⟩ : BufTy).Contents (Elt F) → (⟨S8x12544, .i32⟩ : BufTy).Contents (Elt F)),
    binary main_v82 main_v84 main_v85 (cmpi .slt : (⟨S8x12544, .i32⟩ : BufTy).Contents (Elt F) → (⟨S8x12544, .i32⟩ : BufTy).Contents (Elt F) → (⟨S8x12544, .i1⟩ : BufTy).Contents (Elt F)),
    nullary main_c_29 (constantI S_ 32 160#32),
    unary main_c_29 main_v86 (broadcastInDim S8x12544 ![] bcast_S_S8x12544 : (⟨S_, .i32⟩ : BufTy).Contents (Elt F) → (⟨S8x12544, .i32⟩ : BufTy).Contents (Elt F)),
    binary main_v82 main_v86 main_v87 (addi : (⟨S8x12544, .i32⟩ : BufTy).Contents (Elt F) → (⟨S8x12544, .i32⟩ : BufTy).Contents (Elt F) → (⟨S8x12544, .i32⟩ : BufTy).Contents (Elt F))]

abbrev W5 : List (Ref sig .tc) :=
  [main_v81, main_c_24, main_c_25, main_call2_v0, main_call2_v1, main_call2_v2, main_call2_v3, main_call2_v4, main_v82, main_c_26, main_c_27, main_call3_v0, main_call3_v1, main_call3_v2, main_call3_v3, main_call3_v4, main_v83, main_c_28, main_v84, main_v85, main_c_29, main_v86, main_v87]

theorem ops5_plain : Plains (ops5 : List (HloOp τ sig (Elt F))) W5 := by
  repeat (first | exact .nil | refine .cons (by first | exact .nullary .. | exact .unary .. | exact .binary .. | exact .ternary .. | exact .reshape ..) ?_)

set_option maxRecDepth 8192 in
set_option maxHeartbeats 4000000 in
theorem c5 {x0 : X0 F} {x1 : X1 F} {x2 : X2 F} {x3 : X3 F} {x4 : X4 F} {V : Valuation τ sig (Elt F)}
    (h2 : Holds V (Out2 x0 x1 x2 x3 x4)) (h4 : Holds V (Out4 x0 x1 x2 x3 x4)) :
    Holds (after (ops5 (F := F)) V) (Out5 x0 x1 x2 x3 x4) := by
  simp only [Holds, Out2, Out4, Out5, List.forall_cons, List.Forall, and_true] at h2 h4 ⊢
  after_results_simp
  try simp only [h4.2.2, h2.2.2.2.1, h4.2.1]
  refine ⟨?_, ?_, ?_, ?_, ?_⟩ <;> rfl

end Cert.ReferenceIdeal.RunH

end
-- ==== Proof.RefRun.W1.lean ====
import proofs.«401846_j83760452207136_3_alg».proof.Proof.RefRun.C03
import proofs.«401846_j83760452207136_3_alg».proof.Proof.RefRun.C04
import proofs.«401846_j83760452207136_3_alg».proof.Proof.RefRun.C05
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part1_eq (c : Dev nD) : main_part1 (F := F) c = seq (ops3 ++ (ops4 ++ ops5)) := by chain_rfl

end Cert.ReferenceIdeal.RunH

end
-- ==== Proof.RefRun.C06.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops6 : List (HloOp τ sig (Elt F)) :=
  [ ternary main_v85 main_v87 main_v82 main_v88 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_30 (constantI S_ 32 0#32),
    unary main_c_30 main_v89 (broadcastInDim S8x12544 ![] bcast_S_S8x12544 : (⟨S_, .i32⟩ : BufTy).Contents (Elt F) → (⟨S8x12544, .i32⟩ : BufTy).Contents (Elt F)),
    binary main_v83 main_v89 main_v90 (cmpi .slt : (⟨S8x12544, .i32⟩ : BufTy).Contents (Elt F) → (⟨S8x12544, .i32⟩ : BufTy).Contents (Elt F) → (⟨S8x12544, .i1⟩ : BufTy).Contents (Elt F)),
    nullary main_c_31 (constantI S_ 32 160#32),
    unary main_c_31 main_v91 (broadcastInDim S8x12544 ![] bcast_S_S8x12544 : (⟨S_, .i32⟩ : BufTy).Contents (Elt F) → (⟨S8x12544, .i32⟩ : BufTy).Contents (Elt F)),
    binary main_v83 main_v91 main_v92 (addi : (⟨S8x12544, .i32⟩ : BufTy).Contents (Elt F) → (⟨S8x12544, .i32⟩ : BufTy).Contents (Elt F) → (⟨S8x12544, .i32⟩ : BufTy).Contents (Elt F)),
    ternary main_v90 main_v92 main_v83 main_v93 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v88 main_v94 (broadcastInDim S8x12544x1 ![0, 1] bcast_S8x12544_S8x12544x1_0_1 : (⟨S8x12544, .i32⟩ : BufTy).Contents (Elt F) → (⟨S8x12544x1, .i32⟩ : BufTy).Contents (Elt F)),
    unary main_v93 main_v95 (broadcastInDim S8x12544x1 ![0, 1] bcast_S8x12544_S8x12544x1_0_1 : (⟨S8x12544, .i32⟩ : BufTy).Contents (Elt F) → (⟨S8x12544x1, .i32⟩ : BufTy).Contents (Elt F))]

abbrev W6 : List (Ref sig .tc) :=
  [main_v88, main_c_30, main_v89, main_v90, main_c_31, main_v91, main_v92, main_v93, main_v94, main_v95]

theorem ops6_plain : Plains (ops6 : List (HloOp τ sig (Elt F))) W6 := by
  repeat (first | exact .nil | refine .cons (by first | exact .nullary .. | exact .unary .. | exact .binary .. | exact .ternary .. | exact .reshape ..) ?_)

set_option maxRecDepth 8192 in
set_option maxHeartbeats 4000000 in
theorem c6 {x0 : X0 F} {x1 : X1 F} {x2 : X2 F} {x3 : X3 F} {x4 : X4 F} {V : Valuation τ sig (Elt F)}
    (h5 : Holds V (Out5 x0 x1 x2 x3 x4)) :
    Holds (after (ops6 (F := F)) V) (Out6 x0 x1 x2 x3 x4) := by
  simp only [Holds, Out5, Out6, List.forall_cons, List.Forall, and_true] at h5 ⊢
  after_results_simp
  try simp only [h5.2.2.2.1, h5.2.2.2.2, h5.2.1, h5.2.2.1]
  refine ⟨?_, ?_⟩ <;> rfl

end Cert.ReferenceIdeal.RunH

end
-- ==== Proof.RefRun.C07.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops7 : List (HloOp τ sig (Elt F)) :=
  [ binary main_v94 main_v95 main_v96 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg0 main_v96 main_v97 ((fun x i => Host.gather gather_S8x150x160x160_S8x12544x2_S8x150x12544_1_23_0_0_23_2_115011 x i) : (⟨S8x150x160x160, .f32⟩ : BufTy).Contents (Elt F) → (⟨S8x12544x2, .i32⟩ : BufTy).Contents (Elt F) → (⟨S8x150x12544, .f32⟩ : BufTy).Contents (Elt F)),
    unary main_v81 main_v98 (broadcastInDim S8x1x12544 ![0, 2] bcast_S8x12544_S8x1x12544_0_2 : (⟨S8x12544, .f32⟩ : BufTy).Contents (Elt F) → (⟨S8x1x12544, .f32⟩ : BufTy).Contents (Elt F)),
    unary main_v98 main_v99 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v97 main_v99 main_v100 (mulf : (⟨S8x150x12544, .f32⟩ : BufTy).Contents (Elt F) → (⟨S8x150x12544, .f32⟩ : BufTy).Contents (Elt F) → (⟨S8x150x12544, .f32⟩ : BufTy).Contents (Elt F)),
    nullary main_c_32 (constantI S_ 32 1#32),
    unary main_c_32 main_v101 (broadcastInDim S8x12544 ![] bcast_S_S8x12544 : (⟨S_, .i32⟩ : BufTy).Contents (Elt F) → (⟨S8x12544, .i32⟩ : BufTy).Contents (Elt F)),
    binary main_v36 main_v101 main_v102 (addi : (⟨S8x12544, .i32⟩ : BufTy).Contents (Elt F) → (⟨S8x12544, .i32⟩ : BufTy).Contents (Elt F) → (⟨S8x12544, .i32⟩ : BufTy).Contents (Elt F)),
    nullary main_c_33 (constantI S_ 32 0#32),
    unary main_c_33 main_v103 (broadcastInDim S8x12544 ![] bcast_S_S8x12544 : (⟨S_, .i32⟩ : BufTy).Contents (Elt F) → (⟨S8x12544, .i32⟩ : BufTy).Contents (Elt F)),
    binary main_v35 main_v103 main_v104 (cmpi .sge : (⟨S8x12544, .i32⟩ : BufTy).Contents (Elt F) → (⟨S8x12544, .i32⟩ : BufTy).Contents (Elt F) → (⟨S8x12544, .i1⟩ : BufTy).Contents (Elt F)),
    nullary main_c_34 (constantI S_ 32 160#32),
    unary main_c_34 main_v105 (broadcastInDim S8x12544 ![] bcast_S_S8x12544 : (⟨S_, .i32⟩ : BufTy).Contents (Elt F) → (⟨S8x12544, .i32⟩ : BufTy).Contents (Elt F)),
    binary main_v35 main_v105 main_v106 (cmpi .slt : (⟨S8x12544, .i32⟩ : BufTy).Contents (Elt F) → (⟨S8x12544, .i32⟩ : BufTy).Contents (Elt F) → (⟨S8x12544, .i1⟩ : BufTy).Contents (Elt F)),
    binary main_v104 main_v106 main_v107 (andi : (⟨S8x12544, .i1⟩ : BufTy).Contents (Elt F) → (⟨S8x12544, .i1⟩ : BufTy).Contents (Elt F) → (⟨S8x12544, .i1⟩ : BufTy).Contents (Elt F)),
    nullary main_c_35 (constantI S_ 32 0#32),
    unary main_c_35 main_v108 (broadcastInDim S8x12544 ![] bcast_S_S8x12544 : (⟨S_, .i32⟩ : BufTy).Contents (Elt F) → (⟨S8x12544, .i32⟩ : BufTy).Contents (Elt F)),
    binary main_v102 main_v108 main_v109 (cmpi .sge : (⟨S8x12544, .i32⟩ : BufTy).Contents (Elt F) → (⟨S8x12544, .i32⟩ : BufTy).Contents (Elt F) → (⟨S8x12544, .i1⟩ : BufTy).Contents (Elt F)),
    binary main_v107 main_v109 main_v110 (andi : (⟨S8x12544, .i1⟩ : BufTy).Contents (Elt F) → (⟨S8x12544, .i1⟩ : BufTy).Contents (Elt F) → (⟨S8x12544, .i1⟩ : BufTy).Contents (Elt F)),
    nullary main_c_36 (constantI S_ 32 160#32),
    unary main_c_36 main_v111 (broadcastInDim S8x12544 ![] bcast_S_S8x12544 : (⟨S_, .i32⟩ : BufTy).Contents (Elt F) → (⟨S8x12544, .i32⟩ : BufTy).Contents (Elt F)),
    binary main_v102 main_v111 main_v112 (cmpi .slt : (⟨S8x12544, .i32⟩ : BufTy).Contents (Elt F) → (⟨S8x12544, .i32⟩ : BufTy).Contents (Elt F) → (⟨S8x12544, .i1⟩ : BufTy).Contents (Elt F)),
    binary main_v110 main_v112 main_v113 (andi : (⟨S8x12544, .i1⟩ : BufTy).Contents (Elt F) → (⟨S8x12544, .i1⟩ : BufTy).Contents (Elt F) → (⟨S8x12544, .i1⟩ : BufTy).Contents (Elt F)),
    unary main_v113 main_v114 (uitofp .f32 : (⟨S8x12544, .i1⟩ : BufTy).Contents (Elt F) → (⟨S8x12544, .f32⟩ : BufTy).Contents (Elt F)),
    nullary main_c_37 (constantI S_ 32 0#32),
    nullary main_c_38 (constantI S_ 32 159#32),
    TRef.unary (TRef.of (T := ⟨S_, .i32⟩) main_c_37) (TRef.of (T := ⟨S_, .i32⟩) main_call4_v0) id,
    TRef.unary (TRef.of (T := ⟨S_, .i32⟩) main_call4_v0) (TRef.of (T := ⟨S8x12544, .i32⟩) main_call4_v1) (broadcastInDim S8x12544 ![] bcast_S_S8x12544)]

abbrev W7 : List (Ref sig .tc) :=
  [main_v96, main_v97, main_v98, main_v99, main_v100, main_c_32, main_v101, main_v102, main_c_33, main_v103, main_v104, main_c_34, main_v105, main_v106, main_v107, main_c_35, main_v108, main_v109, main_v110, main_c_36, main_v111, main_v112, main_v113, main_v114, main_c_37, main_c_38, main_call4_v0, main_call4_v1]

theorem ops7_plain : Plains (ops7 : List (HloOp τ sig (Elt F))) W7 := by
  repeat (first | exact .nil | refine .cons (by first | exact .nullary .. | exact .unary .. | exact .binary .. | exact .ternary .. | exact .reshape ..) ?_)

set_option maxRecDepth 8192 in
set_option maxHeartbeats 4000000 in
theorem c7 {x0 : X0 F} {x1 : X1 F} {x2 : X2 F} {x3 : X3 F} {x4 : X4 F} {V : Valuation τ sig (Elt F)}
    (h0 : Holds V (Out0 x0 x1 x2 x3 x4)) (h2 : Holds V (Out2 x0 x1 x2 x3 x4)) (h5 : Holds V (Out5 x0 x1 x2 x3 x4)) (h6 : Holds V (Out6 x0 x1 x2 x3 x4)) :
    Holds (after (ops7 (F := F)) V) (Out7 x0 x1 x2 x3 x4) := by
  simp only [Holds, Out0, Out2, Out5, Out6, Out7, List.forall_cons, List.Forall, and_true] at h0 h2 h5 h6 ⊢
  after_results_simp
  try simp only [h6.1, h6.2, h0.1, h5.1, h2.2.2.2.1, h2.2.2.1]
  try rw [h6.1]
  try rw [h6.2]
  refine ⟨?_, ?_, ?_, ?_, ?_⟩ <;> rfl

end Cert.ReferenceIdeal.RunH

end
-- ==== Proof.RefRun.C08.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops8 : List (HloOp τ sig (Elt F)) :=
  [ TRef.binary (TRef.of (T := ⟨S8x12544, .i32⟩) main_call4_v1) (TRef.of (T := ⟨S8x12544, .i32⟩) main_v102) (TRef.of (T := ⟨S8x12544, .i32⟩) main_call4_v2) maxsi,
    TRef.unary (TRef.of (T := ⟨S_, .i32⟩) main_c_38) (TRef.of (T := ⟨S_, .i32⟩) main_call4_v3) id,
    TRef.unary (TRef.of (T := ⟨S_, .i32⟩) main_call4_v3) (TRef.of (T := ⟨S8x12544, .i32⟩) main_call4_v4) (broadcastInDim S8x12544 ![] bcast_S_S8x12544),
    TRef.binary (TRef.of (T := ⟨S8x12544, .i32⟩) main_call4_v4) (TRef.of (T := ⟨S8x12544, .i32⟩) main_call4_v2) (TRef.of (T := ⟨S8x12544, .i32⟩) main_v115) minsi,
    nullary main_c_39 (constantI S_ 32 0#32),
    nullary main_c_40 (constantI S_ 32 159#32),
    TRef.unary (TRef.of (T := ⟨S_, .i32⟩) main_c_39) (TRef.of (T := ⟨S_, .i32⟩) main_call5_v0) id,
    TRef.unary (TRef.of (T := ⟨S_, .i32⟩) main_call5_v0) (TRef.of (T := ⟨S8x12544, .i32⟩) main_call5_v1) (broadcastInDim S8x12544 ![] bcast_S_S8x12544),
    TRef.binary (TRef.of (T := ⟨S8x12544, .i32⟩) main_call5_v1) (TRef.of (T := ⟨S8x12544, .i32⟩) main_v35) (TRef.of (T := ⟨S8x12544, .i32⟩) main_call5_v2) maxsi,
    TRef.unary (TRef.of (T := ⟨S_, .i32⟩) main_c_40) (TRef.of (T := ⟨S_, .i32⟩) main_call5_v3) id,
    TRef.unary (TRef.of (T := ⟨S_, .i32⟩) main_call5_v3) (TRef.of (T := ⟨S8x12544, .i32⟩) main_call5_v4) (broadcastInDim S8x12544 ![] bcast_S_S8x12544),
    TRef.binary (TRef.of (T := ⟨S8x12544, .i32⟩) main_call5_v4) (TRef.of (T := ⟨S8x12544, .i32⟩) main_call5_v2) (TRef.of (T := ⟨S8x12544, .i32⟩) main_v116) minsi,
    nullary main_c_41 (constantI S_ 32 0#32),
    unary main_c_41 main_v117 (broadcastInDim S8x12544 ![] bcast_S_S8x12544 : (⟨S_, .i32⟩ : BufTy).Contents (Elt F) → (⟨S8x12544, .i32⟩ : BufTy).Contents (Elt F)),
    binary main_v115 main_v117 main_v118 (cmpi .slt : (⟨S8x12544, .i32⟩ : BufTy).Contents (Elt F) → (⟨S8x12544, .i32⟩ : BufTy).Contents (Elt F) → (⟨S8x12544, .i1⟩ : BufTy).Contents (Elt F)),
    nullary main_c_42 (constantI S_ 32 160#32),
    unary main_c_42 main_v119 (broadcastInDim S8x12544 ![] bcast_S_S8x12544 : (⟨S_, .i32⟩ : BufTy).Contents (Elt F) → (⟨S8x12544, .i32⟩ : BufTy).Contents (Elt F)),
    binary main_v115 main_v119 main_v120 (addi : (⟨S8x12544, .i32⟩ : BufTy).Contents (Elt F) → (⟨S8x12544, .i32⟩ : BufTy).Contents (Elt F) → (⟨S8x12544, .i32⟩ : BufTy).Contents (Elt F)),
    ternary main_v118 main_v120 main_v115 main_v121 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_43 (constantI S_ 32 0#32),
    unary main_c_43 main_v122 (broadcastInDim S8x12544 ![] bcast_S_S8x12544 : (⟨S_, .i32⟩ : BufTy).Contents (Elt F) → (⟨S8x12544, .i32⟩ : BufTy).Contents (Elt F)),
    binary main_v116 main_v122 main_v123 (cmpi .slt : (⟨S8x12544, .i32⟩ : BufTy).Contents (Elt F) → (⟨S8x12544, .i32⟩ : BufTy).Contents (Elt F) → (⟨S8x12544, .i1⟩ : BufTy).Contents (Elt F)),
    nullary main_c_44 (constantI S_ 32 160#32),
    unary main_c_44 main_v124 (broadcastInDim S8x12544 ![] bcast_S_S8x12544 : (⟨S_, .i32⟩ : BufTy).Contents (Elt F) → (⟨S8x12544, .i32⟩ : BufTy).Contents (Elt F)),
    binary main_v116 main_v124 main_v125 (addi : (⟨S8x12544, .i32⟩ : BufTy).Contents (Elt F) → (⟨S8x12544, .i32⟩ : BufTy).Contents (Elt F) → (⟨S8x12544, .i32⟩ : BufTy).Contents (Elt F)),
    ternary main_v123 main_v125 main_v116 main_v126 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v121 main_v127 (broadcastInDim S8x12544x1 ![0, 1] bcast_S8x12544_S8x12544x1_0_1 : (⟨S8x12544, .i32⟩ : BufTy).Contents (Elt F) → (⟨S8x12544x1, .i32⟩ : BufTy).Contents (Elt F)),
    unary main_v126 main_v128 (broadcastInDim S8x12544x1 ![0, 1] bcast_S8x12544_S8x12544x1_0_1 : (⟨S8x12544, .i32⟩ : BufTy).Contents (Elt F) → (⟨S8x12544x1, .i32⟩ : BufTy).Contents (Elt F))]

abbrev W8 : List (Ref sig .tc) :=
  [main_call4_v2, main_call4_v3, main_call4_v4, main_v115, main_c_39, main_c_40, main_call5_v0, main_call5_v1, main_call5_v2, main_call5_v3, main_call5_v4, main_v116, main_c_41, main_v117, main_v118, main_c_42, main_v119, main_v120, main_v121, main_c_43, main_v122, main_v123, main_c_44, main_v124, main_v125, main_v126, main_v127, main_v128]

theorem ops8_plain : Plains (ops8 : List (HloOp τ sig (Elt F))) W8 := by
  repeat (first | exact .nil | refine .cons (by first | exact .nullary .. | exact .unary .. | exact .binary .. | exact .ternary .. | exact .reshape ..) ?_)

set_option maxRecDepth 8192 in
set_option maxHeartbeats 4000000 in
theorem c8 {x0 : X0 F} {x1 : X1 F} {x2 : X2 F} {x3 : X3 F} {x4 : X4 F} {V : Valuation τ sig (Elt F)}
    (h2 : Holds V (Out2 x0 x1 x2 x3 x4)) (h7 : Holds V (Out7 x0 x1 x2 x3 x4)) :
    Holds (after (ops8 (F := F)) V) (Out8 x0 x1 x2 x3 x4) := by
  simp only [Holds, Out2, Out7, Out8, List.forall_cons, List.Forall, and_true] at h2 h7 ⊢
  after_results_simp
  try simp only [h7.2.2.2.2, h7.2.1, h7.2.2.2.1, h2.2.2.1]
  refine ⟨?_, ?_⟩ <;> rfl

end Cert.ReferenceIdeal.RunH

end
-- ==== Proof.RefRun.C09.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops9 : List (HloOp τ sig (Elt F)) :=
  [ binary main_v127 main_v128 main_v129 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg0 main_v129 main_v130 ((fun x i => Host.gather gather_S8x150x160x160_S8x12544x2_S8x150x12544_1_23_0_0_23_2_115011 x i) : (⟨S8x150x160x160, .f32⟩ : BufTy).Contents (Elt F) → (⟨S8x12544x2, .i32⟩ : BufTy).Contents (Elt F) → (⟨S8x150x12544, .f32⟩ : BufTy).Contents (Elt F)),
    unary main_v114 main_v131 (broadcastInDim S8x1x12544 ![0, 2] bcast_S8x12544_S8x1x12544_0_2 : (⟨S8x12544, .f32⟩ : BufTy).Contents (Elt F) → (⟨S8x1x12544, .f32⟩ : BufTy).Contents (Elt F)),
    unary main_v131 main_v132 (broadcastInDim S8x150x12544 ![0, 1, 2] bcast_S8x1x12544_S8x150x12544_0_1_2 : (⟨S8x1x12544, .f32⟩ : BufTy).Contents (Elt F) → (⟨S8x150x12544, .f32⟩ : BufTy).Contents (Elt F))]

abbrev W9 : List (Ref sig .tc) :=
  [main_v129, main_v130, main_v131, main_v132]

theorem ops9_plain : Plains (ops9 : List (HloOp τ sig (Elt F))) W9 := by
  repeat (first | exact .nil | refine .cons (by first | exact .nullary .. | exact .unary .. | exact .binary .. | exact .ternary .. | exact .reshape ..) ?_)

set_option maxRecDepth 8192 in
set_option maxHeartbeats 4000000 in
theorem c9 {x0 : X0 F} {x1 : X1 F} {x2 : X2 F} {x3 : X3 F} {x4 : X4 F} {V : Valuation τ sig (Elt F)}
    (h0 : Holds V (Out0 x0 x1 x2 x3 x4)) (h7 : Holds V (Out7 x0 x1 x2 x3 x4)) (h8 : Holds V (Out8 x0 x1 x2 x3 x4)) :
    Holds (after (ops9 (F := F)) V) (Out9 x0 x1 x2 x3 x4) := by
  simp only [Holds, Out0, Out7, Out8, Out9, List.forall_cons, List.Forall, and_true] at h0 h7 h8 ⊢
  after_results_simp
  try simp only [h8.1, h8.2, h0.1, h7.2.2.1]
  try rw [h8.1]
  try rw [h8.2]
  refine ⟨?_, ?_⟩ <;> rfl

end Cert.ReferenceIdeal.RunH

end
-- ==== Proof.RefRun.W2.lean ====
import proofs.«401846_j83760452207136_3_alg».proof.Proof.RefRun.C06
import proofs.«401846_j83760452207136_3_alg».proof.Proof.RefRun.C07
import proofs.«401846_j83760452207136_3_alg».proof.Proof.RefRun.C08
import proofs.«401846_j83760452207136_3_alg».proof.Proof.RefRun.C09
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part2_eq (c : Dev nD) : main_part2 (F := F) c = seq (ops6 ++ (ops7 ++ (ops8 ++ ops9))) := by chain_rfl

end Cert.ReferenceIdeal.RunH

end
-- ==== Proof.RefRun.C10.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops10 : List (HloOp τ sig (Elt F)) :=
  [ binary main_v130 main_v132 main_v133 (mulf : (⟨S8x150x12544, .f32⟩ : BufTy).Contents (Elt F) → (⟨S8x150x12544, .f32⟩ : BufTy).Contents (Elt F) → (⟨S8x150x12544, .f32⟩ : BufTy).Contents (Elt F)),
    nullary main_c_45 (constantI S_ 32 1#32),
    unary main_c_45 main_v134 (broadcastInDim S8x12544 ![] bcast_S_S8x12544 : (⟨S_, .i32⟩ : BufTy).Contents (Elt F) → (⟨S8x12544, .i32⟩ : BufTy).Contents (Elt F)),
    binary main_v35 main_v134 main_v135 (addi : (⟨S8x12544, .i32⟩ : BufTy).Contents (Elt F) → (⟨S8x12544, .i32⟩ : BufTy).Contents (Elt F) → (⟨S8x12544, .i32⟩ : BufTy).Contents (Elt F)),
    nullary main_c_46 (constantI S_ 32 1#32),
    unary main_c_46 main_v136 (broadcastInDim S8x12544 ![] bcast_S_S8x12544 : (⟨S_, .i32⟩ : BufTy).Contents (Elt F) → (⟨S8x12544, .i32⟩ : BufTy).Contents (Elt F)),
    binary main_v36 main_v136 main_v137 (addi : (⟨S8x12544, .i32⟩ : BufTy).Contents (Elt F) → (⟨S8x12544, .i32⟩ : BufTy).Contents (Elt F) → (⟨S8x12544, .i32⟩ : BufTy).Contents (Elt F)),
    nullary main_c_47 (constantI S_ 32 0#32),
    unary main_c_47 main_v138 (broadcastInDim S8x12544 ![] bcast_S_S8x12544 : (⟨S_, .i32⟩ : BufTy).Contents (Elt F) → (⟨S8x12544, .i32⟩ : BufTy).Contents (Elt F)),
    binary main_v135 main_v138 main_v139 (cmpi .sge : (⟨S8x12544, .i32⟩ : BufTy).Contents (Elt F) → (⟨S8x12544, .i32⟩ : BufTy).Contents (Elt F) → (⟨S8x12544, .i1⟩ : BufTy).Contents (Elt F)),
    nullary main_c_48 (constantI S_ 32 160#32),
    unary main_c_48 main_v140 (broadcastInDim S8x12544 ![] bcast_S_S8x12544 : (⟨S_, .i32⟩ : BufTy).Contents (Elt F) → (⟨S8x12544, .i32⟩ : BufTy).Contents (Elt F)),
    binary main_v135 main_v140 main_v141 (cmpi .slt : (⟨S8x12544, .i32⟩ : BufTy).Contents (Elt F) → (⟨S8x12544, .i32⟩ : BufTy).Contents (Elt F) → (⟨S8x12544, .i1⟩ : BufTy).Contents (Elt F)),
    binary main_v139 main_v141 main_v142 (andi : (⟨S8x12544, .i1⟩ : BufTy).Contents (Elt F) → (⟨S8x12544, .i1⟩ : BufTy).Contents (Elt F) → (⟨S8x12544, .i1⟩ : BufTy).Contents (Elt F)),
    nullary main_c_49 (constantI S_ 32 0#32),
    unary main_c_49 main_v143 (broadcastInDim S8x12544 ![] bcast_S_S8x12544 : (⟨S_, .i32⟩ : BufTy).Contents (Elt F) → (⟨S8x12544, .i32⟩ : BufTy).Contents (Elt F)),
    binary main_v137 main_v143 main_v144 (cmpi .sge : (⟨S8x12544, .i32⟩ : BufTy).Contents (Elt F) → (⟨S8x12544, .i32⟩ : BufTy).Contents (Elt F) → (⟨S8x12544, .i1⟩ : BufTy).Contents (Elt F)),
    binary main_v142 main_v144 main_v145 (andi : (⟨S8x12544, .i1⟩ : BufTy).Contents (Elt F) → (⟨S8x12544, .i1⟩ : BufTy).Contents (Elt F) → (⟨S8x12544, .i1⟩ : BufTy).Contents (Elt F)),
    nullary main_c_50 (constantI S_ 32 160#32),
    unary main_c_50 main_v146 (broadcastInDim S8x12544 ![] bcast_S_S8x12544 : (⟨S_, .i32⟩ : BufTy).Contents (Elt F) → (⟨S8x12544, .i32⟩ : BufTy).Contents (Elt F)),
    binary main_v137 main_v146 main_v147 (cmpi .slt : (⟨S8x12544, .i32⟩ : BufTy).Contents (Elt F) → (⟨S8x12544, .i32⟩ : BufTy).Contents (Elt F) → (⟨S8x12544, .i1⟩ : BufTy).Contents (Elt F)),
    binary main_v145 main_v147 main_v148 (andi : (⟨S8x12544, .i1⟩ : BufTy).Contents (Elt F) → (⟨S8x12544, .i1⟩ : BufTy).Contents (Elt F) → (⟨S8x12544, .i1⟩ : BufTy).Contents (Elt F)),
    unary main_v148 main_v149 (uitofp .f32 : (⟨S8x12544, .i1⟩ : BufTy).Contents (Elt F) → (⟨S8x12544, .f32⟩ : BufTy).Contents (Elt F)),
    nullary main_c_51 (constantI S_ 32 0#32),
    nullary main_c_52 (constantI S_ 32 159#32),
    TRef.unary (TRef.of (T := ⟨S_, .i32⟩) main_c_51) (TRef.of (T := ⟨S_, .i32⟩) main_call6_v0) id,
    TRef.unary (TRef.of (T := ⟨S_, .i32⟩) main_call6_v0) (TRef.of (T := ⟨S8x12544, .i32⟩) main_call6_v1) (broadcastInDim S8x12544 ![] bcast_S_S8x12544),
    TRef.binary (TRef.of (T := ⟨S8x12544, .i32⟩) main_call6_v1) (TRef.of (T := ⟨S8x12544, .i32⟩) main_v137) (TRef.of (T := ⟨S8x12544, .i32⟩) main_call6_v2) maxsi]

abbrev W10 : List (Ref sig .tc) :=
  [main_v133, main_c_45, main_v134, main_v135, main_c_46, main_v136, main_v137, main_c_47, main_v138, main_v139, main_c_48, main_v140, main_v141, main_v142, main_c_49, main_v143, main_v144, main_v145, main_c_50, main_v146, main_v147, main_v148, main_v149, main_c_51, main_c_52, main_call6_v0, main_call6_v1, main_call6_v2]

theorem ops10_plain : Plains (ops10 : List (HloOp τ sig (Elt F))) W10 := by
  repeat (first | exact .nil | refine .cons (by first | exact .nullary .. | exact .unary .. | exact .binary .. | exact .ternary .. | exact .reshape ..) ?_)

set_option maxRecDepth 8192 in
set_option maxHeartbeats 4000000 in
theorem c10 {x0 : X0 F} {x1 : X1 F} {x2 : X2 F} {x3 : X3 F} {x4 : X4 F} {V : Valuation τ sig (Elt F)}
    (h2 : Holds V (Out2 x0 x1 x2 x3 x4)) (h9 : Holds V (Out9 x0 x1 x2 x3 x4)) :
    Holds (after (ops10 (F := F)) V) (Out10 x0 x1 x2 x3 x4) := by
  simp only [Holds, Out2, Out9, Out10, List.forall_cons, List.Forall, and_true] at h2 h9 ⊢
  after_results_simp
  try simp only [h9.1, h9.2, h2.2.2.1, h2.2.2.2.1]
  refine ⟨?_, ?_, ?_, ?_, ?_⟩ <;> rfl

end Cert.ReferenceIdeal.RunH

end
-- ==== Proof.RefRun.C11.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops11 : List (HloOp τ sig (Elt F)) :=
  [ TRef.unary (TRef.of (T := ⟨S_, .i32⟩) main_c_52) (TRef.of (T := ⟨S_, .i32⟩) main_call6_v3) id,
    TRef.unary (TRef.of (T := ⟨S_, .i32⟩) main_call6_v3) (TRef.of (T := ⟨S8x12544, .i32⟩) main_call6_v4) (broadcastInDim S8x12544 ![] bcast_S_S8x12544),
    TRef.binary (TRef.of (T := ⟨S8x12544, .i32⟩) main_call6_v4) (TRef.of (T := ⟨S8x12544, .i32⟩) main_call6_v2) (TRef.of (T := ⟨S8x12544, .i32⟩) main_v150) minsi,
    nullary main_c_53 (constantI S_ 32 0#32),
    nullary main_c_54 (constantI S_ 32 159#32),
    TRef.unary (TRef.of (T := ⟨S_, .i32⟩) main_c_53) (TRef.of (T := ⟨S_, .i32⟩) main_call7_v0) id,
    TRef.unary (TRef.of (T := ⟨S_, .i32⟩) main_call7_v0) (TRef.of (T := ⟨S8x12544, .i32⟩) main_call7_v1) (broadcastInDim S8x12544 ![] bcast_S_S8x12544),
    TRef.binary (TRef.of (T := ⟨S8x12544, .i32⟩) main_call7_v1) (TRef.of (T := ⟨S8x12544, .i32⟩) main_v135) (TRef.of (T := ⟨S8x12544, .i32⟩) main_call7_v2) maxsi,
    TRef.unary (TRef.of (T := ⟨S_, .i32⟩) main_c_54) (TRef.of (T := ⟨S_, .i32⟩) main_call7_v3) id,
    TRef.unary (TRef.of (T := ⟨S_, .i32⟩) main_call7_v3) (TRef.of (T := ⟨S8x12544, .i32⟩) main_call7_v4) (broadcastInDim S8x12544 ![] bcast_S_S8x12544),
    TRef.binary (TRef.of (T := ⟨S8x12544, .i32⟩) main_call7_v4) (TRef.of (T := ⟨S8x12544, .i32⟩) main_call7_v2) (TRef.of (T := ⟨S8x12544, .i32⟩) main_v151) minsi,
    nullary main_c_55 (constantI S_ 32 0#32),
    unary main_c_55 main_v152 (broadcastInDim S8x12544 ![] bcast_S_S8x12544 : (⟨S_, .i32⟩ : BufTy).Contents (Elt F) → (⟨S8x12544, .i32⟩ : BufTy).Contents (Elt F)),
    binary main_v150 main_v152 main_v153 (cmpi .slt : (⟨S8x12544, .i32⟩ : BufTy).Contents (Elt F) → (⟨S8x12544, .i32⟩ : BufTy).Contents (Elt F) → (⟨S8x12544, .i1⟩ : BufTy).Contents (Elt F)),
    nullary main_c_56 (constantI S_ 32 160#32),
    unary main_c_56 main_v154 (broadcastInDim S8x12544 ![] bcast_S_S8x12544 : (⟨S_, .i32⟩ : BufTy).Contents (Elt F) → (⟨S8x12544, .i32⟩ : BufTy).Contents (Elt F)),
    binary main_v150 main_v154 main_v155 (addi : (⟨S8x12544, .i32⟩ : BufTy).Contents (Elt F) → (⟨S8x12544, .i32⟩ : BufTy).Contents (Elt F) → (⟨S8x12544, .i32⟩ : BufTy).Contents (Elt F)),
    ternary main_v153 main_v155 main_v150 main_v156 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_57 (constantI S_ 32 0#32),
    unary main_c_57 main_v157 (broadcastInDim S8x12544 ![] bcast_S_S8x12544 : (⟨S_, .i32⟩ : BufTy).Contents (Elt F) → (⟨S8x12544, .i32⟩ : BufTy).Contents (Elt F)),
    binary main_v151 main_v157 main_v158 (cmpi .slt : (⟨S8x12544, .i32⟩ : BufTy).Contents (Elt F) → (⟨S8x12544, .i32⟩ : BufTy).Contents (Elt F) → (⟨S8x12544, .i1⟩ : BufTy).Contents (Elt F)),
    nullary main_c_58 (constantI S_ 32 160#32),
    unary main_c_58 main_v159 (broadcastInDim S8x12544 ![] bcast_S_S8x12544 : (⟨S_, .i32⟩ : BufTy).Contents (Elt F) → (⟨S8x12544, .i32⟩ : BufTy).Contents (Elt F)),
    binary main_v151 main_v159 main_v160 (addi : (⟨S8x12544, .i32⟩ : BufTy).Contents (Elt F) → (⟨S8x12544, .i32⟩ : BufTy).Contents (Elt F) → (⟨S8x12544, .i32⟩ : BufTy).Contents (Elt F)),
    ternary main_v158 main_v160 main_v151 main_v161 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v156 main_v162 (broadcastInDim S8x12544x1 ![0, 1] bcast_S8x12544_S8x12544x1_0_1 : (⟨S8x12544, .i32⟩ : BufTy).Contents (Elt F) → (⟨S8x12544x1, .i32⟩ : BufTy).Contents (Elt F)),
    unary main_v161 main_v163 (broadcastInDim S8x12544x1 ![0, 1] bcast_S8x12544_S8x12544x1_0_1 : (⟨S8x12544, .i32⟩ : BufTy).Contents (Elt F) → (⟨S8x12544x1, .i32⟩ : BufTy).Contents (Elt F))]

abbrev W11 : List (Ref sig .tc) :=
  [main_call6_v3, main_call6_v4, main_v150, main_c_53, main_c_54, main_call7_v0, main_call7_v1, main_call7_v2, main_call7_v3, main_call7_v4, main_v151, main_c_55, main_v152, main_v153, main_c_56, main_v154, main_v155, main_v156, main_c_57, main_v157, main_v158, main_c_58, main_v159, main_v160, main_v161, main_v162, main_v163]

theorem ops11_plain : Plains (ops11 : List (HloOp τ sig (Elt F))) W11 := by
  repeat (first | exact .nil | refine .cons (by first | exact .nullary .. | exact .unary .. | exact .binary .. | exact .ternary .. | exact .reshape ..) ?_)

set_option maxRecDepth 8192 in
set_option maxHeartbeats 4000000 in
theorem c11 {x0 : X0 F} {x1 : X1 F} {x2 : X2 F} {x3 : X3 F} {x4 : X4 F} {V : Valuation τ sig (Elt F)}
    (h10 : Holds V (Out10 x0 x1 x2 x3 x4)) :
    Holds (after (ops11 (F := F)) V) (Out11 x0 x1 x2 x3 x4) := by
  simp only [Holds, Out10, Out11, List.forall_cons, List.Forall, and_true] at h10 ⊢
  after_results_simp
  try simp only [h10.2.2.2.1, h10.2.2.2.2, h10.2.1]
  refine ⟨?_, ?_⟩ <;> rfl

end Cert.ReferenceIdeal.RunH

end
-- ==== Proof.RefRun.C12.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops12 : List (HloOp τ sig (Elt F)) :=
  [ binary main_v162 main_v163 main_v164 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg0 main_v164 main_v165 ((fun x i => Host.gather gather_S8x150x160x160_S8x12544x2_S8x150x12544_1_23_0_0_23_2_115011 x i) : (⟨S8x150x160x160, .f32⟩ : BufTy).Contents (Elt F) → (⟨S8x12544x2, .i32⟩ : BufTy).Contents (Elt F) → (⟨S8x150x12544, .f32⟩ : BufTy).Contents (Elt F)),
    unary main_v149 main_v166 (broadcastInDim S8x1x12544 ![0, 2] bcast_S8x12544_S8x1x12544_0_2 : (⟨S8x12544, .f32⟩ : BufTy).Contents (Elt F) → (⟨S8x1x12544, .f32⟩ : BufTy).Contents (Elt F)),
    unary main_v166 main_v167 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v165 main_v167 main_v168 (mulf : (⟨S8x150x12544, .f32⟩ : BufTy).Contents (Elt F) → (⟨S8x150x12544, .f32⟩ : BufTy).Contents (Elt F) → (⟨S8x150x12544, .f32⟩ : BufTy).Contents (Elt F)),
    nullary main_cst_59 (constant S_ .f32 0x3F800000#32),
    unary main_cst_59 main_v169 (broadcastInDim S8x12544 ![] bcast_S_S8x12544 : (⟨S_, .f32⟩ : BufTy).Contents (Elt F) → (⟨S8x12544, .f32⟩ : BufTy).Contents (Elt F)),
    binary main_v169 main_v33 main_v170 (subf : (⟨S8x12544, .f32⟩ : BufTy).Contents (Elt F) → (⟨S8x12544, .f32⟩ : BufTy).Contents (Elt F) → (⟨S8x12544, .f32⟩ : BufTy).Contents (Elt F)),
    unary main_v170 main_v171 (broadcastInDim S8x1x12544 ![0, 2] bcast_S8x12544_S8x1x12544_0_2 : (⟨S8x12544, .f32⟩ : BufTy).Contents (Elt F) → (⟨S8x1x12544, .f32⟩ : BufTy).Contents (Elt F)),
    unary main_v171 main_v172 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v67 main_v172 main_v173 (mulf : (⟨S8x150x12544, .f32⟩ : BufTy).Contents (Elt F) → (⟨S8x150x12544, .f32⟩ : BufTy).Contents (Elt F) → (⟨S8x150x12544, .f32⟩ : BufTy).Contents (Elt F)),
    nullary main_cst_60 (constant S_ .f32 0x3F800000#32),
    unary main_cst_60 main_v174 (broadcastInDim S8x12544 ![] bcast_S_S8x12544 : (⟨S_, .f32⟩ : BufTy).Contents (Elt F) → (⟨S8x12544, .f32⟩ : BufTy).Contents (Elt F)),
    binary main_v174 main_v34 main_v175 (subf : (⟨S8x12544, .f32⟩ : BufTy).Contents (Elt F) → (⟨S8x12544, .f32⟩ : BufTy).Contents (Elt F) → (⟨S8x12544, .f32⟩ : BufTy).Contents (Elt F)),
    unary main_v175 main_v176 (broadcastInDim S8x1x12544 ![0, 2] bcast_S8x12544_S8x1x12544_0_2 : (⟨S8x12544, .f32⟩ : BufTy).Contents (Elt F) → (⟨S8x1x12544, .f32⟩ : BufTy).Contents (Elt F))]

abbrev W12 : List (Ref sig .tc) :=
  [main_v164, main_v165, main_v166, main_v167, main_v168, main_cst_59, main_v169, main_v170, main_v171, main_v172, main_v173, main_cst_60, main_v174, main_v175, main_v176]

theorem ops12_plain : Plains (ops12 : List (HloOp τ sig (Elt F))) W12 := by
  repeat (first | exact .nil | refine .cons (by first | exact .nullary .. | exact .unary .. | exact .binary .. | exact .ternary .. | exact .reshape ..) ?_)

set_option maxRecDepth 8192 in
set_option maxHeartbeats 4000000 in
theorem c12 {x0 : X0 F} {x1 : X1 F} {x2 : X2 F} {x3 : X3 F} {x4 : X4 F} {V : Valuation τ sig (Elt F)}
    (h0 : Holds V (Out0 x0 x1 x2 x3 x4)) (h2 : Holds V (Out2 x0 x1 x2 x3 x4)) (h4 : Holds V (Out4 x0 x1 x2 x3 x4)) (h10 : Holds V (Out10 x0 x1 x2 x3 x4)) (h11 : Holds V (Out11 x0 x1 x2 x3 x4)) :
    Holds (after (ops12 (F := F)) V) (Out12 x0 x1 x2 x3 x4) := by
  simp only [Holds, Out0, Out2, Out4, Out10, Out11, Out12, List.forall_cons, List.Forall, and_true] at h0 h2 h4 h10 h11 ⊢
  after_results_simp
  try simp only [h11.1, h11.2, h0.1, h10.2.2.1, h2.1, h4.1, h2.2.1]
  try rw [h11.1]
  try rw [h11.2]
  refine ⟨?_, ?_, ?_⟩ <;> rfl

end Cert.ReferenceIdeal.RunH

end
-- ==== Proof.RefRun.W3.lean ====
import proofs.«401846_j83760452207136_3_alg».proof.Proof.RefRun.C10
import proofs.«401846_j83760452207136_3_alg».proof.Proof.RefRun.C11
import proofs.«401846_j83760452207136_3_alg».proof.Proof.RefRun.C12
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part3_eq (c : Dev nD) : main_part3 (F := F) c = seq (ops10 ++ (ops11 ++ ops12)) := by chain_rfl

end Cert.ReferenceIdeal.RunH

end
-- ==== Proof.RefRun.C13.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops13 : List (HloOp τ sig (Elt F)) :=
  [ unary main_v176 main_v177 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v173 main_v177 main_v178 (mulf : (⟨S8x150x12544, .f32⟩ : BufTy).Contents (Elt F) → (⟨S8x150x12544, .f32⟩ : BufTy).Contents (Elt F) → (⟨S8x150x12544, .f32⟩ : BufTy).Contents (Elt F)),
    unary main_v33 main_v179 (broadcastInDim S8x1x12544 ![0, 2] bcast_S8x12544_S8x1x12544_0_2 : (⟨S8x12544, .f32⟩ : BufTy).Contents (Elt F) → (⟨S8x1x12544, .f32⟩ : BufTy).Contents (Elt F)),
    unary main_v179 main_v180 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v100 main_v180 main_v181 (mulf : (⟨S8x150x12544, .f32⟩ : BufTy).Contents (Elt F) → (⟨S8x150x12544, .f32⟩ : BufTy).Contents (Elt F) → (⟨S8x150x12544, .f32⟩ : BufTy).Contents (Elt F)),
    nullary main_cst_61 (constant S_ .f32 0x3F800000#32),
    unary main_cst_61 main_v182 (broadcastInDim S8x12544 ![] bcast_S_S8x12544 : (⟨S_, .f32⟩ : BufTy).Contents (Elt F) → (⟨S8x12544, .f32⟩ : BufTy).Contents (Elt F)),
    binary main_v182 main_v34 main_v183 (subf : (⟨S8x12544, .f32⟩ : BufTy).Contents (Elt F) → (⟨S8x12544, .f32⟩ : BufTy).Contents (Elt F) → (⟨S8x12544, .f32⟩ : BufTy).Contents (Elt F)),
    unary main_v183 main_v184 (broadcastInDim S8x1x12544 ![0, 2] bcast_S8x12544_S8x1x12544_0_2 : (⟨S8x12544, .f32⟩ : BufTy).Contents (Elt F) → (⟨S8x1x12544, .f32⟩ : BufTy).Contents (Elt F)),
    unary main_v184 main_v185 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v181 main_v185 main_v186 (mulf : (⟨S8x150x12544, .f32⟩ : BufTy).Contents (Elt F) → (⟨S8x150x12544, .f32⟩ : BufTy).Contents (Elt F) → (⟨S8x150x12544, .f32⟩ : BufTy).Contents (Elt F)),
    binary main_v178 main_v186 main_v187 (addf : (⟨S8x150x12544, .f32⟩ : BufTy).Contents (Elt F) → (⟨S8x150x12544, .f32⟩ : BufTy).Contents (Elt F) → (⟨S8x150x12544, .f32⟩ : BufTy).Contents (Elt F)),
    nullary main_cst_62 (constant S_ .f32 0x3F800000#32),
    unary main_cst_62 main_v188 (broadcastInDim S8x12544 ![] bcast_S_S8x12544 : (⟨S_, .f32⟩ : BufTy).Contents (Elt F) → (⟨S8x12544, .f32⟩ : BufTy).Contents (Elt F)),
    binary main_v188 main_v33 main_v189 (subf : (⟨S8x12544, .f32⟩ : BufTy).Contents (Elt F) → (⟨S8x12544, .f32⟩ : BufTy).Contents (Elt F) → (⟨S8x12544, .f32⟩ : BufTy).Contents (Elt F)),
    unary main_v189 main_v190 (broadcastInDim S8x1x12544 ![0, 2] bcast_S8x12544_S8x1x12544_0_2 : (⟨S8x12544, .f32⟩ : BufTy).Contents (Elt F) → (⟨S8x1x12544, .f32⟩ : BufTy).Contents (Elt F)),
    unary main_v190 main_v191 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v133 main_v191 main_v192 (mulf : (⟨S8x150x12544, .f32⟩ : BufTy).Contents (Elt F) → (⟨S8x150x12544, .f32⟩ : BufTy).Contents (Elt F) → (⟨S8x150x12544, .f32⟩ : BufTy).Contents (Elt F)),
    unary main_v34 main_v193 (broadcastInDim S8x1x12544 ![0, 2] bcast_S8x12544_S8x1x12544_0_2 : (⟨S8x12544, .f32⟩ : BufTy).Contents (Elt F) → (⟨S8x1x12544, .f32⟩ : BufTy).Contents (Elt F)),
    unary main_v193 main_v194 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v192 main_v194 main_v195 (mulf : (⟨S8x150x12544, .f32⟩ : BufTy).Contents (Elt F) → (⟨S8x150x12544, .f32⟩ : BufTy).Contents (Elt F) → (⟨S8x150x12544, .f32⟩ : BufTy).Contents (Elt F)),
    binary main_v187 main_v195 main_v196 (addf : (⟨S8x150x12544, .f32⟩ : BufTy).Contents (Elt F) → (⟨S8x150x12544, .f32⟩ : BufTy).Contents (Elt F) → (⟨S8x150x12544, .f32⟩ : BufTy).Contents (Elt F)),
    unary main_v33 main_v197 (broadcastInDim S8x1x12544 ![0, 2] bcast_S8x12544_S8x1x12544_0_2 : (⟨S8x12544, .f32⟩ : BufTy).Contents (Elt F) → (⟨S8x1x12544, .f32⟩ : BufTy).Contents (Elt F)),
    unary main_v197 main_v198 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v168 main_v198 main_v199 (mulf : (⟨S8x150x12544, .f32⟩ : BufTy).Contents (Elt F) → (⟨S8x150x12544, .f32⟩ : BufTy).Contents (Elt F) → (⟨S8x150x12544, .f32⟩ : BufTy).Contents (Elt F)),
    unary main_v34 main_v200 (broadcastInDim S8x1x12544 ![0, 2] bcast_S8x12544_S8x1x12544_0_2 : (⟨S8x12544, .f32⟩ : BufTy).Contents (Elt F) → (⟨S8x1x12544, .f32⟩ : BufTy).Contents (Elt F)),
    unary main_v200 main_v201 (broadcastInDim S8x150x12544 ![0, 1, 2] bcast_S8x1x12544_S8x150x12544_0_1_2 : (⟨S8x1x12544, .f32⟩ : BufTy).Contents (Elt F) → (⟨S8x150x12544, .f32⟩ : BufTy).Contents (Elt F)),
    binary main_v199 main_v201 main_v202 (mulf : (⟨S8x150x12544, .f32⟩ : BufTy).Contents (Elt F) → (⟨S8x150x12544, .f32⟩ : BufTy).Contents (Elt F) → (⟨S8x150x12544, .f32⟩ : BufTy).Contents (Elt F)),
    binary main_v196 main_v202 main_v203 (addf : (⟨S8x150x12544, .f32⟩ : BufTy).Contents (Elt F) → (⟨S8x150x12544, .f32⟩ : BufTy).Contents (Elt F) → (⟨S8x150x12544, .f32⟩ : BufTy).Contents (Elt F)),
    unary main_arg4 main_v204 ((extractStridedSlice S8x12544x1 ![0, 0, 0] · slices_S8x12544x2_S8x12544x1_0_0_0) : (⟨S8x12544x2, .f32⟩ : BufTy).Contents (Elt F) → (⟨S8x12544x1, .f32⟩ : BufTy).Contents (Elt F))]

abbrev W13 : List (Ref sig .tc) :=
  [main_v177, main_v178, main_v179, main_v180, main_v181, main_cst_61, main_v182, main_v183, main_v184, main_v185, main_v186, main_v187, main_cst_62, main_v188, main_v189, main_v190, main_v191, main_v192, main_v193, main_v194, main_v195, main_v196, main_v197, main_v198, main_v199, main_v200, main_v201, main_v202, main_v203, main_v204]

theorem ops13_plain : Plains (ops13 : List (HloOp τ sig (Elt F))) W13 := by
  repeat (first | exact .nil | refine .cons (by first | exact .nullary .. | exact .unary .. | exact .binary .. | exact .ternary .. | exact .reshape ..) ?_)

set_option maxRecDepth 8192 in
set_option maxHeartbeats 4000000 in
theorem c13 {x0 : X0 F} {x1 : X1 F} {x2 : X2 F} {x3 : X3 F} {x4 : X4 F} {V : Valuation τ sig (Elt F)}
    (h0 : Holds V (Out0 x0 x1 x2 x3 x4)) (h2 : Holds V (Out2 x0 x1 x2 x3 x4)) (h7 : Holds V (Out7 x0 x1 x2 x3 x4)) (h10 : Holds V (Out10 x0 x1 x2 x3 x4)) (h12 : Holds V (Out12 x0 x1 x2 x3 x4)) :
    Holds (after (ops13 (F := F)) V) (Out13 x0 x1 x2 x3 x4) := by
  simp only [Holds, Out0, Out2, Out7, Out10, Out12, Out13, List.forall_cons, List.Forall, and_true] at h0 h2 h7 h10 h12 ⊢
  after_results_simp
  try simp only [h12.2.2, h12.2.1, h2.1, h7.1, h2.2.1, h10.1, h12.1, h0.2.2.2.2]
  refine ⟨?_, ?_⟩ <;> rfl

end Cert.ReferenceIdeal.RunH

end
-- ==== Proof.RefRun.C14.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops14 : List (HloOp τ sig (Elt F)) :=
  [ reshape main_v204 main_v205 rfl shapeCasts_S8x12544x1_S8x12544,
    nullary main_cst_63 (constant S_ .f32 0x43200000#32),
    unary main_cst_63 main_v206 (broadcastInDim S8x12544 ![] bcast_S_S8x12544 : (⟨S_, .f32⟩ : BufTy).Contents (Elt F) → (⟨S8x12544, .f32⟩ : BufTy).Contents (Elt F)),
    binary main_v205 main_v206 main_v207 (mulf : (⟨S8x12544, .f32⟩ : BufTy).Contents (Elt F) → (⟨S8x12544, .f32⟩ : BufTy).Contents (Elt F) → (⟨S8x12544, .f32⟩ : BufTy).Contents (Elt F)),
    nullary main_cst_64 (constant S_ .f32 0x3F000000#32),
    unary main_cst_64 main_v208 (broadcastInDim S8x12544 ![] bcast_S_S8x12544 : (⟨S_, .f32⟩ : BufTy).Contents (Elt F) → (⟨S8x12544, .f32⟩ : BufTy).Contents (Elt F)),
    binary main_v207 main_v208 main_v209 (subf : (⟨S8x12544, .f32⟩ : BufTy).Contents (Elt F) → (⟨S8x12544, .f32⟩ : BufTy).Contents (Elt F) → (⟨S8x12544, .f32⟩ : BufTy).Contents (Elt F)),
    unary main_arg4 main_v210 ((extractStridedSlice S8x12544x1 ![0, 0, 1] · slices_S8x12544x2_S8x12544x1_0_0_1) : (⟨S8x12544x2, .f32⟩ : BufTy).Contents (Elt F) → (⟨S8x12544x1, .f32⟩ : BufTy).Contents (Elt F)),
    reshape main_v210 main_v211 rfl shapeCasts_S8x12544x1_S8x12544,
    nullary main_cst_65 (constant S_ .f32 0x43200000#32),
    unary main_cst_65 main_v212 (broadcastInDim S8x12544 ![] bcast_S_S8x12544 : (⟨S_, .f32⟩ : BufTy).Contents (Elt F) → (⟨S8x12544, .f32⟩ : BufTy).Contents (Elt F)),
    binary main_v211 main_v212 main_v213 (mulf : (⟨S8x12544, .f32⟩ : BufTy).Contents (Elt F) → (⟨S8x12544, .f32⟩ : BufTy).Contents (Elt F) → (⟨S8x12544, .f32⟩ : BufTy).Contents (Elt F)),
    nullary main_cst_66 (constant S_ .f32 0x3F000000#32),
    unary main_cst_66 main_v214 (broadcastInDim S8x12544 ![] bcast_S_S8x12544 : (⟨S_, .f32⟩ : BufTy).Contents (Elt F) → (⟨S8x12544, .f32⟩ : BufTy).Contents (Elt F)),
    binary main_v213 main_v214 main_v215 (subf : (⟨S8x12544, .f32⟩ : BufTy).Contents (Elt F) → (⟨S8x12544, .f32⟩ : BufTy).Contents (Elt F) → (⟨S8x12544, .f32⟩ : BufTy).Contents (Elt F)),
    unary main_v209 main_v216 (Host.floor : (⟨S8x12544, .f32⟩ : BufTy).Contents (Elt F) → (⟨S8x12544, .f32⟩ : BufTy).Contents (Elt F)),
    unary main_v215 main_v217 (Host.floor : (⟨S8x12544, .f32⟩ : BufTy).Contents (Elt F) → (⟨S8x12544, .f32⟩ : BufTy).Contents (Elt F)),
    binary main_v209 main_v216 main_v218 (subf : (⟨S8x12544, .f32⟩ : BufTy).Contents (Elt F) → (⟨S8x12544, .f32⟩ : BufTy).Contents (Elt F) → (⟨S8x12544, .f32⟩ : BufTy).Contents (Elt F)),
    binary main_v215 main_v217 main_v219 (subf : (⟨S8x12544, .f32⟩ : BufTy).Contents (Elt F) → (⟨S8x12544, .f32⟩ : BufTy).Contents (Elt F) → (⟨S8x12544, .f32⟩ : BufTy).Contents (Elt F)),
    unary main_v216 main_v220 (fptosi 32 : (⟨S8x12544, .f32⟩ : BufTy).Contents (Elt F) → (⟨S8x12544, .i32⟩ : BufTy).Contents (Elt F)),
    unary main_v217 main_v221 (fptosi 32 : (⟨S8x12544, .f32⟩ : BufTy).Contents (Elt F) → (⟨S8x12544, .i32⟩ : BufTy).Contents (Elt F)),
    nullary main_c_67 (constantI S_ 32 0#32),
    unary main_c_67 main_v222 (broadcastInDim S8x12544 ![] bcast_S_S8x12544 : (⟨S_, .i32⟩ : BufTy).Contents (Elt F) → (⟨S8x12544, .i32⟩ : BufTy).Contents (Elt F)),
    binary main_v220 main_v222 main_v223 (cmpi .sge : (⟨S8x12544, .i32⟩ : BufTy).Contents (Elt F) → (⟨S8x12544, .i32⟩ : BufTy).Contents (Elt F) → (⟨S8x12544, .i1⟩ : BufTy).Contents (Elt F)),
    nullary main_c_68 (constantI S_ 32 160#32),
    unary main_c_68 main_v224 (broadcastInDim S8x12544 ![] bcast_S_S8x12544 : (⟨S_, .i32⟩ : BufTy).Contents (Elt F) → (⟨S8x12544, .i32⟩ : BufTy).Contents (Elt F)),
    binary main_v220 main_v224 main_v225 (cmpi .slt : (⟨S8x12544, .i32⟩ : BufTy).Contents (Elt F) → (⟨S8x12544, .i32⟩ : BufTy).Contents (Elt F) → (⟨S8x12544, .i1⟩ : BufTy).Contents (Elt F)),
    binary main_v223 main_v225 main_v226 (andi : (⟨S8x12544, .i1⟩ : BufTy).Contents (Elt F) → (⟨S8x12544, .i1⟩ : BufTy).Contents (Elt F) → (⟨S8x12544, .i1⟩ : BufTy).Contents (Elt F)),
    nullary main_c_69 (constantI S_ 32 0#32),
    unary main_c_69 main_v227 (broadcastInDim S8x12544 ![] bcast_S_S8x12544 : (⟨S_, .i32⟩ : BufTy).Contents (Elt F) → (⟨S8x12544, .i32⟩ : BufTy).Contents (Elt F))]

abbrev W14 : List (Ref sig .tc) :=
  [main_v205, main_cst_63, main_v206, main_v207, main_cst_64, main_v208, main_v209, main_v210, main_v211, main_cst_65, main_v212, main_v213, main_cst_66, main_v214, main_v215, main_v216, main_v217, main_v218, main_v219, main_v220, main_v221, main_c_67, main_v222, main_v223, main_c_68, main_v224, main_v225, main_v226, main_c_69, main_v227]

theorem ops14_plain : Plains (ops14 : List (HloOp τ sig (Elt F))) W14 := by
  repeat (first | exact .nil | refine .cons (by first | exact .nullary .. | exact .unary .. | exact .binary .. | exact .ternary .. | exact .reshape ..) ?_)

set_option maxRecDepth 8192 in
set_option maxHeartbeats 4000000 in
theorem c14 {x0 : X0 F} {x1 : X1 F} {x2 : X2 F} {x3 : X3 F} {x4 : X4 F} {V : Valuation τ sig (Elt F)}
    (h0 : Holds V (Out0 x0 x1 x2 x3 x4)) (h13 : Holds V (Out13 x0 x1 x2 x3 x4)) :
    Holds (after (ops14 (F := F)) V) (Out14 x0 x1 x2 x3 x4) := by
  simp only [Holds, Out0, Out13, Out14, List.forall_cons, List.Forall, and_true] at h0 h13 ⊢
  after_results_simp
  try simp only [h13.2, h0.2.2.2.2]
  refine ⟨?_, ?_, ?_, ?_, ?_, ?_⟩ <;> rfl

end Cert.ReferenceIdeal.RunH

end
-- ==== Proof.RefRun.W4.lean ====
import proofs.«401846_j83760452207136_3_alg».proof.Proof.RefRun.C13
import proofs.«401846_j83760452207136_3_alg».proof.Proof.RefRun.C14
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part4_eq (c : Dev nD) : main_part4 (F := F) c = seq (ops13 ++ ops14) := by chain_rfl

end Cert.ReferenceIdeal.RunH

end
-- ==== Proof.RefRun.C15.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops15 : List (HloOp τ sig (Elt F)) :=
  [ binary main_v221 main_v227 main_v228 (cmpi .sge : (⟨S8x12544, .i32⟩ : BufTy).Contents (Elt F) → (⟨S8x12544, .i32⟩ : BufTy).Contents (Elt F) → (⟨S8x12544, .i1⟩ : BufTy).Contents (Elt F)),
    binary main_v226 main_v228 main_v229 (andi : (⟨S8x12544, .i1⟩ : BufTy).Contents (Elt F) → (⟨S8x12544, .i1⟩ : BufTy).Contents (Elt F) → (⟨S8x12544, .i1⟩ : BufTy).Contents (Elt F)),
    nullary main_c_70 (constantI S_ 32 160#32),
    unary main_c_70 main_v230 (broadcastInDim S8x12544 ![] bcast_S_S8x12544 : (⟨S_, .i32⟩ : BufTy).Contents (Elt F) → (⟨S8x12544, .i32⟩ : BufTy).Contents (Elt F)),
    binary main_v221 main_v230 main_v231 (cmpi .slt : (⟨S8x12544, .i32⟩ : BufTy).Contents (Elt F) → (⟨S8x12544, .i32⟩ : BufTy).Contents (Elt F) → (⟨S8x12544, .i1⟩ : BufTy).Contents (Elt F)),
    binary main_v229 main_v231 main_v232 (andi : (⟨S8x12544, .i1⟩ : BufTy).Contents (Elt F) → (⟨S8x12544, .i1⟩ : BufTy).Contents (Elt F) → (⟨S8x12544, .i1⟩ : BufTy).Contents (Elt F)),
    unary main_v232 main_v233 (uitofp .f32 : (⟨S8x12544, .i1⟩ : BufTy).Contents (Elt F) → (⟨S8x12544, .f32⟩ : BufTy).Contents (Elt F)),
    nullary main_c_71 (constantI S_ 32 0#32),
    nullary main_c_72 (constantI S_ 32 159#32),
    TRef.unary (TRef.of (T := ⟨S_, .i32⟩) main_c_71) (TRef.of (T := ⟨S_, .i32⟩) main_call8_v0) id,
    TRef.unary (TRef.of (T := ⟨S_, .i32⟩) main_call8_v0) (TRef.of (T := ⟨S8x12544, .i32⟩) main_call8_v1) (broadcastInDim S8x12544 ![] bcast_S_S8x12544),
    TRef.binary (TRef.of (T := ⟨S8x12544, .i32⟩) main_call8_v1) (TRef.of (T := ⟨S8x12544, .i32⟩) main_v221) (TRef.of (T := ⟨S8x12544, .i32⟩) main_call8_v2) maxsi,
    TRef.unary (TRef.of (T := ⟨S_, .i32⟩) main_c_72) (TRef.of (T := ⟨S_, .i32⟩) main_call8_v3) id,
    TRef.unary (TRef.of (T := ⟨S_, .i32⟩) main_call8_v3) (TRef.of (T := ⟨S8x12544, .i32⟩) main_call8_v4) (broadcastInDim S8x12544 ![] bcast_S_S8x12544),
    TRef.binary (TRef.of (T := ⟨S8x12544, .i32⟩) main_call8_v4) (TRef.of (T := ⟨S8x12544, .i32⟩) main_call8_v2) (TRef.of (T := ⟨S8x12544, .i32⟩) main_v234) minsi,
    nullary main_c_73 (constantI S_ 32 0#32),
    nullary main_c_74 (constantI S_ 32 159#32),
    TRef.unary (TRef.of (T := ⟨S_, .i32⟩) main_c_73) (TRef.of (T := ⟨S_, .i32⟩) main_call9_v0) id,
    TRef.unary (TRef.of (T := ⟨S_, .i32⟩) main_call9_v0) (TRef.of (T := ⟨S8x12544, .i32⟩) main_call9_v1) (broadcastInDim S8x12544 ![] bcast_S_S8x12544),
    TRef.binary (TRef.of (T := ⟨S8x12544, .i32⟩) main_call9_v1) (TRef.of (T := ⟨S8x12544, .i32⟩) main_v220) (TRef.of (T := ⟨S8x12544, .i32⟩) main_call9_v2) maxsi,
    TRef.unary (TRef.of (T := ⟨S_, .i32⟩) main_c_74) (TRef.of (T := ⟨S_, .i32⟩) main_call9_v3) id,
    TRef.unary (TRef.of (T := ⟨S_, .i32⟩) main_call9_v3) (TRef.of (T := ⟨S8x12544, .i32⟩) main_call9_v4) (broadcastInDim S8x12544 ![] bcast_S_S8x12544),
    TRef.binary (TRef.of (T := ⟨S8x12544, .i32⟩) main_call9_v4) (TRef.of (T := ⟨S8x12544, .i32⟩) main_call9_v2) (TRef.of (T := ⟨S8x12544, .i32⟩) main_v235) minsi,
    nullary main_c_75 (constantI S_ 32 0#32),
    unary main_c_75 main_v236 (broadcastInDim S8x12544 ![] bcast_S_S8x12544 : (⟨S_, .i32⟩ : BufTy).Contents (Elt F) → (⟨S8x12544, .i32⟩ : BufTy).Contents (Elt F)),
    binary main_v234 main_v236 main_v237 (cmpi .slt : (⟨S8x12544, .i32⟩ : BufTy).Contents (Elt F) → (⟨S8x12544, .i32⟩ : BufTy).Contents (Elt F) → (⟨S8x12544, .i1⟩ : BufTy).Contents (Elt F)),
    nullary main_c_76 (constantI S_ 32 160#32),
    unary main_c_76 main_v238 (broadcastInDim S8x12544 ![] bcast_S_S8x12544 : (⟨S_, .i32⟩ : BufTy).Contents (Elt F) → (⟨S8x12544, .i32⟩ : BufTy).Contents (Elt F)),
    binary main_v234 main_v238 main_v239 (addi : (⟨S8x12544, .i32⟩ : BufTy).Contents (Elt F) → (⟨S8x12544, .i32⟩ : BufTy).Contents (Elt F) → (⟨S8x12544, .i32⟩ : BufTy).Contents (Elt F)),
    ternary main_v237 main_v239 main_v234 main_v240 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_77 (constantI S_ 32 0#32),
    unary main_c_77 main_v241 (broadcastInDim S8x12544 ![] bcast_S_S8x12544 : (⟨S_, .i32⟩ : BufTy).Contents (Elt F) → (⟨S8x12544, .i32⟩ : BufTy).Contents (Elt F)),
    binary main_v235 main_v241 main_v242 (cmpi .slt : (⟨S8x12544, .i32⟩ : BufTy).Contents (Elt F) → (⟨S8x12544, .i32⟩ : BufTy).Contents (Elt F) → (⟨S8x12544, .i1⟩ : BufTy).Contents (Elt F)),
    nullary main_c_78 (constantI S_ 32 160#32),
    unary main_c_78 main_v243 (broadcastInDim S8x12544 ![] bcast_S_S8x12544 : (⟨S_, .i32⟩ : BufTy).Contents (Elt F) → (⟨S8x12544, .i32⟩ : BufTy).Contents (Elt F)),
    binary main_v235 main_v243 main_v244 (addi : (⟨S8x12544, .i32⟩ : BufTy).Contents (Elt F) → (⟨S8x12544, .i32⟩ : BufTy).Contents (Elt F) → (⟨S8x12544, .i32⟩ : BufTy).Contents (Elt F)),
    ternary main_v242 main_v244 main_v235 main_v245 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v240 main_v246 (broadcastInDim S8x12544x1 ![0, 1] bcast_S8x12544_S8x12544x1_0_1 : (⟨S8x12544, .i32⟩ : BufTy).Contents (Elt F) → (⟨S8x12544x1, .i32⟩ : BufTy).Contents (Elt F)),
    unary main_v245 main_v247 (broadcastInDim S8x12544x1 ![0, 1] bcast_S8x12544_S8x12544x1_0_1 : (⟨S8x12544, .i32⟩ : BufTy).Contents (Elt F) → (⟨S8x12544x1, .i32⟩ : BufTy).Contents (Elt F))]

abbrev W15 : List (Ref sig .tc) :=
  [main_v228, main_v229, main_c_70, main_v230, main_v231, main_v232, main_v233, main_c_71, main_c_72, main_call8_v0, main_call8_v1, main_call8_v2, main_call8_v3, main_call8_v4, main_v234, main_c_73, main_c_74, main_call9_v0, main_call9_v1, main_call9_v2, main_call9_v3, main_call9_v4, main_v235, main_c_75, main_v236, main_v237, main_c_76, main_v238, main_v239, main_v240, main_c_77, main_v241, main_v242, main_c_78, main_v243, main_v244, main_v245, main_v246, main_v247]

theorem ops15_plain : Plains (ops15 : List (HloOp τ sig (Elt F))) W15 := by
  repeat (first | exact .nil | refine .cons (by first | exact .nullary .. | exact .unary .. | exact .binary .. | exact .ternary .. | exact .reshape ..) ?_)

set_option maxRecDepth 8192 in
set_option maxHeartbeats 4000000 in
theorem c15 {x0 : X0 F} {x1 : X1 F} {x2 : X2 F} {x3 : X3 F} {x4 : X4 F} {V : Valuation τ sig (Elt F)}
    (h14 : Holds V (Out14 x0 x1 x2 x3 x4)) :
    Holds (after (ops15 (F := F)) V) (Out15 x0 x1 x2 x3 x4) := by
  simp only [Holds, Out14, Out15, List.forall_cons, List.Forall, and_true] at h14 ⊢
  after_results_simp
  try simp only [h14.2.2.2.1, h14.2.2.2.2.2, h14.2.2.2.2.1, h14.2.2.1]
  refine ⟨?_, ?_, ?_⟩ <;> rfl

end Cert.ReferenceIdeal.RunH

end
-- ==== Proof.RefRun.C16.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops16 : List (HloOp τ sig (Elt F)) :=
  [ binary main_v246 main_v247 main_v248 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg2 main_v248 main_v249 ((fun x i => Host.gather gather_S8x32x160x160_S8x12544x2_S8x32x12544_1_23_0_0_23_2_13211 x i) : (⟨S8x32x160x160, .f32⟩ : BufTy).Contents (Elt F) → (⟨S8x12544x2, .i32⟩ : BufTy).Contents (Elt F) → (⟨S8x32x12544, .f32⟩ : BufTy).Contents (Elt F)),
    unary main_v233 main_v250 (broadcastInDim S8x1x12544 ![0, 2] bcast_S8x12544_S8x1x12544_0_2 : (⟨S8x12544, .f32⟩ : BufTy).Contents (Elt F) → (⟨S8x1x12544, .f32⟩ : BufTy).Contents (Elt F)),
    unary main_v250 main_v251 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v249 main_v251 main_v252 (mulf : (⟨S8x32x12544, .f32⟩ : BufTy).Contents (Elt F) → (⟨S8x32x12544, .f32⟩ : BufTy).Contents (Elt F) → (⟨S8x32x12544, .f32⟩ : BufTy).Contents (Elt F)),
    nullary main_c_79 (constantI S_ 32 1#32),
    unary main_c_79 main_v253 (broadcastInDim S8x12544 ![] bcast_S_S8x12544 : (⟨S_, .i32⟩ : BufTy).Contents (Elt F) → (⟨S8x12544, .i32⟩ : BufTy).Contents (Elt F)),
    binary main_v220 main_v253 main_v254 (addi : (⟨S8x12544, .i32⟩ : BufTy).Contents (Elt F) → (⟨S8x12544, .i32⟩ : BufTy).Contents (Elt F) → (⟨S8x12544, .i32⟩ : BufTy).Contents (Elt F)),
    nullary main_c_80 (constantI S_ 32 0#32),
    unary main_c_80 main_v255 (broadcastInDim S8x12544 ![] bcast_S_S8x12544 : (⟨S_, .i32⟩ : BufTy).Contents (Elt F) → (⟨S8x12544, .i32⟩ : BufTy).Contents (Elt F)),
    binary main_v254 main_v255 main_v256 (cmpi .sge : (⟨S8x12544, .i32⟩ : BufTy).Contents (Elt F) → (⟨S8x12544, .i32⟩ : BufTy).Contents (Elt F) → (⟨S8x12544, .i1⟩ : BufTy).Contents (Elt F)),
    nullary main_c_81 (constantI S_ 32 160#32),
    unary main_c_81 main_v257 (broadcastInDim S8x12544 ![] bcast_S_S8x12544 : (⟨S_, .i32⟩ : BufTy).Contents (Elt F) → (⟨S8x12544, .i32⟩ : BufTy).Contents (Elt F)),
    binary main_v254 main_v257 main_v258 (cmpi .slt : (⟨S8x12544, .i32⟩ : BufTy).Contents (Elt F) → (⟨S8x12544, .i32⟩ : BufTy).Contents (Elt F) → (⟨S8x12544, .i1⟩ : BufTy).Contents (Elt F)),
    binary main_v256 main_v258 main_v259 (andi : (⟨S8x12544, .i1⟩ : BufTy).Contents (Elt F) → (⟨S8x12544, .i1⟩ : BufTy).Contents (Elt F) → (⟨S8x12544, .i1⟩ : BufTy).Contents (Elt F)),
    nullary main_c_82 (constantI S_ 32 0#32),
    unary main_c_82 main_v260 (broadcastInDim S8x12544 ![] bcast_S_S8x12544 : (⟨S_, .i32⟩ : BufTy).Contents (Elt F) → (⟨S8x12544, .i32⟩ : BufTy).Contents (Elt F)),
    binary main_v221 main_v260 main_v261 (cmpi .sge : (⟨S8x12544, .i32⟩ : BufTy).Contents (Elt F) → (⟨S8x12544, .i32⟩ : BufTy).Contents (Elt F) → (⟨S8x12544, .i1⟩ : BufTy).Contents (Elt F)),
    binary main_v259 main_v261 main_v262 (andi : (⟨S8x12544, .i1⟩ : BufTy).Contents (Elt F) → (⟨S8x12544, .i1⟩ : BufTy).Contents (Elt F) → (⟨S8x12544, .i1⟩ : BufTy).Contents (Elt F)),
    nullary main_c_83 (constantI S_ 32 160#32),
    unary main_c_83 main_v263 (broadcastInDim S8x12544 ![] bcast_S_S8x12544 : (⟨S_, .i32⟩ : BufTy).Contents (Elt F) → (⟨S8x12544, .i32⟩ : BufTy).Contents (Elt F)),
    binary main_v221 main_v263 main_v264 (cmpi .slt : (⟨S8x12544, .i32⟩ : BufTy).Contents (Elt F) → (⟨S8x12544, .i32⟩ : BufTy).Contents (Elt F) → (⟨S8x12544, .i1⟩ : BufTy).Contents (Elt F)),
    binary main_v262 main_v264 main_v265 (andi : (⟨S8x12544, .i1⟩ : BufTy).Contents (Elt F) → (⟨S8x12544, .i1⟩ : BufTy).Contents (Elt F) → (⟨S8x12544, .i1⟩ : BufTy).Contents (Elt F)),
    unary main_v265 main_v266 (uitofp .f32 : (⟨S8x12544, .i1⟩ : BufTy).Contents (Elt F) → (⟨S8x12544, .f32⟩ : BufTy).Contents (Elt F)),
    nullary main_c_84 (constantI S_ 32 0#32),
    nullary main_c_85 (constantI S_ 32 159#32),
    TRef.unary (TRef.of (T := ⟨S_, .i32⟩) main_c_84) (TRef.of (T := ⟨S_, .i32⟩) main_call10_v0) id,
    TRef.unary (TRef.of (T := ⟨S_, .i32⟩) main_call10_v0) (TRef.of (T := ⟨S8x12544, .i32⟩) main_call10_v1) (broadcastInDim S8x12544 ![] bcast_S_S8x12544),
    TRef.binary (TRef.of (T := ⟨S8x12544, .i32⟩) main_call10_v1) (TRef.of (T := ⟨S8x12544, .i32⟩) main_v221) (TRef.of (T := ⟨S8x12544, .i32⟩) main_call10_v2) maxsi,
    TRef.unary (TRef.of (T := ⟨S_, .i32⟩) main_c_85) (TRef.of (T := ⟨S_, .i32⟩) main_call10_v3) id,
    TRef.unary (TRef.of (T := ⟨S_, .i32⟩) main_call10_v3) (TRef.of (T := ⟨S8x12544, .i32⟩) main_call10_v4) (broadcastInDim S8x12544 ![] bcast_S_S8x12544),
    TRef.binary (TRef.of (T := ⟨S8x12544, .i32⟩) main_call10_v4) (TRef.of (T := ⟨S8x12544, .i32⟩) main_call10_v2) (TRef.of (T := ⟨S8x12544, .i32⟩) main_v267) minsi,
    nullary main_c_86 (constantI S_ 32 0#32),
    nullary main_c_87 (constantI S_ 32 159#32),
    TRef.unary (TRef.of (T := ⟨S_, .i32⟩) main_c_86) (TRef.of (T := ⟨S_, .i32⟩) main_call11_v0) id,
    TRef.unary (TRef.of (T := ⟨S_, .i32⟩) main_call11_v0) (TRef.of (T := ⟨S8x12544, .i32⟩) main_call11_v1) (broadcastInDim S8x12544 ![] bcast_S_S8x12544),
    TRef.binary (TRef.of (T := ⟨S8x12544, .i32⟩) main_call11_v1) (TRef.of (T := ⟨S8x12544, .i32⟩) main_v254) (TRef.of (T := ⟨S8x12544, .i32⟩) main_call11_v2) maxsi,
    TRef.unary (TRef.of (T := ⟨S_, .i32⟩) main_c_87) (TRef.of (T := ⟨S_, .i32⟩) main_call11_v3) id,
    TRef.unary (TRef.of (T := ⟨S_, .i32⟩) main_call11_v3) (TRef.of (T := ⟨S8x12544, .i32⟩) main_call11_v4) (broadcastInDim S8x12544 ![] bcast_S_S8x12544),
    TRef.binary (TRef.of (T := ⟨S8x12544, .i32⟩) main_call11_v4) (TRef.of (T := ⟨S8x12544, .i32⟩) main_call11_v2) (TRef.of (T := ⟨S8x12544, .i32⟩) main_v268) minsi,
    nullary main_c_88 (constantI S_ 32 0#32)]

abbrev W16 : List (Ref sig .tc) :=
  [main_v248, main_v249, main_v250, main_v251, main_v252, main_c_79, main_v253, main_v254, main_c_80, main_v255, main_v256, main_c_81, main_v257, main_v258, main_v259, main_c_82, main_v260, main_v261, main_v262, main_c_83, main_v263, main_v264, main_v265, main_v266, main_c_84, main_c_85, main_call10_v0, main_call10_v1, main_call10_v2, main_call10_v3, main_call10_v4, main_v267, main_c_86, main_c_87, main_call11_v0, main_call11_v1, main_call11_v2, main_call11_v3, main_call11_v4, main_v268, main_c_88]

theorem ops16_plain : Plains (ops16 : List (HloOp τ sig (Elt F))) W16 := by
  repeat (first | exact .nil | refine .cons (by first | exact .nullary .. | exact .unary .. | exact .binary .. | exact .ternary .. | exact .reshape ..) ?_)

set_option maxRecDepth 8192 in
set_option maxHeartbeats 4000000 in
theorem c16 {x0 : X0 F} {x1 : X1 F} {x2 : X2 F} {x3 : X3 F} {x4 : X4 F} {V : Valuation τ sig (Elt F)}
    (h0 : Holds V (Out0 x0 x1 x2 x3 x4)) (h14 : Holds V (Out14 x0 x1 x2 x3 x4)) (h15 : Holds V (Out15 x0 x1 x2 x3 x4)) :
    Holds (after (ops16 (F := F)) V) (Out16 x0 x1 x2 x3 x4) := by
  simp only [Holds, Out0, Out14, Out15, Out16, List.forall_cons, List.Forall, and_true] at h0 h14 h15 ⊢
  after_results_simp
  try simp only [h15.2.1, h15.2.2, h0.2.2.1, h15.1, h14.2.2.1, h14.2.2.2.1]
  try rw [h15.2.1]
  try rw [h15.2.2]
  refine ⟨?_, ?_, ?_, ?_, ?_⟩ <;> rfl

end Cert.ReferenceIdeal.RunH

end
-- ==== Proof.RefRun.W5.lean ====
import proofs.«401846_j83760452207136_3_alg».proof.Proof.RefRun.C15
import proofs.«401846_j83760452207136_3_alg».proof.Proof.RefRun.C16
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part5_eq (c : Dev nD) : main_part5 (F := F) c = seq (ops15 ++ ops16) := by chain_rfl

end Cert.ReferenceIdeal.RunH

end
-- ==== Proof.RefRun.C17.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops17 : List (HloOp τ sig (Elt F)) :=
  [ unary main_c_88 main_v269 (broadcastInDim S8x12544 ![] bcast_S_S8x12544 : (⟨S_, .i32⟩ : BufTy).Contents (Elt F) → (⟨S8x12544, .i32⟩ : BufTy).Contents (Elt F)),
    binary main_v267 main_v269 main_v270 (cmpi .slt : (⟨S8x12544, .i32⟩ : BufTy).Contents (Elt F) → (⟨S8x12544, .i32⟩ : BufTy).Contents (Elt F) → (⟨S8x12544, .i1⟩ : BufTy).Contents (Elt F)),
    nullary main_c_89 (constantI S_ 32 160#32),
    unary main_c_89 main_v271 (broadcastInDim S8x12544 ![] bcast_S_S8x12544 : (⟨S_, .i32⟩ : BufTy).Contents (Elt F) → (⟨S8x12544, .i32⟩ : BufTy).Contents (Elt F)),
    binary main_v267 main_v271 main_v272 (addi : (⟨S8x12544, .i32⟩ : BufTy).Contents (Elt F) → (⟨S8x12544, .i32⟩ : BufTy).Contents (Elt F) → (⟨S8x12544, .i32⟩ : BufTy).Contents (Elt F)),
    ternary main_v270 main_v272 main_v267 main_v273 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_90 (constantI S_ 32 0#32),
    unary main_c_90 main_v274 (broadcastInDim S8x12544 ![] bcast_S_S8x12544 : (⟨S_, .i32⟩ : BufTy).Contents (Elt F) → (⟨S8x12544, .i32⟩ : BufTy).Contents (Elt F)),
    binary main_v268 main_v274 main_v275 (cmpi .slt : (⟨S8x12544, .i32⟩ : BufTy).Contents (Elt F) → (⟨S8x12544, .i32⟩ : BufTy).Contents (Elt F) → (⟨S8x12544, .i1⟩ : BufTy).Contents (Elt F)),
    nullary main_c_91 (constantI S_ 32 160#32),
    unary main_c_91 main_v276 (broadcastInDim S8x12544 ![] bcast_S_S8x12544 : (⟨S_, .i32⟩ : BufTy).Contents (Elt F) → (⟨S8x12544, .i32⟩ : BufTy).Contents (Elt F)),
    binary main_v268 main_v276 main_v277 (addi : (⟨S8x12544, .i32⟩ : BufTy).Contents (Elt F) → (⟨S8x12544, .i32⟩ : BufTy).Contents (Elt F) → (⟨S8x12544, .i32⟩ : BufTy).Contents (Elt F)),
    ternary main_v275 main_v277 main_v268 main_v278 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v273 main_v279 (broadcastInDim S8x12544x1 ![0, 1] bcast_S8x12544_S8x12544x1_0_1 : (⟨S8x12544, .i32⟩ : BufTy).Contents (Elt F) → (⟨S8x12544x1, .i32⟩ : BufTy).Contents (Elt F)),
    unary main_v278 main_v280 (broadcastInDim S8x12544x1 ![0, 1] bcast_S8x12544_S8x12544x1_0_1 : (⟨S8x12544, .i32⟩ : BufTy).Contents (Elt F) → (⟨S8x12544x1, .i32⟩ : BufTy).Contents (Elt F))]

abbrev W17 : List (Ref sig .tc) :=
  [main_v269, main_v270, main_c_89, main_v271, main_v272, main_v273, main_c_90, main_v274, main_v275, main_c_91, main_v276, main_v277, main_v278, main_v279, main_v280]

theorem ops17_plain : Plains (ops17 : List (HloOp τ sig (Elt F))) W17 := by
  repeat (first | exact .nil | refine .cons (by first | exact .nullary .. | exact .unary .. | exact .binary .. | exact .ternary .. | exact .reshape ..) ?_)

set_option maxRecDepth 8192 in
set_option maxHeartbeats 4000000 in
theorem c17 {x0 : X0 F} {x1 : X1 F} {x2 : X2 F} {x3 : X3 F} {x4 : X4 F} {V : Valuation τ sig (Elt F)}
    (h16 : Holds V (Out16 x0 x1 x2 x3 x4)) :
    Holds (after (ops17 (F := F)) V) (Out17 x0 x1 x2 x3 x4) := by
  simp only [Holds, Out16, Out17, List.forall_cons, List.Forall, and_true] at h16 ⊢
  after_results_simp
  try simp only [h16.2.2.2.2, h16.2.2.1, h16.2.2.2.1]
  refine ⟨?_, ?_⟩ <;> rfl

end Cert.ReferenceIdeal.RunH

end
-- ==== Proof.RefRun.C18.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops18 : List (HloOp τ sig (Elt F)) :=
  [ binary main_v279 main_v280 main_v281 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg2 main_v281 main_v282 ((fun x i => Host.gather gather_S8x32x160x160_S8x12544x2_S8x32x12544_1_23_0_0_23_2_13211 x i) : (⟨S8x32x160x160, .f32⟩ : BufTy).Contents (Elt F) → (⟨S8x12544x2, .i32⟩ : BufTy).Contents (Elt F) → (⟨S8x32x12544, .f32⟩ : BufTy).Contents (Elt F)),
    unary main_v266 main_v283 (broadcastInDim S8x1x12544 ![0, 2] bcast_S8x12544_S8x1x12544_0_2 : (⟨S8x12544, .f32⟩ : BufTy).Contents (Elt F) → (⟨S8x1x12544, .f32⟩ : BufTy).Contents (Elt F)),
    unary main_v283 main_v284 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v282 main_v284 main_v285 (mulf : (⟨S8x32x12544, .f32⟩ : BufTy).Contents (Elt F) → (⟨S8x32x12544, .f32⟩ : BufTy).Contents (Elt F) → (⟨S8x32x12544, .f32⟩ : BufTy).Contents (Elt F)),
    nullary main_c_92 (constantI S_ 32 1#32),
    unary main_c_92 main_v286 (broadcastInDim S8x12544 ![] bcast_S_S8x12544 : (⟨S_, .i32⟩ : BufTy).Contents (Elt F) → (⟨S8x12544, .i32⟩ : BufTy).Contents (Elt F)),
    binary main_v221 main_v286 main_v287 (addi : (⟨S8x12544, .i32⟩ : BufTy).Contents (Elt F) → (⟨S8x12544, .i32⟩ : BufTy).Contents (Elt F) → (⟨S8x12544, .i32⟩ : BufTy).Contents (Elt F)),
    nullary main_c_93 (constantI S_ 32 0#32),
    unary main_c_93 main_v288 (broadcastInDim S8x12544 ![] bcast_S_S8x12544 : (⟨S_, .i32⟩ : BufTy).Contents (Elt F) → (⟨S8x12544, .i32⟩ : BufTy).Contents (Elt F)),
    binary main_v220 main_v288 main_v289 (cmpi .sge : (⟨S8x12544, .i32⟩ : BufTy).Contents (Elt F) → (⟨S8x12544, .i32⟩ : BufTy).Contents (Elt F) → (⟨S8x12544, .i1⟩ : BufTy).Contents (Elt F)),
    nullary main_c_94 (constantI S_ 32 160#32),
    unary main_c_94 main_v290 (broadcastInDim S8x12544 ![] bcast_S_S8x12544 : (⟨S_, .i32⟩ : BufTy).Contents (Elt F) → (⟨S8x12544, .i32⟩ : BufTy).Contents (Elt F)),
    binary main_v220 main_v290 main_v291 (cmpi .slt : (⟨S8x12544, .i32⟩ : BufTy).Contents (Elt F) → (⟨S8x12544, .i32⟩ : BufTy).Contents (Elt F) → (⟨S8x12544, .i1⟩ : BufTy).Contents (Elt F)),
    binary main_v289 main_v291 main_v292 (andi : (⟨S8x12544, .i1⟩ : BufTy).Contents (Elt F) → (⟨S8x12544, .i1⟩ : BufTy).Contents (Elt F) → (⟨S8x12544, .i1⟩ : BufTy).Contents (Elt F)),
    nullary main_c_95 (constantI S_ 32 0#32),
    unary main_c_95 main_v293 (broadcastInDim S8x12544 ![] bcast_S_S8x12544 : (⟨S_, .i32⟩ : BufTy).Contents (Elt F) → (⟨S8x12544, .i32⟩ : BufTy).Contents (Elt F)),
    binary main_v287 main_v293 main_v294 (cmpi .sge : (⟨S8x12544, .i32⟩ : BufTy).Contents (Elt F) → (⟨S8x12544, .i32⟩ : BufTy).Contents (Elt F) → (⟨S8x12544, .i1⟩ : BufTy).Contents (Elt F)),
    binary main_v292 main_v294 main_v295 (andi : (⟨S8x12544, .i1⟩ : BufTy).Contents (Elt F) → (⟨S8x12544, .i1⟩ : BufTy).Contents (Elt F) → (⟨S8x12544, .i1⟩ : BufTy).Contents (Elt F)),
    nullary main_c_96 (constantI S_ 32 160#32),
    unary main_c_96 main_v296 (broadcastInDim S8x12544 ![] bcast_S_S8x12544 : (⟨S_, .i32⟩ : BufTy).Contents (Elt F) → (⟨S8x12544, .i32⟩ : BufTy).Contents (Elt F)),
    binary main_v287 main_v296 main_v297 (cmpi .slt : (⟨S8x12544, .i32⟩ : BufTy).Contents (Elt F) → (⟨S8x12544, .i32⟩ : BufTy).Contents (Elt F) → (⟨S8x12544, .i1⟩ : BufTy).Contents (Elt F)),
    binary main_v295 main_v297 main_v298 (andi : (⟨S8x12544, .i1⟩ : BufTy).Contents (Elt F) → (⟨S8x12544, .i1⟩ : BufTy).Contents (Elt F) → (⟨S8x12544, .i1⟩ : BufTy).Contents (Elt F)),
    unary main_v298 main_v299 (uitofp .f32 : (⟨S8x12544, .i1⟩ : BufTy).Contents (Elt F) → (⟨S8x12544, .f32⟩ : BufTy).Contents (Elt F)),
    nullary main_c_97 (constantI S_ 32 0#32),
    nullary main_c_98 (constantI S_ 32 159#32),
    TRef.unary (TRef.of (T := ⟨S_, .i32⟩) main_c_97) (TRef.of (T := ⟨S_, .i32⟩) main_call12_v0) id,
    TRef.unary (TRef.of (T := ⟨S_, .i32⟩) main_call12_v0) (TRef.of (T := ⟨S8x12544, .i32⟩) main_call12_v1) (broadcastInDim S8x12544 ![] bcast_S_S8x12544)]

abbrev W18 : List (Ref sig .tc) :=
  [main_v281, main_v282, main_v283, main_v284, main_v285, main_c_92, main_v286, main_v287, main_c_93, main_v288, main_v289, main_c_94, main_v290, main_v291, main_v292, main_c_95, main_v293, main_v294, main_v295, main_c_96, main_v296, main_v297, main_v298, main_v299, main_c_97, main_c_98, main_call12_v0, main_call12_v1]

theorem ops18_plain : Plains (ops18 : List (HloOp τ sig (Elt F))) W18 := by
  repeat (first | exact .nil | refine .cons (by first | exact .nullary .. | exact .unary .. | exact .binary .. | exact .ternary .. | exact .reshape ..) ?_)

set_option maxRecDepth 8192 in
set_option maxHeartbeats 4000000 in
theorem c18 {x0 : X0 F} {x1 : X1 F} {x2 : X2 F} {x3 : X3 F} {x4 : X4 F} {V : Valuation τ sig (Elt F)}
    (h0 : Holds V (Out0 x0 x1 x2 x3 x4)) (h14 : Holds V (Out14 x0 x1 x2 x3 x4)) (h16 : Holds V (Out16 x0 x1 x2 x3 x4)) (h17 : Holds V (Out17 x0 x1 x2 x3 x4)) :
    Holds (after (ops18 (F := F)) V) (Out18 x0 x1 x2 x3 x4) := by
  simp only [Holds, Out0, Out14, Out16, Out17, Out18, List.forall_cons, List.Forall, and_true] at h0 h14 h16 h17 ⊢
  after_results_simp
  try simp only [h17.1, h17.2, h0.2.2.1, h16.2.1, h14.2.2.2.1, h14.2.2.1]
  try rw [h17.1]
  try rw [h17.2]
  refine ⟨?_, ?_, ?_, ?_, ?_⟩ <;> rfl

end Cert.ReferenceIdeal.RunH

end
-- ==== Proof.RefRun.C19.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops19 : List (HloOp τ sig (Elt F)) :=
  [ TRef.binary (TRef.of (T := ⟨S8x12544, .i32⟩) main_call12_v1) (TRef.of (T := ⟨S8x12544, .i32⟩) main_v287) (TRef.of (T := ⟨S8x12544, .i32⟩) main_call12_v2) maxsi,
    TRef.unary (TRef.of (T := ⟨S_, .i32⟩) main_c_98) (TRef.of (T := ⟨S_, .i32⟩) main_call12_v3) id,
    TRef.unary (TRef.of (T := ⟨S_, .i32⟩) main_call12_v3) (TRef.of (T := ⟨S8x12544, .i32⟩) main_call12_v4) (broadcastInDim S8x12544 ![] bcast_S_S8x12544),
    TRef.binary (TRef.of (T := ⟨S8x12544, .i32⟩) main_call12_v4) (TRef.of (T := ⟨S8x12544, .i32⟩) main_call12_v2) (TRef.of (T := ⟨S8x12544, .i32⟩) main_v300) minsi,
    nullary main_c_99 (constantI S_ 32 0#32),
    nullary main_c_100 (constantI S_ 32 159#32),
    TRef.unary (TRef.of (T := ⟨S_, .i32⟩) main_c_99) (TRef.of (T := ⟨S_, .i32⟩) main_call13_v0) id,
    TRef.unary (TRef.of (T := ⟨S_, .i32⟩) main_call13_v0) (TRef.of (T := ⟨S8x12544, .i32⟩) main_call13_v1) (broadcastInDim S8x12544 ![] bcast_S_S8x12544),
    TRef.binary (TRef.of (T := ⟨S8x12544, .i32⟩) main_call13_v1) (TRef.of (T := ⟨S8x12544, .i32⟩) main_v220) (TRef.of (T := ⟨S8x12544, .i32⟩) main_call13_v2) maxsi,
    TRef.unary (TRef.of (T := ⟨S_, .i32⟩) main_c_100) (TRef.of (T := ⟨S_, .i32⟩) main_call13_v3) id,
    TRef.unary (TRef.of (T := ⟨S_, .i32⟩) main_call13_v3) (TRef.of (T := ⟨S8x12544, .i32⟩) main_call13_v4) (broadcastInDim S8x12544 ![] bcast_S_S8x12544),
    TRef.binary (TRef.of (T := ⟨S8x12544, .i32⟩) main_call13_v4) (TRef.of (T := ⟨S8x12544, .i32⟩) main_call13_v2) (TRef.of (T := ⟨S8x12544, .i32⟩) main_v301) minsi,
    nullary main_c_101 (constantI S_ 32 0#32),
    unary main_c_101 main_v302 (broadcastInDim S8x12544 ![] bcast_S_S8x12544 : (⟨S_, .i32⟩ : BufTy).Contents (Elt F) → (⟨S8x12544, .i32⟩ : BufTy).Contents (Elt F)),
    binary main_v300 main_v302 main_v303 (cmpi .slt : (⟨S8x12544, .i32⟩ : BufTy).Contents (Elt F) → (⟨S8x12544, .i32⟩ : BufTy).Contents (Elt F) → (⟨S8x12544, .i1⟩ : BufTy).Contents (Elt F)),
    nullary main_c_102 (constantI S_ 32 160#32),
    unary main_c_102 main_v304 (broadcastInDim S8x12544 ![] bcast_S_S8x12544 : (⟨S_, .i32⟩ : BufTy).Contents (Elt F) → (⟨S8x12544, .i32⟩ : BufTy).Contents (Elt F)),
    binary main_v300 main_v304 main_v305 (addi : (⟨S8x12544, .i32⟩ : BufTy).Contents (Elt F) → (⟨S8x12544, .i32⟩ : BufTy).Contents (Elt F) → (⟨S8x12544, .i32⟩ : BufTy).Contents (Elt F)),
    ternary main_v303 main_v305 main_v300 main_v306 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_103 (constantI S_ 32 0#32),
    unary main_c_103 main_v307 (broadcastInDim S8x12544 ![] bcast_S_S8x12544 : (⟨S_, .i32⟩ : BufTy).Contents (Elt F) → (⟨S8x12544, .i32⟩ : BufTy).Contents (Elt F)),
    binary main_v301 main_v307 main_v308 (cmpi .slt : (⟨S8x12544, .i32⟩ : BufTy).Contents (Elt F) → (⟨S8x12544, .i32⟩ : BufTy).Contents (Elt F) → (⟨S8x12544, .i1⟩ : BufTy).Contents (Elt F)),
    nullary main_c_104 (constantI S_ 32 160#32),
    unary main_c_104 main_v309 (broadcastInDim S8x12544 ![] bcast_S_S8x12544 : (⟨S_, .i32⟩ : BufTy).Contents (Elt F) → (⟨S8x12544, .i32⟩ : BufTy).Contents (Elt F)),
    binary main_v301 main_v309 main_v310 (addi : (⟨S8x12544, .i32⟩ : BufTy).Contents (Elt F) → (⟨S8x12544, .i32⟩ : BufTy).Contents (Elt F) → (⟨S8x12544, .i32⟩ : BufTy).Contents (Elt F)),
    ternary main_v308 main_v310 main_v301 main_v311 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v306 main_v312 (broadcastInDim S8x12544x1 ![0, 1] bcast_S8x12544_S8x12544x1_0_1 : (⟨S8x12544, .i32⟩ : BufTy).Contents (Elt F) → (⟨S8x12544x1, .i32⟩ : BufTy).Contents (Elt F))]

abbrev W19 : List (Ref sig .tc) :=
  [main_call12_v2, main_call12_v3, main_call12_v4, main_v300, main_c_99, main_c_100, main_call13_v0, main_call13_v1, main_call13_v2, main_call13_v3, main_call13_v4, main_v301, main_c_101, main_v302, main_v303, main_c_102, main_v304, main_v305, main_v306, main_c_103, main_v307, main_v308, main_c_104, main_v309, main_v310, main_v311, main_v312]

theorem ops19_plain : Plains (ops19 : List (HloOp τ sig (Elt F))) W19 := by
  repeat (first | exact .nil | refine .cons (by first | exact .nullary .. | exact .unary .. | exact .binary .. | exact .ternary .. | exact .reshape ..) ?_)

set_option maxRecDepth 8192 in
set_option maxHeartbeats 4000000 in
theorem c19 {x0 : X0 F} {x1 : X1 F} {x2 : X2 F} {x3 : X3 F} {x4 : X4 F} {V : Valuation τ sig (Elt F)}
    (h14 : Holds V (Out14 x0 x1 x2 x3 x4)) (h18 : Holds V (Out18 x0 x1 x2 x3 x4)) :
    Holds (after (ops19 (F := F)) V) (Out19 x0 x1 x2 x3 x4) := by
  simp only [Holds, Out14, Out18, Out19, List.forall_cons, List.Forall, and_true] at h14 h18 ⊢
  after_results_simp
  try simp only [h18.2.2.2.2, h18.2.1, h18.2.2.2.1, h14.2.2.1]
  refine ⟨?_, ?_⟩ <;> rfl

end Cert.ReferenceIdeal.RunH

end
-- ==== Proof.RefRun.W6.lean ====
import proofs.«401846_j83760452207136_3_alg».proof.Proof.RefRun.C17
import proofs.«401846_j83760452207136_3_alg».proof.Proof.RefRun.C18
import proofs.«401846_j83760452207136_3_alg».proof.Proof.RefRun.C19
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part6_eq (c : Dev nD) : main_part6 (F := F) c = seq (ops17 ++ (ops18 ++ ops19)) := by chain_rfl

end Cert.ReferenceIdeal.RunH

end
-- ==== Proof.RefRun.C20.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops20 : List (HloOp τ sig (Elt F)) :=
  [ unary main_v311 main_v313 (broadcastInDim S8x12544x1 ![0, 1] bcast_S8x12544_S8x12544x1_0_1 : (⟨S8x12544, .i32⟩ : BufTy).Contents (Elt F) → (⟨S8x12544x1, .i32⟩ : BufTy).Contents (Elt F))]

abbrev W20 : List (Ref sig .tc) :=
  [main_v313]

theorem ops20_plain : Plains (ops20 : List (HloOp τ sig (Elt F))) W20 := by
  repeat (first | exact .nil | refine .cons (by first | exact .nullary .. | exact .unary .. | exact .binary .. | exact .ternary .. | exact .reshape ..) ?_)

set_option maxRecDepth 8192 in
set_option maxHeartbeats 4000000 in
theorem c20 {x0 : X0 F} {x1 : X1 F} {x2 : X2 F} {x3 : X3 F} {x4 : X4 F} {V : Valuation τ sig (Elt F)}
    (h19 : Holds V (Out19 x0 x1 x2 x3 x4)) :
    Holds (after (ops20 (F := F)) V) (Out20 x0 x1 x2 x3 x4) := by
  simp only [Holds, Out19, Out20, List.forall_cons, List.Forall, and_true] at h19 ⊢
  after_results_simp
  try simp only [h19.1]
  rfl

end Cert.ReferenceIdeal.RunH

end
-- ==== Proof.RefRun.C21.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops21 : List (HloOp τ sig (Elt F)) :=
  [ binary main_v312 main_v313 main_v314 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg2 main_v314 main_v315 ((fun x i => Host.gather gather_S8x32x160x160_S8x12544x2_S8x32x12544_1_23_0_0_23_2_13211 x i) : (⟨S8x32x160x160, .f32⟩ : BufTy).Contents (Elt F) → (⟨S8x12544x2, .i32⟩ : BufTy).Contents (Elt F) → (⟨S8x32x12544, .f32⟩ : BufTy).Contents (Elt F)),
    unary main_v299 main_v316 (broadcastInDim S8x1x12544 ![0, 2] bcast_S8x12544_S8x1x12544_0_2 : (⟨S8x12544, .f32⟩ : BufTy).Contents (Elt F) → (⟨S8x1x12544, .f32⟩ : BufTy).Contents (Elt F)),
    unary main_v316 main_v317 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v315 main_v317 main_v318 (mulf : (⟨S8x32x12544, .f32⟩ : BufTy).Contents (Elt F) → (⟨S8x32x12544, .f32⟩ : BufTy).Contents (Elt F) → (⟨S8x32x12544, .f32⟩ : BufTy).Contents (Elt F)),
    nullary main_c_105 (constantI S_ 32 1#32),
    unary main_c_105 main_v319 (broadcastInDim S8x12544 ![] bcast_S_S8x12544 : (⟨S_, .i32⟩ : BufTy).Contents (Elt F) → (⟨S8x12544, .i32⟩ : BufTy).Contents (Elt F)),
    binary main_v220 main_v319 main_v320 (addi : (⟨S8x12544, .i32⟩ : BufTy).Contents (Elt F) → (⟨S8x12544, .i32⟩ : BufTy).Contents (Elt F) → (⟨S8x12544, .i32⟩ : BufTy).Contents (Elt F)),
    nullary main_c_106 (constantI S_ 32 1#32),
    unary main_c_106 main_v321 (broadcastInDim S8x12544 ![] bcast_S_S8x12544 : (⟨S_, .i32⟩ : BufTy).Contents (Elt F) → (⟨S8x12544, .i32⟩ : BufTy).Contents (Elt F)),
    binary main_v221 main_v321 main_v322 (addi : (⟨S8x12544, .i32⟩ : BufTy).Contents (Elt F) → (⟨S8x12544, .i32⟩ : BufTy).Contents (Elt F) → (⟨S8x12544, .i32⟩ : BufTy).Contents (Elt F)),
    nullary main_c_107 (constantI S_ 32 0#32),
    unary main_c_107 main_v323 (broadcastInDim S8x12544 ![] bcast_S_S8x12544 : (⟨S_, .i32⟩ : BufTy).Contents (Elt F) → (⟨S8x12544, .i32⟩ : BufTy).Contents (Elt F)),
    binary main_v320 main_v323 main_v324 (cmpi .sge : (⟨S8x12544, .i32⟩ : BufTy).Contents (Elt F) → (⟨S8x12544, .i32⟩ : BufTy).Contents (Elt F) → (⟨S8x12544, .i1⟩ : BufTy).Contents (Elt F)),
    nullary main_c_108 (constantI S_ 32 160#32),
    unary main_c_108 main_v325 (broadcastInDim S8x12544 ![] bcast_S_S8x12544 : (⟨S_, .i32⟩ : BufTy).Contents (Elt F) → (⟨S8x12544, .i32⟩ : BufTy).Contents (Elt F)),
    binary main_v320 main_v325 main_v326 (cmpi .slt : (⟨S8x12544, .i32⟩ : BufTy).Contents (Elt F) → (⟨S8x12544, .i32⟩ : BufTy).Contents (Elt F) → (⟨S8x12544, .i1⟩ : BufTy).Contents (Elt F)),
    binary main_v324 main_v326 main_v327 (andi : (⟨S8x12544, .i1⟩ : BufTy).Contents (Elt F) → (⟨S8x12544, .i1⟩ : BufTy).Contents (Elt F) → (⟨S8x12544, .i1⟩ : BufTy).Contents (Elt F)),
    nullary main_c_109 (constantI S_ 32 0#32),
    unary main_c_109 main_v328 (broadcastInDim S8x12544 ![] bcast_S_S8x12544 : (⟨S_, .i32⟩ : BufTy).Contents (Elt F) → (⟨S8x12544, .i32⟩ : BufTy).Contents (Elt F)),
    binary main_v322 main_v328 main_v329 (cmpi .sge : (⟨S8x12544, .i32⟩ : BufTy).Contents (Elt F) → (⟨S8x12544, .i32⟩ : BufTy).Contents (Elt F) → (⟨S8x12544, .i1⟩ : BufTy).Contents (Elt F)),
    binary main_v327 main_v329 main_v330 (andi : (⟨S8x12544, .i1⟩ : BufTy).Contents (Elt F) → (⟨S8x12544, .i1⟩ : BufTy).Contents (Elt F) → (⟨S8x12544, .i1⟩ : BufTy).Contents (Elt F)),
    nullary main_c_110 (constantI S_ 32 160#32),
    unary main_c_110 main_v331 (broadcastInDim S8x12544 ![] bcast_S_S8x12544 : (⟨S_, .i32⟩ : BufTy).Contents (Elt F) → (⟨S8x12544, .i32⟩ : BufTy).Contents (Elt F)),
    binary main_v322 main_v331 main_v332 (cmpi .slt : (⟨S8x12544, .i32⟩ : BufTy).Contents (Elt F) → (⟨S8x12544, .i32⟩ : BufTy).Contents (Elt F) → (⟨S8x12544, .i1⟩ : BufTy).Contents (Elt F)),
    binary main_v330 main_v332 main_v333 (andi : (⟨S8x12544, .i1⟩ : BufTy).Contents (Elt F) → (⟨S8x12544, .i1⟩ : BufTy).Contents (Elt F) → (⟨S8x12544, .i1⟩ : BufTy).Contents (Elt F)),
    unary main_v333 main_v334 (uitofp .f32 : (⟨S8x12544, .i1⟩ : BufTy).Contents (Elt F) → (⟨S8x12544, .f32⟩ : BufTy).Contents (Elt F)),
    nullary main_c_111 (constantI S_ 32 0#32),
    nullary main_c_112 (constantI S_ 32 159#32),
    TRef.unary (TRef.of (T := ⟨S_, .i32⟩) main_c_111) (TRef.of (T := ⟨S_, .i32⟩) main_call14_v0) id]

abbrev W21 : List (Ref sig .tc) :=
  [main_v314, main_v315, main_v316, main_v317, main_v318, main_c_105, main_v319, main_v320, main_c_106, main_v321, main_v322, main_c_107, main_v323, main_v324, main_c_108, main_v325, main_v326, main_v327, main_c_109, main_v328, main_v329, main_v330, main_c_110, main_v331, main_v332, main_v333, main_v334, main_c_111, main_c_112, main_call14_v0]

theorem ops21_plain : Plains (ops21 : List (HloOp τ sig (Elt F))) W21 := by
  repeat (first | exact .nil | refine .cons (by first | exact .nullary .. | exact .unary .. | exact .binary .. | exact .ternary .. | exact .reshape ..) ?_)

set_option maxRecDepth 8192 in
set_option maxHeartbeats 4000000 in
theorem c21 {x0 : X0 F} {x1 : X1 F} {x2 : X2 F} {x3 : X3 F} {x4 : X4 F} {V : Valuation τ sig (Elt F)}
    (h0 : Holds V (Out0 x0 x1 x2 x3 x4)) (h14 : Holds V (Out14 x0 x1 x2 x3 x4)) (h18 : Holds V (Out18 x0 x1 x2 x3 x4)) (h19 : Holds V (Out19 x0 x1 x2 x3 x4)) (h20 : Holds V (Out20 x0 x1 x2 x3 x4)) :
    Holds (after (ops21 (F := F)) V) (Out21 x0 x1 x2 x3 x4) := by
  simp only [Holds, Out0, Out14, Out18, Out19, Out20, Out21, List.forall_cons, List.Forall, and_true] at h0 h14 h18 h19 h20 ⊢
  after_results_simp
  try simp only [h19.2, h20, h0.2.2.1, h18.2.2.1, h14.2.2.1, h14.2.2.2.1]
  try rw [h19.2]
  try rw [h20]
  refine ⟨?_, ?_, ?_, ?_, ?_, ?_⟩ <;> rfl

end Cert.ReferenceIdeal.RunH

end
-- ==== Proof.RefRun.C22.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops22 : List (HloOp τ sig (Elt F)) :=
  [ TRef.unary (TRef.of (T := ⟨S_, .i32⟩) main_call14_v0) (TRef.of (T := ⟨S8x12544, .i32⟩) main_call14_v1) (broadcastInDim S8x12544 ![] bcast_S_S8x12544),
    TRef.binary (TRef.of (T := ⟨S8x12544, .i32⟩) main_call14_v1) (TRef.of (T := ⟨S8x12544, .i32⟩) main_v322) (TRef.of (T := ⟨S8x12544, .i32⟩) main_call14_v2) maxsi,
    TRef.unary (TRef.of (T := ⟨S_, .i32⟩) main_c_112) (TRef.of (T := ⟨S_, .i32⟩) main_call14_v3) id,
    TRef.unary (TRef.of (T := ⟨S_, .i32⟩) main_call14_v3) (TRef.of (T := ⟨S8x12544, .i32⟩) main_call14_v4) (broadcastInDim S8x12544 ![] bcast_S_S8x12544),
    TRef.binary (TRef.of (T := ⟨S8x12544, .i32⟩) main_call14_v4) (TRef.of (T := ⟨S8x12544, .i32⟩) main_call14_v2) (TRef.of (T := ⟨S8x12544, .i32⟩) main_v335) minsi,
    nullary main_c_113 (constantI S_ 32 0#32),
    nullary main_c_114 (constantI S_ 32 159#32),
    TRef.unary (TRef.of (T := ⟨S_, .i32⟩) main_c_113) (TRef.of (T := ⟨S_, .i32⟩) main_call15_v0) id,
    TRef.unary (TRef.of (T := ⟨S_, .i32⟩) main_call15_v0) (TRef.of (T := ⟨S8x12544, .i32⟩) main_call15_v1) (broadcastInDim S8x12544 ![] bcast_S_S8x12544),
    TRef.binary (TRef.of (T := ⟨S8x12544, .i32⟩) main_call15_v1) (TRef.of (T := ⟨S8x12544, .i32⟩) main_v320) (TRef.of (T := ⟨S8x12544, .i32⟩) main_call15_v2) maxsi,
    TRef.unary (TRef.of (T := ⟨S_, .i32⟩) main_c_114) (TRef.of (T := ⟨S_, .i32⟩) main_call15_v3) id,
    TRef.unary (TRef.of (T := ⟨S_, .i32⟩) main_call15_v3) (TRef.of (T := ⟨S8x12544, .i32⟩) main_call15_v4) (broadcastInDim S8x12544 ![] bcast_S_S8x12544),
    TRef.binary (TRef.of (T := ⟨S8x12544, .i32⟩) main_call15_v4) (TRef.of (T := ⟨S8x12544, .i32⟩) main_call15_v2) (TRef.of (T := ⟨S8x12544, .i32⟩) main_v336) minsi,
    nullary main_c_115 (constantI S_ 32 0#32),
    unary main_c_115 main_v337 (broadcastInDim S8x12544 ![] bcast_S_S8x12544 : (⟨S_, .i32⟩ : BufTy).Contents (Elt F) → (⟨S8x12544, .i32⟩ : BufTy).Contents (Elt F)),
    binary main_v335 main_v337 main_v338 (cmpi .slt : (⟨S8x12544, .i32⟩ : BufTy).Contents (Elt F) → (⟨S8x12544, .i32⟩ : BufTy).Contents (Elt F) → (⟨S8x12544, .i1⟩ : BufTy).Contents (Elt F)),
    nullary main_c_116 (constantI S_ 32 160#32),
    unary main_c_116 main_v339 (broadcastInDim S8x12544 ![] bcast_S_S8x12544 : (⟨S_, .i32⟩ : BufTy).Contents (Elt F) → (⟨S8x12544, .i32⟩ : BufTy).Contents (Elt F)),
    binary main_v335 main_v339 main_v340 (addi : (⟨S8x12544, .i32⟩ : BufTy).Contents (Elt F) → (⟨S8x12544, .i32⟩ : BufTy).Contents (Elt F) → (⟨S8x12544, .i32⟩ : BufTy).Contents (Elt F)),
    ternary main_v338 main_v340 main_v335 main_v341 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    nullary main_c_117 (constantI S_ 32 0#32),
    unary main_c_117 main_v342 (broadcastInDim S8x12544 ![] bcast_S_S8x12544 : (⟨S_, .i32⟩ : BufTy).Contents (Elt F) → (⟨S8x12544, .i32⟩ : BufTy).Contents (Elt F)),
    binary main_v336 main_v342 main_v343 (cmpi .slt : (⟨S8x12544, .i32⟩ : BufTy).Contents (Elt F) → (⟨S8x12544, .i32⟩ : BufTy).Contents (Elt F) → (⟨S8x12544, .i1⟩ : BufTy).Contents (Elt F)),
    nullary main_c_118 (constantI S_ 32 160#32),
    unary main_c_118 main_v344 (broadcastInDim S8x12544 ![] bcast_S_S8x12544 : (⟨S_, .i32⟩ : BufTy).Contents (Elt F) → (⟨S8x12544, .i32⟩ : BufTy).Contents (Elt F)),
    binary main_v336 main_v344 main_v345 (addi : (⟨S8x12544, .i32⟩ : BufTy).Contents (Elt F) → (⟨S8x12544, .i32⟩ : BufTy).Contents (Elt F) → (⟨S8x12544, .i32⟩ : BufTy).Contents (Elt F)),
    ternary main_v343 main_v345 main_v336 main_v346 (select : (⟨S8x12544, .i1⟩ : BufTy).Contents (Elt F) → (⟨S8x12544, .i32⟩ : BufTy).Contents (Elt F) → (⟨S8x12544, .i32⟩ : BufTy).Contents (Elt F) → (⟨S8x12544, .i32⟩ : BufTy).Contents (Elt F)),
    unary main_v341 main_v347 (broadcastInDim S8x12544x1 ![0, 1] bcast_S8x12544_S8x12544x1_0_1 : (⟨S8x12544, .i32⟩ : BufTy).Contents (Elt F) → (⟨S8x12544x1, .i32⟩ : BufTy).Contents (Elt F)),
    unary main_v346 main_v348 (broadcastInDim S8x12544x1 ![0, 1] bcast_S8x12544_S8x12544x1_0_1 : (⟨S8x12544, .i32⟩ : BufTy).Contents (Elt F) → (⟨S8x12544x1, .i32⟩ : BufTy).Contents (Elt F))]

abbrev W22 : List (Ref sig .tc) :=
  [main_call14_v1, main_call14_v2, main_call14_v3, main_call14_v4, main_v335, main_c_113, main_c_114, main_call15_v0, main_call15_v1, main_call15_v2, main_call15_v3, main_call15_v4, main_v336, main_c_115, main_v337, main_v338, main_c_116, main_v339, main_v340, main_v341, main_c_117, main_v342, main_v343, main_c_118, main_v344, main_v345, main_v346, main_v347, main_v348]

theorem ops22_plain : Plains (ops22 : List (HloOp τ sig (Elt F))) W22 := by
  repeat (first | exact .nil | refine .cons (by first | exact .nullary .. | exact .unary .. | exact .binary .. | exact .ternary .. | exact .reshape ..) ?_)

set_option maxRecDepth 8192 in
set_option maxHeartbeats 4000000 in
theorem c22 {x0 : X0 F} {x1 : X1 F} {x2 : X2 F} {x3 : X3 F} {x4 : X4 F} {V : Valuation τ sig (Elt F)}
    (h21 : Holds V (Out21 x0 x1 x2 x3 x4)) :
    Holds (after (ops22 (F := F)) V) (Out22 x0 x1 x2 x3 x4) := by
  simp only [Holds, Out21, Out22, List.forall_cons, List.Forall, and_true] at h21 ⊢
  after_results_simp
  try simp only [h21.2.2.2.2.2, h21.2.2.1, h21.2.2.2.2.1, h21.2.1]
  refine ⟨?_, ?_⟩ <;> rfl

end Cert.ReferenceIdeal.RunH

end
-- ==== Proof.RefRun.C23.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops23 : List (HloOp τ sig (Elt F)) :=
  [ binary main_v347 main_v348 main_v349 ((fun a b => concatenate S8x12544x2 2 [⟨S8x12544x1, a⟩, ⟨S8x12544x1, b⟩] concatenates_S8x12544x1_S8x12544x1_S8x12544x2_d2) : (⟨S8x12544x1, .i32⟩ : BufTy).Contents (Elt F) → (⟨S8x12544x1, .i32⟩ : BufTy).Contents (Elt F) → (⟨S8x12544x2, .i32⟩ : BufTy).Contents (Elt F)),
    binary main_arg2 main_v349 main_v350 ((fun x i => Host.gather gather_S8x32x160x160_S8x12544x2_S8x32x12544_1_23_0_0_23_2_13211 x i) : (⟨S8x32x160x160, .f32⟩ : BufTy).Contents (Elt F) → (⟨S8x12544x2, .i32⟩ : BufTy).Contents (Elt F) → (⟨S8x32x12544, .f32⟩ : BufTy).Contents (Elt F)),
    unary main_v334 main_v351 (broadcastInDim S8x1x12544 ![0, 2] bcast_S8x12544_S8x1x12544_0_2 : (⟨S8x12544, .f32⟩ : BufTy).Contents (Elt F) → (⟨S8x1x12544, .f32⟩ : BufTy).Contents (Elt F)),
    unary main_v351 main_v352 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v350 main_v352 main_v353 (mulf : (⟨S8x32x12544, .f32⟩ : BufTy).Contents (Elt F) → (⟨S8x32x12544, .f32⟩ : BufTy).Contents (Elt F) → (⟨S8x32x12544, .f32⟩ : BufTy).Contents (Elt F)),
    nullary main_cst_119 (constant S_ .f32 0x3F800000#32),
    unary main_cst_119 main_v354 (broadcastInDim S8x12544 ![] bcast_S_S8x12544 : (⟨S_, .f32⟩ : BufTy).Contents (Elt F) → (⟨S8x12544, .f32⟩ : BufTy).Contents (Elt F)),
    binary main_v354 main_v218 main_v355 (subf : (⟨S8x12544, .f32⟩ : BufTy).Contents (Elt F) → (⟨S8x12544, .f32⟩ : BufTy).Contents (Elt F) → (⟨S8x12544, .f32⟩ : BufTy).Contents (Elt F)),
    unary main_v355 main_v356 (broadcastInDim S8x1x12544 ![0, 2] bcast_S8x12544_S8x1x12544_0_2 : (⟨S8x12544, .f32⟩ : BufTy).Contents (Elt F) → (⟨S8x1x12544, .f32⟩ : BufTy).Contents (Elt F)),
    unary main_v356 main_v357 (broadcastInDim S8x32x12544 ![0, 1, 2] bcast_S8x1x12544_S8x32x12544_0_1_2 : (⟨S8x1x12544, .f32⟩ : BufTy).Contents (Elt F) → (⟨S8x32x12544, .f32⟩ : BufTy).Contents (Elt F))]

abbrev W23 : List (Ref sig .tc) :=
  [main_v349, main_v350, main_v351, main_v352, main_v353, main_cst_119, main_v354, main_v355, main_v356, main_v357]

theorem ops23_plain : Plains (ops23 : List (HloOp τ sig (Elt F))) W23 := by
  repeat (first | exact .nil | refine .cons (by first | exact .nullary .. | exact .unary .. | exact .binary .. | exact .ternary .. | exact .reshape ..) ?_)

set_option maxRecDepth 8192 in
set_option maxHeartbeats 4000000 in
theorem c23 {x0 : X0 F} {x1 : X1 F} {x2 : X2 F} {x3 : X3 F} {x4 : X4 F} {V : Valuation τ sig (Elt F)}
    (h0 : Holds V (Out0 x0 x1 x2 x3 x4)) (h14 : Holds V (Out14 x0 x1 x2 x3 x4)) (h21 : Holds V (Out21 x0 x1 x2 x3 x4)) (h22 : Holds V (Out22 x0 x1 x2 x3 x4)) :
    Holds (after (ops23 (F := F)) V) (Out23 x0 x1 x2 x3 x4) := by
  simp only [Holds, Out0, Out14, Out21, Out22, Out23, List.forall_cons, List.Forall, and_true] at h0 h14 h21 h22 ⊢
  after_results_simp
  try simp only [h22.1, h22.2, h0.2.2.1, h21.2.2.2.1, h14.1]
  try rw [h22.1]
  try rw [h22.2]
  refine ⟨?_, ?_⟩ <;> rfl

end Cert.ReferenceIdeal.RunH

end
-- ==== Proof.RefRun.W7.lean ====
import proofs.«401846_j83760452207136_3_alg».proof.Proof.RefRun.C20
import proofs.«401846_j83760452207136_3_alg».proof.Proof.RefRun.C21
import proofs.«401846_j83760452207136_3_alg».proof.Proof.RefRun.C22
import proofs.«401846_j83760452207136_3_alg».proof.Proof.RefRun.C23
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part7_eq (c : Dev nD) : main_part7 (F := F) c = seq (ops20 ++ (ops21 ++ (ops22 ++ ops23))) := by chain_rfl

end Cert.ReferenceIdeal.RunH

end
-- ==== Proof.RefRun.C24.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops24 : List (HloOp τ sig (Elt F)) :=
  [ binary main_v252 main_v357 main_v358 (mulf : (⟨S8x32x12544, .f32⟩ : BufTy).Contents (Elt F) → (⟨S8x32x12544, .f32⟩ : BufTy).Contents (Elt F) → (⟨S8x32x12544, .f32⟩ : BufTy).Contents (Elt F)),
    nullary main_cst_120 (constant S_ .f32 0x3F800000#32),
    unary main_cst_120 main_v359 (broadcastInDim S8x12544 ![] bcast_S_S8x12544 : (⟨S_, .f32⟩ : BufTy).Contents (Elt F) → (⟨S8x12544, .f32⟩ : BufTy).Contents (Elt F)),
    binary main_v359 main_v219 main_v360 (subf : (⟨S8x12544, .f32⟩ : BufTy).Contents (Elt F) → (⟨S8x12544, .f32⟩ : BufTy).Contents (Elt F) → (⟨S8x12544, .f32⟩ : BufTy).Contents (Elt F)),
    unary main_v360 main_v361 (broadcastInDim S8x1x12544 ![0, 2] bcast_S8x12544_S8x1x12544_0_2 : (⟨S8x12544, .f32⟩ : BufTy).Contents (Elt F) → (⟨S8x1x12544, .f32⟩ : BufTy).Contents (Elt F)),
    unary main_v361 main_v362 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v358 main_v362 main_v363 (mulf : (⟨S8x32x12544, .f32⟩ : BufTy).Contents (Elt F) → (⟨S8x32x12544, .f32⟩ : BufTy).Contents (Elt F) → (⟨S8x32x12544, .f32⟩ : BufTy).Contents (Elt F)),
    unary main_v218 main_v364 (broadcastInDim S8x1x12544 ![0, 2] bcast_S8x12544_S8x1x12544_0_2 : (⟨S8x12544, .f32⟩ : BufTy).Contents (Elt F) → (⟨S8x1x12544, .f32⟩ : BufTy).Contents (Elt F)),
    unary main_v364 main_v365 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v285 main_v365 main_v366 (mulf : (⟨S8x32x12544, .f32⟩ : BufTy).Contents (Elt F) → (⟨S8x32x12544, .f32⟩ : BufTy).Contents (Elt F) → (⟨S8x32x12544, .f32⟩ : BufTy).Contents (Elt F)),
    nullary main_cst_121 (constant S_ .f32 0x3F800000#32),
    unary main_cst_121 main_v367 (broadcastInDim S8x12544 ![] bcast_S_S8x12544 : (⟨S_, .f32⟩ : BufTy).Contents (Elt F) → (⟨S8x12544, .f32⟩ : BufTy).Contents (Elt F)),
    binary main_v367 main_v219 main_v368 (subf : (⟨S8x12544, .f32⟩ : BufTy).Contents (Elt F) → (⟨S8x12544, .f32⟩ : BufTy).Contents (Elt F) → (⟨S8x12544, .f32⟩ : BufTy).Contents (Elt F)),
    unary main_v368 main_v369 (broadcastInDim S8x1x12544 ![0, 2] bcast_S8x12544_S8x1x12544_0_2 : (⟨S8x12544, .f32⟩ : BufTy).Contents (Elt F) → (⟨S8x1x12544, .f32⟩ : BufTy).Contents (Elt F)),
    unary main_v369 main_v370 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v366 main_v370 main_v371 (mulf : (⟨S8x32x12544, .f32⟩ : BufTy).Contents (Elt F) → (⟨S8x32x12544, .f32⟩ : BufTy).Contents (Elt F) → (⟨S8x32x12544, .f32⟩ : BufTy).Contents (Elt F)),
    binary main_v363 main_v371 main_v372 (addf : (⟨S8x32x12544, .f32⟩ : BufTy).Contents (Elt F) → (⟨S8x32x12544, .f32⟩ : BufTy).Contents (Elt F) → (⟨S8x32x12544, .f32⟩ : BufTy).Contents (Elt F)),
    nullary main_cst_122 (constant S_ .f32 0x3F800000#32),
    unary main_cst_122 main_v373 (broadcastInDim S8x12544 ![] bcast_S_S8x12544 : (⟨S_, .f32⟩ : BufTy).Contents (Elt F) → (⟨S8x12544, .f32⟩ : BufTy).Contents (Elt F)),
    binary main_v373 main_v218 main_v374 (subf : (⟨S8x12544, .f32⟩ : BufTy).Contents (Elt F) → (⟨S8x12544, .f32⟩ : BufTy).Contents (Elt F) → (⟨S8x12544, .f32⟩ : BufTy).Contents (Elt F)),
    unary main_v374 main_v375 (broadcastInDim S8x1x12544 ![0, 2] bcast_S8x12544_S8x1x12544_0_2 : (⟨S8x12544, .f32⟩ : BufTy).Contents (Elt F) → (⟨S8x1x12544, .f32⟩ : BufTy).Contents (Elt F)),
    unary main_v375 main_v376 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v318 main_v376 main_v377 (mulf : (⟨S8x32x12544, .f32⟩ : BufTy).Contents (Elt F) → (⟨S8x32x12544, .f32⟩ : BufTy).Contents (Elt F) → (⟨S8x32x12544, .f32⟩ : BufTy).Contents (Elt F)),
    unary main_v219 main_v378 (broadcastInDim S8x1x12544 ![0, 2] bcast_S8x12544_S8x1x12544_0_2 : (⟨S8x12544, .f32⟩ : BufTy).Contents (Elt F) → (⟨S8x1x12544, .f32⟩ : BufTy).Contents (Elt F)),
    unary main_v378 main_v379 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v377 main_v379 main_v380 (mulf : (⟨S8x32x12544, .f32⟩ : BufTy).Contents (Elt F) → (⟨S8x32x12544, .f32⟩ : BufTy).Contents (Elt F) → (⟨S8x32x12544, .f32⟩ : BufTy).Contents (Elt F)),
    binary main_v372 main_v380 main_v381 (addf : (⟨S8x32x12544, .f32⟩ : BufTy).Contents (Elt F) → (⟨S8x32x12544, .f32⟩ : BufTy).Contents (Elt F) → (⟨S8x32x12544, .f32⟩ : BufTy).Contents (Elt F)),
    unary main_v218 main_v382 (broadcastInDim S8x1x12544 ![0, 2] bcast_S8x12544_S8x1x12544_0_2 : (⟨S8x12544, .f32⟩ : BufTy).Contents (Elt F) → (⟨S8x1x12544, .f32⟩ : BufTy).Contents (Elt F)),
    unary main_v382 main_v383 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v353 main_v383 main_v384 (mulf : (⟨S8x32x12544, .f32⟩ : BufTy).Contents (Elt F) → (⟨S8x32x12544, .f32⟩ : BufTy).Contents (Elt F) → (⟨S8x32x12544, .f32⟩ : BufTy).Contents (Elt F)),
    unary main_v219 main_v385 (broadcastInDim S8x1x12544 ![0, 2] bcast_S8x12544_S8x1x12544_0_2 : (⟨S8x12544, .f32⟩ : BufTy).Contents (Elt F) → (⟨S8x1x12544, .f32⟩ : BufTy).Contents (Elt F)),
    unary main_v385 main_v386 (broadcastInDim S8x32x12544 ![0, 1, 2] bcast_S8x1x12544_S8x32x12544_0_1_2 : (⟨S8x1x12544, .f32⟩ : BufTy).Contents (Elt F) → (⟨S8x32x12544, .f32⟩ : BufTy).Contents (Elt F)),
    binary main_v384 main_v386 main_v387 (mulf : (⟨S8x32x12544, .f32⟩ : BufTy).Contents (Elt F) → (⟨S8x32x12544, .f32⟩ : BufTy).Contents (Elt F) → (⟨S8x32x12544, .f32⟩ : BufTy).Contents (Elt F)),
    binary main_v381 main_v387 main_v388 (addf : (⟨S8x32x12544, .f32⟩ : BufTy).Contents (Elt F) → (⟨S8x32x12544, .f32⟩ : BufTy).Contents (Elt F) → (⟨S8x32x12544, .f32⟩ : BufTy).Contents (Elt F)),
    unary main_v203 main_v389 (Host.negf : (⟨S8x150x12544, .f32⟩ : BufTy).Contents (Elt F) → (⟨S8x150x12544, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S8x150x12544, .f32⟩) main_call16_v0) (broadcastInDim S8x150x12544 ![] bcast_S_S8x150x12544),
    TRef.binary (TRef.of (T := ⟨S8x150x12544, .f32⟩) main_v389) (TRef.of (T := ⟨S8x150x12544, .f32⟩) main_call16_v0) (TRef.of (T := ⟨S8x150x12544, .f32⟩) main_call16_v1) maximumf,
    TRef.unary (TRef.of (T := ⟨S_, .f32⟩) main_call16_cst) (TRef.of (T := ⟨S8x150x12544, .f32⟩) main_call16_v2) (broadcastInDim S8x150x12544 ![] bcast_S_S8x150x12544),
    TRef.binary (TRef.of (T := ⟨S8x150x12544, .f32⟩) main_v389) (TRef.of (T := ⟨S8x150x12544, .f32⟩) main_call16_v2) (TRef.of (T := ⟨S8x150x12544, .f32⟩) main_call16_v3) subf,
    TRef.binary (TRef.of (T := ⟨S8x150x12544, .f32⟩) main_call16_v3) (TRef.of (T := ⟨S8x150x12544, .f32⟩) main_call16_v3) (TRef.of (T := ⟨S8x150x12544, .i1⟩) main_call16_v4) (cmpf .une),
    TRef.unary (TRef.of (T := ⟨S_, .f32⟩) main_call16_cst) (TRef.of (T := ⟨S8x150x12544, .f32⟩) main_call16_v5) (broadcastInDim S8x150x12544 ![] bcast_S_S8x150x12544),
    TRef.binary (TRef.of (T := ⟨S8x150x12544, .f32⟩) main_v389) (TRef.of (T := ⟨S8x150x12544, .f32⟩) main_call16_v5) (TRef.of (T := ⟨S8x150x12544, .f32⟩) main_call16_v6) addf]

abbrev W24 : List (Ref sig .tc) :=
  [main_v358, main_cst_120, main_v359, main_v360, main_v361, main_v362, main_v363, main_v364, main_v365, main_v366, main_cst_121, main_v367, main_v368, main_v369, main_v370, main_v371, main_v372, main_cst_122, main_v373, main_v374, main_v375, main_v376, main_v377, main_v378, main_v379, main_v380, main_v381, main_v382, main_v383, main_v384, main_v385, main_v386, main_v387, main_v388, main_v389, main_call16_cst, main_call16_v0, main_call16_v1, main_call16_v2, main_call16_v3, main_call16_v4, main_call16_v5, main_call16_v6]

theorem ops24_plain : Plains (ops24 : List (HloOp τ sig (Elt F))) W24 := by
  repeat (first | exact .nil | refine .cons (by first | exact .nullary .. | exact .unary .. | exact .binary .. | exact .ternary .. | exact .reshape ..) ?_)

set_option maxRecDepth 8192 in
set_option maxHeartbeats 4000000 in
theorem c24 {x0 : X0 F} {x1 : X1 F} {x2 : X2 F} {x3 : X3 F} {x4 : X4 F} {V : Valuation τ sig (Elt F)}
    (h13 : Holds V (Out13 x0 x1 x2 x3 x4)) (h14 : Holds V (Out14 x0 x1 x2 x3 x4)) (h16 : Holds V (Out16 x0 x1 x2 x3 x4)) (h18 : Holds V (Out18 x0 x1 x2 x3 x4)) (h21 : Holds V (Out21 x0 x1 x2 x3 x4)) (h23 : Holds V (Out23 x0 x1 x2 x3 x4)) :
    Holds (after (ops24 (F := F)) V) (Out24 x0 x1 x2 x3 x4) := by
  simp only [Holds, Out13, Out14, Out16, Out18, Out21, Out23, Out24, List.forall_cons, List.Forall, and_true] at h13 h14 h16 h18 h21 h23 ⊢
  after_results_simp
  try simp only [h16.1, h23.2, h14.2.1, h14.1, h18.1, h21.1, h23.1, h13.1]
  refine ⟨?_, ?_, ?_, ?_, ?_⟩ <;> rfl

end Cert.ReferenceIdeal.RunH

end
-- ==== Proof.RefRun.C25.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops25 : List (HloOp τ sig (Elt F)) :=
  [ TRef.unary (TRef.of (T := ⟨S8x150x12544, .f32⟩) main_call16_v3) (TRef.of (T := ⟨S8x150x12544, .f32⟩) main_call16_v7) Host.absf,
    TRef.unary (TRef.of (T := ⟨S8x150x12544, .f32⟩) main_call16_v7) (TRef.of (T := ⟨S8x150x12544, .f32⟩) main_call16_v8) Host.negf,
    TRef.unary (TRef.of (T := ⟨S8x150x12544, .f32⟩) main_call16_v8) (TRef.of (T := ⟨S8x150x12544, .f32⟩) main_call16_v9) Host.exp,
    TRef.unary (TRef.of (T := ⟨S8x150x12544, .f32⟩) main_call16_v9) (TRef.of (T := ⟨S8x150x12544, .f32⟩) main_call16_v10) Host.log1p,
    TRef.binary (TRef.of (T := ⟨S8x150x12544, .f32⟩) main_call16_v1) (TRef.of (T := ⟨S8x150x12544, .f32⟩) main_call16_v10) (TRef.of (T := ⟨S8x150x12544, .f32⟩) main_call16_v11) addf,
    TRef.ternary (TRef.of (T := ⟨S8x150x12544, .i1⟩) main_call16_v4) (TRef.of (T := ⟨S8x150x12544, .f32⟩) main_call16_v6) (TRef.of (T := ⟨S8x150x12544, .f32⟩) main_call16_v11) (TRef.of (T := ⟨S8x150x12544, .f32⟩) main_v390) select,
    nullary main_cst_123 (constant S_ .f32 0x46440000#32),
    unary main_cst_123 main_v391 (broadcastInDim S8x150x12544 ![] bcast_S_S8x150x12544 : (⟨S_, .f32⟩ : BufTy).Contents (Elt F) → (⟨S8x150x12544, .f32⟩ : BufTy).Contents (Elt F)),
    binary main_v390 main_v391 main_v392 (Host.divf : (⟨S8x150x12544, .f32⟩ : BufTy).Contents (Elt F) → (⟨S8x150x12544, .f32⟩ : BufTy).Contents (Elt F) → (⟨S8x150x12544, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S8x150x12544, .f32⟩) main_call17_v0) (broadcastInDim S8x150x12544 ![] bcast_S_S8x150x12544),
    TRef.binary (TRef.of (T := ⟨S8x150x12544, .f32⟩) main_v203) (TRef.of (T := ⟨S8x150x12544, .f32⟩) main_call17_v0) (TRef.of (T := ⟨S8x150x12544, .f32⟩) main_call17_v1) maximumf,
    TRef.unary (TRef.of (T := ⟨S_, .f32⟩) main_call17_cst) (TRef.of (T := ⟨S8x150x12544, .f32⟩) main_call17_v2) (broadcastInDim S8x150x12544 ![] bcast_S_S8x150x12544),
    TRef.binary (TRef.of (T := ⟨S8x150x12544, .f32⟩) main_v203) (TRef.of (T := ⟨S8x150x12544, .f32⟩) main_call17_v2) (TRef.of (T := ⟨S8x150x12544, .f32⟩) main_call17_v3) subf,
    TRef.binary (TRef.of (T := ⟨S8x150x12544, .f32⟩) main_call17_v3) (TRef.of (T := ⟨S8x150x12544, .f32⟩) main_call17_v3) (TRef.of (T := ⟨S8x150x12544, .i1⟩) main_call17_v4) (cmpf .une),
    TRef.unary (TRef.of (T := ⟨S_, .f32⟩) main_call17_cst) (TRef.of (T := ⟨S8x150x12544, .f32⟩) main_call17_v5) (broadcastInDim S8x150x12544 ![] bcast_S_S8x150x12544),
    TRef.binary (TRef.of (T := ⟨S8x150x12544, .f32⟩) main_v203) (TRef.of (T := ⟨S8x150x12544, .f32⟩) main_call17_v5) (TRef.of (T := ⟨S8x150x12544, .f32⟩) main_call17_v6) addf,
    TRef.unary (TRef.of (T := ⟨S8x150x12544, .f32⟩) main_call17_v3) (TRef.of (T := ⟨S8x150x12544, .f32⟩) main_call17_v7) Host.absf,
    TRef.unary (TRef.of (T := ⟨S8x150x12544, .f32⟩) main_call17_v7) (TRef.of (T := ⟨S8x150x12544, .f32⟩) main_call17_v8) Host.negf,
    TRef.unary (TRef.of (T := ⟨S8x150x12544, .f32⟩) main_call17_v8) (TRef.of (T := ⟨S8x150x12544, .f32⟩) main_call17_v9) Host.exp,
    TRef.unary (TRef.of (T := ⟨S8x150x12544, .f32⟩) main_call17_v9) (TRef.of (T := ⟨S8x150x12544, .f32⟩) main_call17_v10) Host.log1p,
    TRef.binary (TRef.of (T := ⟨S8x150x12544, .f32⟩) main_call17_v1) (TRef.of (T := ⟨S8x150x12544, .f32⟩) main_call17_v10) (TRef.of (T := ⟨S8x150x12544, .f32⟩) main_call17_v11) addf,
    TRef.ternary (TRef.of (T := ⟨S8x150x12544, .i1⟩) main_call17_v4) (TRef.of (T := ⟨S8x150x12544, .f32⟩) main_call17_v6) (TRef.of (T := ⟨S8x150x12544, .f32⟩) main_call17_v11) (TRef.of (T := ⟨S8x150x12544, .f32⟩) main_v393) select,
    nullary main_cst_124 (constant S_ .f32 0x46440000#32),
    unary main_cst_124 main_v394 (broadcastInDim S8x150x12544 ![] bcast_S_S8x150x12544 : (⟨S_, .f32⟩ : BufTy).Contents (Elt F) → (⟨S8x150x12544, .f32⟩ : BufTy).Contents (Elt F)),
    binary main_v393 main_v394 main_v395 (Host.divf : (⟨S8x150x12544, .f32⟩ : BufTy).Contents (Elt F) → (⟨S8x150x12544, .f32⟩ : BufTy).Contents (Elt F) → (⟨S8x150x12544, .f32⟩ : BufTy).Contents (Elt F)),
    unary main_v388 main_v396 ((transpose S8x12544x32 [0, 2, 1] · transposes_S8x32x12544_S8x12544x32_0_2_1) : (⟨S8x32x12544, .f32⟩ : BufTy).Contents (Elt F) → (⟨S8x12544x32, .f32⟩ : BufTy).Contents (Elt F)),
    binary main_v392 main_v396 main_v397 ((fun l r => Host.dotGeneral dot_S8x150x12544_S8x12544x32_S8x150x32_2_1_1_2_0_0 none l r) : (⟨S8x150x12544, .f32⟩ : BufTy).Contents (Elt F) → (⟨S8x12544x32, .f32⟩ : BufTy).Contents (Elt F) → (⟨S8x150x32, .f32⟩ : BufTy).Contents (Elt F)),
    nullary main_cst_125 (constant S_ .f32 0x3F800000#32),
    unary main_cst_125 main_v398 (broadcastInDim S8x32x12544 ![] bcast_S_S8x32x12544 : (⟨S_, .f32⟩ : BufTy).Contents (Elt F) → (⟨S8x32x12544, .f32⟩ : BufTy).Contents (Elt F)),
    binary main_v398 main_v388 main_v399 (subf : (⟨S8x32x12544, .f32⟩ : BufTy).Contents (Elt F) → (⟨S8x32x12544, .f32⟩ : BufTy).Contents (Elt F) → (⟨S8x32x12544, .f32⟩ : BufTy).Contents (Elt F)),
    unary main_v399 main_v400 ((transpose S8x12544x32 [0, 2, 1] · transposes_S8x32x12544_S8x12544x32_0_2_1) : (⟨S8x32x12544, .f32⟩ : BufTy).Contents (Elt F) → (⟨S8x12544x32, .f32⟩ : BufTy).Contents (Elt F)),
    binary main_v395 main_v400 main_v401 ((fun l r => Host.dotGeneral dot_S8x150x12544_S8x12544x32_S8x150x32_2_1_1_2_0_0 none l r) : (⟨S8x150x12544, .f32⟩ : BufTy).Contents (Elt F) → (⟨S8x12544x32, .f32⟩ : BufTy).Contents (Elt F) → (⟨S8x150x32, .f32⟩ : BufTy).Contents (Elt F)),
    binary main_v397 main_v401 main_v402 (addf : (⟨S8x150x32, .f32⟩ : BufTy).Contents (Elt F) → (⟨S8x150x32, .f32⟩ : BufTy).Contents (Elt F) → (⟨S8x150x32, .f32⟩ : BufTy).Contents (Elt F)),
    unary main_v203 main_v403 (Host.negf : (⟨S8x150x12544, .f32⟩ : BufTy).Contents (Elt F) → (⟨S8x150x12544, .f32⟩ : BufTy).Contents (Elt F)),
    unary main_v403 main_v404 (Host.exp : (⟨S8x150x12544, .f32⟩ : BufTy).Contents (Elt F) → (⟨S8x150x12544, .f32⟩ : BufTy).Contents (Elt F)),
    nullary main_cst_126 (constant S_ .f32 0x3F800000#32),
    unary main_cst_126 main_v405 (broadcastInDim S8x150x12544 ![] bcast_S_S8x150x12544 : (⟨S_, .f32⟩ : BufTy).Contents (Elt F) → (⟨S8x150x12544, .f32⟩ : BufTy).Contents (Elt F)),
    binary main_v405 main_v404 main_v406 (addf : (⟨S8x150x12544, .f32⟩ : BufTy).Contents (Elt F) → (⟨S8x150x12544, .f32⟩ : BufTy).Contents (Elt F) → (⟨S8x150x12544, .f32⟩ : BufTy).Contents (Elt F)),
    nullary main_cst_127 (constant S_ .f32 0x3F800000#32),
    unary main_cst_127 main_v407 (broadcastInDim S8x150x12544 ![] bcast_S_S8x150x12544 : (⟨S_, .f32⟩ : BufTy).Contents (Elt F) → (⟨S8x150x12544, .f32⟩ : BufTy).Contents (Elt F)),
    binary main_v407 main_v406 main_v408 (Host.divf : (⟨S8x150x12544, .f32⟩ : BufTy).Contents (Elt F) → (⟨S8x150x12544, .f32⟩ : BufTy).Contents (Elt F) → (⟨S8x150x12544, .f32⟩ : BufTy).Contents (Elt F)),
    unary main_v388 main_v409 ((transpose S8x12544x32 [0, 2, 1] · transposes_S8x32x12544_S8x12544x32_0_2_1) : (⟨S8x32x12544, .f32⟩ : BufTy).Contents (Elt F) → (⟨S8x12544x32, .f32⟩ : BufTy).Contents (Elt F))]

abbrev W25 : List (Ref sig .tc) :=
  [main_call16_v7, main_call16_v8, main_call16_v9, main_call16_v10, main_call16_v11, main_v390, main_cst_123, main_v391, main_v392, main_call17_cst, main_call17_v0, main_call17_v1, main_call17_v2, main_call17_v3, main_call17_v4, main_call17_v5, main_call17_v6, main_call17_v7, main_call17_v8, main_call17_v9, main_call17_v10, main_call17_v11, main_v393, main_cst_124, main_v394, main_v395, main_v396, main_v397, main_cst_125, main_v398, main_v399, main_v400, main_v401, main_v402, main_v403, main_v404, main_cst_126, main_v405, main_v406, main_cst_127, main_v407, main_v408, main_v409]

theorem ops25_plain : Plains (ops25 : List (HloOp τ sig (Elt F))) W25 := by
  repeat (first | exact .nil | refine .cons (by first | exact .nullary .. | exact .unary .. | exact .binary .. | exact .ternary .. | exact .reshape ..) ?_)

set_option maxRecDepth 8192 in
set_option maxHeartbeats 4000000 in
theorem c25 {x0 : X0 F} {x1 : X1 F} {x2 : X2 F} {x3 : X3 F} {x4 : X4 F} {V : Valuation τ sig (Elt F)}
    (h13 : Holds V (Out13 x0 x1 x2 x3 x4)) (h24 : Holds V (Out24 x0 x1 x2 x3 x4)) :
    Holds (after (ops25 (F := F)) V) (Out25 x0 x1 x2 x3 x4) := by
  simp only [Holds, Out13, Out24, Out25, List.forall_cons, List.Forall, and_true] at h13 h24 ⊢
  after_results_simp
  try simp only [h24.2.2.1, h24.2.1, h24.2.2.2.1, h24.2.2.2.2, h13.1, h24.1]
  refine ⟨?_, ?_, ?_⟩ <;> rfl

end Cert.ReferenceIdeal.RunH

end
-- ==== Proof.RefRun.W8.lean ====
import proofs.«401846_j83760452207136_3_alg».proof.Proof.RefRun.C24
import proofs.«401846_j83760452207136_3_alg».proof.Proof.RefRun.C25
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part8_eq (c : Dev nD) : main_part8 (F := F) c = seq (ops24 ++ ops25) := by chain_rfl

end Cert.ReferenceIdeal.RunH

end
-- ==== Proof.RefRun.C26.lean ====
import proofs.«401846_j83760452207136_3_alg».proof.Proof.RefRun.Outs

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev ops26 : List (HloOp τ sig (Elt F)) :=
  [ binary main_v408 main_v409 main_v410 ((fun l r => Host.dotGeneral dot_S8x150x12544_S8x12544x32_S8x150x32_2_1_1_2_0_0 none l r) : (⟨S8x150x12544, .f32⟩ : BufTy).Contents (Elt F) → (⟨S8x12544x32, .f32⟩ : BufTy).Contents (Elt F) → (⟨S8x150x32, .f32⟩ : BufTy).Contents (Elt F)),
    nullary main_cst_128 (constant S_ .f32 0x40000000#32),
    unary main_cst_128 main_v411 (broadcastInDim S8x150x32 ![] bcast_S_S8x150x32 : (⟨S_, .f32⟩ : BufTy).Contents (Elt F) → (⟨S8x150x32, .f32⟩ : BufTy).Contents (Elt F)),
    binary main_v411 main_v410 main_v412 (mulf : (⟨S8x150x32, .f32⟩ : BufTy).Contents (Elt F) → (⟨S8x150x32, .f32⟩ : BufTy).Contents (Elt F) → (⟨S8x150x32, .f32⟩ : BufTy).Contents (Elt F)),
    nullary main_cst_129 (constant S_ .f32 0x00000000#32),
    binary main_v408 main_cst_129 main_v413 ((fun x v => Host.reduceAdd x v reducesTo_S8x150x12544_S8x150_d2 h_S_) : (⟨S8x150x12544, .f32⟩ : BufTy).Contents (Elt F) → (⟨S_, .f32⟩ : BufTy).Contents (Elt F) → (⟨S8x150, .f32⟩ : BufTy).Contents (Elt F)),
    unary main_v413 main_v414 (broadcastInDim S8x150x1 ![0, 1] bcast_S8x150_S8x150x1_0_1 : (⟨S8x150, .f32⟩ : BufTy).Contents (Elt F) → (⟨S8x150x1, .f32⟩ : BufTy).Contents (Elt F)),
    nullary main_cst_130 (constant S_ .f32 0x00000000#32),
    binary main_v388 main_cst_130 main_v415 ((fun x v => Host.reduceAdd x v reducesTo_S8x32x12544_S8x32_d2 h_S_) : (⟨S8x32x12544, .f32⟩ : BufTy).Contents (Elt F) → (⟨S_, .f32⟩ : BufTy).Contents (Elt F) → (⟨S8x32, .f32⟩ : BufTy).Contents (Elt F)),
    unary main_v415 main_v416 (broadcastInDim S8x1x32 ![0, 2] bcast_S8x32_S8x1x32_0_2 : (⟨S8x32, .f32⟩ : BufTy).Contents (Elt F) → (⟨S8x1x32, .f32⟩ : BufTy).Contents (Elt F)),
    unary main_v414 main_v417 (broadcastInDim S8x150x32 ![0, 1, 2] bcast_S8x150x1_S8x150x32_0_1_2 : (⟨S8x150x1, .f32⟩ : BufTy).Contents (Elt F) → (⟨S8x150x32, .f32⟩ : BufTy).Contents (Elt F)),
    unary main_v416 main_v418 (broadcastInDim S8x150x32 ![0, 1, 2] bcast_S8x1x32_S8x150x32_0_1_2 : (⟨S8x1x32, .f32⟩ : BufTy).Contents (Elt F) → (⟨S8x150x32, .f32⟩ : BufTy).Contents (Elt F)),
    binary main_v417 main_v418 main_v419 (addf : (⟨S8x150x32, .f32⟩ : BufTy).Contents (Elt F) → (⟨S8x150x32, .f32⟩ : BufTy).Contents (Elt F) → (⟨S8x150x32, .f32⟩ : BufTy).Contents (Elt F)),
    nullary main_cst_131 (constant S_ .f32 0x3F800000#32),
    unary main_cst_131 main_v420 (broadcastInDim S8x150x32 ![] bcast_S_S8x150x32 : (⟨S_, .f32⟩ : BufTy).Contents (Elt F) → (⟨S8x150x32, .f32⟩ : BufTy).Contents (Elt F)),
    binary main_v412 main_v420 main_v421 (addf : (⟨S8x150x32, .f32⟩ : BufTy).Contents (Elt F) → (⟨S8x150x32, .f32⟩ : BufTy).Contents (Elt F) → (⟨S8x150x32, .f32⟩ : BufTy).Contents (Elt F)),
    nullary main_cst_132 (constant S_ .f32 0x3F800000#32),
    unary main_cst_132 main_v422 (broadcastInDim S8x150x32 ![] bcast_S_S8x150x32 : (⟨S_, .f32⟩ : BufTy).Contents (Elt F) → (⟨S8x150x32, .f32⟩ : BufTy).Contents (Elt F)),
    binary main_v419 main_v422 main_v423 (addf : (⟨S8x150x32, .f32⟩ : BufTy).Contents (Elt F) → (⟨S8x150x32, .f32⟩ : BufTy).Contents (Elt F) → (⟨S8x150x32, .f32⟩ : BufTy).Contents (Elt F)),
    binary main_v421 main_v423 main_v424 (Host.divf : (⟨S8x150x32, .f32⟩ : BufTy).Contents (Elt F) → (⟨S8x150x32, .f32⟩ : BufTy).Contents (Elt F) → (⟨S8x150x32, .f32⟩ : BufTy).Contents (Elt F)),
    nullary main_cst_133 (constant S_ .f32 0x3F800000#32),
    unary main_cst_133 main_v425 (broadcastInDim S8x150x32 ![] bcast_S_S8x150x32 : (⟨S_, .f32⟩ : BufTy).Contents (Elt F) → (⟨S8x150x32, .f32⟩ : BufTy).Contents (Elt F)),
    binary main_v425 main_v424 main_v426 (subf : (⟨S8x150x32, .f32⟩ : BufTy).Contents (Elt F) → (⟨S8x150x32, .f32⟩ : BufTy).Contents (Elt F) → (⟨S8x150x32, .f32⟩ : BufTy).Contents (Elt F)),
    nullary main_cst_134 (constant S_ .f32 0x40A00000#32),
    unary main_cst_134 main_v427 (broadcastInDim S8x150x32 ![] bcast_S_S8x150x32 : (⟨S_, .f32⟩ : BufTy).Contents (Elt F) → (⟨S8x150x32, .f32⟩ : BufTy).Contents (Elt F)),
    binary main_v427 main_v402 main_v428 (mulf : (⟨S8x150x32, .f32⟩ : BufTy).Contents (Elt F) → (⟨S8x150x32, .f32⟩ : BufTy).Contents (Elt F) → (⟨S8x150x32, .f32⟩ : BufTy).Contents (Elt F)),
    nullary main_cst_135 (constant S_ .f32 0x3F800000#32),
    unary main_cst_135 main_v429 (broadcastInDim S8x150x32 ![] bcast_S_S8x150x32 : (⟨S_, .f32⟩ : BufTy).Contents (Elt F) → (⟨S8x150x32, .f32⟩ : BufTy).Contents (Elt F)),
    binary main_v429 main_v18 main_v430 (mulf : (⟨S8x150x32, .f32⟩ : BufTy).Contents (Elt F) → (⟨S8x150x32, .f32⟩ : BufTy).Contents (Elt F) → (⟨S8x150x32, .f32⟩ : BufTy).Contents (Elt F)),
    binary main_v428 main_v430 main_v431 (addf : (⟨S8x150x32, .f32⟩ : BufTy).Contents (Elt F) → (⟨S8x150x32, .f32⟩ : BufTy).Contents (Elt F) → (⟨S8x150x32, .f32⟩ : BufTy).Contents (Elt F)),
    nullary main_cst_136 (constant S_ .f32 0x40A00000#32),
    unary main_cst_136 main_v432 (broadcastInDim S8x150x32 ![] bcast_S_S8x150x32 : (⟨S_, .f32⟩ : BufTy).Contents (Elt F) → (⟨S8x150x32, .f32⟩ : BufTy).Contents (Elt F)),
    binary main_v432 main_v426 main_v433 (mulf : (⟨S8x150x32, .f32⟩ : BufTy).Contents (Elt F) → (⟨S8x150x32, .f32⟩ : BufTy).Contents (Elt F) → (⟨S8x150x32, .f32⟩ : BufTy).Contents (Elt F)),
    binary main_v431 main_v433 main_v434 (addf : (⟨S8x150x32, .f32⟩ : BufTy).Contents (Elt F) → (⟨S8x150x32, .f32⟩ : BufTy).Contents (Elt F) → (⟨S8x150x32, .f32⟩ : BufTy).Contents (Elt F))]

abbrev W26 : List (Ref sig .tc) :=
  [main_v410, main_cst_128, main_v411, main_v412, main_cst_129, main_v413, main_v414, main_cst_130, main_v415, main_v416, main_v417, main_v418, main_v419, main_cst_131, main_v420, main_v421, main_cst_132, main_v422, main_v423, main_v424, main_cst_133, main_v425, main_v426, main_cst_134, main_v427, main_v428, main_cst_135, main_v429, main_v430, main_v431, main_cst_136, main_v432, main_v433, main_v434]

theorem ops26_plain : Plains (ops26 : List (HloOp τ sig (Elt F))) W26 := by
  repeat (first | exact .nil | refine .cons (by first | exact .nullary .. | exact .unary .. | exact .binary .. | exact .ternary .. | exact .reshape ..) ?_)

set_option maxRecDepth 8192 in
set_option maxHeartbeats 4000000 in
theorem c26 {x0 : X0 F} {x1 : X1 F} {x2 : X2 F} {x3 : X3 F} {x4 : X4 F} {V : Valuation τ sig (Elt F)}
    (h1 : Holds V (Out1 x0 x1 x2 x3 x4)) (h24 : Holds V (Out24 x0 x1 x2 x3 x4)) (h25 : Holds V (Out25 x0 x1 x2 x3 x4)) :
    Holds (after (ops26 (F := F)) V) (Out26 x0 x1 x2 x3 x4) := by
  simp only [Holds, Out1, Out24, Out25, Out26, List.forall_cons, List.Forall, and_true] at h1 h24 h25 ⊢
  after_results_simp
  try simp only [h25.2.1, h25.2.2, h24.1, h25.1, h1.1]
  rfl

end Cert.ReferenceIdeal.RunH

end
-- ==== Proof.RefRun.W9.lean ====
import proofs.«401846_j83760452207136_3_alg».proof.Proof.RefRun.C26
import Idealize.ShloMosaic.Lib.Pipeline.Regions

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

set_option maxRecDepth 8192 in
set_option maxHeartbeats 4000000 in
theorem main_part9_eq (c : Dev nD) : main_part9 (F := F) c = seq (ops26) := by chain_rfl

end Cert.ReferenceIdeal.RunH

end
-- ==== Proof.RefRun.Facts.lean ====
import proofs.«401846_j83760452207136_3_alg».proof.Proof.RefRun.C01
import proofs.«401846_j83760452207136_3_alg».proof.Proof.RefRun.C02
import proofs.«401846_j83760452207136_3_alg».proof.Proof.RefRun.C03
import proofs.«401846_j83760452207136_3_alg».proof.Proof.RefRun.C04
import proofs.«401846_j83760452207136_3_alg».proof.Proof.RefRun.C05
import proofs.«401846_j83760452207136_3_alg».proof.Proof.RefRun.C06
import proofs.«401846_j83760452207136_3_alg».proof.Proof.RefRun.C07
import proofs.«401846_j83760452207136_3_alg».proof.Proof.RefRun.C08
import proofs.«401846_j83760452207136_3_alg».proof.Proof.RefRun.C09
import proofs.«401846_j83760452207136_3_alg».proof.Proof.RefRun.C10
import proofs.«401846_j83760452207136_3_alg».proof.Proof.RefRun.C11
import proofs.«401846_j83760452207136_3_alg».proof.Proof.RefRun.C12
import proofs.«401846_j83760452207136_3_alg».proof.Proof.RefRun.C13
import proofs.«401846_j83760452207136_3_alg».proof.Proof.RefRun.C14
import proofs.«401846_j83760452207136_3_alg».proof.Proof.RefRun.C15
import proofs.«401846_j83760452207136_3_alg».proof.Proof.RefRun.C16
import proofs.«401846_j83760452207136_3_alg».proof.Proof.RefRun.C17
import proofs.«401846_j83760452207136_3_alg».proof.Proof.RefRun.C18
import proofs.«401846_j83760452207136_3_alg».proof.Proof.RefRun.C19
import proofs.«401846_j83760452207136_3_alg».proof.Proof.RefRun.C20
import proofs.«401846_j83760452207136_3_alg».proof.Proof.RefRun.C21
import proofs.«401846_j83760452207136_3_alg».proof.Proof.RefRun.C22
import proofs.«401846_j83760452207136_3_alg».proof.Proof.RefRun.C23
import proofs.«401846_j83760452207136_3_alg».proof.Proof.RefRun.C24
import proofs.«401846_j83760452207136_3_alg».proof.Proof.RefRun.C25
import proofs.«401846_j83760452207136_3_alg».proof.Proof.RefRun.C26

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

abbrev line : List (List (HloOp τ sig (Elt F))) := [ops1, ops2, ops3, ops4, ops5, ops6, ops7, ops8, ops9, ops10, ops11, ops12, ops13, ops14, ops15, ops16, ops17, ops18, ops19, ops20, ops21, ops22, ops23, ops24, ops25, ops26]

abbrev Wl : List (List (Ref sig .tc)) := [W1, W2, W3, W4, W5, W6, W7, W8, W9, W10, W11, W12, W13, W14, W15, W16, W17, W18, W19, W20, W21, W22, W23, W24, W25, W26]

theorem line_plain : List.Forall₂ Plains (line (F := F)) Wl :=
  .cons ops1_plain (.cons ops2_plain (.cons ops3_plain (.cons ops4_plain (.cons ops5_plain (.cons ops6_plain (.cons ops7_plain (.cons ops8_plain (.cons ops9_plain (.cons ops10_plain (.cons ops11_plain (.cons ops12_plain (.cons ops13_plain (.cons ops14_plain (.cons ops15_plain (.cons ops16_plain (.cons ops17_plain (.cons ops18_plain (.cons ops19_plain (.cons ops20_plain (.cons ops21_plain (.cons ops22_plain (.cons ops23_plain (.cons ops24_plain (.cons ops25_plain (.cons ops26_plain (.nil))))))))))))))))))))))))))

variable {x0 : X0 F} {x1 : X1 F} {x2 : X2 F} {x3 : X3 F} {x4 : X4 F} {V0 : Valuation τ sig (Elt F)}

theorem f0 (a : Holds V0 (Out0 x0 x1 x2 x3 x4)) : Holds (after ((line (F := F)).take 0).flatten V0) (Out0 x0 x1 x2 x3 x4) := a

theorem f1 (a : Holds V0 (Out0 x0 x1 x2 x3 x4)) : Holds (after ((line (F := F)).take 1).flatten V0) (Out1 x0 x1 x2 x3 x4) :=
  Holds.step (K := 0) rfl (c1 (f0 a))

theorem f2 (a : Holds V0 (Out0 x0 x1 x2 x3 x4)) : Holds (after ((line (F := F)).take 2).flatten V0) (Out2 x0 x1 x2 x3 x4) :=
  Holds.step (K := 1) rfl (c2 (Holds.carry line_plain 0 1 (by decide) R0 (by decide +kernel) (f0 a))
    (f1 a))

theorem f3 (a : Holds V0 (Out0 x0 x1 x2 x3 x4)) : Holds (after ((line (F := F)).take 3).flatten V0) (Out3 x0 x1 x2 x3 x4) :=
  Holds.step (K := 2) rfl (c3 (f2 a))

theorem f4 (a : Holds V0 (Out0 x0 x1 x2 x3 x4)) : Holds (after ((line (F := F)).take 4).flatten V0) (Out4 x0 x1 x2 x3 x4) :=
  Holds.step (K := 3) rfl (c4 (Holds.carry line_plain 0 3 (by decide) R0 (by decide +kernel) (f0 a))
    (Holds.carry line_plain 2 3 (by decide) R2 (by decide +kernel) (f2 a))
    (f3 a))

theorem f5 (a : Holds V0 (Out0 x0 x1 x2 x3 x4)) : Holds (after ((line (F := F)).take 5).flatten V0) (Out5 x0 x1 x2 x3 x4) :=
  Holds.step (K := 4) rfl (c5 (Holds.carry line_plain 2 4 (by decide) R2 (by decide +kernel) (f2 a))
    (f4 a))

theorem f6 (a : Holds V0 (Out0 x0 x1 x2 x3 x4)) : Holds (after ((line (F := F)).take 6).flatten V0) (Out6 x0 x1 x2 x3 x4) :=
  Holds.step (K := 5) rfl (c6 (f5 a))

theorem f7 (a : Holds V0 (Out0 x0 x1 x2 x3 x4)) : Holds (after ((line (F := F)).take 7).flatten V0) (Out7 x0 x1 x2 x3 x4) :=
  Holds.step (K := 6) rfl (c7 (Holds.carry line_plain 0 6 (by decide) R0 (by decide +kernel) (f0 a))
    (Holds.carry line_plain 2 6 (by decide) R2 (by decide +kernel) (f2 a))
    (Holds.carry line_plain 5 6 (by decide) R5 (by decide +kernel) (f5 a))
    (f6 a))

theorem f8 (a : Holds V0 (Out0 x0 x1 x2 x3 x4)) : Holds (after ((line (F := F)).take 8).flatten V0) (Out8 x0 x1 x2 x3 x4) :=
  Holds.step (K := 7) rfl (c8 (Holds.carry line_plain 2 7 (by decide) R2 (by decide +kernel) (f2 a))
    (f7 a))

theorem f9 (a : Holds V0 (Out0 x0 x1 x2 x3 x4)) : Holds (after ((line (F := F)).take 9).flatten V0) (Out9 x0 x1 x2 x3 x4) :=
  Holds.step (K := 8) rfl (c9 (Holds.carry line_plain 0 8 (by decide) R0 (by decide +kernel) (f0 a))
    (Holds.carry line_plain 7 8 (by decide) R7 (by decide +kernel) (f7 a))
    (f8 a))

theorem f10 (a : Holds V0 (Out0 x0 x1 x2 x3 x4)) : Holds (after ((line (F := F)).take 10).flatten V0) (Out10 x0 x1 x2 x3 x4) :=
  Holds.step (K := 9) rfl (c10 (Holds.carry line_plain 2 9 (by decide) R2 (by decide +kernel) (f2 a))
    (f9 a))

theorem f11 (a : Holds V0 (Out0 x0 x1 x2 x3 x4)) : Holds (after ((line (F := F)).take 11).flatten V0) (Out11 x0 x1 x2 x3 x4) :=
  Holds.step (K := 10) rfl (c11 (f10 a))

theorem f12 (a : Holds V0 (Out0 x0 x1 x2 x3 x4)) : Holds (after ((line (F := F)).take 12).flatten V0) (Out12 x0 x1 x2 x3 x4) :=
  Holds.step (K := 11) rfl (c12 (Holds.carry line_plain 0 11 (by decide) R0 (by decide +kernel) (f0 a))
    (Holds.carry line_plain 2 11 (by decide) R2 (by decide +kernel) (f2 a))
    (Holds.carry line_plain 4 11 (by decide) R4 (by decide +kernel) (f4 a))
    (Holds.carry line_plain 10 11 (by decide) R10 (by decide +kernel) (f10 a))
    (f11 a))

theorem f13 (a : Holds V0 (Out0 x0 x1 x2 x3 x4)) : Holds (after ((line (F := F)).take 13).flatten V0) (Out13 x0 x1 x2 x3 x4) :=
  Holds.step (K := 12) rfl (c13 (Holds.carry line_plain 0 12 (by decide) R0 (by decide +kernel) (f0 a))
    (Holds.carry line_plain 2 12 (by decide) R2 (by decide +kernel) (f2 a))
    (Holds.carry line_plain 7 12 (by decide) R7 (by decide +kernel) (f7 a))
    (Holds.carry line_plain 10 12 (by decide) R10 (by decide +kernel) (f10 a))
    (f12 a))

theorem f14 (a : Holds V0 (Out0 x0 x1 x2 x3 x4)) : Holds (after ((line (F := F)).take 14).flatten V0) (Out14 x0 x1 x2 x3 x4) :=
  Holds.step (K := 13) rfl (c14 (Holds.carry line_plain 0 13 (by decide) R0 (by decide +kernel) (f0 a))
    (f13 a))

theorem f15 (a : Holds V0 (Out0 x0 x1 x2 x3 x4)) : Holds (after ((line (F := F)).take 15).flatten V0) (Out15 x0 x1 x2 x3 x4) :=
  Holds.step (K := 14) rfl (c15 (f14 a))

theorem f16 (a : Holds V0 (Out0 x0 x1 x2 x3 x4)) : Holds (after ((line (F := F)).take 16).flatten V0) (Out16 x0 x1 x2 x3 x4) :=
  Holds.step (K := 15) rfl (c16 (Holds.carry line_plain 0 15 (by decide) R0 (by decide +kernel) (f0 a))
    (Holds.carry line_plain 14 15 (by decide) R14 (by decide +kernel) (f14 a))
    (f15 a))

theorem f17 (a : Holds V0 (Out0 x0 x1 x2 x3 x4)) : Holds (after ((line (F := F)).take 17).flatten V0) (Out17 x0 x1 x2 x3 x4) :=
  Holds.step (K := 16) rfl (c17 (f16 a))

theorem f18 (a : Holds V0 (Out0 x0 x1 x2 x3 x4)) : Holds (after ((line (F := F)).take 18).flatten V0) (Out18 x0 x1 x2 x3 x4) :=
  Holds.step (K := 17) rfl (c18 (Holds.carry line_plain 0 17 (by decide) R0 (by decide +kernel) (f0 a))
    (Holds.carry line_plain 14 17 (by decide) R14 (by decide +kernel) (f14 a))
    (Holds.carry line_plain 16 17 (by decide) R16 (by decide +kernel) (f16 a))
    (f17 a))

theorem f19 (a : Holds V0 (Out0 x0 x1 x2 x3 x4)) : Holds (after ((line (F := F)).take 19).flatten V0) (Out19 x0 x1 x2 x3 x4) :=
  Holds.step (K := 18) rfl (c19 (Holds.carry line_plain 14 18 (by decide) R14 (by decide +kernel) (f14 a))
    (f18 a))

theorem f20 (a : Holds V0 (Out0 x0 x1 x2 x3 x4)) : Holds (after ((line (F := F)).take 20).flatten V0) (Out20 x0 x1 x2 x3 x4) :=
  Holds.step (K := 19) rfl (c20 (f19 a))

theorem f21 (a : Holds V0 (Out0 x0 x1 x2 x3 x4)) : Holds (after ((line (F := F)).take 21).flatten V0) (Out21 x0 x1 x2 x3 x4) :=
  Holds.step (K := 20) rfl (c21 (Holds.carry line_plain 0 20 (by decide) R0 (by decide +kernel) (f0 a))
    (Holds.carry line_plain 14 20 (by decide) R14 (by decide +kernel) (f14 a))
    (Holds.carry line_plain 18 20 (by decide) R18 (by decide +kernel) (f18 a))
    (Holds.carry line_plain 19 20 (by decide) R19 (by decide +kernel) (f19 a))
    (f20 a))

theorem f22 (a : Holds V0 (Out0 x0 x1 x2 x3 x4)) : Holds (after ((line (F := F)).take 22).flatten V0) (Out22 x0 x1 x2 x3 x4) :=
  Holds.step (K := 21) rfl (c22 (f21 a))

theorem f23 (a : Holds V0 (Out0 x0 x1 x2 x3 x4)) : Holds (after ((line (F := F)).take 23).flatten V0) (Out23 x0 x1 x2 x3 x4) :=
  Holds.step (K := 22) rfl (c23 (Holds.carry line_plain 0 22 (by decide) R0 (by decide +kernel) (f0 a))
    (Holds.carry line_plain 14 22 (by decide) R14 (by decide +kernel) (f14 a))
    (Holds.carry line_plain 21 22 (by decide) R21 (by decide +kernel) (f21 a))
    (f22 a))

theorem f24 (a : Holds V0 (Out0 x0 x1 x2 x3 x4)) : Holds (after ((line (F := F)).take 24).flatten V0) (Out24 x0 x1 x2 x3 x4) :=
  Holds.step (K := 23) rfl (c24 (Holds.carry line_plain 13 23 (by decide) R13 (by decide +kernel) (f13 a))
    (Holds.carry line_plain 14 23 (by decide) R14 (by decide +kernel) (f14 a))
    (Holds.carry line_plain 16 23 (by decide) R16 (by decide +kernel) (f16 a))
    (Holds.carry line_plain 18 23 (by decide) R18 (by decide +kernel) (f18 a))
    (Holds.carry line_plain 21 23 (by decide) R21 (by decide +kernel) (f21 a))
    (f23 a))

theorem f25 (a : Holds V0 (Out0 x0 x1 x2 x3 x4)) : Holds (after ((line (F := F)).take 25).flatten V0) (Out25 x0 x1 x2 x3 x4) :=
  Holds.step (K := 24) rfl (c25 (Holds.carry line_plain 13 24 (by decide) R13 (by decide +kernel) (f13 a))
    (f24 a))

theorem f26 (a : Holds V0 (Out0 x0 x1 x2 x3 x4)) : Holds (after ((line (F := F)).take 26).flatten V0) (Out26 x0 x1 x2 x3 x4) :=
  Holds.step (K := 25) rfl (c26 (Holds.carry line_plain 1 25 (by decide) R1 (by decide +kernel) (f1 a))
    (Holds.carry line_plain 24 25 (by decide) R24 (by decide +kernel) (f24 a))
    (f25 a))

end Cert.ReferenceIdeal.RunH

end
-- ==== Proof.RefRun.lean ====
import proofs.«401846_j83760452207136_3_alg».proof.Proof.RefRun.W0
import proofs.«401846_j83760452207136_3_alg».proof.Proof.RefRun.W1
import proofs.«401846_j83760452207136_3_alg».proof.Proof.RefRun.W2
import proofs.«401846_j83760452207136_3_alg».proof.Proof.RefRun.W3
import proofs.«401846_j83760452207136_3_alg».proof.Proof.RefRun.W4
import proofs.«401846_j83760452207136_3_alg».proof.Proof.RefRun.W5
import proofs.«401846_j83760452207136_3_alg».proof.Proof.RefRun.W6
import proofs.«401846_j83760452207136_3_alg».proof.Proof.RefRun.W7
import proofs.«401846_j83760452207136_3_alg».proof.Proof.RefRun.W8
import proofs.«401846_j83760452207136_3_alg».proof.Proof.RefRun.W9
import proofs.«401846_j83760452207136_3_alg».proof.Proof.RefRun.Facts

noncomputable section

namespace Cert.ReferenceIdeal.RunH

open Cert.ReferenceIdeal Cert.ReferenceIdeal.Gen Cert.ReferenceIdeal.ReadP Cert.Line Idealize.ShloMosaic Idealize.ShloMosaic.TcCoe Idealize.SL.Sem Idealize.ShloMosaic.StableHlo

variable {F : FTy → Type} [FloatOps F]

/-- @main runs its ten windows in order; each is the line of its chunks, and lines run in turn are their concatenation. -/
theorem main_eq (c : Dev nD) : main (F := F) c = seq (line (F := F)).flatten := by
  have e : (line (F := F)).flatten = (ops1 ++ ops2) ++ ((ops3 ++ (ops4 ++ ops5)) ++ ((ops6 ++ (ops7 ++ (ops8 ++ ops9))) ++ ((ops10 ++ (ops11 ++ ops12)) ++ ((ops13 ++ ops14) ++ ((ops15 ++ ops16) ++ ((ops17 ++ (ops18 ++ ops19)) ++ ((ops20 ++ (ops21 ++ (ops22 ++ ops23))) ++ ((ops24 ++ ops25) ++ (ops26))))))))) := by
    simp only [line, List.flatten_cons, List.flatten_nil, List.append_nil, List.append_assoc]
  rw [e, seq_append (ops1 ++ ops2) _,
    seq_append (ops3 ++ (ops4 ++ ops5)) _,
    seq_append (ops6 ++ (ops7 ++ (ops8 ++ ops9))) _,
    seq_append (ops10 ++ (ops11 ++ ops12)) _,
    seq_append (ops13 ++ ops14) _,
    seq_append (ops15 ++ ops16) _,
    seq_append (ops17 ++ (ops18 ++ ops19)) _,
    seq_append (ops20 ++ (ops21 ++ (ops22 ++ ops23))) _,
    seq_append (ops24 ++ ops25) _,
    ← main_part0_eq c, ← main_part1_eq c, ← main_part2_eq c, ← main_part3_eq c, ← main_part4_eq c,
    ← main_part5_eq c, ← main_part6_eq c, ← main_part7_eq c, ← main_part8_eq c, ← main_part9_eq c]
  rfl

theorem scopedRefs_eq : (Finset.univ.filter fun b : Ref sig .tc => b.isScoped) = ∅ := by decide

theorem scopedSems_eq : (Finset.univ.filter fun sm : SemLoc sig => sm.isScoped .tc) = ∅ := by decide

/-- Every weakly fair execution of @main ends with the result buffer at its stage of the arguments and the arguments unchanged:
    the straight line's fold, read at the six buffers through the facts each chunk leaves. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v434) = Cert.ReferenceIdeal.ReadP.val_main_v434 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have a : Holds (launchContents m c) (Out0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
        ⟨rfl, rfl, rfl, rfl, rfl⟩
      have k := Holds.carry line_plain 0 26 (by decide) R0 (by decide +kernel) a
      ⟨(h c main_v434).trans (f26 a), (h c main_arg0).trans k.1, (h c main_arg1).trans k.2.1,
        (h c main_arg2).trans k.2.2.1, (h c main_arg3).trans k.2.2.2.1, (h c main_arg4).trans k.2.2.2.2⟩)
    (run_seq scopedRefs_eq scopedSems_eq defs main (fun _ => (line (F := F)).flatten) main_eq
      (fun _ => (Plains.drop line_plain 0).sub) m ρ (hfresh := fun _ => (Plains.drop line_plain 0).fresh))

end Cert.ReferenceIdeal.RunH

end
-- ==== Proof.lean ====
/-
  A matcher cost kernel against its jnp reference, over the extended reals.  Both sample two mask arrays bilinearly at
  12544 points per batch entry and combine a mask cost, a dice cost and a class cost per (query, target) pair.  The
  kernel's sampled arrays are the reference's entry by entry; the region's output is the tiled form of its input blocks;
  the reference's result is the untiled form of its sampled stages; the two forms agree on real-valued samples, and the
  class costs agree where the labels index inside the class axis.
-/
import proofs.«401846_j83760452207136_3_alg».proof.Defs
import proofs.«401846_j83760452207136_3_alg».proof.Proof.Gen.Kernel
import proofs.«401846_j83760452207136_3_alg».proof.Proof.Gen.Kernel.Frame
import proofs.«401846_j83760452207136_3_alg».proof.Proof.Gen.KernelIdeal
import proofs.«401846_j83760452207136_3_alg».proof.Proof.Gen.KernelIdeal.Frame
import proofs.«401846_j83760452207136_3_alg».proof.Proof.Gen.ReferenceIdeal
import proofs.«401846_j83760452207136_3_alg».proof.Proof.Gen.Pre_finite_inputs
import proofs.«401846_j83760452207136_3_alg».proof.Proof.Spec
import proofs.«401846_j83760452207136_3_alg».proof.Proof.SpecMath
import proofs.«401846_j83760452207136_3_alg».proof.Proof.PreFacts
import proofs.«401846_j83760452207136_3_alg».proof.Proof.RefStages
import proofs.«401846_j83760452207136_3_alg».proof.Proof.RefCost
import proofs.«401846_j83760452207136_3_alg».proof.Proof.RefFinite
import proofs.«401846_j83760452207136_3_alg».proof.Proof.KerTail
import proofs.«401846_j83760452207136_3_alg».proof.Proof.KerRegion
import proofs.«401846_j83760452207136_3_alg».proof.Proof.KerSample
import proofs.«401846_j83760452207136_3_alg».proof.Proof.KerClass
import proofs.«401846_j83760452207136_3_alg».proof.Proof.RefRun
import Idealize.ShloMosaic.Adequacy
import Idealize.ShloMosaic.Init
import Idealize.ShloMosaic.Lib.ValueIdx
import Idealize.ShloMosaic.Lib.IdealHost
import Idealize.ShloMosaic.PureOps.IdealRules

set_option maxRecDepth 16384

noncomputable section

namespace Cert.Proof

open Idealize.ShloMosaic Idealize.ShloMosaic.ValueIdx Idealize.SL.Sem Idealize.ShloMosaic.TcCoe

section Value

open Cert.KernelIdeal Cert.KernelIdeal.Gen Cert.Spec

variable (m : (ℓ : Loc nD τ sig) → Buf (Elt Ideal) ℓ)

/-- Region value plus one times the class cost is the reference's last stage, entry by entry: both are the two forms of
    `Spec` over the same sampled stages, which agree where the samples are real. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    addf (Tail.regionArr m c) (mulf (broadcastInDim S8x150x32 ![] bcast_S_S8x150x32 (constant S_ .f32 0x3F800000#32)) (Tail.classArr m c))
      = Cert.ReferenceIdeal.ReadP.val_main_v434 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨h0, h2, h4, hl⟩ := Cert.PreFacts.of_pre _ _ _ _ _ hpre
  funext i
  obtain ⟨b, q, t, rfl⟩ : ∃ (b : Fin 8) (q : Fin 150) (t : Fin 32), i = ix3 b q t := ⟨i 0, i 1, i 2, eq_ix3 i⟩
  rw [Cert.ReferenceIdeal.Cost.result_apply]
  refine Eq.trans ?_ (kernelOut_eq_refOut _ _ _
    (fun q p => Cert.ReferenceIdeal.Finite.v203_real _ _ h0 h4 _) (fun t p => Cert.ReferenceIdeal.Finite.v388_real _ _ h2 h4 _) q t)
  show Tail.regionArr m c (ix3 b q t) + one32 * Tail.classArr m c (ix3 b q t) = _
  unfold kernelOut Tail.regionArr Tail.classArr
  rw [Region.region_value m c b q t, ClassCost.class_eq m c hl]
  simp only [HostSample.pm_apply m c b, HostSample.tm_apply m c b]

end Value

theorem frame_k : Cert.frame_Kernel := fun m ρ _ => Cert.Kernel.Gen.frame m ρ

theorem frame_ki : Cert.frame_KernelIdeal := fun m ρ _ => Cert.KernelIdeal.Gen.frame m ρ

/-- Termination and unchanged arguments of the reference are part of what its run states. -/
theorem frame_ri : Cert.frame_ReferenceIdeal := fun m ρ _ =>
  (θ_run Cert.ReferenceIdeal.defs _ _).mono (fun _ h c => (h c).2) (Cert.ReferenceIdeal.RunH.run (F := Ideal) m ρ)

/-- The one named constant: the word printed for 1/12544 is given that value. -/
theorem preserves : Cert.preserves_Kernel_KernelIdeal :=
  IdealRules.named_const.statement Cert.KernelIdeal.κ "inv_12544" .f32 0x38A72F05#32 ((1 / 12544 : ℝ) : EReal) rfl

theorem algebraic : Cert.algebraic_KernelIdeal_ReferenceIdeal := by
  intro m ρ m' ρ' hpre hagree
  refine ⟨fun c => Cert.ReferenceIdeal.ReadP.val_main_v434 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (result_eq m c (hpre c)), (h c).2⟩)
      (Cert.KernelIdeal.Tail.run_value (F := Ideal) m ρ)
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
